-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v87)) (v1 : (c : Dev Cert.KernelIdeal.nD) → Buf (Elt Ideal) ((c.tc : Thread Cert.KernelIdeal.nD Cert.KernelIdeal.τ).loc Cert.KernelIdeal.main_v175)) (v2 : (c : Dev Cert.KernelIdeal.nD) → Buf (Elt Ideal) ((c.tc : Thread Cert.KernelIdeal.nD Cert.KernelIdeal.τ).loc Cert.KernelIdeal.main_v263)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v87) = v0 c
          ∧ r.2.mem ((c.tc : Thread Cert.KernelIdeal.nD Cert.KernelIdeal.τ).loc Cert.KernelIdeal.main_v175) = v1 c
          ∧ r.2.mem ((c.tc : Thread Cert.KernelIdeal.nD Cert.KernelIdeal.τ).loc Cert.KernelIdeal.main_v263) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v144) = v0 c
          ∧ r.2.mem ((c.tc : Thread Cert.ReferenceIdeal.nD Cert.ReferenceIdeal.τ).loc Cert.ReferenceIdeal.main_v289) = v1 c
          ∧ r.2.mem ((c.tc : Thread Cert.ReferenceIdeal.nD Cert.ReferenceIdeal.τ).loc Cert.ReferenceIdeal.main_v434) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg13 : FVec F S64x64 .f32) (main_arg14 : FVec F S64 .f32) (main_v33 : IVec S_ 1) : IVec S_ 1 :=
  let main_v34 : FVec F S64x64 .f32 := Host.absf main_arg13
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg14
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg10 : FVec F S32 .f32) (main_arg11 : FVec F S32x64 .f32) (main_arg12 : FVec F S64 .f32) (main_arg13 : FVec F S64x64 .f32) (main_arg14 : FVec F S64 .f32) (main_v13 : IVec S_ 1) (main_v16 : IVec S128x32 1) : IVec S_ 1 :=
  let main_c_5 : IVec S_ 1 := constantI S_ 1 1#1
  let main_v17 : IVec S_ 1 := (fun x v => Host.reduce IntOp.andi x v reducesTo_S128x32_S_d0_1 h_S_) main_v16 main_c_5
  let main_v18 : IVec S_ 1 := andi main_v13 main_v17
  let main_v19 : FVec F S32 .f32 := Host.absf main_arg10
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x64 .f32 := Host.absf main_arg11
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg12
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg13 main_arg14 main_v33

def fn {F : FTy → Type} [FloatOps F] (main_arg0 : FVec F S100000x128 .f32) (main_arg1 : IVec S2x1600000 32) (main_arg2 : IVec S100000 32) (main_arg3 : FVec F S100000x128 .f32) (main_arg4 : IVec S2x1600000 32) (main_arg5 : IVec S100000 32) (main_arg6 : FVec F S100000x128 .f32) (main_arg7 : IVec S2x1600000 32) (main_arg8 : IVec S100000 32) (main_arg9 : FVec F S128x32 .f32) (main_arg10 : FVec F S32 .f32) (main_arg11 : FVec F S32x64 .f32) (main_arg12 : FVec F S64 .f32) (main_arg13 : FVec F S64x64 .f32) (main_arg14 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S100000x128 .f32 := Host.absf main_arg3
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S100000x128 .f32 := Host.absf main_arg6
  let main_cst_2 : FVec F S_ .f32 := constant S_ .f32 0x7F800000#32
  let main_v10 : FVec F S100000x128 .f32 := broadcastInDim S100000x128 ![] bcast_S_S100000x128 main_cst_2
  let main_v11 : IVec S100000x128 1 := cmpf .olt main_v9 main_v10
  let main_c_3 : IVec S_ 1 := constantI S_ 1 1#1
  let main_v12 : IVec S_ 1 := (fun x v => Host.reduce IntOp.andi x v reducesTo_S100000x128_S_d0_1 h_S_) main_v11 main_c_3
  let main_v13 : IVec S_ 1 := andi main_v8 main_v12
  let main_v14 : FVec F S128x32 .f32 := Host.absf main_arg9
  let main_cst_4 : FVec F S_ .f32 := constant S_ .f32 0x7F800000#32
  let main_v15 : FVec F S128x32 .f32 := broadcastInDim S128x32 ![] bcast_S_S128x32 main_cst_4
  let main_v16 : IVec S128x32 1 := cmpf .olt main_v14 main_v15
  fn_part1 (F := F) main_arg10 main_arg11 main_arg12 main_arg13 main_arg14 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S100000x32 : Shape := ⟨2, ![100000, 32]⟩
abbrev S10000x128 : Shape := ⟨2, ![10000, 128]⟩
abbrev S10000x32 : Shape := ⟨2, ![10000, 32]⟩
abbrev S1700000x32 : Shape := ⟨2, ![1700000, 32]⟩
abbrev S1x32 : Shape := ⟨2, ![1, 32]⟩
abbrev S100000x64 : Shape := ⟨2, ![100000, 64]⟩
abbrev S10000x64 : Shape := ⟨2, ![10000, 64]⟩
abbrev S1700000x64 : Shape := ⟨2, ![1700000, 64]⟩
abbrev S1x64 : Shape := ⟨2, ![1, 64]⟩
abbrev S100000x1 : Shape := ⟨2, ![100000, 1]⟩
abbrev S512x64 : Shape := ⟨2, ![512, 64]⟩
abbrev S2000x64 : Shape := ⟨2, ![2000, 64]⟩
abbrev S2000x1 : Shape := ⟨2, ![2000, 1]⟩
abbrev S2000x512 : Shape := ⟨2, ![2000, 512]⟩
abbrev S512 : Shape := ⟨1, ![512]⟩
abbrev S512x1 : Shape := ⟨2, ![512, 1]⟩

abbrev nBuf : Space → Nat
  | .hbm => 336
  | .vmem => 108
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S100000x128, .f32⟩
  | 4 => ⟨S2x1600000, .i32⟩
  | 5 => ⟨S100000, .i32⟩
  | 6 => ⟨S100000x128, .f32⟩
  | 7 => ⟨S2x1600000, .i32⟩
  | 8 => ⟨S100000, .i32⟩
  | 9 => ⟨S128x32, .f32⟩
  | 10 => ⟨S32, .f32⟩
  | 11 => ⟨S32x64, .f32⟩
  | 12 => ⟨S64, .f32⟩
  | 13 => ⟨S64x64, .f32⟩
  | 14 => ⟨S64, .f32⟩
  | 15 => ⟨S1x1600000, .i32⟩
  | 16 => ⟨S1600000, .i32⟩
  | 17 => ⟨S1x1600000, .i32⟩
  | 18 => ⟨S1600000, .i32⟩
  | 19 => ⟨S100000, .i32⟩
  | 20 => ⟨S1700000, .i32⟩
  | 21 => ⟨S1700000, .i32⟩
  | 22 => ⟨S_, .f32⟩
  | 23 => ⟨S1700000, .f32⟩
  | 24 => ⟨S_, .f32⟩
  | 25 => ⟨S100000, .f32⟩
  | 26 => ⟨S1700000x1, .i32⟩
  | 27 => ⟨S100000, .f32⟩
  | 28 => ⟨S_, .f32⟩
  | 29 => ⟨S100000, .f32⟩
  | 30 => ⟨S100000, .f32⟩
  | 31 => ⟨S100000, .f32⟩
  | 32 => ⟨S_, .i32⟩
  | 33 => ⟨S1700000, .i32⟩
  | 34 => ⟨S1700000, .i1⟩
  | 35 => ⟨S_, .i32⟩
  | 36 => ⟨S1700000, .i32⟩
  | 37 => ⟨S1700000, .i32⟩
  | 38 => ⟨S1700000, .i32⟩
  | 39 => ⟨S1700000x1, .i32⟩
  | 40 => ⟨S1700000, .f32⟩
  | 41 => ⟨S_, .i32⟩
  | 42 => ⟨S1700000, .i32⟩
  | 43 => ⟨S1700000, .i1⟩
  | 44 => ⟨S_, .i32⟩
  | 45 => ⟨S1700000, .i32⟩
  | 46 => ⟨S1700000, .i32⟩
  | 47 => ⟨S1700000, .i32⟩
  | 48 => ⟨S1700000x1, .i32⟩
  | 49 => ⟨S1700000, .f32⟩
  | 50 => ⟨S1700000, .f32⟩
  | 51 => ⟨S100000x32, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x32, .f32⟩
  | 61 => ⟨S1700000x1, .f32⟩
  | 62 => ⟨S1700000x32, .f32⟩
  | 63 => ⟨S1700000x32, .f32⟩
  | 64 => ⟨S_, .f32⟩
  | 65 => ⟨S100000x32, .f32⟩
  | 66 => ⟨S1700000x1, .i32⟩
  | 67 => ⟨S100000x32, .f32⟩
  | 68 => ⟨S1x32, .f32⟩
  | 69 => ⟨S100000x32, .f32⟩
  | 70 => ⟨S100000x64, .f32⟩
  | 71 => ⟨S_, .i32⟩
  | 72 => ⟨S1700000, .i32⟩
  | 73 => ⟨S1700000, .i1⟩
  | 74 => ⟨S_, .i32⟩
  | 75 => ⟨S1700000, .i32⟩
  | 76 => ⟨S1700000, .i32⟩
  | 77 => ⟨S1700000, .i32⟩
  | 78 => ⟨S1700000x1, .i32⟩
  | 79 => ⟨S1700000x64, .f32⟩
  | 80 => ⟨S1700000x1, .f32⟩
  | 81 => ⟨S1700000x64, .f32⟩
  | 82 => ⟨S1700000x64, .f32⟩
  | 83 => ⟨S_, .f32⟩
  | 84 => ⟨S100000x64, .f32⟩
  | 85 => ⟨S1700000x1, .i32⟩
  | 86 => ⟨S100000x64, .f32⟩
  | 87 => ⟨S1x64, .f32⟩
  | 88 => ⟨S100000x64, .f32⟩
  | 89 => ⟨S100000x64, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000x64, .f32⟩
  | 99 => ⟨S1700000x1, .f32⟩
  | 100 => ⟨S1700000x64, .f32⟩
  | 101 => ⟨S1700000x64, .f32⟩
  | 102 => ⟨S_, .f32⟩
  | 103 => ⟨S100000x64, .f32⟩
  | 104 => ⟨S1700000x1, .i32⟩
  | 105 => ⟨S100000x64, .f32⟩
  | 106 => ⟨S1x64, .f32⟩
  | 107 => ⟨S100000x64, .f32⟩
  | 108 => ⟨S100000x1, .i32⟩
  | 109 => ⟨S512x64, .f32⟩
  | 110 => ⟨S_, .f32⟩
  | 111 => ⟨S100000, .f32⟩
  | 112 => ⟨S_, .f32⟩
  | 113 => ⟨S512, .f32⟩
  | 114 => ⟨S100000x1, .i32⟩
  | 115 => ⟨S512, .f32⟩
  | 116 => ⟨S_, .f32⟩
  | 117 => ⟨S512, .f32⟩
  | 118 => ⟨S512, .f32⟩
  | 119 => ⟨S512x1, .f32⟩
  | 120 => ⟨S512x64, .f32⟩
  | 121 => ⟨S512x64, .f32⟩
  | 122 => ⟨S1x1600000, .i32⟩
  | 123 => ⟨S1600000, .i32⟩
  | 124 => ⟨S1x1600000, .i32⟩
  | 125 => ⟨S1600000, .i32⟩
  | 126 => ⟨S100000, .i32⟩
  | 127 => ⟨S1700000, .i32⟩
  | _ => ⟨S100000x128, .f32⟩

abbrev hbmTy0_1 (i : Nat) : BufTy := match i % 128 with
  | 0 => ⟨S1700000, .i32⟩
  | 1 => ⟨S_, .f32⟩
  | 2 => ⟨S1700000, .f32⟩
  | 3 => ⟨S_, .f32⟩
  | 4 => ⟨S100000, .f32⟩
  | 5 => ⟨S1700000x1, .i32⟩
  | 6 => ⟨S100000, .f32⟩
  | 7 => ⟨S_, .f32⟩
  | 8 => ⟨S100000, .f32⟩
  | 9 => ⟨S100000, .f32⟩
  | 10 => ⟨S100000, .f32⟩
  | 11 => ⟨S_, .i32⟩
  | 12 => ⟨S1700000, .i32⟩
  | 13 => ⟨S1700000, .i1⟩
  | 14 => ⟨S_, .i32⟩
  | 15 => ⟨S1700000, .i32⟩
  | 16 => ⟨S1700000, .i32⟩
  | 17 => ⟨S1700000, .i32⟩
  | 18 => ⟨S1700000x1, .i32⟩
  | 19 => ⟨S1700000, .f32⟩
  | 20 => ⟨S_, .i32⟩
  | 21 => ⟨S1700000, .i32⟩
  | 22 => ⟨S1700000, .i1⟩
  | 23 => ⟨S_, .i32⟩
  | 24 => ⟨S1700000, .i32⟩
  | 25 => ⟨S1700000, .i32⟩
  | 26 => ⟨S1700000, .i32⟩
  | 27 => ⟨S1700000x1, .i32⟩
  | 28 => ⟨S1700000, .f32⟩
  | 29 => ⟨S1700000, .f32⟩
  | 30 => ⟨S100000x32, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000x32, .f32⟩
  | 40 => ⟨S1700000x1, .f32⟩
  | 41 => ⟨S1700000x32, .f32⟩
  | 42 => ⟨S1700000x32, .f32⟩
  | 43 => ⟨S_, .f32⟩
  | 44 => ⟨S100000x32, .f32⟩
  | 45 => ⟨S1700000x1, .i32⟩
  | 46 => ⟨S100000x32, .f32⟩
  | 47 => ⟨S1x32, .f32⟩
  | 48 => ⟨S100000x32, .f32⟩
  | 49 => ⟨S100000x64, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x64, .f32⟩
  | 59 => ⟨S1700000x1, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S1x64, .f32⟩
  | 67 => ⟨S100000x64, .f32⟩
  | 68 => ⟨S100000x64, .f32⟩
  | 69 => ⟨S_, .i32⟩
  | 70 => ⟨S1700000, .i32⟩
  | 71 => ⟨S1700000, .i1⟩
  | 72 => ⟨S_, .i32⟩
  | 73 => ⟨S1700000, .i32⟩
  | 74 => ⟨S1700000, .i32⟩
  | 75 => ⟨S1700000, .i32⟩
  | 76 => ⟨S1700000x1, .i32⟩
  | 77 => ⟨S1700000x64, .f32⟩
  | 78 => ⟨S1700000x1, .f32⟩
  | 79 => ⟨S1700000x64, .f32⟩
  | 80 => ⟨S1700000x64, .f32⟩
  | 81 => ⟨S_, .f32⟩
  | 82 => ⟨S100000x64, .f32⟩
  | 83 => ⟨S1700000x1, .i32⟩
  | 84 => ⟨S100000x64, .f32⟩
  | 85 => ⟨S1x64, .f32⟩
  | 86 => ⟨S100000x64, .f32⟩
  | 87 => ⟨S100000x1, .i32⟩
  | 88 => ⟨S512x64, .f32⟩
  | 89 => ⟨S_, .f32⟩
  | 90 => ⟨S100000, .f32⟩
  | 91 => ⟨S_, .f32⟩
  | 92 => ⟨S512, .f32⟩
  | 93 => ⟨S100000x1, .i32⟩
  | 94 => ⟨S512, .f32⟩
  | 95 => ⟨S_, .f32⟩
  | 96 => ⟨S512, .f32⟩
  | 97 => ⟨S512, .f32⟩
  | 98 => ⟨S512x1, .f32⟩
  | 99 => ⟨S512x64, .f32⟩
  | 100 => ⟨S512x64, .f32⟩
  | 101 => ⟨S1x1600000, .i32⟩
  | 102 => ⟨S1600000, .i32⟩
  | 103 => ⟨S1x1600000, .i32⟩
  | 104 => ⟨S1600000, .i32⟩
  | 105 => ⟨S100000, .i32⟩
  | 106 => ⟨S1700000, .i32⟩
  | 107 => ⟨S1700000, .i32⟩
  | 108 => ⟨S_, .f32⟩
  | 109 => ⟨S1700000, .f32⟩
  | 110 => ⟨S_, .f32⟩
  | 111 => ⟨S100000, .f32⟩
  | 112 => ⟨S1700000x1, .i32⟩
  | 113 => ⟨S100000, .f32⟩
  | 114 => ⟨S_, .f32⟩
  | 115 => ⟨S100000, .f32⟩
  | 116 => ⟨S100000, .f32⟩
  | 117 => ⟨S100000, .f32⟩
  | 118 => ⟨S_, .i32⟩
  | 119 => ⟨S1700000, .i32⟩
  | 120 => ⟨S1700000, .i1⟩
  | 121 => ⟨S_, .i32⟩
  | 122 => ⟨S1700000, .i32⟩
  | 123 => ⟨S1700000, .i32⟩
  | 124 => ⟨S1700000, .i32⟩
  | 125 => ⟨S1700000x1, .i32⟩
  | 126 => ⟨S1700000, .f32⟩
  | 127 => ⟨S_, .i32⟩
  | _ => ⟨S100000x128, .f32⟩

abbrev hbmTy0_2 (i : Nat) : BufTy := match i % 128 with
  | 0 => ⟨S1700000, .i32⟩
  | 1 => ⟨S1700000, .i1⟩
  | 2 => ⟨S_, .i32⟩
  | 3 => ⟨S1700000, .i32⟩
  | 4 => ⟨S1700000, .i32⟩
  | 5 => ⟨S1700000, .i32⟩
  | 6 => ⟨S1700000x1, .i32⟩
  | 7 => ⟨S1700000, .f32⟩
  | 8 => ⟨S1700000, .f32⟩
  | 9 => ⟨S100000x32, .f32⟩
  | 10 => ⟨S_, .i32⟩
  | 11 => ⟨S1700000, .i32⟩
  | 12 => ⟨S1700000, .i1⟩
  | 13 => ⟨S_, .i32⟩
  | 14 => ⟨S1700000, .i32⟩
  | 15 => ⟨S1700000, .i32⟩
  | 16 => ⟨S1700000, .i32⟩
  | 17 => ⟨S1700000x1, .i32⟩
  | 18 => ⟨S1700000x32, .f32⟩
  | 19 => ⟨S1700000x1, .f32⟩
  | 20 => ⟨S1700000x32, .f32⟩
  | 21 => ⟨S1700000x32, .f32⟩
  | 22 => ⟨S_, .f32⟩
  | 23 => ⟨S100000x32, .f32⟩
  | 24 => ⟨S1700000x1, .i32⟩
  | 25 => ⟨S100000x32, .f32⟩
  | 26 => ⟨S1x32, .f32⟩
  | 27 => ⟨S100000x32, .f32⟩
  | 28 => ⟨S100000x64, .f32⟩
  | 29 => ⟨S_, .i32⟩
  | 30 => ⟨S1700000, .i32⟩
  | 31 => ⟨S1700000, .i1⟩
  | 32 => ⟨S_, .i32⟩
  | 33 => ⟨S1700000, .i32⟩
  | 34 => ⟨S1700000, .i32⟩
  | 35 => ⟨S1700000, .i32⟩
  | 36 => ⟨S1700000x1, .i32⟩
  | 37 => ⟨S1700000x64, .f32⟩
  | 38 => ⟨S1700000x1, .f32⟩
  | 39 => ⟨S1700000x64, .f32⟩
  | 40 => ⟨S1700000x64, .f32⟩
  | 41 => ⟨S_, .f32⟩
  | 42 => ⟨S100000x64, .f32⟩
  | 43 => ⟨S1700000x1, .i32⟩
  | 44 => ⟨S100000x64, .f32⟩
  | 45 => ⟨S1x64, .f32⟩
  | 46 => ⟨S100000x64, .f32⟩
  | 47 => ⟨S100000x64, .f32⟩
  | 48 => ⟨S_, .i32⟩
  | 49 => ⟨S1700000, .i32⟩
  | 50 => ⟨S1700000, .i1⟩
  | 51 => ⟨S_, .i32⟩
  | 52 => ⟨S1700000, .i32⟩
  | 53 => ⟨S1700000, .i32⟩
  | 54 => ⟨S1700000, .i32⟩
  | 55 => ⟨S1700000x1, .i32⟩
  | 56 => ⟨S1700000x64, .f32⟩
  | 57 => ⟨S1700000x1, .f32⟩
  | 58 => ⟨S1700000x64, .f32⟩
  | 59 => ⟨S1700000x64, .f32⟩
  | 60 => ⟨S_, .f32⟩
  | 61 => ⟨S100000x64, .f32⟩
  | 62 => ⟨S1700000x1, .i32⟩
  | 63 => ⟨S100000x64, .f32⟩
  | 64 => ⟨S1x64, .f32⟩
  | 65 => ⟨S100000x64, .f32⟩
  | 66 => ⟨S100000x1, .i32⟩
  | 67 => ⟨S512x64, .f32⟩
  | 68 => ⟨S_, .f32⟩
  | 69 => ⟨S100000, .f32⟩
  | 70 => ⟨S_, .f32⟩
  | 71 => ⟨S512, .f32⟩
  | 72 => ⟨S100000x1, .i32⟩
  | 73 => ⟨S512, .f32⟩
  | 74 => ⟨S_, .f32⟩
  | 75 => ⟨S512, .f32⟩
  | 76 => ⟨S512, .f32⟩
  | 77 => ⟨S512x1, .f32⟩
  | 78 => ⟨S512x64, .f32⟩
  | 79 => ⟨S512x64, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S10000x32, .f32⟩
  | .local _ .vmem, ⟨7, _⟩ => ⟨S1x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S32x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | .local _ .vmem, ⟨30, _⟩ => ⟨S2000x64, .f32⟩
  | .local _ .vmem, ⟨31, _⟩ => ⟨S2000x64, .f32⟩
  | .local _ .vmem, ⟨32, _⟩ => ⟨S2000x1, .i32⟩
  | .local _ .vmem, ⟨33, _⟩ => ⟨S2000x1, .i32⟩
  | .local _ .vmem, ⟨34, _⟩ => ⟨S512x64, .f32⟩
  | .local _ .vmem, ⟨35, _⟩ => ⟨S512x64, .f32⟩
  | .local _ .vmem, ⟨36, _⟩ => ⟨S10000x128, .f32⟩
  | .local _ .vmem, ⟨37, _⟩ => ⟨S10000x128, .f32⟩
  | .local _ .vmem, ⟨38, _⟩ => ⟨S128x32, .f32⟩
  | .local _ .vmem, ⟨39, _⟩ => ⟨S10000x32, .f32⟩
  | .local _ .vmem, ⟨40, _⟩ => ⟨S10000x32, .f32⟩
  | .local _ .vmem, ⟨41, _⟩ => ⟨S10000x32, .f32⟩
  | .local _ .vmem, ⟨42, _⟩ => ⟨S10000x32, .f32⟩
  | .local _ .vmem, ⟨43, _⟩ => ⟨S1x32, .f32⟩
  | .local _ .vmem, ⟨44, _⟩ => ⟨S10000x32, .f32⟩
  | .local _ .vmem, ⟨45, _⟩ => ⟨S10000x32, .f32⟩
  | .local _ .vmem, ⟨46, _⟩ => ⟨S10000x32, .f32⟩
  | .local _ .vmem, ⟨47, _⟩ => ⟨S10000x32, .f32⟩
  | .local _ .vmem, ⟨48, _⟩ => ⟨S32x64, .f32⟩
  | .local _ .vmem, ⟨49, _⟩ => ⟨S10000x64, .f32⟩
  | .local _ .vmem, ⟨50, _⟩ => ⟨S10000x64, .f32⟩
  | .local _ .vmem, ⟨51, _⟩ => ⟨S10000x64, .f32⟩
  | .local _ .vmem, ⟨52, _⟩ => ⟨S10000x64, .f32⟩
  | .local _ .vmem, ⟨53, _⟩ => ⟨S1x64, .f32⟩
  | .local _ .vmem, ⟨54, _⟩ => ⟨S10000x64, .f32⟩
  | .local _ .vmem, ⟨55, _⟩ => ⟨S10000x64, .f32⟩
  | .local _ .vmem, ⟨56, _⟩ => ⟨S10000x64, .f32⟩
  | .local _ .vmem, ⟨57, _⟩ => ⟨S10000x64, .f32⟩
  | .local _ .vmem, ⟨58, _⟩ => ⟨S64x64, .f32⟩
  | .local _ .vmem, ⟨59, _⟩ => ⟨S10000x64, .f32⟩
  | .local _ .vmem, ⟨60, _⟩ => ⟨S10000x64, .f32⟩
  | .local _ .vmem, ⟨61, _⟩ => ⟨S10000x64, .f32⟩
  | .local _ .vmem, ⟨62, _⟩ => ⟨S10000x64, .f32⟩
  | .local _ .vmem, ⟨63, _⟩ => ⟨S1x64, .f32⟩
  | .local _ .vmem, ⟨64, _⟩ => ⟨S10000x64, .f32⟩
  | .local _ .vmem, ⟨65, _⟩ => ⟨S10000x64, .f32⟩
  | .local _ .vmem, ⟨66, _⟩ => ⟨S2000x64, .f32⟩
  | .local _ .vmem, ⟨67, _⟩ => ⟨S2000x64, .f32⟩
  | .local _ .vmem, ⟨68, _⟩ => ⟨S2000x1, .i32⟩
  | .local _ .vmem, ⟨69, _⟩ => ⟨S2000x1, .i32⟩
  | .local _ .vmem, ⟨70, _⟩ => ⟨S512x64, .f32⟩
  | .local _ .vmem, ⟨71, _⟩ => ⟨S512x64, .f32⟩
  | .local _ .vmem, ⟨72, _⟩ => ⟨S10000x128, .f32⟩
  | .local _ .vmem, ⟨73, _⟩ => ⟨S10000x128, .f32⟩
  | .local _ .vmem, ⟨74, _⟩ => ⟨S128x32, .f32⟩
  | .local _ .vmem, ⟨75, _⟩ => ⟨S10000x32, .f32⟩
  | .local _ .vmem, ⟨76, _⟩ => ⟨S10000x32, .f32⟩
  | .local _ .vmem, ⟨77, _⟩ => ⟨S10000x32, .f32⟩
  | .local _ .vmem, ⟨78, _⟩ => ⟨S10000x32, .f32⟩
  | .local _ .vmem, ⟨79, _⟩ => ⟨S1x32, .f32⟩
  | .local _ .vmem, ⟨80, _⟩ => ⟨S10000x32, .f32⟩
  | .local _ .vmem, ⟨81, _⟩ => ⟨S10000x32, .f32⟩
  | .local _ .vmem, ⟨82, _⟩ => ⟨S10000x32, .f32⟩
  | .local _ .vmem, ⟨83, _⟩ => ⟨S10000x32, .f32⟩
  | .local _ .vmem, ⟨84, _⟩ => ⟨S32x64, .f32⟩
  | .local _ .vmem, ⟨85, _⟩ => ⟨S10000x64, .f32⟩
  | .local _ .vmem, ⟨86, _⟩ => ⟨S10000x64, .f32⟩
  | .local _ .vmem, ⟨87, _⟩ => ⟨S10000x64, .f32⟩
  | .local _ .vmem, ⟨88, _⟩ => ⟨S10000x64, .f32⟩
  | .local _ .vmem, ⟨89, _⟩ => ⟨S1x64, .f32⟩
  | .local _ .vmem, ⟨90, _⟩ => ⟨S10000x64, .f32⟩
  | .local _ .vmem, ⟨91, _⟩ => ⟨S10000x64, .f32⟩
  | .local _ .vmem, ⟨92, _⟩ => ⟨S10000x64, .f32⟩
  | .local _ .vmem, ⟨93, _⟩ => ⟨S10000x64, .f32⟩
  | .local _ .vmem, ⟨94, _⟩ => ⟨S64x64, .f32⟩
  | .local _ .vmem, ⟨95, _⟩ => ⟨S10000x64, .f32⟩
  | .local _ .vmem, ⟨96, _⟩ => ⟨S10000x64, .f32⟩
  | .local _ .vmem, ⟨97, _⟩ => ⟨S10000x64, .f32⟩
  | .local _ .vmem, ⟨98, _⟩ => ⟨S10000x64, .f32⟩
  | .local _ .vmem, ⟨99, _⟩ => ⟨S1x64, .f32⟩
  | .local _ .vmem, ⟨100, _⟩ => ⟨S10000x64, .f32⟩
  | .local _ .vmem, ⟨101, _⟩ => ⟨S10000x64, .f32⟩
  | .local _ .vmem, ⟨102, _⟩ => ⟨S2000x64, .f32⟩
  | .local _ .vmem, ⟨103, _⟩ => ⟨S2000x64, .f32⟩
  | .local _ .vmem, ⟨104, _⟩ => ⟨S2000x1, .i32⟩
  | .local _ .vmem, ⟨105, _⟩ => ⟨S2000x1, .i32⟩
  | .local _ .vmem, ⟨106, _⟩ => ⟨S512x64, .f32⟩
  | .local _ .vmem, ⟨107, _⟩ => ⟨S512x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | .vmem, ⟨85, _⟩ => true
  | .vmem, ⟨86, _⟩ => true
  | .vmem, ⟨87, _⟩ => true
  | .vmem, ⟨88, _⟩ => true
  | .vmem, ⟨89, _⟩ => true
  | .vmem, ⟨90, _⟩ => true
  | .vmem, ⟨91, _⟩ => true
  | .vmem, ⟨92, _⟩ => true
  | .vmem, ⟨93, _⟩ => true
  | .vmem, ⟨94, _⟩ => true
  | .vmem, ⟨95, _⟩ => true
  | .vmem, ⟨96, _⟩ => true
  | .vmem, ⟨97, _⟩ => true
  | .vmem, ⟨98, _⟩ => true
  | .vmem, ⟨99, _⟩ => true
  | .vmem, ⟨100, _⟩ => true
  | .vmem, ⟨101, _⟩ => true
  | .vmem, ⟨102, _⟩ => true
  | .vmem, ⟨103, _⟩ => true
  | .vmem, ⟨104, _⟩ => true
  | .vmem, ⟨105, _⟩ => true
  | .vmem, ⟨106, _⟩ => true
  | .vmem, ⟨107, _⟩ => true
  | _, _ => false

abbrev semScoped : Fin 0 → Bool
  | ⟨_, h⟩ => absurd h (Nat.not_lt_zero _)

abbrev dmaSemScoped : Fin 105 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | _ => false

abbrev sig : RefSig :=
  ofTc nBuf bufTy 0 105 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_v14 : Ref sig .tc := ⟨.hbm, 33, rfl⟩
abbrev main_v15 : Ref sig .tc := ⟨.hbm, 34, rfl⟩
abbrev main_c_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_c_3 : Ref sig .tc := ⟨.hbm, 41, rfl⟩
abbrev main_v21 : Ref sig .tc := ⟨.hbm, 42, rfl⟩
abbrev main_v22 : Ref sig .tc := ⟨.hbm, 43, rfl⟩
abbrev main_c_4 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_c_8 : Ref sig .tc := ⟨.hbm, 71, rfl⟩
abbrev main_v46 : Ref sig .tc := ⟨.hbm, 72, rfl⟩
abbrev main_v47 : Ref sig .tc := ⟨.hbm, 73, rfl⟩
abbrev main_c_9 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_10 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_c_11 : Ref sig .tc := ⟨.hbm, 90, rfl⟩
abbrev main_v62 : Ref sig .tc := ⟨.hbm, 91, rfl⟩
abbrev main_v63 : Ref sig .tc := ⟨.hbm, 92, rfl⟩
abbrev main_c_12 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_13 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_14 : Ref sig .tc := ⟨.hbm, 110, rfl⟩
abbrev main_v79 : Ref sig .tc := ⟨.hbm, 111, rfl⟩
abbrev main_cst_15 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_cst_16 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_cst_17 : Ref sig .tc := ⟨.hbm, 129, rfl⟩
abbrev main_v95 : Ref sig .tc := ⟨.hbm, 130, rfl⟩
abbrev main_cst_18 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_cst_19 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_c_20 : Ref sig .tc := ⟨.hbm, 139, rfl⟩
abbrev main_v102 : Ref sig .tc := ⟨.hbm, 140, rfl⟩
abbrev main_v103 : Ref sig .tc := ⟨.hbm, 141, rfl⟩
abbrev main_c_21 : Ref sig .tc := ⟨.hbm, 142, rfl⟩
abbrev main_v104 : Ref sig .tc := ⟨.hbm, 143, rfl⟩
abbrev main_v105 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_c_22 : Ref sig .tc := ⟨.hbm, 148, rfl⟩
abbrev main_v109 : Ref sig .tc := ⟨.hbm, 149, rfl⟩
abbrev main_v110 : Ref sig .tc := ⟨.hbm, 150, rfl⟩
abbrev main_c_23 : Ref sig .tc := ⟨.hbm, 151, rfl⟩
abbrev main_v111 : Ref sig .tc := ⟨.hbm, 152, rfl⟩
abbrev main_v112 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_c_24 : Ref sig .tc := ⟨.hbm, 159, rfl⟩
abbrev main_v118 : Ref sig .tc := ⟨.hbm, 160, rfl⟩
abbrev main_v119 : Ref sig .tc := ⟨.hbm, 161, rfl⟩
abbrev main_c_25 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_cst_26 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_c_27 : Ref sig .tc := ⟨.hbm, 178, rfl⟩
abbrev main_v134 : Ref sig .tc := ⟨.hbm, 179, rfl⟩
abbrev main_v135 : Ref sig .tc := ⟨.hbm, 180, rfl⟩
abbrev main_c_28 : Ref sig .tc := ⟨.hbm, 181, rfl⟩
abbrev main_v136 : Ref sig .tc := ⟨.hbm, 182, rfl⟩
abbrev main_v137 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_v143 : Ref sig .tc := ⟨.hbm, 189, rfl⟩
abbrev main_cst_29 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_c_30 : Ref sig .tc := ⟨.hbm, 197, rfl⟩
abbrev main_v150 : Ref sig .tc := ⟨.hbm, 198, rfl⟩
abbrev main_v151 : Ref sig .tc := ⟨.hbm, 199, rfl⟩
abbrev main_c_31 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_cst_32 : Ref sig .tc := ⟨.hbm, 209, rfl⟩
abbrev main_v160 : Ref sig .tc := ⟨.hbm, 210, rfl⟩
abbrev main_v161 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_cst_33 : Ref sig .tc := ⟨.hbm, 217, rfl⟩
abbrev main_v167 : Ref sig .tc := ⟨.hbm, 218, rfl⟩
abbrev main_cst_34 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_cst_35 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_v174 : Ref sig .tc := ⟨.hbm, 227, rfl⟩
abbrev main_v175 : Ref sig .tc := ⟨.hbm, 228, rfl⟩
abbrev main_v176 : Ref sig .tc := ⟨.hbm, 229, rfl⟩
abbrev main_v177 : Ref sig .tc := ⟨.hbm, 230, rfl⟩
abbrev main_v178 : Ref sig .tc := ⟨.hbm, 231, rfl⟩
abbrev main_v179 : Ref sig .tc := ⟨.hbm, 232, rfl⟩
abbrev main_v180 : Ref sig .tc := ⟨.hbm, 233, rfl⟩
abbrev main_v181 : Ref sig .tc := ⟨.hbm, 234, rfl⟩
abbrev main_v182 : Ref sig .tc := ⟨.hbm, 235, rfl⟩
abbrev main_cst_36 : Ref sig .tc := ⟨.hbm, 236, rfl⟩
abbrev main_v183 : Ref sig .tc := ⟨.hbm, 237, rfl⟩
abbrev main_cst_37 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_cst_38 : Ref sig .tc := ⟨.hbm, 242, rfl⟩
abbrev main_v187 : Ref sig .tc := ⟨.hbm, 243, rfl⟩
abbrev main_v188 : Ref sig .tc := ⟨.hbm, 244, rfl⟩
abbrev main_v189 : Ref sig .tc := ⟨.hbm, 245, rfl⟩
abbrev main_c_39 : Ref sig .tc := ⟨.hbm, 246, rfl⟩
abbrev main_v190 : Ref sig .tc := ⟨.hbm, 247, rfl⟩
abbrev main_v191 : Ref sig .tc := ⟨.hbm, 248, rfl⟩
abbrev main_c_40 : Ref sig .tc := ⟨.hbm, 249, rfl⟩
abbrev main_v192 : Ref sig .tc := ⟨.hbm, 250, rfl⟩
abbrev main_v193 : Ref sig .tc := ⟨.hbm, 251, rfl⟩
abbrev main_v194 : Ref sig .tc := ⟨.hbm, 252, rfl⟩
abbrev main_v195 : Ref sig .tc := ⟨.hbm, 253, rfl⟩
abbrev main_v196 : Ref sig .tc := ⟨.hbm, 254, rfl⟩
abbrev main_c_41 : Ref sig .tc := ⟨.hbm, 255, rfl⟩
abbrev main_v197 : Ref sig .tc := ⟨.hbm, 256, rfl⟩
abbrev main_v198 : Ref sig .tc := ⟨.hbm, 257, rfl⟩
abbrev main_c_42 : Ref sig .tc := ⟨.hbm, 258, rfl⟩
abbrev main_v199 : Ref sig .tc := ⟨.hbm, 259, rfl⟩
abbrev main_v200 : Ref sig .tc := ⟨.hbm, 260, rfl⟩
abbrev main_v201 : Ref sig .tc := ⟨.hbm, 261, rfl⟩
abbrev main_v202 : Ref sig .tc := ⟨.hbm, 262, rfl⟩
abbrev main_v203 : Ref sig .tc := ⟨.hbm, 263, rfl⟩
abbrev main_v204 : Ref sig .tc := ⟨.hbm, 264, rfl⟩
abbrev main_v205 : Ref sig .tc := ⟨.hbm, 265, rfl⟩
abbrev main_c_43 : Ref sig .tc := ⟨.hbm, 266, rfl⟩
abbrev main_v206 : Ref sig .tc := ⟨.hbm, 267, rfl⟩
abbrev main_v207 : Ref sig .tc := ⟨.hbm, 268, rfl⟩
abbrev main_c_44 : Ref sig .tc := ⟨.hbm, 269, rfl⟩
abbrev main_v208 : Ref sig .tc := ⟨.hbm, 270, rfl⟩
abbrev main_v209 : Ref sig .tc := ⟨.hbm, 271, rfl⟩
abbrev main_v210 : Ref sig .tc := ⟨.hbm, 272, rfl⟩
abbrev main_v211 : Ref sig .tc := ⟨.hbm, 273, rfl⟩
abbrev main_v212 : Ref sig .tc := ⟨.hbm, 274, rfl⟩
abbrev main_v213 : Ref sig .tc := ⟨.hbm, 275, rfl⟩
abbrev main_v214 : Ref sig .tc := ⟨.hbm, 276, rfl⟩
abbrev main_v215 : Ref sig .tc := ⟨.hbm, 277, rfl⟩
abbrev main_cst_45 : Ref sig .tc := ⟨.hbm, 278, rfl⟩
abbrev main_v216 : Ref sig .tc := ⟨.hbm, 279, rfl⟩
abbrev main_v217 : Ref sig .tc := ⟨.hbm, 280, rfl⟩
abbrev main_v218 : Ref sig .tc := ⟨.hbm, 281, rfl⟩
abbrev main_v219 : Ref sig .tc := ⟨.hbm, 282, rfl⟩
abbrev main_v220 : Ref sig .tc := ⟨.hbm, 283, rfl⟩
abbrev main_v221 : Ref sig .tc := ⟨.hbm, 284, rfl⟩
abbrev main_c_46 : Ref sig .tc := ⟨.hbm, 285, rfl⟩
abbrev main_v222 : Ref sig .tc := ⟨.hbm, 286, rfl⟩
abbrev main_v223 : Ref sig .tc := ⟨.hbm, 287, rfl⟩
abbrev main_c_47 : Ref sig .tc := ⟨.hbm, 288, rfl⟩
abbrev main_v224 : Ref sig .tc := ⟨.hbm, 289, rfl⟩
abbrev main_v225 : Ref sig .tc := ⟨.hbm, 290, rfl⟩
abbrev main_v226 : Ref sig .tc := ⟨.hbm, 291, rfl⟩
abbrev main_v227 : Ref sig .tc := ⟨.hbm, 292, rfl⟩
abbrev main_v228 : Ref sig .tc := ⟨.hbm, 293, rfl⟩
abbrev main_v229 : Ref sig .tc := ⟨.hbm, 294, rfl⟩
abbrev main_v230 : Ref sig .tc := ⟨.hbm, 295, rfl⟩
abbrev main_v231 : Ref sig .tc := ⟨.hbm, 296, rfl⟩
abbrev main_cst_48 : Ref sig .tc := ⟨.hbm, 297, rfl⟩
abbrev main_v232 : Ref sig .tc := ⟨.hbm, 298, rfl⟩
abbrev main_v233 : Ref sig .tc := ⟨.hbm, 299, rfl⟩
abbrev main_v234 : Ref sig .tc := ⟨.hbm, 300, rfl⟩
abbrev main_v235 : Ref sig .tc := ⟨.hbm, 301, rfl⟩
abbrev main_v236 : Ref sig .tc := ⟨.hbm, 302, rfl⟩
abbrev main_v237 : Ref sig .tc := ⟨.hbm, 303, rfl⟩
abbrev main_c_49 : Ref sig .tc := ⟨.hbm, 304, rfl⟩
abbrev main_v238 : Ref sig .tc := ⟨.hbm, 305, rfl⟩
abbrev main_v239 : Ref sig .tc := ⟨.hbm, 306, rfl⟩
abbrev main_c_50 : Ref sig .tc := ⟨.hbm, 307, rfl⟩
abbrev main_v240 : Ref sig .tc := ⟨.hbm, 308, rfl⟩
abbrev main_v241 : Ref sig .tc := ⟨.hbm, 309, rfl⟩
abbrev main_v242 : Ref sig .tc := ⟨.hbm, 310, rfl⟩
abbrev main_v243 : Ref sig .tc := ⟨.hbm, 311, rfl⟩
abbrev main_v244 : Ref sig .tc := ⟨.hbm, 312, rfl⟩
abbrev main_v245 : Ref sig .tc := ⟨.hbm, 313, rfl⟩
abbrev main_v246 : Ref sig .tc := ⟨.hbm, 314, rfl⟩
abbrev main_v247 : Ref sig .tc := ⟨.hbm, 315, rfl⟩
abbrev main_cst_51 : Ref sig .tc := ⟨.hbm, 316, rfl⟩
abbrev main_v248 : Ref sig .tc := ⟨.hbm, 317, rfl⟩
abbrev main_v249 : Ref sig .tc := ⟨.hbm, 318, rfl⟩
abbrev main_v250 : Ref sig .tc := ⟨.hbm, 319, rfl⟩
abbrev main_v251 : Ref sig .tc := ⟨.hbm, 320, rfl⟩
abbrev main_v252 : Ref sig .tc := ⟨.hbm, 321, rfl⟩
abbrev main_v253 : Ref sig .tc := ⟨.hbm, 322, rfl⟩
abbrev main_v254 : Ref sig .tc := ⟨.hbm, 323, rfl⟩
abbrev main_cst_52 : Ref sig .tc := ⟨.hbm, 324, rfl⟩
abbrev main_v255 : Ref sig .tc := ⟨.hbm, 325, rfl⟩
abbrev main_cst_53 : Ref sig .tc := ⟨.hbm, 326, rfl⟩
abbrev main_v256 : Ref sig .tc := ⟨.hbm, 327, rfl⟩
abbrev main_v257 : Ref sig .tc := ⟨.hbm, 328, rfl⟩
abbrev main_v258 : Ref sig .tc := ⟨.hbm, 329, rfl⟩
abbrev main_cst_54 : Ref sig .tc := ⟨.hbm, 330, rfl⟩
abbrev main_v259 : Ref sig .tc := ⟨.hbm, 331, rfl⟩
abbrev main_v260 : Ref sig .tc := ⟨.hbm, 332, rfl⟩
abbrev main_v261 : Ref sig .tc := ⟨.hbm, 333, rfl⟩
abbrev main_v262 : Ref sig .tc := ⟨.hbm, 334, rfl⟩
abbrev main_v263 : Ref sig .tc := ⟨.hbm, 335, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc6_scratch0 : Ref sig .tc := ⟨.vmem, 35, rfl⟩
abbrev cc7_stg0_0 : Ref sig .tc := ⟨.vmem, 36, rfl⟩
abbrev cc7_stg0_1 : Ref sig .tc := ⟨.vmem, 37, rfl⟩
abbrev cc7_stg1_0 : Ref sig .tc := ⟨.vmem, 38, rfl⟩
abbrev cc7_stg2_0 : Ref sig .tc := ⟨.vmem, 39, rfl⟩
abbrev cc7_stg2_1 : Ref sig .tc := ⟨.vmem, 40, rfl⟩
abbrev cc8_stg0_0 : Ref sig .tc := ⟨.vmem, 41, rfl⟩
abbrev cc8_stg0_1 : Ref sig .tc := ⟨.vmem, 42, rfl⟩
abbrev cc8_stg1_0 : Ref sig .tc := ⟨.vmem, 43, rfl⟩
abbrev cc8_stg2_0 : Ref sig .tc := ⟨.vmem, 44, rfl⟩
abbrev cc8_stg2_1 : Ref sig .tc := ⟨.vmem, 45, rfl⟩
abbrev cc9_stg0_0 : Ref sig .tc := ⟨.vmem, 46, rfl⟩
abbrev cc9_stg0_1 : Ref sig .tc := ⟨.vmem, 47, rfl⟩
abbrev cc9_stg1_0 : Ref sig .tc := ⟨.vmem, 48, rfl⟩
abbrev cc9_stg2_0 : Ref sig .tc := ⟨.vmem, 49, rfl⟩
abbrev cc9_stg2_1 : Ref sig .tc := ⟨.vmem, 50, rfl⟩
abbrev cc10_stg0_0 : Ref sig .tc := ⟨.vmem, 51, rfl⟩
abbrev cc10_stg0_1 : Ref sig .tc := ⟨.vmem, 52, rfl⟩
abbrev cc10_stg1_0 : Ref sig .tc := ⟨.vmem, 53, rfl⟩
abbrev cc10_stg2_0 : Ref sig .tc := ⟨.vmem, 54, rfl⟩
abbrev cc10_stg2_1 : Ref sig .tc := ⟨.vmem, 55, rfl⟩
abbrev cc11_stg0_0 : Ref sig .tc := ⟨.vmem, 56, rfl⟩
abbrev cc11_stg0_1 : Ref sig .tc := ⟨.vmem, 57, rfl⟩
abbrev cc11_stg1_0 : Ref sig .tc := ⟨.vmem, 58, rfl⟩
abbrev cc11_stg2_0 : Ref sig .tc := ⟨.vmem, 59, rfl⟩
abbrev cc11_stg2_1 : Ref sig .tc := ⟨.vmem, 60, rfl⟩
abbrev cc12_stg0_0 : Ref sig .tc := ⟨.vmem, 61, rfl⟩
abbrev cc12_stg0_1 : Ref sig .tc := ⟨.vmem, 62, rfl⟩
abbrev cc12_stg1_0 : Ref sig .tc := ⟨.vmem, 63, rfl⟩
abbrev cc12_stg2_0 : Ref sig .tc := ⟨.vmem, 64, rfl⟩
abbrev cc12_stg2_1 : Ref sig .tc := ⟨.vmem, 65, rfl⟩
abbrev cc13_stg0_0 : Ref sig .tc := ⟨.vmem, 66, rfl⟩
abbrev cc13_stg0_1 : Ref sig .tc := ⟨.vmem, 67, rfl⟩
abbrev cc13_stg1_0 : Ref sig .tc := ⟨.vmem, 68, rfl⟩
abbrev cc13_stg1_1 : Ref sig .tc := ⟨.vmem, 69, rfl⟩
abbrev cc13_stg2_0 : Ref sig .tc := ⟨.vmem, 70, rfl⟩
abbrev cc13_scratch0 : Ref sig .tc := ⟨.vmem, 71, rfl⟩
abbrev cc14_stg0_0 : Ref sig .tc := ⟨.vmem, 72, rfl⟩
abbrev cc14_stg0_1 : Ref sig .tc := ⟨.vmem, 73, rfl⟩
abbrev cc14_stg1_0 : Ref sig .tc := ⟨.vmem, 74, rfl⟩
abbrev cc14_stg2_0 : Ref sig .tc := ⟨.vmem, 75, rfl⟩
abbrev cc14_stg2_1 : Ref sig .tc := ⟨.vmem, 76, rfl⟩
abbrev cc15_stg0_0 : Ref sig .tc := ⟨.vmem, 77, rfl⟩
abbrev cc15_stg0_1 : Ref sig .tc := ⟨.vmem, 78, rfl⟩
abbrev cc15_stg1_0 : Ref sig .tc := ⟨.vmem, 79, rfl⟩
abbrev cc15_stg2_0 : Ref sig .tc := ⟨.vmem, 80, rfl⟩
abbrev cc15_stg2_1 : Ref sig .tc := ⟨.vmem, 81, rfl⟩
abbrev cc16_stg0_0 : Ref sig .tc := ⟨.vmem, 82, rfl⟩
abbrev cc16_stg0_1 : Ref sig .tc := ⟨.vmem, 83, rfl⟩
abbrev cc16_stg1_0 : Ref sig .tc := ⟨.vmem, 84, rfl⟩
abbrev cc16_stg2_0 : Ref sig .tc := ⟨.vmem, 85, rfl⟩
abbrev cc16_stg2_1 : Ref sig .tc := ⟨.vmem, 86, rfl⟩
abbrev cc17_stg0_0 : Ref sig .tc := ⟨.vmem, 87, rfl⟩
abbrev cc17_stg0_1 : Ref sig .tc := ⟨.vmem, 88, rfl⟩
abbrev cc17_stg1_0 : Ref sig .tc := ⟨.vmem, 89, rfl⟩
abbrev cc17_stg2_0 : Ref sig .tc := ⟨.vmem, 90, rfl⟩
abbrev cc17_stg2_1 : Ref sig .tc := ⟨.vmem, 91, rfl⟩
abbrev cc18_stg0_0 : Ref sig .tc := ⟨.vmem, 92, rfl⟩
abbrev cc18_stg0_1 : Ref sig .tc := ⟨.vmem, 93, rfl⟩
abbrev cc18_stg1_0 : Ref sig .tc := ⟨.vmem, 94, rfl⟩
abbrev cc18_stg2_0 : Ref sig .tc := ⟨.vmem, 95, rfl⟩
abbrev cc18_stg2_1 : Ref sig .tc := ⟨.vmem, 96, rfl⟩
abbrev cc19_stg0_0 : Ref sig .tc := ⟨.vmem, 97, rfl⟩
abbrev cc19_stg0_1 : Ref sig .tc := ⟨.vmem, 98, rfl⟩
abbrev cc19_stg1_0 : Ref sig .tc := ⟨.vmem, 99, rfl⟩
abbrev cc19_stg2_0 : Ref sig .tc := ⟨.vmem, 100, rfl⟩
abbrev cc19_stg2_1 : Ref sig .tc := ⟨.vmem, 101, rfl⟩
abbrev cc20_stg0_0 : Ref sig .tc := ⟨.vmem, 102, rfl⟩
abbrev cc20_stg0_1 : Ref sig .tc := ⟨.vmem, 103, rfl⟩
abbrev cc20_stg1_0 : Ref sig .tc := ⟨.vmem, 104, rfl⟩
abbrev cc20_stg1_1 : Ref sig .tc := ⟨.vmem, 105, rfl⟩
abbrev cc20_stg2_0 : Ref sig .tc := ⟨.vmem, 106, rfl⟩
abbrev cc20_scratch0 : Ref sig .tc := ⟨.vmem, 107, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39
abbrev cc8_sem0_0 : DmaSem sig := 40
abbrev cc8_sem0_1 : DmaSem sig := 41
abbrev cc8_sem1_0 : DmaSem sig := 42
abbrev cc8_sem2_0 : DmaSem sig := 43
abbrev cc8_sem2_1 : DmaSem sig := 44
abbrev cc9_sem0_0 : DmaSem sig := 45
abbrev cc9_sem0_1 : DmaSem sig := 46
abbrev cc9_sem1_0 : DmaSem sig := 47
abbrev cc9_sem2_0 : DmaSem sig := 48
abbrev cc9_sem2_1 : DmaSem sig := 49
abbrev cc10_sem0_0 : DmaSem sig := 50
abbrev cc10_sem0_1 : DmaSem sig := 51
abbrev cc10_sem1_0 : DmaSem sig := 52
abbrev cc10_sem2_0 : DmaSem sig := 53
abbrev cc10_sem2_1 : DmaSem sig := 54
abbrev cc11_sem0_0 : DmaSem sig := 55
abbrev cc11_sem0_1 : DmaSem sig := 56
abbrev cc11_sem1_0 : DmaSem sig := 57
abbrev cc11_sem2_0 : DmaSem sig := 58
abbrev cc11_sem2_1 : DmaSem sig := 59
abbrev cc12_sem0_0 : DmaSem sig := 60
abbrev cc12_sem0_1 : DmaSem sig := 61
abbrev cc12_sem1_0 : DmaSem sig := 62
abbrev cc12_sem2_0 : DmaSem sig := 63
abbrev cc12_sem2_1 : DmaSem sig := 64
abbrev cc13_sem0_0 : DmaSem sig := 65
abbrev cc13_sem0_1 : DmaSem sig := 66
abbrev cc13_sem1_0 : DmaSem sig := 67
abbrev cc13_sem1_1 : DmaSem sig := 68
abbrev cc13_sem2_0 : DmaSem sig := 69
abbrev cc14_sem0_0 : DmaSem sig := 70
abbrev cc14_sem0_1 : DmaSem sig := 71
abbrev cc14_sem1_0 : DmaSem sig := 72
abbrev cc14_sem2_0 : DmaSem sig := 73
abbrev cc14_sem2_1 : DmaSem sig := 74
abbrev cc15_sem0_0 : DmaSem sig := 75
abbrev cc15_sem0_1 : DmaSem sig := 76
abbrev cc15_sem1_0 : DmaSem sig := 77
abbrev cc15_sem2_0 : DmaSem sig := 78
abbrev cc15_sem2_1 : DmaSem sig := 79
abbrev cc16_sem0_0 : DmaSem sig := 80
abbrev cc16_sem0_1 : DmaSem sig := 81
abbrev cc16_sem1_0 : DmaSem sig := 82
abbrev cc16_sem2_0 : DmaSem sig := 83
abbrev cc16_sem2_1 : DmaSem sig := 84
abbrev cc17_sem0_0 : DmaSem sig := 85
abbrev cc17_sem0_1 : DmaSem sig := 86
abbrev cc17_sem1_0 : DmaSem sig := 87
abbrev cc17_sem2_0 : DmaSem sig := 88
abbrev cc17_sem2_1 : DmaSem sig := 89
abbrev cc18_sem0_0 : DmaSem sig := 90
abbrev cc18_sem0_1 : DmaSem sig := 91
abbrev cc18_sem1_0 : DmaSem sig := 92
abbrev cc18_sem2_0 : DmaSem sig := 93
abbrev cc18_sem2_1 : DmaSem sig := 94
abbrev cc19_sem0_0 : DmaSem sig := 95
abbrev cc19_sem0_1 : DmaSem sig := 96
abbrev cc19_sem1_0 : DmaSem sig := 97
abbrev cc19_sem2_0 : DmaSem sig := 98
abbrev cc19_sem2_1 : DmaSem sig := 99
abbrev cc20_sem0_0 : DmaSem sig := 100
abbrev cc20_sem0_1 : DmaSem sig := 101
abbrev cc20_sem1_0 : DmaSem sig := 102
abbrev cc20_sem1_1 : DmaSem sig := 103
abbrev cc20_sem2_0 : DmaSem sig := 104

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S32x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x1 .i32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S512x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev grid7 : Pipeline.Grid := ⟨1, ![10], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S10000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S128x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S10000x32 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev grid8 : Pipeline.Grid := ⟨1, ![10], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S10000x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 1 → Memref sig .tc .vmem S1x32 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev stage8_2 : Fin 2 → Memref sig .tc .vmem S10000x32 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev grid9 : Pipeline.Grid := ⟨1, ![10], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S10000x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S32x64 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 2 → Memref sig .tc .vmem S10000x64 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true]

abbrev grid10 : Pipeline.Grid := ⟨1, ![10], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S10000x64 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x64 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 2 → Memref sig .tc .vmem S10000x64 .f32 := fun | 0 => Memref.whole cc10_stg2_0 | 1 => Memref.whole cc10_stg2_1 | ⟨_ + 2, h⟩ => absurd h (Nat.not_lt.2 (Nat.le_add_left _ _))
abbrev sem10_2 : Fin 2 → DmaSem sig := fun | 0 => cc10_sem2_0 | 1 => cc10_sem2_1 | ⟨_ + 2, h⟩ => absurd h (Nat.not_lt.2 (Nat.le_add_left _ _))
abbrev reads10_2 : Fin grid10.rank → Bool := ![true]

abbrev grid11 : Pipeline.Grid := ⟨1, ![10], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S10000x64 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S64x64 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 2 → Memref sig .tc .vmem S10000x64 .f32 := fun | 0 => Memref.whole cc11_stg2_0 | 1 => Memref.whole cc11_stg2_1 | ⟨_ + 2, h⟩ => absurd h (Nat.not_lt.2 (Nat.le_add_left _ _))
abbrev sem11_2 : Fin 2 → DmaSem sig := fun | 0 => cc11_sem2_0 | 1 => cc11_sem2_1 | ⟨_ + 2, h⟩ => absurd h (Nat.not_lt.2 (Nat.le_add_left _ _))
abbrev reads11_2 : Fin grid11.rank → Bool := ![true]

abbrev grid12 : Pipeline.Grid := ⟨1, ![10], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S10000x64 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 1 → Memref sig .tc .vmem S1x64 .f32 := fun | 0 => Memref.whole cc12_stg1_0 | ⟨_ + 1, h⟩ => absurd h (Nat.not_lt.2 (Nat.le_add_left _ _))
abbrev sem12_1 : Fin 1 → DmaSem sig := fun | 0 => cc12_sem1_0 | ⟨_ + 1, h⟩ => absurd h (Nat.not_lt.2 (Nat.le_add_left _ _))
abbrev reads12_1 : Fin grid12.rank → Bool := ![false]

abbrev stage12_2 : Fin 2 → Memref sig .tc .vmem S10000x64 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev grid13 : Pipeline.Grid := ⟨1, ![50], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S2000x64 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 2 → Memref sig .tc .vmem S2000x1 .i32 := fun | 0 => Memref.whole cc13_stg1_0 | 1 => Memref.whole cc13_stg1_1 | ⟨_ + 2, h⟩ => absurd h (Nat.not_lt.2 (Nat.le_add_left _ _))
abbrev sem13_1 : Fin 2 → DmaSem sig := fun | 0 => cc13_sem1_0 | 1 => cc13_sem1_1 | ⟨_ + 2, h⟩ => absurd h (Nat.not_lt.2 (Nat.le_add_left _ _))
abbrev reads13_1 : Fin grid13.rank → Bool := ![true]

abbrev stage13_2 : Fin 1 → Memref sig .tc .vmem S512x64 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev grid14 : Pipeline.Grid := ⟨1, ![10], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S10000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S128x32 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 2 → Memref sig .tc .vmem S10000x32 .f32 := fun | 0 => Memref.whole cc14_stg2_0 | 1 => Memref.whole cc14_stg2_1 | ⟨_ + 2, h⟩ => absurd h (Nat.not_lt.2 (Nat.le_add_left _ _))
abbrev sem14_2 : Fin 2 → DmaSem sig := fun | 0 => cc14_sem2_0 | 1 => cc14_sem2_1 | ⟨_ + 2, h⟩ => absurd h (Nat.not_lt.2 (Nat.le_add_left _ _))
abbrev reads14_2 : Fin grid14.rank → Bool := ![true]

abbrev grid15 : Pipeline.Grid := ⟨1, ![10], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S10000x32 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x32 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 2 → Memref sig .tc .vmem S10000x32 .f32 := fun | 0 => Memref.whole cc15_stg2_0 | 1 => Memref.whole cc15_stg2_1 | ⟨_ + 2, h⟩ => absurd h (Nat.not_lt.2 (Nat.le_add_left _ _))
abbrev sem15_2 : Fin 2 → DmaSem sig := fun | 0 => cc15_sem2_0 | 1 => cc15_sem2_1 | ⟨_ + 2, h⟩ => absurd h (Nat.not_lt.2 (Nat.le_add_left _ _))
abbrev reads15_2 : Fin grid15.rank → Bool := ![true]

abbrev grid16 : Pipeline.Grid := ⟨1, ![10], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S10000x32 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 1 → Memref sig .tc .vmem S32x64 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 2 → Memref sig .tc .vmem S10000x64 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev grid17 : Pipeline.Grid := ⟨1, ![10], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S10000x64 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S1x64 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 2 → Memref sig .tc .vmem S10000x64 .f32 := fun | 0 => Memref.whole cc17_stg2_0 | 1 => Memref.whole cc17_stg2_1 | ⟨_ + 2, h⟩ => absurd h (Nat.not_lt.2 (Nat.le_add_left _ _))
abbrev sem17_2 : Fin 2 → DmaSem sig := fun | 0 => cc17_sem2_0 | 1 => cc17_sem2_1 | ⟨_ + 2, h⟩ => absurd h (Nat.not_lt.2 (Nat.le_add_left _ _))
abbrev reads17_2 : Fin grid17.rank → Bool := ![true]

abbrev grid18 : Pipeline.Grid := ⟨1, ![10], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S10000x64 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S64x64 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 2 → Memref sig .tc .vmem S10000x64 .f32 := fun | 0 => Memref.whole cc18_stg2_0 | 1 => Memref.whole cc18_stg2_1 | ⟨_ + 2, h⟩ => absurd h (Nat.not_lt.2 (Nat.le_add_left _ _))
abbrev sem18_2 : Fin 2 → DmaSem sig := fun | 0 => cc18_sem2_0 | 1 => cc18_sem2_1 | ⟨_ + 2, h⟩ => absurd h (Nat.not_lt.2 (Nat.le_add_left _ _))
abbrev reads18_2 : Fin grid18.rank → Bool := ![true]

abbrev grid19 : Pipeline.Grid := ⟨1, ![10], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S10000x64 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S1x64 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 2 → Memref sig .tc .vmem S10000x64 .f32 := fun | 0 => Memref.whole cc19_stg2_0 | 1 => Memref.whole cc19_stg2_1 | ⟨_ + 2, h⟩ => absurd h (Nat.not_lt.2 (Nat.le_add_left _ _))
abbrev sem19_2 : Fin 2 → DmaSem sig := fun | 0 => cc19_sem2_0 | 1 => cc19_sem2_1 | ⟨_ + 2, h⟩ => absurd h (Nat.not_lt.2 (Nat.le_add_left _ _))
abbrev reads19_2 : Fin grid19.rank → Bool := ![true]

abbrev grid20 : Pipeline.Grid := ⟨1, ![50], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage20_0 : Fin 2 → Memref sig .tc .vmem S2000x64 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S2000x1 .i32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 1 → Memref sig .tc .vmem S512x64 .f32 := fun | 0 => Memref.whole cc20_stg2_0 | ⟨_ + 1, h⟩ => absurd h (Nat.not_lt.2 (Nat.le_add_left _ _))
abbrev sem20_2 : Fin 1 → DmaSem sig := fun | 0 => cc20_sem2_0 | ⟨_ + 1, h⟩ => absurd h (Nat.not_lt.2 (Nat.le_add_left _ _))
abbrev reads20_2 : Fin grid20.rank → Bool := ![false]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x64_S32x64_0_0 : ∀ a, (![0, 0] : Fin 2 → Nat) a + S32x64.size a ≤ S32x64.size a
  h_S32x64 : 0 < S32x64.numel
  inb_S10000x64_S10000x64_0_0 : ∀ a, (![0, 0] : Fin 2 → Nat) a + S10000x64.size a ≤ S10000x64.size a
  h_S10000x64 : 0 < S10000x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x64_S64x64_0_0 : ∀ a, (![0, 0] : Fin 2 → Nat) a + S64x64.size a ≤ S64x64.size a
  h_S64x64 : 0 < S64x64.numel
  shapeCasts_S100000_S100000x1 : S100000.ShapeCasts S100000x1
  inb_S512x64_S512x64_0_0 : ∀ a, (![0, 0] : Fin 2 → Nat) a + S512x64.size a ≤ S512x64.size a
  h_S512x64 : 0 < S512x64.numel
  shapeCasts_S512x64_S512x64 : S512x64.ShapeCasts S512x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  iota_S2000x512_d1_w32 : S2000x512.Iotas .tc 32 [1]
  broadcasts_S2000x1_S2000x512 : S2000x1.Broadcasts S2000x512
  natLt_1_32 : 1 < 32
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bcast_S_S512 : S_.BroadcastsInDim S512 (![] : Fin 0 → Fin S512.rank)
  bcast_S100000_S100000x1_0 : S100000.BroadcastsInDim S100000x1 (![0] : Fin 1 → Fin S100000x1.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x128_S128x32_S10000x32_1_0_0_1_n_n_wf : DotDims.WF S10000x128 S128x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S10000x32_S32x64_S10000x64_1_0_0_1_n_n_wf : DotDims.WF S10000x32 S32x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x64_S10000x64_1_0_0_1_n_n_wf : DotDims.WF S10000x64 S64x64 S10000x64 [1] [0] [0] [1] [] []
  dot_S2000x512_S2000x64_S512x64_0_0_1_1_n_n_wf : DotDims.WF S2000x512 S2000x64 S512x64 [0] [0] [1] [1] [] []
  scatter_S512_S100000x1_S100000_n_0_0_1_wf : ScatterDims.WF S512 S100000x1 S100000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S100000x32.size a
  hwx0_2 : ∀ i : grid0.Coords, EltTy.bits .f32 = 32 ∨ (Rect.block (s := S100000x32) S10000x32.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x32.size a ≤ S1x32.size a
  hwx1_1 : ∀ i : grid1.Coords, EltTy.bits .f32 = 32 ∨ (Rect.block (s := S1x32) S1x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x32.size a ≤ S100000x32.size a
  hwx1_2 : ∀ i : grid1.Coords, EltTy.bits .f32 = 32 ∨ (Rect.block (s := S100000x32) S10000x32.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S32x64.size a ≤ S32x64.size a
  hwx2_1 : ∀ i : grid2.Coords, EltTy.bits .f32 = 32 ∨ (Rect.block (s := S32x64) S32x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S100000x64.size a
  hwx6_0 : ∀ i : grid6.Coords, EltTy.bits .f32 = 32 ∨ (Rect.block (s := S100000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x1.size a ≤ S100000x1.size a
  hwx6_1 : ∀ i : grid6.Coords, EltTy.bits .i32 = 32 ∨ (Rect.block (s := S100000x1) S2000x1.size (cc6_transform_1 i) (hinb6_1 i)).WholeWords (EltTy.packing .i32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S512x64.size a ≤ S512x64.size a
  hwx6_2 : ∀ i : grid6.Coords, EltTy.bits .f32 = 32 ∨ (Rect.block (s := S512x64) S512x64.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S10000x128.size a ≤ S100000x128.size a
  hwx7_0 : ∀ i : grid7.Coords, EltTy.bits .f32 = 32 ∨ (Rect.block (s := S100000x128) S10000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S128x32.size a ≤ S128x32.size a
  hwx7_1 : ∀ i : grid7.Coords, EltTy.bits .f32 = 32 ∨ (Rect.block (s := S128x32) S128x32.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S10000x32.size a ≤ S100000x32.size a
  hwx7_2 : ∀ i : grid7.Coords, EltTy.bits .f32 = 32 ∨ (Rect.block (s := S100000x32) S10000x32.size (cc7_transform_2 i) (hinb7_2 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S10000x32.size a ≤ S100000x32.size a
  hwx8_0 : ∀ i : grid8.Coords, EltTy.bits .f32 = 32 ∨ (Rect.block (s := S100000x32) S10000x32.size (cc8_transform_0 i) (hinb8_0 i)).WholeWords (EltTy.packing .f32)
  hstage8_1 : ∀ j, (stage8_1 j).IsWhole
  nbuf8_1 : grid8.bufCount reads8_1 true = 1
  hreads8_1 : ∀ i i' : grid8.Coords, (∀ a, reads8_1 a = true → i a = i' a) → cc8_transform_1 i = cc8_transform_1 i'
  hinb8_1 : ∀ (i : grid8.Coords) a, (cc8_transform_1 i a + 1) * S1x32.size a ≤ S1x32.size a
  hwx8_1 : ∀ i : grid8.Coords, EltTy.bits .f32 = 32 ∨ (Rect.block (s := S1x32) S1x32.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S10000x32.size a ≤ S100000x32.size a
  hwx8_2 : ∀ i : grid8.Coords, EltTy.bits .f32 = 32 ∨ (Rect.block (s := S100000x32) S10000x32.size (cc8_transform_2 i) (hinb8_2 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S10000x32.size a ≤ S100000x32.size a
  hwx9_0 : ∀ i : grid9.Coords, EltTy.bits .f32 = 32 ∨ (Rect.block (s := S100000x32) S10000x32.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S32x64.size a ≤ S32x64.size a
  hwx9_1 : ∀ i : grid9.Coords, EltTy.bits .f32 = 32 ∨ (Rect.block (s := S32x64) S32x64.size (cc9_transform_1 i) (hinb9_1 i)).WholeWords (EltTy.packing .f32)
  hstage9_2 : ∀ j, (stage9_2 j).IsWhole
  nbuf9_2 : grid9.bufCount reads9_2 false = 2
  hreads9_2 : ∀ i i' : grid9.Coords, (∀ a, reads9_2 a = true → i a = i' a) → cc9_transform_2 i = cc9_transform_2 i'
  hinb9_2 : ∀ (i : grid9.Coords) a, (cc9_transform_2 i a + 1) * S10000x64.size a ≤ S100000x64.size a
  hwx9_2 : ∀ i : grid9.Coords, EltTy.bits .f32 = 32 ∨ (Rect.block (s := S100000x64) S10000x64.size (cc9_transform_2 i) (hinb9_2 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S10000x64.size a ≤ S100000x64.size a
  hwx10_0 : ∀ i : grid10.Coords, EltTy.bits .f32 = 32 ∨ (Rect.block (s := S100000x64) S10000x64.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x64.size a ≤ S1x64.size a
  hwx10_1 : ∀ i : grid10.Coords, EltTy.bits .f32 = 32 ∨ (Rect.block (s := S1x64) S1x64.size (cc10_transform_1 i) (hinb10_1 i)).WholeWords (EltTy.packing .f32)
  hstage10_2 : ∀ j, (stage10_2 j).IsWhole
  nbuf10_2 : grid10.bufCount reads10_2 false = 2
  hreads10_2 : ∀ i i' : grid10.Coords, (∀ a, reads10_2 a = true → i a = i' a) → cc10_transform_2 i = cc10_transform_2 i'
  hinb10_2 : ∀ (i : grid10.Coords) a, (cc10_transform_2 i a + 1) * S10000x64.size a ≤ S100000x64.size a
  hwx10_2 : ∀ i : grid10.Coords, EltTy.bits .f32 = 32 ∨ (Rect.block (s := S100000x64) S10000x64.size (cc10_transform_2 i) (hinb10_2 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S10000x64.size a ≤ S100000x64.size a
  hwx11_0 : ∀ i : grid11.Coords, EltTy.bits .f32 = 32 ∨ (Rect.block (s := S100000x64) S10000x64.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S64x64.size a ≤ S64x64.size a
  hwx11_1 : ∀ i : grid11.Coords, EltTy.bits .f32 = 32 ∨ (Rect.block (s := S64x64) S64x64.size (cc11_transform_1 i) (hinb11_1 i)).WholeWords (EltTy.packing .f32)
  hstage11_2 : ∀ j, (stage11_2 j).IsWhole
  nbuf11_2 : grid11.bufCount reads11_2 false = 2
  hreads11_2 : ∀ i i' : grid11.Coords, (∀ a, reads11_2 a = true → i a = i' a) → cc11_transform_2 i = cc11_transform_2 i'
  hinb11_2 : ∀ (i : grid11.Coords) a, (cc11_transform_2 i a + 1) * S10000x64.size a ≤ S100000x64.size a
  hwx11_2 : ∀ i : grid11.Coords, EltTy.bits .f32 = 32 ∨ (Rect.block (s := S100000x64) S10000x64.size (cc11_transform_2 i) (hinb11_2 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S10000x64.size a ≤ S100000x64.size a
  hwx12_0 : ∀ i : grid12.Coords, EltTy.bits .f32 = 32 ∨ (Rect.block (s := S100000x64) S10000x64.size (cc12_transform_0 i) (hinb12_0 i)).WholeWords (EltTy.packing .f32)
  hstage12_1 : ∀ j, (stage12_1 j).IsWhole
  nbuf12_1 : grid12.bufCount reads12_1 true = 1
  hreads12_1 : ∀ i i' : grid12.Coords, (∀ a, reads12_1 a = true → i a = i' a) → cc12_transform_1 i = cc12_transform_1 i'
  hinb12_1 : ∀ (i : grid12.Coords) a, (cc12_transform_1 i a + 1) * S1x64.size a ≤ S1x64.size a
  hwx12_1 : ∀ i : grid12.Coords, EltTy.bits .f32 = 32 ∨ (Rect.block (s := S1x64) S1x64.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S10000x64.size a ≤ S100000x64.size a
  hwx12_2 : ∀ i : grid12.Coords, EltTy.bits .f32 = 32 ∨ (Rect.block (s := S100000x64) S10000x64.size (cc12_transform_2 i) (hinb12_2 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S2000x64.size a ≤ S100000x64.size a
  hwx13_0 : ∀ i : grid13.Coords, EltTy.bits .f32 = 32 ∨ (Rect.block (s := S100000x64) S2000x64.size (cc13_transform_0 i) (hinb13_0 i)).WholeWords (EltTy.packing .f32)
  hstage13_1 : ∀ j, (stage13_1 j).IsWhole
  nbuf13_1 : grid13.bufCount reads13_1 false = 2
  hreads13_1 : ∀ i i' : grid13.Coords, (∀ a, reads13_1 a = true → i a = i' a) → cc13_transform_1 i = cc13_transform_1 i'
  hinb13_1 : ∀ (i : grid13.Coords) a, (cc13_transform_1 i a + 1) * S2000x1.size a ≤ S100000x1.size a
  hwx13_1 : ∀ i : grid13.Coords, EltTy.bits .i32 = 32 ∨ (Rect.block (s := S100000x1) S2000x1.size (cc13_transform_1 i) (hinb13_1 i)).WholeWords (EltTy.packing .i32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S512x64.size a ≤ S512x64.size a
  hwx13_2 : ∀ i : grid13.Coords, EltTy.bits .f32 = 32 ∨ (Rect.block (s := S512x64) S512x64.size (cc13_transform_2 i) (hinb13_2 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S10000x128.size a ≤ S100000x128.size a
  hwx14_0 : ∀ i : grid14.Coords, EltTy.bits .f32 = 32 ∨ (Rect.block (s := S100000x128) S10000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S128x32.size a ≤ S128x32.size a
  hwx14_1 : ∀ i : grid14.Coords, EltTy.bits .f32 = 32 ∨ (Rect.block (s := S128x32) S128x32.size (cc14_transform_1 i) (hinb14_1 i)).WholeWords (EltTy.packing .f32)
  hstage14_2 : ∀ j, (stage14_2 j).IsWhole
  nbuf14_2 : grid14.bufCount reads14_2 false = 2
  hreads14_2 : ∀ i i' : grid14.Coords, (∀ a, reads14_2 a = true → i a = i' a) → cc14_transform_2 i = cc14_transform_2 i'
  hinb14_2 : ∀ (i : grid14.Coords) a, (cc14_transform_2 i a + 1) * S10000x32.size a ≤ S100000x32.size a
  hwx14_2 : ∀ i : grid14.Coords, EltTy.bits .f32 = 32 ∨ (Rect.block (s := S100000x32) S10000x32.size (cc14_transform_2 i) (hinb14_2 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S10000x32.size a ≤ S100000x32.size a
  hwx15_0 : ∀ i : grid15.Coords, EltTy.bits .f32 = 32 ∨ (Rect.block (s := S100000x32) S10000x32.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x32.size a ≤ S1x32.size a
  hwx15_1 : ∀ i : grid15.Coords, EltTy.bits .f32 = 32 ∨ (Rect.block (s := S1x32) S1x32.size (cc15_transform_1 i) (hinb15_1 i)).WholeWords (EltTy.packing .f32)
  hstage15_2 : ∀ j, (stage15_2 j).IsWhole
  nbuf15_2 : grid15.bufCount reads15_2 false = 2
  hreads15_2 : ∀ i i' : grid15.Coords, (∀ a, reads15_2 a = true → i a = i' a) → cc15_transform_2 i = cc15_transform_2 i'
  hinb15_2 : ∀ (i : grid15.Coords) a, (cc15_transform_2 i a + 1) * S10000x32.size a ≤ S100000x32.size a
  hwx15_2 : ∀ i : grid15.Coords, EltTy.bits .f32 = 32 ∨ (Rect.block (s := S100000x32) S10000x32.size (cc15_transform_2 i) (hinb15_2 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S10000x32.size a ≤ S100000x32.size a
  hwx16_0 : ∀ i : grid16.Coords, EltTy.bits .f32 = 32 ∨ (Rect.block (s := S100000x32) S10000x32.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S32x64.size a ≤ S32x64.size a
  hwx16_1 : ∀ i : grid16.Coords, EltTy.bits .f32 = 32 ∨ (Rect.block (s := S32x64) S32x64.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S10000x64.size a ≤ S100000x64.size a
  hwx16_2 : ∀ i : grid16.Coords, EltTy.bits .f32 = 32 ∨ (Rect.block (s := S100000x64) S10000x64.size (cc16_transform_2 i) (hinb16_2 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S10000x64.size a ≤ S100000x64.size a
  hwx17_0 : ∀ i : grid17.Coords, EltTy.bits .f32 = 32 ∨ (Rect.block (s := S100000x64) S10000x64.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S1x64.size a ≤ S1x64.size a
  hwx17_1 : ∀ i : grid17.Coords, EltTy.bits .f32 = 32 ∨ (Rect.block (s := S1x64) S1x64.size (cc17_transform_1 i) (hinb17_1 i)).WholeWords (EltTy.packing .f32)
  hstage17_2 : ∀ j, (stage17_2 j).IsWhole
  nbuf17_2 : grid17.bufCount reads17_2 false = 2
  hreads17_2 : ∀ i i' : grid17.Coords, (∀ a, reads17_2 a = true → i a = i' a) → cc17_transform_2 i = cc17_transform_2 i'
  hinb17_2 : ∀ (i : grid17.Coords) a, (cc17_transform_2 i a + 1) * S10000x64.size a ≤ S100000x64.size a
  hwx17_2 : ∀ i : grid17.Coords, EltTy.bits .f32 = 32 ∨ (Rect.block (s := S100000x64) S10000x64.size (cc17_transform_2 i) (hinb17_2 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S10000x64.size a ≤ S100000x64.size a
  hwx18_0 : ∀ i : grid18.Coords, EltTy.bits .f32 = 32 ∨ (Rect.block (s := S100000x64) S10000x64.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S64x64.size a ≤ S64x64.size a
  hwx18_1 : ∀ i : grid18.Coords, EltTy.bits .f32 = 32 ∨ (Rect.block (s := S64x64) S64x64.size (cc18_transform_1 i) (hinb18_1 i)).WholeWords (EltTy.packing .f32)
  hstage18_2 : ∀ j, (stage18_2 j).IsWhole
  nbuf18_2 : grid18.bufCount reads18_2 false = 2
  hreads18_2 : ∀ i i' : grid18.Coords, (∀ a, reads18_2 a = true → i a = i' a) → cc18_transform_2 i = cc18_transform_2 i'
  hinb18_2 : ∀ (i : grid18.Coords) a, (cc18_transform_2 i a + 1) * S10000x64.size a ≤ S100000x64.size a
  hwx18_2 : ∀ i : grid18.Coords, EltTy.bits .f32 = 32 ∨ (Rect.block (s := S100000x64) S10000x64.size (cc18_transform_2 i) (hinb18_2 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S10000x64.size a ≤ S100000x64.size a
  hwx19_0 : ∀ i : grid19.Coords, EltTy.bits .f32 = 32 ∨ (Rect.block (s := S100000x64) S10000x64.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S1x64.size a ≤ S1x64.size a
  hwx19_1 : ∀ i : grid19.Coords, EltTy.bits .f32 = 32 ∨ (Rect.block (s := S1x64) S1x64.size (cc19_transform_1 i) (hinb19_1 i)).WholeWords (EltTy.packing .f32)
  hstage19_2 : ∀ j, (stage19_2 j).IsWhole
  nbuf19_2 : grid19.bufCount reads19_2 false = 2
  hreads19_2 : ∀ i i' : grid19.Coords, (∀ a, reads19_2 a = true → i a = i' a) → cc19_transform_2 i = cc19_transform_2 i'
  hinb19_2 : ∀ (i : grid19.Coords) a, (cc19_transform_2 i a + 1) * S10000x64.size a ≤ S100000x64.size a
  hwx19_2 : ∀ i : grid19.Coords, EltTy.bits .f32 = 32 ∨ (Rect.block (s := S100000x64) S10000x64.size (cc19_transform_2 i) (hinb19_2 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S2000x64.size a ≤ S100000x64.size a
  hwx20_0 : ∀ i : grid20.Coords, EltTy.bits .f32 = 32 ∨ (Rect.block (s := S100000x64) S2000x64.size (cc20_transform_0 i) (hinb20_0 i)).WholeWords (EltTy.packing .f32)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S2000x1.size a ≤ S100000x1.size a
  hwx20_1 : ∀ i : grid20.Coords, EltTy.bits .i32 = 32 ∨ (Rect.block (s := S100000x1) S2000x1.size (cc20_transform_1 i) (hinb20_1 i)).WholeWords (EltTy.packing .i32)
  hstage20_2 : ∀ j, (stage20_2 j).IsWhole
  nbuf20_2 : grid20.bufCount reads20_2 true = 1
  hreads20_2 : ∀ i i' : grid20.Coords, (∀ a, reads20_2 a = true → i a = i' a) → cc20_transform_2 i = cc20_transform_2 i'
  hinb20_2 : ∀ (i : grid20.Coords) a, (cc20_transform_2 i a + 1) * S512x64.size a ≤ S512x64.size a
  hwx20_2 : ∀ i : grid20.Coords, EltTy.bits .f32 = 32 ∨ (Rect.block (s := S512x64) S512x64.size (cc20_transform_2 i) (hinb20_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x128_S128x32_S10000x32_1_0_0_1_n_n : DotDims S10000x128 S128x32 S10000x32 where
  lhsContracting := [1]
  rhsContracting := [0]
  lhsNonContracting := [0]
  rhsNonContracting := [1]
  lhsBatch := []
  rhsBatch := []
  wf := dot_S10000x128_S128x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S2000x512_S2000x64_S512x64_0_0_1_1_n_n : DotDims S2000x512 S2000x64 S512x64 where
  lhsContracting := [0]
  rhsContracting := [0]
  lhsNonContracting := [1]
  rhsNonContracting := [1]
  lhsBatch := []
  rhsBatch := []
  wf := dot_S2000x512_S2000x64_S512x64_0_0_1_1_n_n_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg9) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v29) S10000x32.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v42) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v43) S1x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S10000x32.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg11) S32x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v58) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v59) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v60) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v60) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg13) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v61) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v74) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v75) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v76) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v76) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v77) S2000x1.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v78) S512x64.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_arg3) S10000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_arg9) S128x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v117) S10000x32.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

abbrev win8_0 : Pipeline.Window sig grid8 :=
  Pipeline.Window.ofSpec (Memref.whole main_v130) S10000x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v131) S1x32.size cc8_transform_1 reads8_1 false true 1 stage8_1 sem8_1
    hrank8 hreads8_1 hinb8_1 nbuf8_1 (Memref.isWhole_whole _) hwx8_1 hstage8_1

abbrev win8_2 : Pipeline.Window sig grid8 :=
  Pipeline.Window.ofSpec (Memref.whole main_v132) S10000x32.size cc8_transform_2 reads8_2 true false 2 stage8_2 sem8_2
    hrank8 hreads8_2 hinb8_2 nbuf8_2 (Memref.isWhole_whole _) hwx8_2 hstage8_2

abbrev win8 : Fin 3 → Pipeline.Window sig grid8 := fun | 0 => win8_0 | 1 => win8_1 | 2 => win8_2 | ⟨_ + 3, h⟩ => absurd h (Nat.not_lt.2 (Nat.le_add_left _ _))
abbrev spec8 : Fin 3 → Pipeline.WinSpec sig grid8.rank := fun w => (win8 w).toWinSpec

abbrev win9_0 : Pipeline.Window sig grid9 :=
  Pipeline.Window.ofSpec (Memref.whole main_v132) S10000x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_arg11) S32x64.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v133) S10000x64.size cc9_transform_2 reads9_2 true false 2 stage9_2 sem9_2
    hrank9 hreads9_2 hinb9_2 nbuf9_2 (Memref.isWhole_whole _) hwx9_2 hstage9_2

abbrev win9 : Fin 3 → Pipeline.Window sig grid9 := fun | 0 => win9_0 | 1 => win9_1 | 2 => win9_2 | ⟨_ + 3, h⟩ => absurd h (Nat.not_lt.2 (Nat.le_add_left _ _))
abbrev spec9 : Fin 3 → Pipeline.WinSpec sig grid9.rank := fun w => (win9 w).toWinSpec

abbrev win10_0 : Pipeline.Window sig grid10 :=
  Pipeline.Window.ofSpec (Memref.whole main_v146) S10000x64.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v147) S1x64.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v148) S10000x64.size cc10_transform_2 reads10_2 true false 2 stage10_2 sem10_2
    hrank10 hreads10_2 hinb10_2 nbuf10_2 (Memref.isWhole_whole _) hwx10_2 hstage10_2

abbrev win10 : Fin 3 → Pipeline.Window sig grid10 := fun | 0 => win10_0 | 1 => win10_1 | 2 => win10_2 | ⟨_ + 3, h⟩ => absurd h (Nat.not_lt.2 (Nat.le_add_left _ _))
abbrev spec10 : Fin 3 → Pipeline.WinSpec sig grid10.rank := fun w => (win10 w).toWinSpec

abbrev win11_0 : Pipeline.Window sig grid11 :=
  Pipeline.Window.ofSpec (Memref.whole main_v148) S10000x64.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_arg13) S64x64.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v149) S10000x64.size cc11_transform_2 reads11_2 true false 2 stage11_2 sem11_2
    hrank11 hreads11_2 hinb11_2 nbuf11_2 (Memref.isWhole_whole _) hwx11_2 hstage11_2

abbrev win11 : Fin 3 → Pipeline.Window sig grid11 := fun | 0 => win11_0 | 1 => win11_1 | 2 => win11_2 | ⟨_ + 3, h⟩ => absurd h (Nat.not_lt.2 (Nat.le_add_left _ _))
abbrev spec11 : Fin 3 → Pipeline.WinSpec sig grid11.rank := fun w => (win11 w).toWinSpec

abbrev win12_0 : Pipeline.Window sig grid12 :=
  Pipeline.Window.ofSpec (Memref.whole main_v162) S10000x64.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v163) S1x64.size cc12_transform_1 reads12_1 false true 1 stage12_1 sem12_1
    hrank12 hreads12_1 hinb12_1 nbuf12_1 (Memref.isWhole_whole _) hwx12_1 hstage12_1

abbrev win12_2 : Pipeline.Window sig grid12 :=
  Pipeline.Window.ofSpec (Memref.whole main_v164) S10000x64.size cc12_transform_2 reads12_2 true false 2 stage12_2 sem12_2
    hrank12 hreads12_2 hinb12_2 nbuf12_2 (Memref.isWhole_whole _) hwx12_2 hstage12_2

abbrev win12 : Fin 3 → Pipeline.Window sig grid12 := fun | 0 => win12_0 | 1 => win12_1 | 2 => win12_2 | ⟨_ + 3, h⟩ => absurd h (Nat.not_lt.2 (Nat.le_add_left _ _))
abbrev spec12 : Fin 3 → Pipeline.WinSpec sig grid12.rank := fun w => (win12 w).toWinSpec

abbrev win13_0 : Pipeline.Window sig grid13 :=
  Pipeline.Window.ofSpec (Memref.whole main_v164) S2000x64.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v165) S2000x1.size cc13_transform_1 reads13_1 false false 2 stage13_1 sem13_1
    hrank13 hreads13_1 hinb13_1 nbuf13_1 (Memref.isWhole_whole _) hwx13_1 hstage13_1

abbrev win13_2 : Pipeline.Window sig grid13 :=
  Pipeline.Window.ofSpec (Memref.whole main_v166) S512x64.size cc13_transform_2 reads13_2 true true 1 stage13_2 sem13_2
    hrank13 hreads13_2 hinb13_2 nbuf13_2 (Memref.isWhole_whole _) hwx13_2 hstage13_2

abbrev win13 : Fin 3 → Pipeline.Window sig grid13 := fun | 0 => win13_0 | 1 => win13_1 | 2 => win13_2 | ⟨_ + 3, h⟩ => absurd h (Nat.not_lt.2 (Nat.le_add_left _ _))
abbrev spec13 : Fin 3 → Pipeline.WinSpec sig grid13.rank := fun w => (win13 w).toWinSpec

abbrev win14_0 : Pipeline.Window sig grid14 :=
  Pipeline.Window.ofSpec (Memref.whole main_arg6) S10000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_arg9) S128x32.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v205) S10000x32.size cc14_transform_2 reads14_2 true false 2 stage14_2 sem14_2
    hrank14 hreads14_2 hinb14_2 nbuf14_2 (Memref.isWhole_whole _) hwx14_2 hstage14_2

abbrev win14 : Fin 3 → Pipeline.Window sig grid14 := fun | 0 => win14_0 | 1 => win14_1 | 2 => win14_2 | ⟨_ + 3, h⟩ => absurd h (Nat.not_lt.2 (Nat.le_add_left _ _))
abbrev spec14 : Fin 3 → Pipeline.WinSpec sig grid14.rank := fun w => (win14 w).toWinSpec

abbrev win15_0 : Pipeline.Window sig grid15 :=
  Pipeline.Window.ofSpec (Memref.whole main_v218) S10000x32.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v219) S1x32.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v220) S10000x32.size cc15_transform_2 reads15_2 true false 2 stage15_2 sem15_2
    hrank15 hreads15_2 hinb15_2 nbuf15_2 (Memref.isWhole_whole _) hwx15_2 hstage15_2

abbrev win15 : Fin 3 → Pipeline.Window sig grid15 := fun | 0 => win15_0 | 1 => win15_1 | 2 => win15_2 | ⟨_ + 3, h⟩ => absurd h (Nat.not_lt.2 (Nat.le_add_left _ _))
abbrev spec15 : Fin 3 → Pipeline.WinSpec sig grid15.rank := fun w => (win15 w).toWinSpec

abbrev win16_0 : Pipeline.Window sig grid16 :=
  Pipeline.Window.ofSpec (Memref.whole main_v220) S10000x32.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_arg11) S32x64.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_v221) S10000x64.size cc16_transform_2 reads16_2 true false 2 stage16_2 sem16_2
    hrank16 hreads16_2 hinb16_2 nbuf16_2 (Memref.isWhole_whole _) hwx16_2 hstage16_2

abbrev win16 : Fin 3 → Pipeline.Window sig grid16 := fun | 0 => win16_0 | 1 => win16_1 | 2 => win16_2 | ⟨_ + 3, h⟩ => absurd h (Nat.not_lt.2 (Nat.le_add_left _ _))
abbrev spec16 : Fin 3 → Pipeline.WinSpec sig grid16.rank := fun w => (win16 w).toWinSpec

abbrev win17_0 : Pipeline.Window sig grid17 :=
  Pipeline.Window.ofSpec (Memref.whole main_v234) S10000x64.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v235) S1x64.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v236) S10000x64.size cc17_transform_2 reads17_2 true false 2 stage17_2 sem17_2
    hrank17 hreads17_2 hinb17_2 nbuf17_2 (Memref.isWhole_whole _) hwx17_2 hstage17_2

abbrev win17 : Fin 3 → Pipeline.Window sig grid17 := fun | 0 => win17_0 | 1 => win17_1 | 2 => win17_2 | ⟨_ + 3, h⟩ => absurd h (Nat.not_lt.2 (Nat.le_add_left _ _))
abbrev spec17 : Fin 3 → Pipeline.WinSpec sig grid17.rank := fun w => (win17 w).toWinSpec

abbrev win18_0 : Pipeline.Window sig grid18 :=
  Pipeline.Window.ofSpec (Memref.whole main_v236) S10000x64.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_arg13) S64x64.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v237) S10000x64.size cc18_transform_2 reads18_2 true false 2 stage18_2 sem18_2
    hrank18 hreads18_2 hinb18_2 nbuf18_2 (Memref.isWhole_whole _) hwx18_2 hstage18_2

abbrev win18 : Fin 3 → Pipeline.Window sig grid18 := fun | 0 => win18_0 | 1 => win18_1 | 2 => win18_2 | ⟨_ + 3, h⟩ => absurd h (Nat.not_lt.2 (Nat.le_add_left _ _))
abbrev spec18 : Fin 3 → Pipeline.WinSpec sig grid18.rank := fun w => (win18 w).toWinSpec

abbrev win19_0 : Pipeline.Window sig grid19 :=
  Pipeline.Window.ofSpec (Memref.whole main_v250) S10000x64.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v251) S1x64.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v252) S10000x64.size cc19_transform_2 reads19_2 true false 2 stage19_2 sem19_2
    hrank19 hreads19_2 hinb19_2 nbuf19_2 (Memref.isWhole_whole _) hwx19_2 hstage19_2

abbrev win19 : Fin 3 → Pipeline.Window sig grid19 := fun | 0 => win19_0 | 1 => win19_1 | 2 => win19_2 | ⟨_ + 3, h⟩ => absurd h (Nat.not_lt.2 (Nat.le_add_left _ _))
abbrev spec19 : Fin 3 → Pipeline.WinSpec sig grid19.rank := fun w => (win19 w).toWinSpec

abbrev win20_0 : Pipeline.Window sig grid20 :=
  Pipeline.Window.ofSpec (Memref.whole main_v252) S2000x64.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v253) S2000x1.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v254) S512x64.size cc20_transform_2 reads20_2 true true 1 stage20_2 sem20_2
    hrank20 hreads20_2 hinb20_2 nbuf20_2 (Memref.isWhole_whole _) hwx20_2 hstage20_2

abbrev win20 : Fin 3 → Pipeline.Window sig grid20 := fun | 0 => win20_0 | 1 => win20_1 | 2 => win20_2 | ⟨_ + 3, h⟩ => absurd h (Nat.not_lt.2 (Nat.le_add_left _ _))
abbrev spec20 : Fin 3 → Pipeline.WinSpec sig grid20.rank := fun w => (win20 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S128x32 : Shape := ⟨2, ![128, 32]⟩
abbrev S32 : Shape := ⟨1, ![32]⟩
abbrev S32x64 : Shape := ⟨2, ![32, 64]⟩
abbrev S64 : Shape := ⟨1, ![64]⟩
abbrev S64x64 : Shape := ⟨2, ![64, 64]⟩
abbrev S1x1600000 : Shape := ⟨2, ![1, 1600000]⟩
abbrev S1600000 : Shape := ⟨1, ![1600000]⟩
abbrev S100000x32 : Shape := ⟨2, ![100000, 32]⟩
abbrev S1700000 : Shape := ⟨1, ![1700000]⟩
abbrev S_ : Shape := ⟨0, ![]⟩
abbrev S1700000x1 : Shape := ⟨2, ![1700000, 1]⟩
abbrev S1700000x32 : Shape := ⟨2, ![1700000, 32]⟩
abbrev S1x32 : Shape := ⟨2, ![1, 32]⟩
abbrev S100000x64 : Shape := ⟨2, ![100000, 64]⟩
abbrev S1700000x64 : Shape := ⟨2, ![1700000, 64]⟩
abbrev S1x64 : Shape := ⟨2, ![1, 64]⟩
abbrev S512x64 : Shape := ⟨2, ![512, 64]⟩
abbrev S100000x1 : Shape := ⟨2, ![100000, 1]⟩
abbrev S512 : Shape := ⟨1, ![512]⟩
abbrev S512x1 : Shape := ⟨2, ![512, 1]⟩

abbrev nBuf : Space → Nat
  | .hbm => 570
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S100000x128, .f32⟩
  | 4 => ⟨S2x1600000, .i32⟩
  | 5 => ⟨S100000, .i32⟩
  | 6 => ⟨S100000x128, .f32⟩
  | 7 => ⟨S2x1600000, .i32⟩
  | 8 => ⟨S100000, .i32⟩
  | 9 => ⟨S128x32, .f32⟩
  | 10 => ⟨S32, .f32⟩
  | 11 => ⟨S32x64, .f32⟩
  | 12 => ⟨S64, .f32⟩
  | 13 => ⟨S64x64, .f32⟩
  | 14 => ⟨S64, .f32⟩
  | 15 => ⟨S1x1600000, .i32⟩
  | 16 => ⟨S1600000, .i32⟩
  | 17 => ⟨S1x1600000, .i32⟩
  | 18 => ⟨S1600000, .i32⟩
  | 19 => ⟨S100000x32, .f32⟩
  | 20 => ⟨S100000, .i32⟩
  | 21 => ⟨S1700000, .i32⟩
  | 22 => ⟨S1700000, .i32⟩
  | 23 => ⟨S_, .f32⟩
  | 24 => ⟨S1700000, .f32⟩
  | 25 => ⟨S_, .f32⟩
  | 26 => ⟨S100000, .f32⟩
  | 27 => ⟨S1700000x1, .i32⟩
  | 28 => ⟨S100000, .f32⟩
  | 29 => ⟨S_, .f32⟩
  | 30 => ⟨S100000, .f32⟩
  | 31 => ⟨S100000, .f32⟩
  | 32 => ⟨S100000, .f32⟩
  | 33 => ⟨S_, .i32⟩
  | 34 => ⟨S1700000, .i32⟩
  | 35 => ⟨S1700000, .i1⟩
  | 36 => ⟨S_, .i32⟩
  | 37 => ⟨S1700000, .i32⟩
  | 38 => ⟨S1700000, .i32⟩
  | 39 => ⟨S1700000, .i32⟩
  | 40 => ⟨S1700000x1, .i32⟩
  | 41 => ⟨S1700000, .f32⟩
  | 42 => ⟨S_, .i32⟩
  | 43 => ⟨S1700000, .i32⟩
  | 44 => ⟨S1700000, .i1⟩
  | 45 => ⟨S_, .i32⟩
  | 46 => ⟨S1700000, .i32⟩
  | 47 => ⟨S1700000, .i32⟩
  | 48 => ⟨S1700000, .i32⟩
  | 49 => ⟨S1700000x1, .i32⟩
  | 50 => ⟨S1700000, .f32⟩
  | 51 => ⟨S1700000, .f32⟩
  | 52 => ⟨S_, .i32⟩
  | 53 => ⟨S1700000, .i32⟩
  | 54 => ⟨S1700000, .i1⟩
  | 55 => ⟨S_, .i32⟩
  | 56 => ⟨S1700000, .i32⟩
  | 57 => ⟨S1700000, .i32⟩
  | 58 => ⟨S1700000, .i32⟩
  | 59 => ⟨S1700000x1, .i32⟩
  | 60 => ⟨S1700000x32, .f32⟩
  | 61 => ⟨S1700000x1, .f32⟩
  | 62 => ⟨S1700000x32, .f32⟩
  | 63 => ⟨S1700000x32, .f32⟩
  | 64 => ⟨S_, .f32⟩
  | 65 => ⟨S100000x32, .f32⟩
  | 66 => ⟨S1700000x1, .i32⟩
  | 67 => ⟨S100000x32, .f32⟩
  | 68 => ⟨S1x32, .f32⟩
  | 69 => ⟨S100000x32, .f32⟩
  | 70 => ⟨S100000x32, .f32⟩
  | 71 => ⟨S_, .f32⟩
  | 72 => ⟨S100000x32, .f32⟩
  | 73 => ⟨S100000x32, .f32⟩
  | 74 => ⟨S100000x64, .f32⟩
  | 75 => ⟨S100000, .i32⟩
  | 76 => ⟨S1700000, .i32⟩
  | 77 => ⟨S1700000, .i32⟩
  | 78 => ⟨S_, .f32⟩
  | 79 => ⟨S1700000, .f32⟩
  | 80 => ⟨S_, .f32⟩
  | 81 => ⟨S100000, .f32⟩
  | 82 => ⟨S1700000x1, .i32⟩
  | 83 => ⟨S100000, .f32⟩
  | 84 => ⟨S_, .f32⟩
  | 85 => ⟨S100000, .f32⟩
  | 86 => ⟨S100000, .f32⟩
  | 87 => ⟨S100000, .f32⟩
  | 88 => ⟨S_, .i32⟩
  | 89 => ⟨S1700000, .i32⟩
  | 90 => ⟨S1700000, .i1⟩
  | 91 => ⟨S_, .i32⟩
  | 92 => ⟨S1700000, .i32⟩
  | 93 => ⟨S1700000, .i32⟩
  | 94 => ⟨S1700000, .i32⟩
  | 95 => ⟨S1700000x1, .i32⟩
  | 96 => ⟨S1700000, .f32⟩
  | 97 => ⟨S_, .i32⟩
  | 98 => ⟨S1700000, .i32⟩
  | 99 => ⟨S1700000, .i1⟩
  | 100 => ⟨S_, .i32⟩
  | 101 => ⟨S1700000, .i32⟩
  | 102 => ⟨S1700000, .i32⟩
  | 103 => ⟨S1700000, .i32⟩
  | 104 => ⟨S1700000x1, .i32⟩
  | 105 => ⟨S1700000, .f32⟩
  | 106 => ⟨S1700000, .f32⟩
  | 107 => ⟨S_, .i32⟩
  | 108 => ⟨S1700000, .i32⟩
  | 109 => ⟨S1700000, .i1⟩
  | 110 => ⟨S_, .i32⟩
  | 111 => ⟨S1700000, .i32⟩
  | 112 => ⟨S1700000, .i32⟩
  | 113 => ⟨S1700000, .i32⟩
  | 114 => ⟨S1700000x1, .i32⟩
  | 115 => ⟨S1700000x64, .f32⟩
  | 116 => ⟨S1700000x1, .f32⟩
  | 117 => ⟨S1700000x64, .f32⟩
  | 118 => ⟨S1700000x64, .f32⟩
  | 119 => ⟨S_, .f32⟩
  | 120 => ⟨S100000x64, .f32⟩
  | 121 => ⟨S1700000x1, .i32⟩
  | 122 => ⟨S100000x64, .f32⟩
  | 123 => ⟨S1x64, .f32⟩
  | 124 => ⟨S100000x64, .f32⟩
  | 125 => ⟨S100000x64, .f32⟩
  | 126 => ⟨S_, .f32⟩
  | 127 => ⟨S100000x64, .f32⟩
  | _ => ⟨S100000x128, .f32⟩

abbrev hbmTy0_1 (i : Nat) : BufTy := match i % 128 with
  | 0 => ⟨S100000x64, .f32⟩
  | 1 => ⟨S100000x64, .f32⟩
  | 2 => ⟨S100000, .i32⟩
  | 3 => ⟨S1700000, .i32⟩
  | 4 => ⟨S1700000, .i32⟩
  | 5 => ⟨S_, .f32⟩
  | 6 => ⟨S1700000, .f32⟩
  | 7 => ⟨S_, .f32⟩
  | 8 => ⟨S100000, .f32⟩
  | 9 => ⟨S1700000x1, .i32⟩
  | 10 => ⟨S100000, .f32⟩
  | 11 => ⟨S_, .f32⟩
  | 12 => ⟨S100000, .f32⟩
  | 13 => ⟨S100000, .f32⟩
  | 14 => ⟨S100000, .f32⟩
  | 15 => ⟨S_, .i32⟩
  | 16 => ⟨S1700000, .i32⟩
  | 17 => ⟨S1700000, .i1⟩
  | 18 => ⟨S_, .i32⟩
  | 19 => ⟨S1700000, .i32⟩
  | 20 => ⟨S1700000, .i32⟩
  | 21 => ⟨S1700000, .i32⟩
  | 22 => ⟨S1700000x1, .i32⟩
  | 23 => ⟨S1700000, .f32⟩
  | 24 => ⟨S_, .i32⟩
  | 25 => ⟨S1700000, .i32⟩
  | 26 => ⟨S1700000, .i1⟩
  | 27 => ⟨S_, .i32⟩
  | 28 => ⟨S1700000, .i32⟩
  | 29 => ⟨S1700000, .i32⟩
  | 30 => ⟨S1700000, .i32⟩
  | 31 => ⟨S1700000x1, .i32⟩
  | 32 => ⟨S1700000, .f32⟩
  | 33 => ⟨S1700000, .f32⟩
  | 34 => ⟨S_, .i32⟩
  | 35 => ⟨S1700000, .i32⟩
  | 36 => ⟨S1700000, .i1⟩
  | 37 => ⟨S_, .i32⟩
  | 38 => ⟨S1700000, .i32⟩
  | 39 => ⟨S1700000, .i32⟩
  | 40 => ⟨S1700000, .i32⟩
  | 41 => ⟨S1700000x1, .i32⟩
  | 42 => ⟨S1700000x64, .f32⟩
  | 43 => ⟨S1700000x1, .f32⟩
  | 44 => ⟨S1700000x64, .f32⟩
  | 45 => ⟨S1700000x64, .f32⟩
  | 46 => ⟨S_, .f32⟩
  | 47 => ⟨S100000x64, .f32⟩
  | 48 => ⟨S1700000x1, .i32⟩
  | 49 => ⟨S100000x64, .f32⟩
  | 50 => ⟨S1x64, .f32⟩
  | 51 => ⟨S100000x64, .f32⟩
  | 52 => ⟨S100000x64, .f32⟩
  | 53 => ⟨S_, .f32⟩
  | 54 => ⟨S100000x64, .f32⟩
  | 55 => ⟨S100000x64, .f32⟩
  | 56 => ⟨S_, .f32⟩
  | 57 => ⟨S512x64, .f32⟩
  | 58 => ⟨S100000x1, .i32⟩
  | 59 => ⟨S512x64, .f32⟩
  | 60 => ⟨S_, .f32⟩
  | 61 => ⟨S100000, .f32⟩
  | 62 => ⟨S_, .f32⟩
  | 63 => ⟨S512, .f32⟩
  | 64 => ⟨S100000x1, .i32⟩
  | 65 => ⟨S512, .f32⟩
  | 66 => ⟨S_, .f32⟩
  | 67 => ⟨S512, .f32⟩
  | 68 => ⟨S512, .f32⟩
  | 69 => ⟨S512x1, .f32⟩
  | 70 => ⟨S512x64, .f32⟩
  | 71 => ⟨S512x64, .f32⟩
  | 72 => ⟨S1x1600000, .i32⟩
  | 73 => ⟨S1600000, .i32⟩
  | 74 => ⟨S1x1600000, .i32⟩
  | 75 => ⟨S1600000, .i32⟩
  | 76 => ⟨S100000x32, .f32⟩
  | 77 => ⟨S100000, .i32⟩
  | 78 => ⟨S1700000, .i32⟩
  | 79 => ⟨S1700000, .i32⟩
  | 80 => ⟨S_, .f32⟩
  | 81 => ⟨S1700000, .f32⟩
  | 82 => ⟨S_, .f32⟩
  | 83 => ⟨S100000, .f32⟩
  | 84 => ⟨S1700000x1, .i32⟩
  | 85 => ⟨S100000, .f32⟩
  | 86 => ⟨S_, .f32⟩
  | 87 => ⟨S100000, .f32⟩
  | 88 => ⟨S100000, .f32⟩
  | 89 => ⟨S100000, .f32⟩
  | 90 => ⟨S_, .i32⟩
  | 91 => ⟨S1700000, .i32⟩
  | 92 => ⟨S1700000, .i1⟩
  | 93 => ⟨S_, .i32⟩
  | 94 => ⟨S1700000, .i32⟩
  | 95 => ⟨S1700000, .i32⟩
  | 96 => ⟨S1700000, .i32⟩
  | 97 => ⟨S1700000x1, .i32⟩
  | 98 => ⟨S1700000, .f32⟩
  | 99 => ⟨S_, .i32⟩
  | 100 => ⟨S1700000, .i32⟩
  | 101 => ⟨S1700000, .i1⟩
  | 102 => ⟨S_, .i32⟩
  | 103 => ⟨S1700000, .i32⟩
  | 104 => ⟨S1700000, .i32⟩
  | 105 => ⟨S1700000, .i32⟩
  | 106 => ⟨S1700000x1, .i32⟩
  | 107 => ⟨S1700000, .f32⟩
  | 108 => ⟨S1700000, .f32⟩
  | 109 => ⟨S_, .i32⟩
  | 110 => ⟨S1700000, .i32⟩
  | 111 => ⟨S1700000, .i1⟩
  | 112 => ⟨S_, .i32⟩
  | 113 => ⟨S1700000, .i32⟩
  | 114 => ⟨S1700000, .i32⟩
  | 115 => ⟨S1700000, .i32⟩
  | 116 => ⟨S1700000x1, .i32⟩
  | 117 => ⟨S1700000x32, .f32⟩
  | 118 => ⟨S1700000x1, .f32⟩
  | 119 => ⟨S1700000x32, .f32⟩
  | 120 => ⟨S1700000x32, .f32⟩
  | 121 => ⟨S_, .f32⟩
  | 122 => ⟨S100000x32, .f32⟩
  | 123 => ⟨S1700000x1, .i32⟩
  | 124 => ⟨S100000x32, .f32⟩
  | 125 => ⟨S1x32, .f32⟩
  | 126 => ⟨S100000x32, .f32⟩
  | 127 => ⟨S100000x32, .f32⟩
  | _ => ⟨S100000x128, .f32⟩

abbrev hbmTy0_2 (i : Nat) : BufTy := match i % 128 with
  | 0 => ⟨S_, .f32⟩
  | 1 => ⟨S100000x32, .f32⟩
  | 2 => ⟨S100000x32, .f32⟩
  | 3 => ⟨S100000x64, .f32⟩
  | 4 => ⟨S100000, .i32⟩
  | 5 => ⟨S1700000, .i32⟩
  | 6 => ⟨S1700000, .i32⟩
  | 7 => ⟨S_, .f32⟩
  | 8 => ⟨S1700000, .f32⟩
  | 9 => ⟨S_, .f32⟩
  | 10 => ⟨S100000, .f32⟩
  | 11 => ⟨S1700000x1, .i32⟩
  | 12 => ⟨S100000, .f32⟩
  | 13 => ⟨S_, .f32⟩
  | 14 => ⟨S100000, .f32⟩
  | 15 => ⟨S100000, .f32⟩
  | 16 => ⟨S100000, .f32⟩
  | 17 => ⟨S_, .i32⟩
  | 18 => ⟨S1700000, .i32⟩
  | 19 => ⟨S1700000, .i1⟩
  | 20 => ⟨S_, .i32⟩
  | 21 => ⟨S1700000, .i32⟩
  | 22 => ⟨S1700000, .i32⟩
  | 23 => ⟨S1700000, .i32⟩
  | 24 => ⟨S1700000x1, .i32⟩
  | 25 => ⟨S1700000, .f32⟩
  | 26 => ⟨S_, .i32⟩
  | 27 => ⟨S1700000, .i32⟩
  | 28 => ⟨S1700000, .i1⟩
  | 29 => ⟨S_, .i32⟩
  | 30 => ⟨S1700000, .i32⟩
  | 31 => ⟨S1700000, .i32⟩
  | 32 => ⟨S1700000, .i32⟩
  | 33 => ⟨S1700000x1, .i32⟩
  | 34 => ⟨S1700000, .f32⟩
  | 35 => ⟨S1700000, .f32⟩
  | 36 => ⟨S_, .i32⟩
  | 37 => ⟨S1700000, .i32⟩
  | 38 => ⟨S1700000, .i1⟩
  | 39 => ⟨S_, .i32⟩
  | 40 => ⟨S1700000, .i32⟩
  | 41 => ⟨S1700000, .i32⟩
  | 42 => ⟨S1700000, .i32⟩
  | 43 => ⟨S1700000x1, .i32⟩
  | 44 => ⟨S1700000x64, .f32⟩
  | 45 => ⟨S1700000x1, .f32⟩
  | 46 => ⟨S1700000x64, .f32⟩
  | 47 => ⟨S1700000x64, .f32⟩
  | 48 => ⟨S_, .f32⟩
  | 49 => ⟨S100000x64, .f32⟩
  | 50 => ⟨S1700000x1, .i32⟩
  | 51 => ⟨S100000x64, .f32⟩
  | 52 => ⟨S1x64, .f32⟩
  | 53 => ⟨S100000x64, .f32⟩
  | 54 => ⟨S100000x64, .f32⟩
  | 55 => ⟨S_, .f32⟩
  | 56 => ⟨S100000x64, .f32⟩
  | 57 => ⟨S100000x64, .f32⟩
  | 58 => ⟨S100000x64, .f32⟩
  | 59 => ⟨S100000, .i32⟩
  | 60 => ⟨S1700000, .i32⟩
  | 61 => ⟨S1700000, .i32⟩
  | 62 => ⟨S_, .f32⟩
  | 63 => ⟨S1700000, .f32⟩
  | 64 => ⟨S_, .f32⟩
  | 65 => ⟨S100000, .f32⟩
  | 66 => ⟨S1700000x1, .i32⟩
  | 67 => ⟨S100000, .f32⟩
  | 68 => ⟨S_, .f32⟩
  | 69 => ⟨S100000, .f32⟩
  | 70 => ⟨S100000, .f32⟩
  | 71 => ⟨S100000, .f32⟩
  | 72 => ⟨S_, .i32⟩
  | 73 => ⟨S1700000, .i32⟩
  | 74 => ⟨S1700000, .i1⟩
  | 75 => ⟨S_, .i32⟩
  | 76 => ⟨S1700000, .i32⟩
  | 77 => ⟨S1700000, .i32⟩
  | 78 => ⟨S1700000, .i32⟩
  | 79 => ⟨S1700000x1, .i32⟩
  | 80 => ⟨S1700000, .f32⟩
  | 81 => ⟨S_, .i32⟩
  | 82 => ⟨S1700000, .i32⟩
  | 83 => ⟨S1700000, .i1⟩
  | 84 => ⟨S_, .i32⟩
  | 85 => ⟨S1700000, .i32⟩
  | 86 => ⟨S1700000, .i32⟩
  | 87 => ⟨S1700000, .i32⟩
  | 88 => ⟨S1700000x1, .i32⟩
  | 89 => ⟨S1700000, .f32⟩
  | 90 => ⟨S1700000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000x64, .f32⟩
  | 100 => ⟨S1700000x1, .f32⟩
  | 101 => ⟨S1700000x64, .f32⟩
  | 102 => ⟨S1700000x64, .f32⟩
  | 103 => ⟨S_, .f32⟩
  | 104 => ⟨S100000x64, .f32⟩
  | 105 => ⟨S1700000x1, .i32⟩
  | 106 => ⟨S100000x64, .f32⟩
  | 107 => ⟨S1x64, .f32⟩
  | 108 => ⟨S100000x64, .f32⟩
  | 109 => ⟨S100000x64, .f32⟩
  | 110 => ⟨S_, .f32⟩
  | 111 => ⟨S100000x64, .f32⟩
  | 112 => ⟨S100000x64, .f32⟩
  | 113 => ⟨S_, .f32⟩
  | 114 => ⟨S512x64, .f32⟩
  | 115 => ⟨S100000x1, .i32⟩
  | 116 => ⟨S512x64, .f32⟩
  | 117 => ⟨S_, .f32⟩
  | 118 => ⟨S100000, .f32⟩
  | 119 => ⟨S_, .f32⟩
  | 120 => ⟨S512, .f32⟩
  | 121 => ⟨S100000x1, .i32⟩
  | 122 => ⟨S512, .f32⟩
  | 123 => ⟨S_, .f32⟩
  | 124 => ⟨S512, .f32⟩
  | 125 => ⟨S512, .f32⟩
  | 126 => ⟨S512x1, .f32⟩
  | 127 => ⟨S512x64, .f32⟩
  | _ => ⟨S100000x128, .f32⟩

abbrev hbmTy0_3 (i : Nat) : BufTy := match i % 128 with
  | 0 => ⟨S512x64, .f32⟩
  | 1 => ⟨S1x1600000, .i32⟩
  | 2 => ⟨S1600000, .i32⟩
  | 3 => ⟨S1x1600000, .i32⟩
  | 4 => ⟨S1600000, .i32⟩
  | 5 => ⟨S100000x32, .f32⟩
  | 6 => ⟨S100000, .i32⟩
  | 7 => ⟨S1700000, .i32⟩
  | 8 => ⟨S1700000, .i32⟩
  | 9 => ⟨S_, .f32⟩
  | 10 => ⟨S1700000, .f32⟩
  | 11 => ⟨S_, .f32⟩
  | 12 => ⟨S100000, .f32⟩
  | 13 => ⟨S1700000x1, .i32⟩
  | 14 => ⟨S100000, .f32⟩
  | 15 => ⟨S_, .f32⟩
  | 16 => ⟨S100000, .f32⟩
  | 17 => ⟨S100000, .f32⟩
  | 18 => ⟨S100000, .f32⟩
  | 19 => ⟨S_, .i32⟩
  | 20 => ⟨S1700000, .i32⟩
  | 21 => ⟨S1700000, .i1⟩
  | 22 => ⟨S_, .i32⟩
  | 23 => ⟨S1700000, .i32⟩
  | 24 => ⟨S1700000, .i32⟩
  | 25 => ⟨S1700000, .i32⟩
  | 26 => ⟨S1700000x1, .i32⟩
  | 27 => ⟨S1700000, .f32⟩
  | 28 => ⟨S_, .i32⟩
  | 29 => ⟨S1700000, .i32⟩
  | 30 => ⟨S1700000, .i1⟩
  | 31 => ⟨S_, .i32⟩
  | 32 => ⟨S1700000, .i32⟩
  | 33 => ⟨S1700000, .i32⟩
  | 34 => ⟨S1700000, .i32⟩
  | 35 => ⟨S1700000x1, .i32⟩
  | 36 => ⟨S1700000, .f32⟩
  | 37 => ⟨S1700000, .f32⟩
  | 38 => ⟨S_, .i32⟩
  | 39 => ⟨S1700000, .i32⟩
  | 40 => ⟨S1700000, .i1⟩
  | 41 => ⟨S_, .i32⟩
  | 42 => ⟨S1700000, .i32⟩
  | 43 => ⟨S1700000, .i32⟩
  | 44 => ⟨S1700000, .i32⟩
  | 45 => ⟨S1700000x1, .i32⟩
  | 46 => ⟨S1700000x32, .f32⟩
  | 47 => ⟨S1700000x1, .f32⟩
  | 48 => ⟨S1700000x32, .f32⟩
  | 49 => ⟨S1700000x32, .f32⟩
  | 50 => ⟨S_, .f32⟩
  | 51 => ⟨S100000x32, .f32⟩
  | 52 => ⟨S1700000x1, .i32⟩
  | 53 => ⟨S100000x32, .f32⟩
  | 54 => ⟨S1x32, .f32⟩
  | 55 => ⟨S100000x32, .f32⟩
  | 56 => ⟨S100000x32, .f32⟩
  | 57 => ⟨S_, .f32⟩
  | 58 => ⟨S100000x32, .f32⟩
  | 59 => ⟨S100000x32, .f32⟩
  | 60 => ⟨S100000x64, .f32⟩
  | 61 => ⟨S100000, .i32⟩
  | 62 => ⟨S1700000, .i32⟩
  | 63 => ⟨S1700000, .i32⟩
  | 64 => ⟨S_, .f32⟩
  | 65 => ⟨S1700000, .f32⟩
  | 66 => ⟨S_, .f32⟩
  | 67 => ⟨S100000, .f32⟩
  | 68 => ⟨S1700000x1, .i32⟩
  | 69 => ⟨S100000, .f32⟩
  | 70 => ⟨S_, .f32⟩
  | 71 => ⟨S100000, .f32⟩
  | 72 => ⟨S100000, .f32⟩
  | 73 => ⟨S100000, .f32⟩
  | 74 => ⟨S_, .i32⟩
  | 75 => ⟨S1700000, .i32⟩
  | 76 => ⟨S1700000, .i1⟩
  | 77 => ⟨S_, .i32⟩
  | 78 => ⟨S1700000, .i32⟩
  | 79 => ⟨S1700000, .i32⟩
  | 80 => ⟨S1700000, .i32⟩
  | 81 => ⟨S1700000x1, .i32⟩
  | 82 => ⟨S1700000, .f32⟩
  | 83 => ⟨S_, .i32⟩
  | 84 => ⟨S1700000, .i32⟩
  | 85 => ⟨S1700000, .i1⟩
  | 86 => ⟨S_, .i32⟩
  | 87 => ⟨S1700000, .i32⟩
  | 88 => ⟨S1700000, .i32⟩
  | 89 => ⟨S1700000, .i32⟩
  | 90 => ⟨S1700000x1, .i32⟩
  | 91 => ⟨S1700000, .f32⟩
  | 92 => ⟨S1700000, .f32⟩
  | 93 => ⟨S_, .i32⟩
  | 94 => ⟨S1700000, .i32⟩
  | 95 => ⟨S1700000, .i1⟩
  | 96 => ⟨S_, .i32⟩
  | 97 => ⟨S1700000, .i32⟩
  | 98 => ⟨S1700000, .i32⟩
  | 99 => ⟨S1700000, .i32⟩
  | 100 => ⟨S1700000x1, .i32⟩
  | 101 => ⟨S1700000x64, .f32⟩
  | 102 => ⟨S1700000x1, .f32⟩
  | 103 => ⟨S1700000x64, .f32⟩
  | 104 => ⟨S1700000x64, .f32⟩
  | 105 => ⟨S_, .f32⟩
  | 106 => ⟨S100000x64, .f32⟩
  | 107 => ⟨S1700000x1, .i32⟩
  | 108 => ⟨S100000x64, .f32⟩
  | 109 => ⟨S1x64, .f32⟩
  | 110 => ⟨S100000x64, .f32⟩
  | 111 => ⟨S100000x64, .f32⟩
  | 112 => ⟨S_, .f32⟩
  | 113 => ⟨S100000x64, .f32⟩
  | 114 => ⟨S100000x64, .f32⟩
  | 115 => ⟨S100000x64, .f32⟩
  | 116 => ⟨S100000, .i32⟩
  | 117 => ⟨S1700000, .i32⟩
  | 118 => ⟨S1700000, .i32⟩
  | 119 => ⟨S_, .f32⟩
  | 120 => ⟨S1700000, .f32⟩
  | 121 => ⟨S_, .f32⟩
  | 122 => ⟨S100000, .f32⟩
  | 123 => ⟨S1700000x1, .i32⟩
  | 124 => ⟨S100000, .f32⟩
  | 125 => ⟨S_, .f32⟩
  | 126 => ⟨S100000, .f32⟩
  | 127 => ⟨S100000, .f32⟩
  | _ => ⟨S100000x128, .f32⟩

abbrev hbmTy0_4 (i : Nat) : BufTy := match i % 128 with
  | 0 => ⟨S100000, .f32⟩
  | 1 => ⟨S_, .i32⟩
  | 2 => ⟨S1700000, .i32⟩
  | 3 => ⟨S1700000, .i1⟩
  | 4 => ⟨S_, .i32⟩
  | 5 => ⟨S1700000, .i32⟩
  | 6 => ⟨S1700000, .i32⟩
  | 7 => ⟨S1700000, .i32⟩
  | 8 => ⟨S1700000x1, .i32⟩
  | 9 => ⟨S1700000, .f32⟩
  | 10 => ⟨S_, .i32⟩
  | 11 => ⟨S1700000, .i32⟩
  | 12 => ⟨S1700000, .i1⟩
  | 13 => ⟨S_, .i32⟩
  | 14 => ⟨S1700000, .i32⟩
  | 15 => ⟨S1700000, .i32⟩
  | 16 => ⟨S1700000, .i32⟩
  | 17 => ⟨S1700000x1, .i32⟩
  | 18 => ⟨S1700000, .f32⟩
  | 19 => ⟨S1700000, .f32⟩
  | 20 => ⟨S_, .i32⟩
  | 21 => ⟨S1700000, .i32⟩
  | 22 => ⟨S1700000, .i1⟩
  | 23 => ⟨S_, .i32⟩
  | 24 => ⟨S1700000, .i32⟩
  | 25 => ⟨S1700000, .i32⟩
  | 26 => ⟨S1700000, .i32⟩
  | 27 => ⟨S1700000x1, .i32⟩
  | 28 => ⟨S1700000x64, .f32⟩
  | 29 => ⟨S1700000x1, .f32⟩
  | 30 => ⟨S1700000x64, .f32⟩
  | 31 => ⟨S1700000x64, .f32⟩
  | 32 => ⟨S_, .f32⟩
  | 33 => ⟨S100000x64, .f32⟩
  | 34 => ⟨S1700000x1, .i32⟩
  | 35 => ⟨S100000x64, .f32⟩
  | 36 => ⟨S1x64, .f32⟩
  | 37 => ⟨S100000x64, .f32⟩
  | 38 => ⟨S100000x64, .f32⟩
  | 39 => ⟨S_, .f32⟩
  | 40 => ⟨S100000x64, .f32⟩
  | 41 => ⟨S100000x64, .f32⟩
  | 42 => ⟨S_, .f32⟩
  | 43 => ⟨S512x64, .f32⟩
  | 44 => ⟨S100000x1, .i32⟩
  | 45 => ⟨S512x64, .f32⟩
  | 46 => ⟨S_, .f32⟩
  | 47 => ⟨S100000, .f32⟩
  | 48 => ⟨S_, .f32⟩
  | 49 => ⟨S512, .f32⟩
  | 50 => ⟨S100000x1, .i32⟩
  | 51 => ⟨S512, .f32⟩
  | 52 => ⟨S_, .f32⟩
  | 53 => ⟨S512, .f32⟩
  | 54 => ⟨S512, .f32⟩
  | 55 => ⟨S512x1, .f32⟩
  | 56 => ⟨S512x64, .f32⟩
  | 57 => ⟨S512x64, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst : Ref sig .tc := ⟨.hbm, 23, rfl⟩
abbrev main_v8 : Ref sig .tc := ⟨.hbm, 24, rfl⟩
abbrev main_cst_0 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_1 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_c_2 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_c_3 : Ref sig .tc := ⟨.hbm, 42, rfl⟩
abbrev main_v22 : Ref sig .tc := ⟨.hbm, 43, rfl⟩
abbrev main_v23 : Ref sig .tc := ⟨.hbm, 44, rfl⟩
abbrev main_c_4 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_c_5 : Ref sig .tc := ⟨.hbm, 52, rfl⟩
abbrev main_v30 : Ref sig .tc := ⟨.hbm, 53, rfl⟩
abbrev main_v31 : Ref sig .tc := ⟨.hbm, 54, rfl⟩
abbrev main_c_6 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_cst_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_call0_cst : Ref sig .tc := ⟨.hbm, 71, rfl⟩
abbrev main_call0_v0 : Ref sig .tc := ⟨.hbm, 72, rfl⟩
abbrev main_v46 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_cst_8 : Ref sig .tc := ⟨.hbm, 78, rfl⟩
abbrev main_v51 : Ref sig .tc := ⟨.hbm, 79, rfl⟩
abbrev main_cst_9 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_10 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_c_11 : Ref sig .tc := ⟨.hbm, 88, rfl⟩
abbrev main_v58 : Ref sig .tc := ⟨.hbm, 89, rfl⟩
abbrev main_v59 : Ref sig .tc := ⟨.hbm, 90, rfl⟩
abbrev main_c_12 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_13 : Ref sig .tc := ⟨.hbm, 97, rfl⟩
abbrev main_v65 : Ref sig .tc := ⟨.hbm, 98, rfl⟩
abbrev main_v66 : Ref sig .tc := ⟨.hbm, 99, rfl⟩
abbrev main_c_14 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_c_15 : Ref sig .tc := ⟨.hbm, 107, rfl⟩
abbrev main_v73 : Ref sig .tc := ⟨.hbm, 108, rfl⟩
abbrev main_v74 : Ref sig .tc := ⟨.hbm, 109, rfl⟩
abbrev main_c_16 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_17 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_call1_cst : Ref sig .tc := ⟨.hbm, 126, rfl⟩
abbrev main_call1_v0 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_v92 : Ref sig .tc := ⟨.hbm, 131, rfl⟩
abbrev main_v93 : Ref sig .tc := ⟨.hbm, 132, rfl⟩
abbrev main_cst_18 : Ref sig .tc := ⟨.hbm, 133, rfl⟩
abbrev main_v94 : Ref sig .tc := ⟨.hbm, 134, rfl⟩
abbrev main_cst_19 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_cst_20 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_c_21 : Ref sig .tc := ⟨.hbm, 143, rfl⟩
abbrev main_v101 : Ref sig .tc := ⟨.hbm, 144, rfl⟩
abbrev main_v102 : Ref sig .tc := ⟨.hbm, 145, rfl⟩
abbrev main_c_22 : Ref sig .tc := ⟨.hbm, 146, rfl⟩
abbrev main_v103 : Ref sig .tc := ⟨.hbm, 147, rfl⟩
abbrev main_v104 : Ref sig .tc := ⟨.hbm, 148, rfl⟩
abbrev main_v105 : Ref sig .tc := ⟨.hbm, 149, rfl⟩
abbrev main_v106 : Ref sig .tc := ⟨.hbm, 150, rfl⟩
abbrev main_v107 : Ref sig .tc := ⟨.hbm, 151, rfl⟩
abbrev main_c_23 : Ref sig .tc := ⟨.hbm, 152, rfl⟩
abbrev main_v108 : Ref sig .tc := ⟨.hbm, 153, rfl⟩
abbrev main_v109 : Ref sig .tc := ⟨.hbm, 154, rfl⟩
abbrev main_c_24 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_c_25 : Ref sig .tc := ⟨.hbm, 162, rfl⟩
abbrev main_v116 : Ref sig .tc := ⟨.hbm, 163, rfl⟩
abbrev main_v117 : Ref sig .tc := ⟨.hbm, 164, rfl⟩
abbrev main_c_26 : Ref sig .tc := ⟨.hbm, 165, rfl⟩
abbrev main_v118 : Ref sig .tc := ⟨.hbm, 166, rfl⟩
abbrev main_v119 : Ref sig .tc := ⟨.hbm, 167, rfl⟩
abbrev main_v120 : Ref sig .tc := ⟨.hbm, 168, rfl⟩
abbrev main_v121 : Ref sig .tc := ⟨.hbm, 169, rfl⟩
abbrev main_v122 : Ref sig .tc := ⟨.hbm, 170, rfl⟩
abbrev main_v123 : Ref sig .tc := ⟨.hbm, 171, rfl⟩
abbrev main_v124 : Ref sig .tc := ⟨.hbm, 172, rfl⟩
abbrev main_v125 : Ref sig .tc := ⟨.hbm, 173, rfl⟩
abbrev main_cst_27 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_call2_cst : Ref sig .tc := ⟨.hbm, 181, rfl⟩
abbrev main_call2_v0 : Ref sig .tc := ⟨.hbm, 182, rfl⟩
abbrev main_v132 : Ref sig .tc := ⟨.hbm, 183, rfl⟩
abbrev main_cst_28 : Ref sig .tc := ⟨.hbm, 184, rfl⟩
abbrev main_v133 : Ref sig .tc := ⟨.hbm, 185, rfl⟩
abbrev main_v134 : Ref sig .tc := ⟨.hbm, 186, rfl⟩
abbrev main_v135 : Ref sig .tc := ⟨.hbm, 187, rfl⟩
abbrev main_cst_29 : Ref sig .tc := ⟨.hbm, 188, rfl⟩
abbrev main_v136 : Ref sig .tc := ⟨.hbm, 189, rfl⟩
abbrev main_cst_30 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_cst_31 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_v150 : Ref sig .tc := ⟨.hbm, 205, rfl⟩
abbrev main_v151 : Ref sig .tc := ⟨.hbm, 206, rfl⟩
abbrev main_v152 : Ref sig .tc := ⟨.hbm, 207, rfl⟩
abbrev main_cst_32 : Ref sig .tc := ⟨.hbm, 208, rfl⟩
abbrev main_v153 : Ref sig .tc := ⟨.hbm, 209, rfl⟩
abbrev main_cst_33 : Ref sig .tc := ⟨.hbm, 210, rfl⟩
abbrev main_v154 : Ref sig .tc := ⟨.hbm, 211, rfl⟩
abbrev main_v155 : Ref sig .tc := ⟨.hbm, 212, rfl⟩
abbrev main_v156 : Ref sig .tc := ⟨.hbm, 213, rfl⟩
abbrev main_cst_34 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_c_35 : Ref sig .tc := ⟨.hbm, 218, rfl⟩
abbrev main_v160 : Ref sig .tc := ⟨.hbm, 219, rfl⟩
abbrev main_v161 : Ref sig .tc := ⟨.hbm, 220, rfl⟩
abbrev main_c_36 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_v165 : Ref sig .tc := ⟨.hbm, 225, rfl⟩
abbrev main_v166 : Ref sig .tc := ⟨.hbm, 226, rfl⟩
abbrev main_c_37 : Ref sig .tc := ⟨.hbm, 227, rfl⟩
abbrev main_v167 : Ref sig .tc := ⟨.hbm, 228, rfl⟩
abbrev main_v168 : Ref sig .tc := ⟨.hbm, 229, rfl⟩
abbrev main_c_38 : Ref sig .tc := ⟨.hbm, 230, rfl⟩
abbrev main_v169 : Ref sig .tc := ⟨.hbm, 231, rfl⟩
abbrev main_v170 : Ref sig .tc := ⟨.hbm, 232, rfl⟩
abbrev main_v171 : Ref sig .tc := ⟨.hbm, 233, rfl⟩
abbrev main_v172 : Ref sig .tc := ⟨.hbm, 234, rfl⟩
abbrev main_v173 : Ref sig .tc := ⟨.hbm, 235, rfl⟩
abbrev main_v174 : Ref sig .tc := ⟨.hbm, 236, rfl⟩
abbrev main_c_39 : Ref sig .tc := ⟨.hbm, 237, rfl⟩
abbrev main_v175 : Ref sig .tc := ⟨.hbm, 238, rfl⟩
abbrev main_v176 : Ref sig .tc := ⟨.hbm, 239, rfl⟩
abbrev main_c_40 : Ref sig .tc := ⟨.hbm, 240, rfl⟩
abbrev main_v177 : Ref sig .tc := ⟨.hbm, 241, rfl⟩
abbrev main_v178 : Ref sig .tc := ⟨.hbm, 242, rfl⟩
abbrev main_v179 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_cst_41 : Ref sig .tc := ⟨.hbm, 249, rfl⟩
abbrev main_v185 : Ref sig .tc := ⟨.hbm, 250, rfl⟩
abbrev main_v186 : Ref sig .tc := ⟨.hbm, 251, rfl⟩
abbrev main_v187 : Ref sig .tc := ⟨.hbm, 252, rfl⟩
abbrev main_v188 : Ref sig .tc := ⟨.hbm, 253, rfl⟩
abbrev main_v189 : Ref sig .tc := ⟨.hbm, 254, rfl⟩
abbrev main_v190 : Ref sig .tc := ⟨.hbm, 255, rfl⟩
abbrev main_call3_cst : Ref sig .tc := ⟨.hbm, 256, rfl⟩
abbrev main_call3_v0 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_cst_42 : Ref sig .tc := ⟨.hbm, 263, rfl⟩
abbrev main_v196 : Ref sig .tc := ⟨.hbm, 264, rfl⟩
abbrev main_cst_43 : Ref sig .tc := ⟨.hbm, 265, rfl⟩
abbrev main_v197 : Ref sig .tc := ⟨.hbm, 266, rfl⟩
abbrev main_v198 : Ref sig .tc := ⟨.hbm, 267, rfl⟩
abbrev main_v199 : Ref sig .tc := ⟨.hbm, 268, rfl⟩
abbrev main_cst_44 : Ref sig .tc := ⟨.hbm, 269, rfl⟩
abbrev main_v200 : Ref sig .tc := ⟨.hbm, 270, rfl⟩
abbrev main_v201 : Ref sig .tc := ⟨.hbm, 271, rfl⟩
abbrev main_v202 : Ref sig .tc := ⟨.hbm, 272, rfl⟩
abbrev main_c_45 : Ref sig .tc := ⟨.hbm, 273, rfl⟩
abbrev main_v203 : Ref sig .tc := ⟨.hbm, 274, rfl⟩
abbrev main_v204 : Ref sig .tc := ⟨.hbm, 275, rfl⟩
abbrev main_c_46 : Ref sig .tc := ⟨.hbm, 276, rfl⟩
abbrev main_v205 : Ref sig .tc := ⟨.hbm, 277, rfl⟩
abbrev main_v206 : Ref sig .tc := ⟨.hbm, 278, rfl⟩
abbrev main_v207 : Ref sig .tc := ⟨.hbm, 279, rfl⟩
abbrev main_v208 : Ref sig .tc := ⟨.hbm, 280, rfl⟩
abbrev main_v209 : Ref sig .tc := ⟨.hbm, 281, rfl⟩
abbrev main_c_47 : Ref sig .tc := ⟨.hbm, 282, rfl⟩
abbrev main_v210 : Ref sig .tc := ⟨.hbm, 283, rfl⟩
abbrev main_v211 : Ref sig .tc := ⟨.hbm, 284, rfl⟩
abbrev main_c_48 : Ref sig .tc := ⟨.hbm, 285, rfl⟩
abbrev main_v212 : Ref sig .tc := ⟨.hbm, 286, rfl⟩
abbrev main_v213 : Ref sig .tc := ⟨.hbm, 287, rfl⟩
abbrev main_v214 : Ref sig .tc := ⟨.hbm, 288, rfl⟩
abbrev main_v215 : Ref sig .tc := ⟨.hbm, 289, rfl⟩
abbrev main_v216 : Ref sig .tc := ⟨.hbm, 290, rfl⟩
abbrev main_v217 : Ref sig .tc := ⟨.hbm, 291, rfl⟩
abbrev main_c_49 : Ref sig .tc := ⟨.hbm, 292, rfl⟩
abbrev main_v218 : Ref sig .tc := ⟨.hbm, 293, rfl⟩
abbrev main_v219 : Ref sig .tc := ⟨.hbm, 294, rfl⟩
abbrev main_c_50 : Ref sig .tc := ⟨.hbm, 295, rfl⟩
abbrev main_v220 : Ref sig .tc := ⟨.hbm, 296, rfl⟩
abbrev main_v221 : Ref sig .tc := ⟨.hbm, 297, rfl⟩
abbrev main_v222 : Ref sig .tc := ⟨.hbm, 298, rfl⟩
abbrev main_v223 : Ref sig .tc := ⟨.hbm, 299, rfl⟩
abbrev main_v224 : Ref sig .tc := ⟨.hbm, 300, rfl⟩
abbrev main_v225 : Ref sig .tc := ⟨.hbm, 301, rfl⟩
abbrev main_v226 : Ref sig .tc := ⟨.hbm, 302, rfl⟩
abbrev main_v227 : Ref sig .tc := ⟨.hbm, 303, rfl⟩
abbrev main_cst_51 : Ref sig .tc := ⟨.hbm, 304, rfl⟩
abbrev main_v228 : Ref sig .tc := ⟨.hbm, 305, rfl⟩
abbrev main_v229 : Ref sig .tc := ⟨.hbm, 306, rfl⟩
abbrev main_v230 : Ref sig .tc := ⟨.hbm, 307, rfl⟩
abbrev main_v231 : Ref sig .tc := ⟨.hbm, 308, rfl⟩
abbrev main_v232 : Ref sig .tc := ⟨.hbm, 309, rfl⟩
abbrev main_v233 : Ref sig .tc := ⟨.hbm, 310, rfl⟩
abbrev main_call4_cst : Ref sig .tc := ⟨.hbm, 311, rfl⟩
abbrev main_call4_v0 : Ref sig .tc := ⟨.hbm, 312, rfl⟩
abbrev main_v234 : Ref sig .tc := ⟨.hbm, 313, rfl⟩
abbrev main_v235 : Ref sig .tc := ⟨.hbm, 314, rfl⟩
abbrev main_v236 : Ref sig .tc := ⟨.hbm, 315, rfl⟩
abbrev main_v237 : Ref sig .tc := ⟨.hbm, 316, rfl⟩
abbrev main_v238 : Ref sig .tc := ⟨.hbm, 317, rfl⟩
abbrev main_cst_52 : Ref sig .tc := ⟨.hbm, 318, rfl⟩
abbrev main_v239 : Ref sig .tc := ⟨.hbm, 319, rfl⟩
abbrev main_cst_53 : Ref sig .tc := ⟨.hbm, 320, rfl⟩
abbrev main_v240 : Ref sig .tc := ⟨.hbm, 321, rfl⟩
abbrev main_v241 : Ref sig .tc := ⟨.hbm, 322, rfl⟩
abbrev main_v242 : Ref sig .tc := ⟨.hbm, 323, rfl⟩
abbrev main_cst_54 : Ref sig .tc := ⟨.hbm, 324, rfl⟩
abbrev main_v243 : Ref sig .tc := ⟨.hbm, 325, rfl⟩
abbrev main_v244 : Ref sig .tc := ⟨.hbm, 326, rfl⟩
abbrev main_v245 : Ref sig .tc := ⟨.hbm, 327, rfl⟩
abbrev main_c_55 : Ref sig .tc := ⟨.hbm, 328, rfl⟩
abbrev main_v246 : Ref sig .tc := ⟨.hbm, 329, rfl⟩
abbrev main_v247 : Ref sig .tc := ⟨.hbm, 330, rfl⟩
abbrev main_c_56 : Ref sig .tc := ⟨.hbm, 331, rfl⟩
abbrev main_v248 : Ref sig .tc := ⟨.hbm, 332, rfl⟩
abbrev main_v249 : Ref sig .tc := ⟨.hbm, 333, rfl⟩
abbrev main_v250 : Ref sig .tc := ⟨.hbm, 334, rfl⟩
abbrev main_v251 : Ref sig .tc := ⟨.hbm, 335, rfl⟩
abbrev main_v252 : Ref sig .tc := ⟨.hbm, 336, rfl⟩
abbrev main_c_57 : Ref sig .tc := ⟨.hbm, 337, rfl⟩
abbrev main_v253 : Ref sig .tc := ⟨.hbm, 338, rfl⟩
abbrev main_v254 : Ref sig .tc := ⟨.hbm, 339, rfl⟩
abbrev main_c_58 : Ref sig .tc := ⟨.hbm, 340, rfl⟩
abbrev main_v255 : Ref sig .tc := ⟨.hbm, 341, rfl⟩
abbrev main_v256 : Ref sig .tc := ⟨.hbm, 342, rfl⟩
abbrev main_v257 : Ref sig .tc := ⟨.hbm, 343, rfl⟩
abbrev main_v258 : Ref sig .tc := ⟨.hbm, 344, rfl⟩
abbrev main_v259 : Ref sig .tc := ⟨.hbm, 345, rfl⟩
abbrev main_v260 : Ref sig .tc := ⟨.hbm, 346, rfl⟩
abbrev main_c_59 : Ref sig .tc := ⟨.hbm, 347, rfl⟩
abbrev main_v261 : Ref sig .tc := ⟨.hbm, 348, rfl⟩
abbrev main_v262 : Ref sig .tc := ⟨.hbm, 349, rfl⟩
abbrev main_c_60 : Ref sig .tc := ⟨.hbm, 350, rfl⟩
abbrev main_v263 : Ref sig .tc := ⟨.hbm, 351, rfl⟩
abbrev main_v264 : Ref sig .tc := ⟨.hbm, 352, rfl⟩
abbrev main_v265 : Ref sig .tc := ⟨.hbm, 353, rfl⟩
abbrev main_v266 : Ref sig .tc := ⟨.hbm, 354, rfl⟩
abbrev main_v267 : Ref sig .tc := ⟨.hbm, 355, rfl⟩
abbrev main_v268 : Ref sig .tc := ⟨.hbm, 356, rfl⟩
abbrev main_v269 : Ref sig .tc := ⟨.hbm, 357, rfl⟩
abbrev main_v270 : Ref sig .tc := ⟨.hbm, 358, rfl⟩
abbrev main_cst_61 : Ref sig .tc := ⟨.hbm, 359, rfl⟩
abbrev main_v271 : Ref sig .tc := ⟨.hbm, 360, rfl⟩
abbrev main_v272 : Ref sig .tc := ⟨.hbm, 361, rfl⟩
abbrev main_v273 : Ref sig .tc := ⟨.hbm, 362, rfl⟩
abbrev main_v274 : Ref sig .tc := ⟨.hbm, 363, rfl⟩
abbrev main_v275 : Ref sig .tc := ⟨.hbm, 364, rfl⟩
abbrev main_v276 : Ref sig .tc := ⟨.hbm, 365, rfl⟩
abbrev main_call5_cst : Ref sig .tc := ⟨.hbm, 366, rfl⟩
abbrev main_call5_v0 : Ref sig .tc := ⟨.hbm, 367, rfl⟩
abbrev main_v277 : Ref sig .tc := ⟨.hbm, 368, rfl⟩
abbrev main_cst_62 : Ref sig .tc := ⟨.hbm, 369, rfl⟩
abbrev main_v278 : Ref sig .tc := ⟨.hbm, 370, rfl⟩
abbrev main_v279 : Ref sig .tc := ⟨.hbm, 371, rfl⟩
abbrev main_v280 : Ref sig .tc := ⟨.hbm, 372, rfl⟩
abbrev main_cst_63 : Ref sig .tc := ⟨.hbm, 373, rfl⟩
abbrev main_v281 : Ref sig .tc := ⟨.hbm, 374, rfl⟩
abbrev main_cst_64 : Ref sig .tc := ⟨.hbm, 375, rfl⟩
abbrev main_v282 : Ref sig .tc := ⟨.hbm, 376, rfl⟩
abbrev main_v283 : Ref sig .tc := ⟨.hbm, 377, rfl⟩
abbrev main_v284 : Ref sig .tc := ⟨.hbm, 378, rfl⟩
abbrev main_cst_65 : Ref sig .tc := ⟨.hbm, 379, rfl⟩
abbrev main_v285 : Ref sig .tc := ⟨.hbm, 380, rfl⟩
abbrev main_v286 : Ref sig .tc := ⟨.hbm, 381, rfl⟩
abbrev main_v287 : Ref sig .tc := ⟨.hbm, 382, rfl⟩
abbrev main_v288 : Ref sig .tc := ⟨.hbm, 383, rfl⟩
abbrev main_v289 : Ref sig .tc := ⟨.hbm, 384, rfl⟩
abbrev main_v290 : Ref sig .tc := ⟨.hbm, 385, rfl⟩
abbrev main_v291 : Ref sig .tc := ⟨.hbm, 386, rfl⟩
abbrev main_v292 : Ref sig .tc := ⟨.hbm, 387, rfl⟩
abbrev main_v293 : Ref sig .tc := ⟨.hbm, 388, rfl⟩
abbrev main_v294 : Ref sig .tc := ⟨.hbm, 389, rfl⟩
abbrev main_v295 : Ref sig .tc := ⟨.hbm, 390, rfl⟩
abbrev main_v296 : Ref sig .tc := ⟨.hbm, 391, rfl⟩
abbrev main_v297 : Ref sig .tc := ⟨.hbm, 392, rfl⟩
abbrev main_cst_66 : Ref sig .tc := ⟨.hbm, 393, rfl⟩
abbrev main_v298 : Ref sig .tc := ⟨.hbm, 394, rfl⟩
abbrev main_cst_67 : Ref sig .tc := ⟨.hbm, 395, rfl⟩
abbrev main_v299 : Ref sig .tc := ⟨.hbm, 396, rfl⟩
abbrev main_v300 : Ref sig .tc := ⟨.hbm, 397, rfl⟩
abbrev main_v301 : Ref sig .tc := ⟨.hbm, 398, rfl⟩
abbrev main_cst_68 : Ref sig .tc := ⟨.hbm, 399, rfl⟩
abbrev main_v302 : Ref sig .tc := ⟨.hbm, 400, rfl⟩
abbrev main_v303 : Ref sig .tc := ⟨.hbm, 401, rfl⟩
abbrev main_v304 : Ref sig .tc := ⟨.hbm, 402, rfl⟩
abbrev main_c_69 : Ref sig .tc := ⟨.hbm, 403, rfl⟩
abbrev main_v305 : Ref sig .tc := ⟨.hbm, 404, rfl⟩
abbrev main_v306 : Ref sig .tc := ⟨.hbm, 405, rfl⟩
abbrev main_c_70 : Ref sig .tc := ⟨.hbm, 406, rfl⟩
abbrev main_v307 : Ref sig .tc := ⟨.hbm, 407, rfl⟩
abbrev main_v308 : Ref sig .tc := ⟨.hbm, 408, rfl⟩
abbrev main_v309 : Ref sig .tc := ⟨.hbm, 409, rfl⟩
abbrev main_v310 : Ref sig .tc := ⟨.hbm, 410, rfl⟩
abbrev main_v311 : Ref sig .tc := ⟨.hbm, 411, rfl⟩
abbrev main_c_71 : Ref sig .tc := ⟨.hbm, 412, rfl⟩
abbrev main_v312 : Ref sig .tc := ⟨.hbm, 413, rfl⟩
abbrev main_v313 : Ref sig .tc := ⟨.hbm, 414, rfl⟩
abbrev main_c_72 : Ref sig .tc := ⟨.hbm, 415, rfl⟩
abbrev main_v314 : Ref sig .tc := ⟨.hbm, 416, rfl⟩
abbrev main_v315 : Ref sig .tc := ⟨.hbm, 417, rfl⟩
abbrev main_v316 : Ref sig .tc := ⟨.hbm, 418, rfl⟩
abbrev main_v317 : Ref sig .tc := ⟨.hbm, 419, rfl⟩
abbrev main_v318 : Ref sig .tc := ⟨.hbm, 420, rfl⟩
abbrev main_v319 : Ref sig .tc := ⟨.hbm, 421, rfl⟩
abbrev main_c_73 : Ref sig .tc := ⟨.hbm, 422, rfl⟩
abbrev main_v320 : Ref sig .tc := ⟨.hbm, 423, rfl⟩
abbrev main_v321 : Ref sig .tc := ⟨.hbm, 424, rfl⟩
abbrev main_c_74 : Ref sig .tc := ⟨.hbm, 425, rfl⟩
abbrev main_v322 : Ref sig .tc := ⟨.hbm, 426, rfl⟩
abbrev main_v323 : Ref sig .tc := ⟨.hbm, 427, rfl⟩
abbrev main_v324 : Ref sig .tc := ⟨.hbm, 428, rfl⟩
abbrev main_v325 : Ref sig .tc := ⟨.hbm, 429, rfl⟩
abbrev main_v326 : Ref sig .tc := ⟨.hbm, 430, rfl⟩
abbrev main_v327 : Ref sig .tc := ⟨.hbm, 431, rfl⟩
abbrev main_v328 : Ref sig .tc := ⟨.hbm, 432, rfl⟩
abbrev main_v329 : Ref sig .tc := ⟨.hbm, 433, rfl⟩
abbrev main_cst_75 : Ref sig .tc := ⟨.hbm, 434, rfl⟩
abbrev main_v330 : Ref sig .tc := ⟨.hbm, 435, rfl⟩
abbrev main_v331 : Ref sig .tc := ⟨.hbm, 436, rfl⟩
abbrev main_v332 : Ref sig .tc := ⟨.hbm, 437, rfl⟩
abbrev main_v333 : Ref sig .tc := ⟨.hbm, 438, rfl⟩
abbrev main_v334 : Ref sig .tc := ⟨.hbm, 439, rfl⟩
abbrev main_v335 : Ref sig .tc := ⟨.hbm, 440, rfl⟩
abbrev main_call6_cst : Ref sig .tc := ⟨.hbm, 441, rfl⟩
abbrev main_call6_v0 : Ref sig .tc := ⟨.hbm, 442, rfl⟩
abbrev main_v336 : Ref sig .tc := ⟨.hbm, 443, rfl⟩
abbrev main_v337 : Ref sig .tc := ⟨.hbm, 444, rfl⟩
abbrev main_v338 : Ref sig .tc := ⟨.hbm, 445, rfl⟩
abbrev main_v339 : Ref sig .tc := ⟨.hbm, 446, rfl⟩
abbrev main_v340 : Ref sig .tc := ⟨.hbm, 447, rfl⟩
abbrev main_cst_76 : Ref sig .tc := ⟨.hbm, 448, rfl⟩
abbrev main_v341 : Ref sig .tc := ⟨.hbm, 449, rfl⟩
abbrev main_cst_77 : Ref sig .tc := ⟨.hbm, 450, rfl⟩
abbrev main_v342 : Ref sig .tc := ⟨.hbm, 451, rfl⟩
abbrev main_v343 : Ref sig .tc := ⟨.hbm, 452, rfl⟩
abbrev main_v344 : Ref sig .tc := ⟨.hbm, 453, rfl⟩
abbrev main_cst_78 : Ref sig .tc := ⟨.hbm, 454, rfl⟩
abbrev main_v345 : Ref sig .tc := ⟨.hbm, 455, rfl⟩
abbrev main_v346 : Ref sig .tc := ⟨.hbm, 456, rfl⟩
abbrev main_v347 : Ref sig .tc := ⟨.hbm, 457, rfl⟩
abbrev main_c_79 : Ref sig .tc := ⟨.hbm, 458, rfl⟩
abbrev main_v348 : Ref sig .tc := ⟨.hbm, 459, rfl⟩
abbrev main_v349 : Ref sig .tc := ⟨.hbm, 460, rfl⟩
abbrev main_c_80 : Ref sig .tc := ⟨.hbm, 461, rfl⟩
abbrev main_v350 : Ref sig .tc := ⟨.hbm, 462, rfl⟩
abbrev main_v351 : Ref sig .tc := ⟨.hbm, 463, rfl⟩
abbrev main_v352 : Ref sig .tc := ⟨.hbm, 464, rfl⟩
abbrev main_v353 : Ref sig .tc := ⟨.hbm, 465, rfl⟩
abbrev main_v354 : Ref sig .tc := ⟨.hbm, 466, rfl⟩
abbrev main_c_81 : Ref sig .tc := ⟨.hbm, 467, rfl⟩
abbrev main_v355 : Ref sig .tc := ⟨.hbm, 468, rfl⟩
abbrev main_v356 : Ref sig .tc := ⟨.hbm, 469, rfl⟩
abbrev main_c_82 : Ref sig .tc := ⟨.hbm, 470, rfl⟩
abbrev main_v357 : Ref sig .tc := ⟨.hbm, 471, rfl⟩
abbrev main_v358 : Ref sig .tc := ⟨.hbm, 472, rfl⟩
abbrev main_v359 : Ref sig .tc := ⟨.hbm, 473, rfl⟩
abbrev main_v360 : Ref sig .tc := ⟨.hbm, 474, rfl⟩
abbrev main_v361 : Ref sig .tc := ⟨.hbm, 475, rfl⟩
abbrev main_v362 : Ref sig .tc := ⟨.hbm, 476, rfl⟩
abbrev main_c_83 : Ref sig .tc := ⟨.hbm, 477, rfl⟩
abbrev main_v363 : Ref sig .tc := ⟨.hbm, 478, rfl⟩
abbrev main_v364 : Ref sig .tc := ⟨.hbm, 479, rfl⟩
abbrev main_c_84 : Ref sig .tc := ⟨.hbm, 480, rfl⟩
abbrev main_v365 : Ref sig .tc := ⟨.hbm, 481, rfl⟩
abbrev main_v366 : Ref sig .tc := ⟨.hbm, 482, rfl⟩
abbrev main_v367 : Ref sig .tc := ⟨.hbm, 483, rfl⟩
abbrev main_v368 : Ref sig .tc := ⟨.hbm, 484, rfl⟩
abbrev main_v369 : Ref sig .tc := ⟨.hbm, 485, rfl⟩
abbrev main_v370 : Ref sig .tc := ⟨.hbm, 486, rfl⟩
abbrev main_v371 : Ref sig .tc := ⟨.hbm, 487, rfl⟩
abbrev main_v372 : Ref sig .tc := ⟨.hbm, 488, rfl⟩
abbrev main_cst_85 : Ref sig .tc := ⟨.hbm, 489, rfl⟩
abbrev main_v373 : Ref sig .tc := ⟨.hbm, 490, rfl⟩
abbrev main_v374 : Ref sig .tc := ⟨.hbm, 491, rfl⟩
abbrev main_v375 : Ref sig .tc := ⟨.hbm, 492, rfl⟩
abbrev main_v376 : Ref sig .tc := ⟨.hbm, 493, rfl⟩
abbrev main_v377 : Ref sig .tc := ⟨.hbm, 494, rfl⟩
abbrev main_v378 : Ref sig .tc := ⟨.hbm, 495, rfl⟩
abbrev main_call7_cst : Ref sig .tc := ⟨.hbm, 496, rfl⟩
abbrev main_call7_v0 : Ref sig .tc := ⟨.hbm, 497, rfl⟩
abbrev main_v379 : Ref sig .tc := ⟨.hbm, 498, rfl⟩
abbrev main_v380 : Ref sig .tc := ⟨.hbm, 499, rfl⟩
abbrev main_v381 : Ref sig .tc := ⟨.hbm, 500, rfl⟩
abbrev main_v382 : Ref sig .tc := ⟨.hbm, 501, rfl⟩
abbrev main_v383 : Ref sig .tc := ⟨.hbm, 502, rfl⟩
abbrev main_cst_86 : Ref sig .tc := ⟨.hbm, 503, rfl⟩
abbrev main_v384 : Ref sig .tc := ⟨.hbm, 504, rfl⟩
abbrev main_cst_87 : Ref sig .tc := ⟨.hbm, 505, rfl⟩
abbrev main_v385 : Ref sig .tc := ⟨.hbm, 506, rfl⟩
abbrev main_v386 : Ref sig .tc := ⟨.hbm, 507, rfl⟩
abbrev main_v387 : Ref sig .tc := ⟨.hbm, 508, rfl⟩
abbrev main_cst_88 : Ref sig .tc := ⟨.hbm, 509, rfl⟩
abbrev main_v388 : Ref sig .tc := ⟨.hbm, 510, rfl⟩
abbrev main_v389 : Ref sig .tc := ⟨.hbm, 511, rfl⟩
abbrev main_v390 : Ref sig .tc := ⟨.hbm, 512, rfl⟩
abbrev main_c_89 : Ref sig .tc := ⟨.hbm, 513, rfl⟩
abbrev main_v391 : Ref sig .tc := ⟨.hbm, 514, rfl⟩
abbrev main_v392 : Ref sig .tc := ⟨.hbm, 515, rfl⟩
abbrev main_c_90 : Ref sig .tc := ⟨.hbm, 516, rfl⟩
abbrev main_v393 : Ref sig .tc := ⟨.hbm, 517, rfl⟩
abbrev main_v394 : Ref sig .tc := ⟨.hbm, 518, rfl⟩
abbrev main_v395 : Ref sig .tc := ⟨.hbm, 519, rfl⟩
abbrev main_v396 : Ref sig .tc := ⟨.hbm, 520, rfl⟩
abbrev main_v397 : Ref sig .tc := ⟨.hbm, 521, rfl⟩
abbrev main_c_91 : Ref sig .tc := ⟨.hbm, 522, rfl⟩
abbrev main_v398 : Ref sig .tc := ⟨.hbm, 523, rfl⟩
abbrev main_v399 : Ref sig .tc := ⟨.hbm, 524, rfl⟩
abbrev main_c_92 : Ref sig .tc := ⟨.hbm, 525, rfl⟩
abbrev main_v400 : Ref sig .tc := ⟨.hbm, 526, rfl⟩
abbrev main_v401 : Ref sig .tc := ⟨.hbm, 527, rfl⟩
abbrev main_v402 : Ref sig .tc := ⟨.hbm, 528, rfl⟩
abbrev main_v403 : Ref sig .tc := ⟨.hbm, 529, rfl⟩
abbrev main_v404 : Ref sig .tc := ⟨.hbm, 530, rfl⟩
abbrev main_v405 : Ref sig .tc := ⟨.hbm, 531, rfl⟩
abbrev main_c_93 : Ref sig .tc := ⟨.hbm, 532, rfl⟩
abbrev main_v406 : Ref sig .tc := ⟨.hbm, 533, rfl⟩
abbrev main_v407 : Ref sig .tc := ⟨.hbm, 534, rfl⟩
abbrev main_c_94 : Ref sig .tc := ⟨.hbm, 535, rfl⟩
abbrev main_v408 : Ref sig .tc := ⟨.hbm, 536, rfl⟩
abbrev main_v409 : Ref sig .tc := ⟨.hbm, 537, rfl⟩
abbrev main_v410 : Ref sig .tc := ⟨.hbm, 538, rfl⟩
abbrev main_v411 : Ref sig .tc := ⟨.hbm, 539, rfl⟩
abbrev main_v412 : Ref sig .tc := ⟨.hbm, 540, rfl⟩
abbrev main_v413 : Ref sig .tc := ⟨.hbm, 541, rfl⟩
abbrev main_v414 : Ref sig .tc := ⟨.hbm, 542, rfl⟩
abbrev main_v415 : Ref sig .tc := ⟨.hbm, 543, rfl⟩
abbrev main_cst_95 : Ref sig .tc := ⟨.hbm, 544, rfl⟩
abbrev main_v416 : Ref sig .tc := ⟨.hbm, 545, rfl⟩
abbrev main_v417 : Ref sig .tc := ⟨.hbm, 546, rfl⟩
abbrev main_v418 : Ref sig .tc := ⟨.hbm, 547, rfl⟩
abbrev main_v419 : Ref sig .tc := ⟨.hbm, 548, rfl⟩
abbrev main_v420 : Ref sig .tc := ⟨.hbm, 549, rfl⟩
abbrev main_v421 : Ref sig .tc := ⟨.hbm, 550, rfl⟩
abbrev main_call8_cst : Ref sig .tc := ⟨.hbm, 551, rfl⟩
abbrev main_call8_v0 : Ref sig .tc := ⟨.hbm, 552, rfl⟩
abbrev main_v422 : Ref sig .tc := ⟨.hbm, 553, rfl⟩
abbrev main_cst_96 : Ref sig .tc := ⟨.hbm, 554, rfl⟩
abbrev main_v423 : Ref sig .tc := ⟨.hbm, 555, rfl⟩
abbrev main_v424 : Ref sig .tc := ⟨.hbm, 556, rfl⟩
abbrev main_v425 : Ref sig .tc := ⟨.hbm, 557, rfl⟩
abbrev main_cst_97 : Ref sig .tc := ⟨.hbm, 558, rfl⟩
abbrev main_v426 : Ref sig .tc := ⟨.hbm, 559, rfl⟩
abbrev main_cst_98 : Ref sig .tc := ⟨.hbm, 560, rfl⟩
abbrev main_v427 : Ref sig .tc := ⟨.hbm, 561, rfl⟩
abbrev main_v428 : Ref sig .tc := ⟨.hbm, 562, rfl⟩
abbrev main_v429 : Ref sig .tc := ⟨.hbm, 563, rfl⟩
abbrev main_cst_99 : Ref sig .tc := ⟨.hbm, 564, rfl⟩
abbrev main_v430 : Ref sig .tc := ⟨.hbm, 565, rfl⟩
abbrev main_v431 : Ref sig .tc := ⟨.hbm, 566, rfl⟩
abbrev main_v432 : Ref sig .tc := ⟨.hbm, 567, rfl⟩
abbrev main_v433 : Ref sig .tc := ⟨.hbm, 568, rfl⟩
abbrev main_v434 : Ref sig .tc := ⟨.hbm, 569, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S512x64 : S_.BroadcastsInDim S512x64 (![] : Fin 0 → Fin S512x64.rank)
  bcast_S100000_S100000x1_0 : S100000.BroadcastsInDim S100000x1 (![0] : Fin 1 → Fin S100000x1.rank)
  bcast_S_S512 : S_.BroadcastsInDim S512 (![] : Fin 0 → Fin S512.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  dot_S100000x128_S128x32_S100000x32_1_0_0_1_n_n_wf : DotDims.WF S100000x128 S128x32 S100000x32 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  dot_S100000x32_S32x64_S100000x64_1_0_0_1_n_n_wf : DotDims.WF S100000x32 S32x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x64_S100000x64_1_0_0_1_n_n_wf : DotDims.WF S100000x64 S64x64 S100000x64 [1] [0] [0] [1] [] []
  scatter_S512x64_S100000x1_S100000x64_1_0_0_1_wf : ScatterDims.WF S512x64 S100000x1 S100000x64 [1] [0] [0] 1
  scatter_S512_S100000x1_S100000_n_0_0_1_wf : ScatterDims.WF S512 S100000x1 S100000 [] [0] [0] 1

variable [Facts₀]

def dot_S100000x128_S128x32_S100000x32_1_0_0_1_n_n : DotDims S100000x128 S128x32 S100000x32 where
  lhsContracting := [1]
  rhsContracting := [0]
  lhsNonContracting := [0]
  rhsNonContracting := [1]
  lhsBatch := []
  rhsBatch := []
  wf := dot_S100000x128_S128x32_S100000x32_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S512x64_S100000x1_S100000x64_1_0_0_1 : ScatterDims S512x64 S100000x1 S100000x64 where
  updateWindowDims := [1]
  insertedWindowDims := [0]
  scatterDimsToOperandDims := [0]
  indexVectorDim := 1
  wf := scatter_S512x64_S100000x1_S100000x64_1_0_0_1_wf
def scatter_S512_S100000x1_S100000_n_0_0_1 : ScatterDims S512 S100000x1 S100000 where
  updateWindowDims := []
  insertedWindowDims := [0]
  scatterDimsToOperandDims := [0]
  indexVectorDim := 1
  wf := scatter_S512_S100000x1_S100000_n_0_0_1_wf

class Facts : Prop extends Facts₀ where

variable [Facts]
-- ==== Proof.K.RunCond.lean ====
import proofs.«416252_j75050258530751_2_alg».proof.Proof.KernelRegions

set_option maxRecDepth 2288

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

set_option backward.isDefEq.respectTransparency.types false in

theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 21) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 22 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE21 : ∀ c : Dev nD, E 21 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V6 m outs c) ∗ E 3 c) ⊢ R3.pre c)
    (hpost3 : ∀ c : Dev nD, R3.post c ⊢ iprop(StableHlo.held (c : Thread nD τ) (Pipeline.ucRefs τ sig) (V7 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V7 m outs c) ∗ E 4 c) ⊢ R4.pre c)
    (hpost4 : ∀ c : Dev nD, R4.post c ⊢ iprop(StableHlo.held (c : Thread nD τ) (Pipeline.ucRefs τ sig) (V8 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V9 m outs c) ∗ E 5 c) ⊢ R5.pre c)
    (hpost5 : ∀ c : Dev nD, R5.post c ⊢ iprop(StableHlo.held (c : Thread nD τ) (Pipeline.ucRefs τ sig) (V10 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V11 m outs c) ∗ E 6 c) ⊢ R6.pre c)
    (hpost6 : ∀ c : Dev nD, R6.post c ⊢ iprop(StableHlo.held (c : Thread nD τ) (Pipeline.ucRefs τ sig) (V12 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V13 m outs c) ∗ E 7 c) ⊢ R7.pre c)
    (hpost7 : ∀ c : Dev nD, R7.post c ⊢ iprop(StableHlo.held (c : Thread nD τ) (Pipeline.ucRefs τ sig) (V14 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V15 m outs c) ∗ E 8 c) ⊢ R8.pre c)
    (hpost8 : ∀ c : Dev nD, R8.post c ⊢ iprop(StableHlo.held (c : Thread nD τ) (Pipeline.ucRefs τ sig) (V16 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V16 m outs c) ∗ E 9 c) ⊢ R9.pre c)
    (hpost9 : ∀ c : Dev nD, R9.post c ⊢ iprop(StableHlo.held (c : Thread nD τ) (Pipeline.ucRefs τ sig) (V17 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V18 m outs c) ∗ E 10 c) ⊢ R10.pre c)
    (hpost10 : ∀ c : Dev nD, R10.post c ⊢ iprop(StableHlo.held (c : Thread nD τ) (Pipeline.ucRefs τ sig) (V19 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V19 m outs c) ∗ E 11 c) ⊢ R11.pre c)
    (hpost11 : ∀ c : Dev nD, R11.post c ⊢ iprop(StableHlo.held (c : Thread nD τ) (Pipeline.ucRefs τ sig) (V20 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V21 m outs c) ∗ E 12 c) ⊢ R12.pre c)
    (hpost12 : ∀ c : Dev nD, R12.post c ⊢ iprop(StableHlo.held (c : Thread nD τ) (Pipeline.ucRefs τ sig) (V22 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V23 m outs c) ∗ E 13 c) ⊢ R13.pre c)
    (hpost13 : ∀ c : Dev nD, R13.post c ⊢ iprop(StableHlo.held (c : Thread nD τ) (Pipeline.ucRefs τ sig) (V24 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V25 m outs c) ∗ E 14 c) ⊢ R14.pre c)
    (hpost14 : ∀ c : Dev nD, R14.post c ⊢ iprop(StableHlo.held (c : Thread nD τ) (Pipeline.ucRefs τ sig) (V26 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V27 m outs c) ∗ E 15 c) ⊢ R15.pre c)
    (hpost15 : ∀ c : Dev nD, R15.post c ⊢ iprop(StableHlo.held (c : Thread nD τ) (Pipeline.ucRefs τ sig) (V28 m outs c) ∗ E 16 c))
    (R16 : RegionSeg (pcfgs (F := F)) adm pdats ι defs₀ 𝒱₀ L lv 16)
    (hpre16 : ∀ c : Dev nD, iprop(StableHlo.held (c : Thread nD τ) (Pipeline.ucRefs τ sig) (V28 m outs c) ∗ E 16 c) ⊢ R16.pre c)
    (hpost16 : ∀ c : Dev nD, R16.post c ⊢ iprop(StableHlo.held (c : Thread nD τ) (Pipeline.ucRefs τ sig) (V29 m outs c) ∗ E 17 c))
    (R17 : RegionSeg (pcfgs (F := F)) adm pdats ι defs₀ 𝒱₀ L lv 17)
    (hpre17 : ∀ c : Dev nD, iprop(StableHlo.held (c : Thread nD τ) (Pipeline.ucRefs τ sig) (V30 m outs c) ∗ E 17 c) ⊢ R17.pre c)
    (hpost17 : ∀ c : Dev nD, R17.post c ⊢ iprop(StableHlo.held (c : Thread nD τ) (Pipeline.ucRefs τ sig) (V31 m outs c) ∗ E 18 c))
    (R18 : RegionSeg (pcfgs (F := F)) adm pdats ι defs₀ 𝒱₀ L lv 18)
    (hpre18 : ∀ c : Dev nD, iprop(StableHlo.held (c : Thread nD τ) (Pipeline.ucRefs τ sig) (V31 m outs c) ∗ E 18 c) ⊢ R18.pre c)
    (hpost18 : ∀ c : Dev nD, R18.post c ⊢ iprop(StableHlo.held (c : Thread nD τ) (Pipeline.ucRefs τ sig) (V32 m outs c) ∗ E 19 c))
    (R19 : RegionSeg (pcfgs (F := F)) adm pdats ι defs₀ 𝒱₀ L lv 19)
    (hpre19 : ∀ c : Dev nD, iprop(StableHlo.held (c : Thread nD τ) (Pipeline.ucRefs τ sig) (V33 m outs c) ∗ E 19 c) ⊢ R19.pre c)
    (hpost19 : ∀ c : Dev nD, R19.post c ⊢ iprop(StableHlo.held (c : Thread nD τ) (Pipeline.ucRefs τ sig) (V34 m outs c) ∗ E 20 c))
    (R20 : RegionSeg (pcfgs (F := F)) adm pdats ι defs₀ 𝒱₀ L lv 20)
    (hpre20 : ∀ c : Dev nD, iprop(StableHlo.held (c : Thread nD τ) (Pipeline.ucRefs τ sig) (V35 m outs c) ∗ E 20 c) ⊢ R20.pre c)
    (hpost20 : ∀ c : Dev nD, R20.post c ⊢ iprop(StableHlo.held (c : Thread nD τ) (Pipeline.ucRefs τ sig) (V36 m outs c) ∗ E 21 c)) :
    θ_run defs (onTc (τ := τ) (main (F := F))) ⟨m, fun _ => 0, ρ⟩ (fun r => ∀ c : Dev nD, ∀ b ∈ Pipeline.ucRefs τ sig, r.2.mem ((c : Thread nD τ).1, b) = V37 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14 R15 R16 R17 R18 R19 R20)
    (fun c Q => by
      rewrite [main_chain c, Seg.run_eq_chain,
        show (segs m outs 𝒱₀ L lv E ι pdats R0 R1 R2 R3 R4 R5 R6 R7 R8 R9 R10 R11 R12 R13 R14 R15 R16 R17 R18 R19 R20 c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          Prog.lift (.customCall (Pipeline.entry 9) ()),
          StableHlo.seq hostOps10,
          Prog.lift (.customCall (Pipeline.entry 10) ()),
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()),
          Prog.lift (.customCall (Pipeline.entry 16) ()),
          StableHlo.seq hostOps17,
          Prog.lift (.customCall (Pipeline.entry 17) ()),
          Prog.lift (.customCall (Pipeline.entry 18) ()),
          StableHlo.seq hostOps19,
          Prog.lift (.customCall (Pipeline.entry 19) ()),
          StableHlo.seq hostOps20,
          Prog.lift (.customCall (Pipeline.entry 20) ()),
          StableHlo.seq hostOps21 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V37 m outs c))
    (hch := fun c => ⟨.rfl, hpre0 c, hpost0 c, hpre1 c, (hpost1 c).trans (hpre2 c), hpost2 c, hpre3 c, (hpost3 c).trans (hpre4 c), hpost4 c, hpre5 c, hpost5 c, hpre6 c, hpost6 c, hpre7 c, hpost7 c, hpre8 c, (hpost8 c).trans (hpre9 c), hpost9 c, hpre10 c, (hpost10 c).trans (hpre11 c), hpost11 c, hpre12 c, hpost12 c, hpre13 c, hpost13 c, hpre14 c, hpost14 c, hpre15 c, (hpost15 c).trans (hpre16 c), hpost16 c, hpre17 c, (hpost17 c).trans (hpre18 c), hpost18 c, hpre19 c, hpost19 c, hpre20 c, hpost20 c, sep_mono .rfl (hE21 c)⟩)
    (hinit := ?_) (QY := fun c s => ∀ b ∈ Pipeline.ucRefs τ sig, s.mem ((c : Thread nD τ).1, b) = V37 m outs c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V37 m outs c) s') $$ [Hh HSI]
    · isplitl [Hh] <;> iassumption
    icases Hr with ⟨%h, HSI⟩
    imodintro
    isplitr
    · ipureintro
      exact h
    · iexact HSI

end Cert.Kernel.Hand

end
-- ==== Proof.KI.RLib.lean ====
import Idealize.ShloMosaic.Lib.Pipeline.FrameBody
import Idealize.ShloMosaic.Lib.Pipeline.RegionsLoop
import Idealize.ShloMosaic.Lib.Pipeline.FrameSuffix
import Idealize.ShloMosaic.Lib.Pipeline.Value
import Idealize.ShloMosaic.Lib.Ring
import Idealize.ShloMosaic.Lib.Tactic

noncomputable section

namespace Cert.RLib

open Idealize.ShloMosaic Idealize.SL Idealize.SL.RA Idealize.SL.BI
open scoped Idealize.SL.BI
open Idealize.SL.BI.BIBase Idealize.SL.BI.Laws Idealize.SL.ProofMode Idealize.SL.Sem

universe v w

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

theorem off_zero : (![0, 0] : Fin 2 → ℕ) = fun _ => 0 := by funext a; fin_cases a <;> rfl

section Whole

variable {κ : Kind} {sp : Space} {S : Shape} {e : EltTy} [∀ e, Nonempty (Val e)] (v : View sig κ sp S e)
  {off : Fin S.rank → Nat} (h : off = fun _ => 0) (inb : ∀ a, off a + S.size a ≤ S.size a)
  (x : S.Idx → Val e) (L : List (View.Piece Val S e)) (f : v.ty.Contents Val)
include h

/-- A load of the whole buffer reads its contents. -/
theorem readAt_whole : View.readAt Val v (Rect.unit off S.size inb).toLoadRect f = v.read Val f :=
  (View.readAt_eq_ld v f _).trans (View.ld_unit_zero h inb _)

/-- The last store covers the buffer, so a load of the whole buffer reads its payload, -/
theorem readCov_whole :
    v.readCov ((⟨Rect.unit off S.size inb, x⟩ : View.Piece Val S e) :: L) (Rect.unit off S.size inb).toLoadRect = x := by
  rw [View.readCov_eq_canon_ld _ _ _ fun y => ⟨_, List.mem_cons_self, View.mem_set_unit_zero h inb y⟩,
    View.canon_cons_unit_zero h, View.ld_unit_zero h]

/-- and the buffer holds the canonical contents of the stores, -/
theorem read_writes_canon :
    v.read Val (v.writes Val f ((⟨Rect.unit off S.size inb, x⟩ : View.Piece Val S e) :: L))
      = View.canon ((⟨Rect.unit off S.size inb, x⟩ : View.Piece Val S e) :: L) :=
  View.read_writes_eq_canon _ _ _ fun y => ⟨_, List.mem_cons_self, View.mem_set_unit_zero h inb y⟩

/-- which is that payload. -/
theorem read_writes_whole :
    v.read Val (v.writes Val f ((⟨Rect.unit off S.size inb, x⟩ : View.Piece Val S e) :: L)) = x :=
  (read_writes_canon v h inb x L f).trans (View.canon_cons_unit_zero h inb x L)

end Whole

section Route

variable {Ef : Type → Type v} {Mask : Sort w} {Fr : Mask → sProp (MT nD τ sig Ix Val Name U Lvl)}
  {W : Mask → ∀ ⦃β : Type⦄, Ef β → sWPT (MT nD τ sig Ix Val Name U Lvl) β}
  {E : Mask} {p : Prog Ef PUnit} {c : Thread nD τ} {sp0 sp1 sp2 sp3 : Space} {s0 s1 s2 s3 : Shape} {e0 e1 e2 e3 : EltTy}
  {m0 : Memref sig c.2.kind sp0 s0 e0} {m1 : Memref sig c.2.kind sp1 s1 e1} {m2 : Memref sig c.2.kind sp2 s2 e2}
  {m3 : Memref sig c.2.kind sp3 s3 e3}
  {δ0 δ1 δ2 : Type} {B0 : δ0 → s0.Idx → Val e0} {B1 : δ1 → s1.Idx → Val e1} {B2 : δ2 → s2.Idx → Val e2}
  {x0 : s0.Idx → Val e0} {x1 : s1.Idx → Val e1} {Φ O R G : sProp (MT nD τ sig Ix Val Name U Lvl)}

/-- A triple over raw contents, in continuation form, gives the triple at the read contents `x0`, `x1`, with `Φ`, `O` framed. -/
theorem body3 {out : (s0.Idx → Val e0) → (s1.Idx → Val e1) → s2.Idx → Val e2} (h0 : ∀ d, B0 d = x0) (h1 : ∀ d, B1 d = x1)
    (hk : ∀ f0 f1 f2 K, iprop((m0.view.loc c ↦[m0.view.set]{fullShare} f0) ∗ (m1.view.loc c ↦[m1.view.set]{fullShare} f1)
        ∗ (m2.view.loc c ↦[m2.view.set]{fullShare} f2)
        ∗ (iprop((m0.view.loc c ↦[m0.view.set]{fullShare} f0) ∗ (m1.view.loc c ↦[m1.view.set]{fullShare} f1)
            ∗ owns c m2 fullShare (out (m0.view.read Val f0) (m1.view.read Val f1))) -∗ K ⟨⟩))
      ⊢ wp Fr W E p K) :
    iprop(Φ ∗ O ∗ (∃ d, owns c m0 fullShare (B0 d)) ∗ (∃ d, owns c m1 fullShare (B1 d)) ∗ (∃ d, owns c m2 fullShare (B2 d)))
      ⊢ wp Fr W E p fun _ => iprop(Φ ∗ O ∗ owns c m0 fullShare x0 ∗ owns c m1 fullShare x1 ∗ owns c m2 fullShare (out x0 x1)) := by
  simp only [h0, h1]
  unfold owns at hk ⊢
  iintro ⟨HΦ, HO, ⟨%_, %f0, %hf0, H0⟩, ⟨%_, %f1, %hf1, H1⟩, ⟨%_, %f2, -, H2⟩⟩
  subst hf0 hf1
  iapply hk
  iframe H0 H1 H2
  iintro ⟨H0, H1, H2⟩
  iframe HΦ HO H2
  isplitl [H0]
  · iexists f0; iframe H0; ipureintro; rfl
  iexists f1; iframe H1; ipureintro; rfl

/-- The same when the triple also rewrites a fourth buffer `m3`, held inside the invariant at `a` and left, like `m2`, at `y`. -/
theorem body3s {m3 : Memref sig c.2.kind sp3 s2 e2} {a y : s2.Idx → Val e2}
    {out : (s0.Idx → Val e0) → (s1.Idx → Val e1) → (s2.Idx → Val e2) → s2.Idx → Val e2}
    (h0 : ∀ d, B0 d = x0) (h1 : ∀ d, B1 d = x1) (hy : out x0 x1 a = y)
    (hk : ∀ f0 f1 f2 f3 K, iprop((m0.view.loc c ↦[m0.view.set]{fullShare} f0) ∗ (m1.view.loc c ↦[m1.view.set]{fullShare} f1)
        ∗ (m2.view.loc c ↦[m2.view.set]{fullShare} f2) ∗ (m3.view.loc c ↦[m3.view.set]{fullShare} f3)
        ∗ (iprop((m0.view.loc c ↦[m0.view.set]{fullShare} f0) ∗ (m1.view.loc c ↦[m1.view.set]{fullShare} f1)
            ∗ owns c m2 fullShare (out (m0.view.read Val f0) (m1.view.read Val f1) (m3.view.read Val f3))
            ∗ owns c m3 fullShare (out (m0.view.read Val f0) (m1.view.read Val f1) (m3.view.read Val f3))) -∗ K ⟨⟩))
      ⊢ wp Fr W E p K) :
    iprop(iprop(iprop(owns c m3 fullShare a ∗ R) ∗ G) ∗ O ∗ (∃ d, owns c m0 fullShare (B0 d)) ∗ (∃ d, owns c m1 fullShare (B1 d))
        ∗ (∃ d, owns c m2 fullShare (B2 d)))
      ⊢ wp Fr W E p fun _ => iprop(iprop(iprop(owns c m3 fullShare y ∗ R) ∗ G) ∗ O ∗ owns c m0 fullShare x0 ∗ owns c m1 fullShare x1
        ∗ owns c m2 fullShare y) := by
  subst hy
  simp only [h0, h1]
  unfold owns at hk ⊢
  iintro ⟨⟨⟨⟨%f3, %hf3, H3⟩, HR⟩, HG⟩, HO, ⟨%_, %f0, %hf0, H0⟩, ⟨%_, %f1, %hf1, H1⟩, ⟨%_, %f2, -, H2⟩⟩
  subst hf0 hf1 hf3
  iapply hk
  iframe H0 H1 H2 H3
  iintro ⟨H0, H1, H2, H3⟩
  iframe HR HG HO H2 H3
  isplitl [H0]
  · iexists f0; iframe H0; ipureintro; rfl
  iexists f1; iframe H1; ipureintro; rfl

end Route

end Cert.RLib

end
-- ==== Proof.K.R0.lean ====
import proofs.«416252_j75050258530751_2_alg».proof.Proof.Gen.Kernel.Launch
import proofs.«416252_j75050258530751_2_alg».proof.Proof.Gen.Kernel.Skeleton
import proofs.«416252_j75050258530751_2_alg».proof.Proof.Gen.Kernel.Points
import proofs.«416252_j75050258530751_2_alg».proof.Proof.KI.RLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x128 := Rect.unit (s := S10000x128) ![0, 0] S10000x128.size inb_S10000x128_S10000x128_0_0
abbrev r0_1 : Rect S128x32 := Rect.unit (s := S128x32) ![0, 0] S128x32.size inb_S128x32_S128x32_0_0
abbrev r0_2 : Rect S10000x32 := Rect.unit (s := S10000x32) ![0, 0] S10000x32.size inb_S10000x32_S10000x32_0_0

def out0_2 (x0 : Vec F S10000x128 .f32) (x1 : Vec F S128x32 .f32) : Vec F S10000x32 .f32 :=
  View.canon [⟨r0_2, k0_pay1 (View.ld x0 r0_0) (View.ld x1 r0_1)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by dsimp only [dat0]

theorem after0_2 (c : Dev nD) (t : Fin cfg0.N) : (dat0 V c).after 2 t = out0_2 (iblk0 V c 0 t) (iblk0 V c 1 t) := by dsimp only [dat0]

set_option maxHeartbeats 1000000 in
/-- The one store covers the output's buffer, which so holds the canonical contents of that store. -/
theorem sound_kernel0 (c : Dev nD) (E : Set ℕ) (i : grid0.Coords)
    (arg1 : Memref sig .tc .vmem S10000x128 .f32) (harg1 : arg1.IsWhole)
    (arg2 : Memref sig .tc .vmem S128x32 .f32) (harg2 : arg2.IsWhole)
    (arg3 : Memref sig .tc .vmem S10000x32 .f32) (harg3 : arg3.IsWhole) (f0 f1 f2) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (out0_2 (arg1.view.read (Elt F) f0) (arg2.view.read (Elt F) f1))) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation0 (c : Dev nD) : BodyObligation (dat0 (F := F) V c) (defs₀ (F := F)) Variants.none () Set.univ := fun t => by
  rw [bigSep_W0, bigSep_W0, after0_2]
  exact RLib.body3 (p := bodyAt0 t) (fun d => (dat0 V c).before_in_eq_fetched 0 rfl (fun _ => rfl) (fun _ _ _ => rfl) (fun _ => rfl) t d)
    (fun d => (dat0 V c).before_in_eq_fetched 1 rfl (fun _ => rfl) (fun _ _ _ => rfl) (fun _ => rfl) t d)
    (sound_kernel0 c _ _ _ _ _ _ _ _)

end Cert.Kernel.Hand

end
-- ==== Proof.K.R1.lean ====
import proofs.«416252_j75050258530751_2_alg».proof.Proof.Gen.Kernel.Launch
import proofs.«416252_j75050258530751_2_alg».proof.Proof.Gen.Kernel.Skeleton
import proofs.«416252_j75050258530751_2_alg».proof.Proof.Gen.Kernel.Points
import proofs.«416252_j75050258530751_2_alg».proof.Proof.KI.RLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S10000x32 := Rect.unit (s := S10000x32) ![0, 0] S10000x32.size inb_S10000x32_S10000x32_0_0
abbrev r1_1 : Rect S1x32 := Rect.unit (s := S1x32) ![0, 0] S1x32.size inb_S1x32_S1x32_0_0
abbrev r1_2 : Rect S10000x32 := Rect.unit (s := S10000x32) ![0, 0] S10000x32.size inb_S10000x32_S10000x32_0_0

def out1_2 (x0 : Vec F S10000x32 .f32) (x1 : Vec F S1x32 .f32) : Vec F S10000x32 .f32 :=
  View.canon [⟨r1_2, k1_pay1 (View.ld x0 r1_0) (View.ld x1 r1_1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by dsimp only [dat1]

theorem after1_2 (c : Dev nD) (t : Fin cfg1.N) : (dat1 V c).after 2 t = out1_2 (iblk1 V c 0 t) (iblk1 V c 1 t) := by dsimp only [dat1]

set_option maxHeartbeats 1000000 in
/-- The one store covers the output's buffer, which so holds the canonical contents of that store. -/
theorem sound_kernel1 (c : Dev nD) (E : Set ℕ) (i : grid1.Coords)
    (arg0 : Memref sig .tc .vmem S10000x32 .f32) (harg0 : arg0.IsWhole)
    (arg1 : Memref sig .tc .vmem S1x32 .f32) (harg1 : arg1.IsWhole)
    (arg2 : Memref sig .tc .vmem S10000x32 .f32) (harg2 : arg2.IsWhole) (f0 f1 f2) (K : PUnit → sProp 𝕄) :
    iprop((arg0.view.loc (c : Thread nD τ) ↦[arg0.view.set]{fullShare} f0) ∗ (arg1.view.loc (c : Thread nD τ) ↦[arg1.view.set]{fullShare} f1)
        ∗ (arg2.view.loc (c : Thread nD τ) ↦[arg2.view.set]{fullShare} f2)
        ∗ (iprop((arg0.view.loc (c : Thread nD τ) ↦[arg0.view.set]{fullShare} f0) ∗ (arg1.view.loc (c : Thread nD τ) ↦[arg1.view.set]{fullShare} f1)
            ∗ owns (c : Thread nD τ) arg2 fullShare (out1_2 (arg0.view.read (Elt F) f0) (arg1.view.read (Elt F) f1))) -∗ K ⟨⟩))
      ⊢ wp frame (wpE (defs₀ (F := F)) Variants.none c none) E (cc1__bias_relu_kernel i arg0 harg0 arg1 harg1 arg2 harg2) K := by
  simp only [cc1__bias_relu_kernel_eq_skeleton]; unfold cc1__bias_relu_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation1 (c : Dev nD) : BodyObligation (dat1 (F := F) V c) (defs₀ (F := F)) Variants.none () Set.univ := fun t => by
  rw [bigSep_W1, bigSep_W1, after1_2]
  exact RLib.body3 (p := bodyAt1 t) (fun d => (dat1 V c).before_in_eq_fetched 0 rfl (fun _ => rfl) (fun _ _ _ => rfl) (fun _ => rfl) t d)
    (fun d => (dat1 V c).before_in_eq_fetched 1 rfl (fun _ => rfl) (fun _ _ _ => rfl) (fun _ => rfl) t d)
    (sound_kernel1 c _ _ _ _ _ _ _ _)

end Cert.Kernel.Hand

end
-- ==== Proof.K.R2.lean ====
import proofs.«416252_j75050258530751_2_alg».proof.Proof.Gen.Kernel.Launch
import proofs.«416252_j75050258530751_2_alg».proof.Proof.Gen.Kernel.Skeleton
import proofs.«416252_j75050258530751_2_alg».proof.Proof.Gen.Kernel.Points
import proofs.«416252_j75050258530751_2_alg».proof.Proof.KI.RLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S10000x32 := Rect.unit (s := S10000x32) ![0, 0] S10000x32.size inb_S10000x32_S10000x32_0_0
abbrev r2_1 : Rect S32x64 := Rect.unit (s := S32x64) ![0, 0] S32x64.size inb_S32x64_S32x64_0_0
abbrev r2_2 : Rect S10000x64 := Rect.unit (s := S10000x64) ![0, 0] S10000x64.size inb_S10000x64_S10000x64_0_0

def out2_2 (x0 : Vec F S10000x32 .f32) (x1 : Vec F S32x64 .f32) : Vec F S10000x64 .f32 :=
  View.canon [⟨r2_2, k2_pay1 (View.ld x0 r2_0) (View.ld x1 r2_1)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by dsimp only [dat2]

theorem after2_2 (c : Dev nD) (t : Fin cfg2.N) : (dat2 V c).after 2 t = out2_2 (iblk2 V c 0 t) (iblk2 V c 1 t) := by dsimp only [dat2]

set_option maxHeartbeats 1000000 in
/-- The one store covers the output's buffer, which so holds the canonical contents of that store. -/
theorem sound_kernel2 (c : Dev nD) (E : Set ℕ) (i : grid2.Coords)
    (arg1 : Memref sig .tc .vmem S10000x32 .f32) (harg1 : arg1.IsWhole)
    (arg2 : Memref sig .tc .vmem S32x64 .f32) (harg2 : arg2.IsWhole)
    (arg3 : Memref sig .tc .vmem S10000x64 .f32) (harg3 : arg3.IsWhole) (f0 f1 f2) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (out2_2 (arg1.view.read (Elt F) f0) (arg2.view.read (Elt F) f1))) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation2 (c : Dev nD) : BodyObligation (dat2 (F := F) V c) (defs₀ (F := F)) Variants.none () Set.univ := fun t => by
  rw [bigSep_W2, bigSep_W2, after2_2]
  exact RLib.body3 (p := bodyAt2 t) (fun d => (dat2 V c).before_in_eq_fetched 0 rfl (fun _ => rfl) (fun _ _ _ => rfl) (fun _ => rfl) t d)
    (fun d => (dat2 V c).before_in_eq_fetched 1 rfl (fun _ => rfl) (fun _ _ _ => rfl) (fun _ => rfl) t d)
    (sound_kernel2 c _ _ _ _ _ _ _ _)

end Cert.Kernel.Hand

end
-- ==== Proof.K.R3.lean ====
import proofs.«416252_j75050258530751_2_alg».proof.Proof.Gen.Kernel.Launch
import proofs.«416252_j75050258530751_2_alg».proof.Proof.Gen.Kernel.Skeleton
import proofs.«416252_j75050258530751_2_alg».proof.Proof.Gen.Kernel.Points
import proofs.«416252_j75050258530751_2_alg».proof.Proof.KI.RLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S10000x64 := Rect.unit (s := S10000x64) ![0, 0] S10000x64.size inb_S10000x64_S10000x64_0_0
abbrev r3_1 : Rect S1x64 := Rect.unit (s := S1x64) ![0, 0] S1x64.size inb_S1x64_S1x64_0_0
abbrev r3_2 : Rect S10000x64 := Rect.unit (s := S10000x64) ![0, 0] S10000x64.size inb_S10000x64_S10000x64_0_0

def out3_2 (x0 : Vec F S10000x64 .f32) (x1 : Vec F S1x64 .f32) : Vec F S10000x64 .f32 :=
  View.canon [⟨r3_2, k3_pay1 (View.ld x0 r3_0) (View.ld x1 r3_1)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by dsimp only [dat3]

theorem after3_2 (c : Dev nD) (t : Fin cfg3.N) : (dat3 V c).after 2 t = out3_2 (iblk3 V c 0 t) (iblk3 V c 1 t) := by dsimp only [dat3]

set_option maxHeartbeats 1000000 in
/-- The one store covers the output's buffer, which so holds the canonical contents of that store. -/
theorem sound_kernel3 (c : Dev nD) (E : Set ℕ) (i : grid3.Coords)
    (arg0 : Memref sig .tc .vmem S10000x64 .f32) (harg0 : arg0.IsWhole)
    (arg1 : Memref sig .tc .vmem S1x64 .f32) (harg1 : arg1.IsWhole)
    (arg2 : Memref sig .tc .vmem S10000x64 .f32) (harg2 : arg2.IsWhole) (f0 f1 f2) (K : PUnit → sProp 𝕄) :
    iprop((arg0.view.loc (c : Thread nD τ) ↦[arg0.view.set]{fullShare} f0) ∗ (arg1.view.loc (c : Thread nD τ) ↦[arg1.view.set]{fullShare} f1)
        ∗ (arg2.view.loc (c : Thread nD τ) ↦[arg2.view.set]{fullShare} f2)
        ∗ (iprop((arg0.view.loc (c : Thread nD τ) ↦[arg0.view.set]{fullShare} f0) ∗ (arg1.view.loc (c : Thread nD τ) ↦[arg1.view.set]{fullShare} f1)
            ∗ owns (c : Thread nD τ) arg2 fullShare (out3_2 (arg0.view.read (Elt F) f0) (arg1.view.read (Elt F) f1))) -∗ K ⟨⟩))
      ⊢ wp frame (wpE (defs₀ (F := F)) Variants.none c none) E (cc3__bias_relu_kernel i arg0 harg0 arg1 harg1 arg2 harg2) K := by
  simp only [cc3__bias_relu_kernel_eq_skeleton]; unfold cc3__bias_relu_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation3 (c : Dev nD) : BodyObligation (dat3 (F := F) V c) (defs₀ (F := F)) Variants.none () Set.univ := fun t => by
  rw [bigSep_W3, bigSep_W3, after3_2]
  exact RLib.body3 (p := bodyAt3 t) (fun d => (dat3 V c).before_in_eq_fetched 0 rfl (fun _ => rfl) (fun _ _ _ => rfl) (fun _ => rfl) t d)
    (fun d => (dat3 V c).before_in_eq_fetched 1 rfl (fun _ => rfl) (fun _ _ _ => rfl) (fun _ => rfl) t d)
    (sound_kernel3 c _ _ _ _ _ _ _ _)

end Cert.Kernel.Hand

end
-- ==== Proof.K.R4.lean ====
import proofs.«416252_j75050258530751_2_alg».proof.Proof.Gen.Kernel.Launch
import proofs.«416252_j75050258530751_2_alg».proof.Proof.Gen.Kernel.Skeleton
import proofs.«416252_j75050258530751_2_alg».proof.Proof.Gen.Kernel.Points
import proofs.«416252_j75050258530751_2_alg».proof.Proof.KI.RLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S10000x64 := Rect.unit (s := S10000x64) ![0, 0] S10000x64.size inb_S10000x64_S10000x64_0_0
abbrev r4_1 : Rect S64x64 := Rect.unit (s := S64x64) ![0, 0] S64x64.size inb_S64x64_S64x64_0_0
abbrev r4_2 : Rect S10000x64 := Rect.unit (s := S10000x64) ![0, 0] S10000x64.size inb_S10000x64_S10000x64_0_0

def out4_2 (x0 : Vec F S10000x64 .f32) (x1 : Vec F S64x64 .f32) : Vec F S10000x64 .f32 :=
  View.canon [⟨r4_2, k4_pay1 (View.ld x0 r4_0) (View.ld x1 r4_1)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by dsimp only [dat4]

theorem after4_2 (c : Dev nD) (t : Fin cfg4.N) : (dat4 V c).after 2 t = out4_2 (iblk4 V c 0 t) (iblk4 V c 1 t) := by dsimp only [dat4]

set_option maxHeartbeats 1000000 in
/-- The one store covers the output's buffer, which so holds the canonical contents of that store. -/
theorem sound_kernel4 (c : Dev nD) (E : Set ℕ) (i : grid4.Coords)
    (arg1 : Memref sig .tc .vmem S10000x64 .f32) (harg1 : arg1.IsWhole)
    (arg2 : Memref sig .tc .vmem S64x64 .f32) (harg2 : arg2.IsWhole)
    (arg3 : Memref sig .tc .vmem S10000x64 .f32) (harg3 : arg3.IsWhole) (f0 f1 f2) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (out4_2 (arg1.view.read (Elt F) f0) (arg2.view.read (Elt F) f1))) -∗ K ⟨⟩))
      ⊢ wp frame (wpE (defs₀ (F := F)) Variants.none c none) E (cc4__linear_kernel i arg1 harg1 arg2 harg2 arg3 harg3) K := by
  simp only [cc4__linear_kernel_eq_skeleton]; unfold cc4__linear_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation4 (c : Dev nD) : BodyObligation (dat4 (F := F) V c) (defs₀ (F := F)) Variants.none () Set.univ := fun t => by
  rw [bigSep_W4, bigSep_W4, after4_2]
  exact RLib.body3 (p := bodyAt4 t) (fun d => (dat4 V c).before_in_eq_fetched 0 rfl (fun _ => rfl) (fun _ _ _ => rfl) (fun _ => rfl) t d)
    (fun d => (dat4 V c).before_in_eq_fetched 1 rfl (fun _ => rfl) (fun _ _ _ => rfl) (fun _ => rfl) t d)
    (sound_kernel4 c _ _ _ _ _ _ _ _)

end Cert.Kernel.Hand

end
-- ==== Proof.K.R5.lean ====
import proofs.«416252_j75050258530751_2_alg».proof.Proof.Gen.Kernel.Launch
import proofs.«416252_j75050258530751_2_alg».proof.Proof.Gen.Kernel.Skeleton
import proofs.«416252_j75050258530751_2_alg».proof.Proof.Gen.Kernel.Points
import proofs.«416252_j75050258530751_2_alg».proof.Proof.KI.RLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S10000x64 := Rect.unit (s := S10000x64) ![0, 0] S10000x64.size inb_S10000x64_S10000x64_0_0
abbrev r5_1 : Rect S1x64 := Rect.unit (s := S1x64) ![0, 0] S1x64.size inb_S1x64_S1x64_0_0
abbrev r5_2 : Rect S10000x64 := Rect.unit (s := S10000x64) ![0, 0] S10000x64.size inb_S10000x64_S10000x64_0_0

def out5_2 (x0 : Vec F S10000x64 .f32) (x1 : Vec F S1x64 .f32) : Vec F S10000x64 .f32 :=
  View.canon [⟨r5_2, k5_pay1 (View.ld x0 r5_0) (View.ld x1 r5_1)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by dsimp only [dat5]

theorem after5_2 (c : Dev nD) (t : Fin cfg5.N) : (dat5 V c).after 2 t = out5_2 (iblk5 V c 0 t) (iblk5 V c 1 t) := by dsimp only [dat5]

set_option maxHeartbeats 1000000 in
/-- The one store covers the output's buffer, which so holds the canonical contents of that store. -/
theorem sound_kernel5 (c : Dev nD) (E : Set ℕ) (i : grid5.Coords)
    (arg0 : Memref sig .tc .vmem S10000x64 .f32) (harg0 : arg0.IsWhole)
    (arg1 : Memref sig .tc .vmem S1x64 .f32) (harg1 : arg1.IsWhole)
    (arg2 : Memref sig .tc .vmem S10000x64 .f32) (harg2 : arg2.IsWhole) (f0 f1 f2) (K : PUnit → sProp 𝕄) :
    iprop((arg0.view.loc (c : Thread nD τ) ↦[arg0.view.set]{fullShare} f0) ∗ (arg1.view.loc (c : Thread nD τ) ↦[arg1.view.set]{fullShare} f1)
        ∗ (arg2.view.loc (c : Thread nD τ) ↦[arg2.view.set]{fullShare} f2)
        ∗ (iprop((arg0.view.loc (c : Thread nD τ) ↦[arg0.view.set]{fullShare} f0) ∗ (arg1.view.loc (c : Thread nD τ) ↦[arg1.view.set]{fullShare} f1)
            ∗ owns (c : Thread nD τ) arg2 fullShare (out5_2 (arg0.view.read (Elt F) f0) (arg1.view.read (Elt F) f1))) -∗ K ⟨⟩))
      ⊢ wp frame (wpE (defs₀ (F := F)) Variants.none c none) E (cc5__bias_relu_kernel i arg0 harg0 arg1 harg1 arg2 harg2) K := by
  simp only [cc5__bias_relu_kernel_eq_skeleton]; unfold cc5__bias_relu_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation5 (c : Dev nD) : BodyObligation (dat5 (F := F) V c) (defs₀ (F := F)) Variants.none () Set.univ := fun t => by
  rw [bigSep_W5, bigSep_W5, after5_2]
  exact RLib.body3 (p := bodyAt5 t) (fun d => (dat5 V c).before_in_eq_fetched 0 rfl (fun _ => rfl) (fun _ _ _ => rfl) (fun _ => rfl) t d)
    (fun d => (dat5 V c).before_in_eq_fetched 1 rfl (fun _ => rfl) (fun _ _ _ => rfl) (fun _ => rfl) t d)
    (sound_kernel5 c _ _ _ _ _ _ _ _)

end Cert.Kernel.Hand

end
-- ==== Proof.K.R6.lean ====
import proofs.«416252_j75050258530751_2_alg».proof.Proof.Gen.Kernel.Launch
import proofs.«416252_j75050258530751_2_alg».proof.Proof.Gen.Kernel.Skeleton
import proofs.«416252_j75050258530751_2_alg».proof.Proof.Gen.Kernel.Points
import proofs.«416252_j75050258530751_2_alg».proof.Proof.KI.RLib

noncomputable section

namespace Cert.Kernel.Hand

open Cert.Kernel Cert.Kernel.Gen Cert.RLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def accAt6 (c : Dev nD) : ℕ → Vec F S512x64 .f32
  | 0 => k6_pay1
  | n + 1 => if h : n < cfg6.N then k6_pay2 (iblk6 V c 1 ⟨n, h⟩) (iblk6 V c 0 ⟨n, h⟩) (accAt6 c n) else accAt6 c n

theorem accAt6_zero (c : Dev nD) : accAt6 V c 0 = k6_pay1 := rfl

theorem accAt6_succ (c : Dev nD) (t : Fin cfg6.N) :
    accAt6 V c (t.val + 1) = k6_pay2 (iblk6 V c 1 t) (iblk6 V c 0 t) (accAt6 V c t.val) := by
  rw [accAt6, dif_pos t.isLt]

abbrev scM6 : Memref sig .tc .vmem S512x64 .f32 := Memref.whole cc6_scratch0

/-- The invariant, with what it holds of the carried block set apart as `S`. -/
abbrev PhiS6_pos (c : Dev nD) (S : sProp 𝕄) : sProp 𝕄 :=
  iprop(iprop(S ∗ Pipeline.scopedRestBut (Ix := Unit) (Name := ℕ) (U := UR sig nD τ) (Lvl := ℕ) (Val := Elt F) spec6 c [cc6_scratch0])
    ∗ (∃ r, prngReg c r))

def PhiS6 (c : Dev nD) : ℕ → sProp 𝕄
  | 0 => Pipeline.ΦA spec6 c
  | n + 1 => PhiS6_pos c (owns (c : Thread nD τ) scM6 fullShare (accAt6 V c (n + 1)))

theorem PhiA6_eq (c : Dev nD) : (Pipeline.ΦA spec6 c : sProp 𝕄) = PhiS6_pos c iprop(∃ d, owns (c : Thread nD τ) scM6 fullShare d) := by
  unfold Pipeline.ΦA; rw [scopedRest6_split]; simp only [scM6, owns_whole]; try rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => accAt6 V c (t.val + 1)
  Φ t := PhiS6 V c t.val
  q _ := fullShare
  owed _ := 0

theorem A_eq6 (c : Dev nD) (w : Fin cfg6.W) : (dat6 V c).A w = V c (Pipeline.arrRef spec6 w) := rfl

theorem after6_2 (c : Dev nD) (t : Fin cfg6.N) : (dat6 V c).after 2 t = accAt6 V c (t.val + 1) := rfl

theorem hin6 (c : Dev nD) : Pipeline.ΦA spec6 c ⊢ (dat6 V c).Φ 0 := .rfl

/-- Holding the carried block at named contents is holding it at some contents. -/
theorem hout6 (c : Dev nD) : (dat6 V c).Φ (Fin.last cfg6.N) ⊢ Pipeline.ΦA spec6 c := by
  obtain ⟨n, hn⟩ := Nat.exists_eq_succ_of_ne_zero (by decide : grid6.N ≠ 0)
  rw [PhiA6_eq, show (dat6 V c).Φ (Fin.last cfg6.N) = PhiS6 V c (n + 1) from congrArg (PhiS6 V c) hn]
  unfold PhiS6 PhiS6_pos
  iintro ⟨⟨HS, HR⟩, Hg⟩
  iframe HR Hg
  iexists _; iexact HS

abbrev cond6 (i : grid6.Coords) : Prop :=
  (Scalar.cmpi .ne (Scalar.extui (Scalar.cmpi .eq (BitVec.ofNat 32 (i 0).val) 0#32)) 0#32) = 1#1

theorem hcond6 : ∀ t : Fin cfg6.N, cond6 (grid6.coords t) ↔ t.val = 0 :=
  (by decide +kernel : ∀ t : Fin grid6.N, cond6 (grid6.coords t) ↔ t.val = 0)

set_option maxHeartbeats 1000000 in
theorem sound_kernel6_first (c : Dev nD) (E : Set ℕ) (i : grid6.Coords) (hc : cond6 i)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole) (f0 f1 f2 f3) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2) ∗ (arg4.view.loc (c : Thread nD τ) ↦[arg4.view.set]{fullShare} f3)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (k6_pay2 (arg2.view.read (Elt F) f1) (arg1.view.read (Elt F) f0) k6_pay1)
            ∗ owns (c : Thread nD τ) arg4 fullShare (k6_pay2 (arg2.view.read (Elt F) f1) (arg1.view.read (Elt F) f0) k6_pay1)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  iintro ⟨H0, H1, H2, H3, Hk⟩
  sl_exec (disch := first | exact hc)
  sl_step
  iapply Hk
  iframe H0 H1
  unfold owns
  isplitl [H2] <;>
  (iexists _; iframe; ipureintro; sl_unfold_run_names
   simp only [read_writes_whole arg3.view off_zero, read_writes_whole arg4.view off_zero, readCov_whole arg4.view off_zero,
     readAt_whole arg1.view off_zero, readAt_whole arg2.view off_zero, readAt_whole arg4.view off_zero])

set_option maxHeartbeats 1000000 in
theorem sound_kernel6_rest (c : Dev nD) (E : Set ℕ) (i : grid6.Coords) (hc : ¬cond6 i)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole) (f0 f1 f2 f3) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2) ∗ (arg4.view.loc (c : Thread nD τ) ↦[arg4.view.set]{fullShare} f3)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (k6_pay2 (arg2.view.read (Elt F) f1) (arg1.view.read (Elt F) f0) (arg4.view.read (Elt F) f3))
            ∗ owns (c : Thread nD τ) arg4 fullShare (k6_pay2 (arg2.view.read (Elt F) f1) (arg1.view.read (Elt F) f0) (arg4.view.read (Elt F) f3))) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  iintro ⟨H0, H1, H2, H3, Hk⟩
  sl_exec (disch := first | exact hc)
  sl_step
  iapply Hk
  iframe H0 H1
  unfold owns
  isplitl [H2] <;>
  (iexists _; iframe; ipureintro; sl_unfold_run_names
   simp only [read_writes_whole arg3.view off_zero, read_writes_whole arg4.view off_zero, readCov_whole arg4.view off_zero,
     readAt_whole arg1.view off_zero, readAt_whole arg2.view off_zero, readAt_whole arg4.view off_zero])

theorem PhiS6_zero (c : Dev nD) {X Q : sProp 𝕄} (h : ∀ a, iprop(PhiS6_pos c (owns (c : Thread nD τ) scM6 fullShare a) ∗ X) ⊢ Q) :
    iprop(Pipeline.ΦA spec6 c ∗ X) ⊢ Q := by
  rw [PhiA6_eq]
  unfold PhiS6_pos at h ⊢
  iintro ⟨⟨⟨⟨%a, HS⟩, HR⟩, Hg⟩, HX⟩
  iapply h a
  iframe

theorem body_obligation6 (c : Dev nD) : BodyObligation (dat6 (F := F) V c) (defs₀ (F := F)) Variants.none () Set.univ := fun t => by
  rw [bigSep_W6, bigSep_W6]
  have h0 := fun d => (dat6 V c).before_in_eq_fetched 0 rfl (fun _ => rfl) (fun _ _ _ => rfl) (fun _ => rfl) t d
  have h1 := fun d => (dat6 V c).before_in_eq_fetched 1 rfl (fun _ => rfl) (fun _ _ _ => rfl) (fun _ => rfl) t d
  have hy := (accAt6_succ V c t).symm
  obtain ⟨_ | n, hn⟩ := t
  · exact PhiS6_zero c fun a => body3s (p := bodyAt6 _) (out := fun x0 x1 _ => k6_pay2 x1 x0 k6_pay1) h0 h1 hy
      (sound_kernel6_first c _ _ ((hcond6 _).mpr rfl) _ _ _ _ _ _ _ _)
  · exact body3s (p := bodyAt6 _) (out := fun x0 x1 a => k6_pay2 x1 x0 a) h0 h1 hy
      (sound_kernel6_rest c _ _ (mt (hcond6 _).mp n.succ_ne_zero) _ _ _ _ _ _ _ _)

end Cert.Kernel.Hand

end
-- ==== Proof.K.R7.lean ====
import proofs.«416252_j75050258530751_2_alg».proof.Proof.Gen.Kernel.Launch
import proofs.«416252_j75050258530751_2_alg».proof.Proof.Gen.Kernel.Skeleton
import proofs.«416252_j75050258530751_2_alg».proof.Proof.Gen.Kernel.Points
import proofs.«416252_j75050258530751_2_alg».proof.Proof.KI.RLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S10000x128 := Rect.unit (s := S10000x128) ![0, 0] S10000x128.size inb_S10000x128_S10000x128_0_0
abbrev r7_1 : Rect S128x32 := Rect.unit (s := S128x32) ![0, 0] S128x32.size inb_S128x32_S128x32_0_0
abbrev r7_2 : Rect S10000x32 := Rect.unit (s := S10000x32) ![0, 0] S10000x32.size inb_S10000x32_S10000x32_0_0

def out7_2 (x0 : Vec F S10000x128 .f32) (x1 : Vec F S128x32 .f32) : Vec F S10000x32 .f32 :=
  View.canon [⟨r7_2, k7_pay1 (View.ld x0 r7_0) (View.ld x1 r7_1)⟩]

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by dsimp only [dat7]

theorem after7_2 (c : Dev nD) (t : Fin cfg7.N) : (dat7 V c).after 2 t = out7_2 (iblk7 V c 0 t) (iblk7 V c 1 t) := by dsimp only [dat7]

set_option maxHeartbeats 1000000 in
/-- The one store covers the output's buffer, which so holds the canonical contents of that store. -/
theorem sound_kernel7 (c : Dev nD) (E : Set ℕ) (i : grid7.Coords)
    (arg1 : Memref sig .tc .vmem S10000x128 .f32) (harg1 : arg1.IsWhole)
    (arg2 : Memref sig .tc .vmem S128x32 .f32) (harg2 : arg2.IsWhole)
    (arg3 : Memref sig .tc .vmem S10000x32 .f32) (harg3 : arg3.IsWhole) (f0 f1 f2) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (out7_2 (arg1.view.read (Elt F) f0) (arg2.view.read (Elt F) f1))) -∗ K ⟨⟩))
      ⊢ wp frame (wpE (defs₀ (F := F)) Variants.none c none) E (cc7__linear_kernel i arg1 harg1 arg2 harg2 arg3 harg3) K := by
  simp only [cc7__linear_kernel_eq_skeleton]; unfold cc7__linear_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation7 (c : Dev nD) : BodyObligation (dat7 (F := F) V c) (defs₀ (F := F)) Variants.none () Set.univ := fun t => by
  rw [bigSep_W7, bigSep_W7, after7_2]
  exact RLib.body3 (p := bodyAt7 t) (fun d => (dat7 V c).before_in_eq_fetched 0 rfl (fun _ => rfl) (fun _ _ _ => rfl) (fun _ => rfl) t d)
    (fun d => (dat7 V c).before_in_eq_fetched 1 rfl (fun _ => rfl) (fun _ _ _ => rfl) (fun _ => rfl) t d)
    (sound_kernel7 c _ _ _ _ _ _ _ _)

end Cert.Kernel.Hand

end
-- ==== Proof.K.R8.lean ====
import proofs.«416252_j75050258530751_2_alg».proof.Proof.Gen.Kernel.Launch
import proofs.«416252_j75050258530751_2_alg».proof.Proof.Gen.Kernel.Skeleton
import proofs.«416252_j75050258530751_2_alg».proof.Proof.Gen.Kernel.Points
import proofs.«416252_j75050258530751_2_alg».proof.Proof.KI.RLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 : Rect S10000x32 := Rect.unit (s := S10000x32) ![0, 0] S10000x32.size inb_S10000x32_S10000x32_0_0
abbrev r8_1 : Rect S1x32 := Rect.unit (s := S1x32) ![0, 0] S1x32.size inb_S1x32_S1x32_0_0
abbrev r8_2 : Rect S10000x32 := Rect.unit (s := S10000x32) ![0, 0] S10000x32.size inb_S10000x32_S10000x32_0_0

def out8_2 (x0 : Vec F S10000x32 .f32) (x1 : Vec F S1x32 .f32) : Vec F S10000x32 .f32 :=
  View.canon [⟨r8_2, k8_pay1 (View.ld x0 r8_0) (View.ld x1 r8_1)⟩]

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by dsimp only [dat8]

theorem after8_2 (c : Dev nD) (t : Fin cfg8.N) : (dat8 V c).after 2 t = out8_2 (iblk8 V c 0 t) (iblk8 V c 1 t) := by dsimp only [dat8]

set_option maxHeartbeats 1000000 in
/-- The one store covers the output's buffer, which so holds the canonical contents of that store. -/
theorem sound_kernel8 (c : Dev nD) (E : Set ℕ) (i : grid8.Coords)
    (arg0 : Memref sig .tc .vmem S10000x32 .f32) (harg0 : arg0.IsWhole)
    (arg1 : Memref sig .tc .vmem S1x32 .f32) (harg1 : arg1.IsWhole)
    (arg2 : Memref sig .tc .vmem S10000x32 .f32) (harg2 : arg2.IsWhole) (f0 f1 f2) (K : PUnit → sProp 𝕄) :
    iprop((arg0.view.loc (c : Thread nD τ) ↦[arg0.view.set]{fullShare} f0) ∗ (arg1.view.loc (c : Thread nD τ) ↦[arg1.view.set]{fullShare} f1)
        ∗ (arg2.view.loc (c : Thread nD τ) ↦[arg2.view.set]{fullShare} f2)
        ∗ (iprop((arg0.view.loc (c : Thread nD τ) ↦[arg0.view.set]{fullShare} f0) ∗ (arg1.view.loc (c : Thread nD τ) ↦[arg1.view.set]{fullShare} f1)
            ∗ owns (c : Thread nD τ) arg2 fullShare (out8_2 (arg0.view.read (Elt F) f0) (arg1.view.read (Elt F) f1))) -∗ K ⟨⟩))
      ⊢ wp frame (wpE (defs₀ (F := F)) Variants.none c none) E (cc8__bias_relu_kernel i arg0 harg0 arg1 harg1 arg2 harg2) K := by
  simp only [cc8__bias_relu_kernel_eq_skeleton]; unfold cc8__bias_relu_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation8 (c : Dev nD) : BodyObligation (dat8 (F := F) V c) (defs₀ (F := F)) Variants.none () Set.univ := fun t => by
  rw [bigSep_W8, bigSep_W8, after8_2]
  exact RLib.body3 (p := bodyAt8 t) (fun d => (dat8 V c).before_in_eq_fetched 0 rfl (fun _ => rfl) (fun _ _ _ => rfl) (fun _ => rfl) t d)
    (fun d => (dat8 V c).before_in_eq_fetched 1 rfl (fun _ => rfl) (fun _ _ _ => rfl) (fun _ => rfl) t d)
    (sound_kernel8 c _ _ _ _ _ _ _ _)

end Cert.Kernel.Hand

end
-- ==== Proof.K.R9.lean ====
import proofs.«416252_j75050258530751_2_alg».proof.Proof.Gen.Kernel.Launch
import proofs.«416252_j75050258530751_2_alg».proof.Proof.Gen.Kernel.Skeleton
import proofs.«416252_j75050258530751_2_alg».proof.Proof.Gen.Kernel.Points
import proofs.«416252_j75050258530751_2_alg».proof.Proof.KI.RLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_0 : Rect S10000x32 := Rect.unit (s := S10000x32) ![0, 0] S10000x32.size inb_S10000x32_S10000x32_0_0
abbrev r9_1 : Rect S32x64 := Rect.unit (s := S32x64) ![0, 0] S32x64.size inb_S32x64_S32x64_0_0
abbrev r9_2 : Rect S10000x64 := Rect.unit (s := S10000x64) ![0, 0] S10000x64.size inb_S10000x64_S10000x64_0_0

def out9_2 (x0 : Vec F S10000x32 .f32) (x1 : Vec F S32x64 .f32) : Vec F S10000x64 .f32 :=
  View.canon [⟨r9_2, k9_pay1 (View.ld x0 r9_0) (View.ld x1 r9_1)⟩]

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by dsimp only [dat9]

theorem after9_2 (c : Dev nD) (t : Fin cfg9.N) : (dat9 V c).after 2 t = out9_2 (iblk9 V c 0 t) (iblk9 V c 1 t) := by dsimp only [dat9]

set_option maxHeartbeats 1000000 in
/-- The one store covers the output's buffer, which so holds the canonical contents of that store. -/
theorem sound_kernel9 (c : Dev nD) (E : Set ℕ) (i : grid9.Coords)
    (arg1 : Memref sig .tc .vmem S10000x32 .f32) (harg1 : arg1.IsWhole)
    (arg2 : Memref sig .tc .vmem S32x64 .f32) (harg2 : arg2.IsWhole)
    (arg3 : Memref sig .tc .vmem S10000x64 .f32) (harg3 : arg3.IsWhole) (f0 f1 f2) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (out9_2 (arg1.view.read (Elt F) f0) (arg2.view.read (Elt F) f1))) -∗ K ⟨⟩))
      ⊢ wp frame (wpE (defs₀ (F := F)) Variants.none c none) E (cc9__linear_kernel i arg1 harg1 arg2 harg2 arg3 harg3) K := by
  simp only [cc9__linear_kernel_eq_skeleton]; unfold cc9__linear_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation9 (c : Dev nD) : BodyObligation (dat9 (F := F) V c) (defs₀ (F := F)) Variants.none () Set.univ := fun t => by
  rw [bigSep_W9, bigSep_W9, after9_2]
  exact RLib.body3 (p := bodyAt9 t) (fun d => (dat9 V c).before_in_eq_fetched 0 rfl (fun _ => rfl) (fun _ _ _ => rfl) (fun _ => rfl) t d)
    (fun d => (dat9 V c).before_in_eq_fetched 1 rfl (fun _ => rfl) (fun _ _ _ => rfl) (fun _ => rfl) t d)
    (sound_kernel9 c _ _ _ _ _ _ _ _)

end Cert.Kernel.Hand

end
-- ==== Proof.K.R10.lean ====
import proofs.«416252_j75050258530751_2_alg».proof.Proof.Gen.Kernel.Launch
import proofs.«416252_j75050258530751_2_alg».proof.Proof.Gen.Kernel.Skeleton
import proofs.«416252_j75050258530751_2_alg».proof.Proof.Gen.Kernel.Points
import proofs.«416252_j75050258530751_2_alg».proof.Proof.KI.RLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev r10_0 : Rect S10000x64 := Rect.unit (s := S10000x64) ![0, 0] S10000x64.size inb_S10000x64_S10000x64_0_0
abbrev r10_1 : Rect S1x64 := Rect.unit (s := S1x64) ![0, 0] S1x64.size inb_S1x64_S1x64_0_0
abbrev r10_2 : Rect S10000x64 := Rect.unit (s := S10000x64) ![0, 0] S10000x64.size inb_S10000x64_S10000x64_0_0

def out10_2 (x0 : Vec F S10000x64 .f32) (x1 : Vec F S1x64 .f32) : Vec F S10000x64 .f32 :=
  View.canon [⟨r10_2, k10_pay1 (View.ld x0 r10_0) (View.ld x1 r10_1)⟩]

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by dsimp only [dat10]

theorem after10_2 (c : Dev nD) (t : Fin cfg10.N) : (dat10 V c).after 2 t = out10_2 (iblk10 V c 0 t) (iblk10 V c 1 t) := by dsimp only [dat10]

set_option maxHeartbeats 1000000 in
/-- The one store covers the output's buffer, which so holds the canonical contents of that store. -/
theorem sound_kernel10 (c : Dev nD) (E : Set ℕ) (i : grid10.Coords)
    (arg0 : Memref sig .tc .vmem S10000x64 .f32) (harg0 : arg0.IsWhole)
    (arg1 : Memref sig .tc .vmem S1x64 .f32) (harg1 : arg1.IsWhole)
    (arg2 : Memref sig .tc .vmem S10000x64 .f32) (harg2 : arg2.IsWhole) (f0 f1 f2) (K : PUnit → sProp 𝕄) :
    iprop((arg0.view.loc (c : Thread nD τ) ↦[arg0.view.set]{fullShare} f0) ∗ (arg1.view.loc (c : Thread nD τ) ↦[arg1.view.set]{fullShare} f1)
        ∗ (arg2.view.loc (c : Thread nD τ) ↦[arg2.view.set]{fullShare} f2)
        ∗ (iprop((arg0.view.loc (c : Thread nD τ) ↦[arg0.view.set]{fullShare} f0) ∗ (arg1.view.loc (c : Thread nD τ) ↦[arg1.view.set]{fullShare} f1)
            ∗ owns (c : Thread nD τ) arg2 fullShare (out10_2 (arg0.view.read (Elt F) f0) (arg1.view.read (Elt F) f1))) -∗ K ⟨⟩))
      ⊢ wp frame (wpE (defs₀ (F := F)) Variants.none c none) E (cc10__bias_relu_kernel i arg0 harg0 arg1 harg1 arg2 harg2) K := by
  simp only [cc10__bias_relu_kernel_eq_skeleton]; unfold cc10__bias_relu_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation10 (c : Dev nD) : BodyObligation (dat10 (F := F) V c) (defs₀ (F := F)) Variants.none () Set.univ := fun t => by
  rw [bigSep_W10, bigSep_W10, after10_2]
  exact RLib.body3 (p := bodyAt10 t) (fun d => (dat10 V c).before_in_eq_fetched 0 rfl (fun _ => rfl) (fun _ _ _ => rfl) (fun _ => rfl) t d)
    (fun d => (dat10 V c).before_in_eq_fetched 1 rfl (fun _ => rfl) (fun _ _ _ => rfl) (fun _ => rfl) t d)
    (sound_kernel10 c _ _ _ _ _ _ _ _)

end Cert.Kernel.Hand

end
-- ==== Proof.K.R11.lean ====
import proofs.«416252_j75050258530751_2_alg».proof.Proof.Gen.Kernel.Launch
import proofs.«416252_j75050258530751_2_alg».proof.Proof.Gen.Kernel.Skeleton
import proofs.«416252_j75050258530751_2_alg».proof.Proof.Gen.Kernel.Points
import proofs.«416252_j75050258530751_2_alg».proof.Proof.KI.RLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

abbrev r11_0 : Rect S10000x64 := Rect.unit (s := S10000x64) ![0, 0] S10000x64.size inb_S10000x64_S10000x64_0_0
abbrev r11_1 : Rect S64x64 := Rect.unit (s := S64x64) ![0, 0] S64x64.size inb_S64x64_S64x64_0_0
abbrev r11_2 : Rect S10000x64 := Rect.unit (s := S10000x64) ![0, 0] S10000x64.size inb_S10000x64_S10000x64_0_0

def out11_2 (x0 : Vec F S10000x64 .f32) (x1 : Vec F S64x64 .f32) : Vec F S10000x64 .f32 :=
  View.canon [⟨r11_2, k11_pay1 (View.ld x0 r11_0) (View.ld x1 r11_1)⟩]

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11_2 (iblk11 V c 0 t) (iblk11 V c 1 t)
  Φ _ := Pipeline.ΦA spec11 c
  q _ := fullShare
  owed _ := 0

theorem A_eq11 (c : Dev nD) (w : Fin cfg11.W) : (dat11 V c).A w = V c (Pipeline.arrRef spec11 w) := by dsimp only [dat11]

theorem after11_2 (c : Dev nD) (t : Fin cfg11.N) : (dat11 V c).after 2 t = out11_2 (iblk11 V c 0 t) (iblk11 V c 1 t) := by dsimp only [dat11]

set_option maxHeartbeats 1000000 in
/-- The one store covers the output's buffer, which so holds the canonical contents of that store. -/
theorem sound_kernel11 (c : Dev nD) (E : Set ℕ) (i : grid11.Coords)
    (arg1 : Memref sig .tc .vmem S10000x64 .f32) (harg1 : arg1.IsWhole)
    (arg2 : Memref sig .tc .vmem S64x64 .f32) (harg2 : arg2.IsWhole)
    (arg3 : Memref sig .tc .vmem S10000x64 .f32) (harg3 : arg3.IsWhole) (f0 f1 f2) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (out11_2 (arg1.view.read (Elt F) f0) (arg2.view.read (Elt F) f1))) -∗ K ⟨⟩))
      ⊢ wp frame (wpE (defs₀ (F := F)) Variants.none c none) E (cc11__linear_kernel i arg1 harg1 arg2 harg2 arg3 harg3) K := by
  simp only [cc11__linear_kernel_eq_skeleton]; unfold cc11__linear_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation11 (c : Dev nD) : BodyObligation (dat11 (F := F) V c) (defs₀ (F := F)) Variants.none () Set.univ := fun t => by
  rw [bigSep_W11, bigSep_W11, after11_2]
  exact RLib.body3 (p := bodyAt11 t) (fun d => (dat11 V c).before_in_eq_fetched 0 rfl (fun _ => rfl) (fun _ _ _ => rfl) (fun _ => rfl) t d)
    (fun d => (dat11 V c).before_in_eq_fetched 1 rfl (fun _ => rfl) (fun _ _ _ => rfl) (fun _ => rfl) t d)
    (sound_kernel11 c _ _ _ _ _ _ _ _)

end Cert.Kernel.Hand

end
-- ==== Proof.K.R12.lean ====
import proofs.«416252_j75050258530751_2_alg».proof.Proof.Gen.Kernel.Launch
import proofs.«416252_j75050258530751_2_alg».proof.Proof.Gen.Kernel.Skeleton
import proofs.«416252_j75050258530751_2_alg».proof.Proof.Gen.Kernel.Points
import proofs.«416252_j75050258530751_2_alg».proof.Proof.KI.RLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev r12_0 : Rect S10000x64 := Rect.unit (s := S10000x64) ![0, 0] S10000x64.size inb_S10000x64_S10000x64_0_0
abbrev r12_1 : Rect S1x64 := Rect.unit (s := S1x64) ![0, 0] S1x64.size inb_S1x64_S1x64_0_0
abbrev r12_2 : Rect S10000x64 := Rect.unit (s := S10000x64) ![0, 0] S10000x64.size inb_S10000x64_S10000x64_0_0

def out12_2 (x0 : Vec F S10000x64 .f32) (x1 : Vec F S1x64 .f32) : Vec F S10000x64 .f32 :=
  View.canon [⟨r12_2, k12_pay1 (View.ld x0 r12_0) (View.ld x1 r12_1)⟩]

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by dsimp only [dat12]

theorem after12_2 (c : Dev nD) (t : Fin cfg12.N) : (dat12 V c).after 2 t = out12_2 (iblk12 V c 0 t) (iblk12 V c 1 t) := by dsimp only [dat12]

set_option maxHeartbeats 1000000 in
/-- The one store covers the output's buffer, which so holds the canonical contents of that store. -/
theorem sound_kernel12 (c : Dev nD) (E : Set ℕ) (i : grid12.Coords)
    (arg0 : Memref sig .tc .vmem S10000x64 .f32) (harg0 : arg0.IsWhole)
    (arg1 : Memref sig .tc .vmem S1x64 .f32) (harg1 : arg1.IsWhole)
    (arg2 : Memref sig .tc .vmem S10000x64 .f32) (harg2 : arg2.IsWhole) (f0 f1 f2) (K : PUnit → sProp 𝕄) :
    iprop((arg0.view.loc (c : Thread nD τ) ↦[arg0.view.set]{fullShare} f0) ∗ (arg1.view.loc (c : Thread nD τ) ↦[arg1.view.set]{fullShare} f1)
        ∗ (arg2.view.loc (c : Thread nD τ) ↦[arg2.view.set]{fullShare} f2)
        ∗ (iprop((arg0.view.loc (c : Thread nD τ) ↦[arg0.view.set]{fullShare} f0) ∗ (arg1.view.loc (c : Thread nD τ) ↦[arg1.view.set]{fullShare} f1)
            ∗ owns (c : Thread nD τ) arg2 fullShare (out12_2 (arg0.view.read (Elt F) f0) (arg1.view.read (Elt F) f1))) -∗ K ⟨⟩))
      ⊢ wp frame (wpE (defs₀ (F := F)) Variants.none c none) E (cc12__bias_relu_kernel i arg0 harg0 arg1 harg1 arg2 harg2) K := by
  simp only [cc12__bias_relu_kernel_eq_skeleton]; unfold cc12__bias_relu_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation12 (c : Dev nD) : BodyObligation (dat12 (F := F) V c) (defs₀ (F := F)) Variants.none () Set.univ := fun t => by
  rw [bigSep_W12, bigSep_W12, after12_2]
  exact RLib.body3 (p := bodyAt12 t) (fun d => (dat12 V c).before_in_eq_fetched 0 rfl (fun _ => rfl) (fun _ _ _ => rfl) (fun _ => rfl) t d)
    (fun d => (dat12 V c).before_in_eq_fetched 1 rfl (fun _ => rfl) (fun _ _ _ => rfl) (fun _ => rfl) t d)
    (sound_kernel12 c _ _ _ _ _ _ _ _)

end Cert.Kernel.Hand

end
-- ==== Proof.K.R13.lean ====
import proofs.«416252_j75050258530751_2_alg».proof.Proof.Gen.Kernel.Launch
import proofs.«416252_j75050258530751_2_alg».proof.Proof.Gen.Kernel.Skeleton
import proofs.«416252_j75050258530751_2_alg».proof.Proof.Gen.Kernel.Points
import proofs.«416252_j75050258530751_2_alg».proof.Proof.KI.RLib

noncomputable section

namespace Cert.Kernel.Hand

open Cert.Kernel Cert.Kernel.Gen Cert.RLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

def accAt13 (c : Dev nD) : ℕ → Vec F S512x64 .f32
  | 0 => k13_pay1
  | n + 1 => if h : n < cfg13.N then k13_pay2 (iblk13 V c 1 ⟨n, h⟩) (iblk13 V c 0 ⟨n, h⟩) (accAt13 c n) else accAt13 c n

theorem accAt13_zero (c : Dev nD) : accAt13 V c 0 = k13_pay1 := rfl

theorem accAt13_succ (c : Dev nD) (t : Fin cfg13.N) :
    accAt13 V c (t.val + 1) = k13_pay2 (iblk13 V c 1 t) (iblk13 V c 0 t) (accAt13 V c t.val) := by
  rw [accAt13, dif_pos t.isLt]

abbrev scM13 : Memref sig .tc .vmem S512x64 .f32 := Memref.whole cc13_scratch0

/-- The invariant, with what it holds of the carried block set apart as `S`. -/
abbrev PhiS13_pos (c : Dev nD) (S : sProp 𝕄) : sProp 𝕄 :=
  iprop(iprop(S ∗ Pipeline.scopedRestBut (Ix := Unit) (Name := ℕ) (U := UR sig nD τ) (Lvl := ℕ) (Val := Elt F) spec13 c [cc13_scratch0])
    ∗ (∃ r, prngReg c r))

def PhiS13 (c : Dev nD) : ℕ → sProp 𝕄
  | 0 => Pipeline.ΦA spec13 c
  | n + 1 => PhiS13_pos c (owns (c : Thread nD τ) scM13 fullShare (accAt13 V c (n + 1)))

theorem PhiA13_eq (c : Dev nD) : (Pipeline.ΦA spec13 c : sProp 𝕄) = PhiS13_pos c iprop(∃ d, owns (c : Thread nD τ) scM13 fullShare d) := by
  unfold Pipeline.ΦA; rw [scopedRest13_split]; simp only [scM13, owns_whole]; try rfl

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => accAt13 V c (t.val + 1)
  Φ t := PhiS13 V c t.val
  q _ := fullShare
  owed _ := 0

theorem A_eq13 (c : Dev nD) (w : Fin cfg13.W) : (dat13 V c).A w = V c (Pipeline.arrRef spec13 w) := rfl

theorem after13_2 (c : Dev nD) (t : Fin cfg13.N) : (dat13 V c).after 2 t = accAt13 V c (t.val + 1) := rfl

theorem hin13 (c : Dev nD) : Pipeline.ΦA spec13 c ⊢ (dat13 V c).Φ 0 := .rfl

/-- Holding the carried block at named contents is holding it at some contents. -/
theorem hout13 (c : Dev nD) : (dat13 V c).Φ (Fin.last cfg13.N) ⊢ Pipeline.ΦA spec13 c := by
  obtain ⟨n, hn⟩ := Nat.exists_eq_succ_of_ne_zero (by decide : grid13.N ≠ 0)
  rw [PhiA13_eq, show (dat13 V c).Φ (Fin.last cfg13.N) = PhiS13 V c (n + 1) from congrArg (PhiS13 V c) hn]
  unfold PhiS13 PhiS13_pos
  iintro ⟨⟨HS, HR⟩, Hg⟩
  iframe HR Hg
  iexists _; iexact HS

abbrev cond13 (i : grid13.Coords) : Prop :=
  (Scalar.cmpi .ne (Scalar.extui (Scalar.cmpi .eq (BitVec.ofNat 32 (i 0).val) 0#32)) 0#32) = 1#1

theorem hcond13 : ∀ t : Fin cfg13.N, cond13 (grid13.coords t) ↔ t.val = 0 :=
  (by decide +kernel : ∀ t : Fin grid13.N, cond13 (grid13.coords t) ↔ t.val = 0)

set_option maxHeartbeats 1000000 in
theorem sound_kernel13_first (c : Dev nD) (E : Set ℕ) (i : grid13.Coords) (hc : cond13 i)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole) (f0 f1 f2 f3) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2) ∗ (arg4.view.loc (c : Thread nD τ) ↦[arg4.view.set]{fullShare} f3)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (k13_pay2 (arg2.view.read (Elt F) f1) (arg1.view.read (Elt F) f0) k13_pay1)
            ∗ owns (c : Thread nD τ) arg4 fullShare (k13_pay2 (arg2.view.read (Elt F) f1) (arg1.view.read (Elt F) f0) k13_pay1)) -∗ K ⟨⟩))
      ⊢ wp frame (wpE (defs₀ (F := F)) Variants.none c none) E (cc13__pool_kernel i arg1 harg1 arg2 harg2 arg3 harg3 arg4 harg4) K := by
  simp only [cc13__pool_kernel_eq_skeleton]; unfold cc13__pool_kernel_skel
  iintro ⟨H0, H1, H2, H3, Hk⟩
  sl_exec (disch := first | exact hc)
  sl_step
  iapply Hk
  iframe H0 H1
  unfold owns
  isplitl [H2] <;>
  (iexists _; iframe; ipureintro; sl_unfold_run_names
   simp only [read_writes_whole arg3.view off_zero, read_writes_whole arg4.view off_zero, readCov_whole arg4.view off_zero,
     readAt_whole arg1.view off_zero, readAt_whole arg2.view off_zero, readAt_whole arg4.view off_zero])

set_option maxHeartbeats 1000000 in
theorem sound_kernel13_rest (c : Dev nD) (E : Set ℕ) (i : grid13.Coords) (hc : ¬cond13 i)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole) (f0 f1 f2 f3) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2) ∗ (arg4.view.loc (c : Thread nD τ) ↦[arg4.view.set]{fullShare} f3)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (k13_pay2 (arg2.view.read (Elt F) f1) (arg1.view.read (Elt F) f0) (arg4.view.read (Elt F) f3))
            ∗ owns (c : Thread nD τ) arg4 fullShare (k13_pay2 (arg2.view.read (Elt F) f1) (arg1.view.read (Elt F) f0) (arg4.view.read (Elt F) f3))) -∗ K ⟨⟩))
      ⊢ wp frame (wpE (defs₀ (F := F)) Variants.none c none) E (cc13__pool_kernel i arg1 harg1 arg2 harg2 arg3 harg3 arg4 harg4) K := by
  simp only [cc13__pool_kernel_eq_skeleton]; unfold cc13__pool_kernel_skel
  iintro ⟨H0, H1, H2, H3, Hk⟩
  sl_exec (disch := first | exact hc)
  sl_step
  iapply Hk
  iframe H0 H1
  unfold owns
  isplitl [H2] <;>
  (iexists _; iframe; ipureintro; sl_unfold_run_names
   simp only [read_writes_whole arg3.view off_zero, read_writes_whole arg4.view off_zero, readCov_whole arg4.view off_zero,
     readAt_whole arg1.view off_zero, readAt_whole arg2.view off_zero, readAt_whole arg4.view off_zero])

theorem PhiS13_zero (c : Dev nD) {X Q : sProp 𝕄} (h : ∀ a, iprop(PhiS13_pos c (owns (c : Thread nD τ) scM13 fullShare a) ∗ X) ⊢ Q) :
    iprop(Pipeline.ΦA spec13 c ∗ X) ⊢ Q := by
  rw [PhiA13_eq]
  unfold PhiS13_pos at h ⊢
  iintro ⟨⟨⟨⟨%a, HS⟩, HR⟩, Hg⟩, HX⟩
  iapply h a
  iframe

theorem body_obligation13 (c : Dev nD) : BodyObligation (dat13 (F := F) V c) (defs₀ (F := F)) Variants.none () Set.univ := fun t => by
  rw [bigSep_W13, bigSep_W13]
  have h0 := fun d => (dat13 V c).before_in_eq_fetched 0 rfl (fun _ => rfl) (fun _ _ _ => rfl) (fun _ => rfl) t d
  have h1 := fun d => (dat13 V c).before_in_eq_fetched 1 rfl (fun _ => rfl) (fun _ _ _ => rfl) (fun _ => rfl) t d
  have hy := (accAt13_succ V c t).symm
  obtain ⟨_ | n, hn⟩ := t
  · exact PhiS13_zero c fun a => body3s (p := bodyAt13 _) (out := fun x0 x1 _ => k13_pay2 x1 x0 k13_pay1) h0 h1 hy
      (sound_kernel13_first c _ _ ((hcond13 _).mpr rfl) _ _ _ _ _ _ _ _)
  · exact body3s (p := bodyAt13 _) (out := fun x0 x1 a => k13_pay2 x1 x0 a) h0 h1 hy
      (sound_kernel13_rest c _ _ (mt (hcond13 _).mp n.succ_ne_zero) _ _ _ _ _ _ _ _)

end Cert.Kernel.Hand

end
-- ==== Proof.K.R14.lean ====
import proofs.«416252_j75050258530751_2_alg».proof.Proof.Gen.Kernel.Launch
import proofs.«416252_j75050258530751_2_alg».proof.Proof.Gen.Kernel.Skeleton
import proofs.«416252_j75050258530751_2_alg».proof.Proof.Gen.Kernel.Points
import proofs.«416252_j75050258530751_2_alg».proof.Proof.KI.RLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

abbrev r14_0 : Rect S10000x128 := Rect.unit (s := S10000x128) ![0, 0] S10000x128.size inb_S10000x128_S10000x128_0_0
abbrev r14_1 : Rect S128x32 := Rect.unit (s := S128x32) ![0, 0] S128x32.size inb_S128x32_S128x32_0_0
abbrev r14_2 : Rect S10000x32 := Rect.unit (s := S10000x32) ![0, 0] S10000x32.size inb_S10000x32_S10000x32_0_0

def out14_2 (x0 : Vec F S10000x128 .f32) (x1 : Vec F S128x32 .f32) : Vec F S10000x32 .f32 :=
  View.canon [⟨r14_2, k14_pay1 (View.ld x0 r14_0) (View.ld x1 r14_1)⟩]

def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => out14_2 (iblk14 V c 0 t) (iblk14 V c 1 t)
  Φ _ := Pipeline.ΦA spec14 c
  q _ := fullShare
  owed _ := 0

theorem A_eq14 (c : Dev nD) (w : Fin cfg14.W) : (dat14 V c).A w = V c (Pipeline.arrRef spec14 w) := by dsimp only [dat14]

theorem after14_2 (c : Dev nD) (t : Fin cfg14.N) : (dat14 V c).after 2 t = out14_2 (iblk14 V c 0 t) (iblk14 V c 1 t) := by dsimp only [dat14]

set_option maxHeartbeats 1000000 in
/-- The one store covers the output's buffer, which so holds the canonical contents of that store. -/
theorem sound_kernel14 (c : Dev nD) (E : Set ℕ) (i : grid14.Coords)
    (arg1 : Memref sig .tc .vmem S10000x128 .f32) (harg1 : arg1.IsWhole)
    (arg2 : Memref sig .tc .vmem S128x32 .f32) (harg2 : arg2.IsWhole)
    (arg3 : Memref sig .tc .vmem S10000x32 .f32) (harg3 : arg3.IsWhole) (f0 f1 f2) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (out14_2 (arg1.view.read (Elt F) f0) (arg2.view.read (Elt F) f1))) -∗ K ⟨⟩))
      ⊢ wp frame (wpE (defs₀ (F := F)) Variants.none c none) E (cc14__linear_kernel i arg1 harg1 arg2 harg2 arg3 harg3) K := by
  simp only [cc14__linear_kernel_eq_skeleton]; unfold cc14__linear_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation14 (c : Dev nD) : BodyObligation (dat14 (F := F) V c) (defs₀ (F := F)) Variants.none () Set.univ := fun t => by
  rw [bigSep_W14, bigSep_W14, after14_2]
  exact RLib.body3 (p := bodyAt14 t) (fun d => (dat14 V c).before_in_eq_fetched 0 rfl (fun _ => rfl) (fun _ _ _ => rfl) (fun _ => rfl) t d)
    (fun d => (dat14 V c).before_in_eq_fetched 1 rfl (fun _ => rfl) (fun _ _ _ => rfl) (fun _ => rfl) t d)
    (sound_kernel14 c _ _ _ _ _ _ _ _)

end Cert.Kernel.Hand

end
-- ==== Proof.K.R15.lean ====
import proofs.«416252_j75050258530751_2_alg».proof.Proof.Gen.Kernel.Launch
import proofs.«416252_j75050258530751_2_alg».proof.Proof.Gen.Kernel.Skeleton
import proofs.«416252_j75050258530751_2_alg».proof.Proof.Gen.Kernel.Points
import proofs.«416252_j75050258530751_2_alg».proof.Proof.KI.RLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

abbrev r15_0 : Rect S10000x32 := Rect.unit (s := S10000x32) ![0, 0] S10000x32.size inb_S10000x32_S10000x32_0_0
abbrev r15_1 : Rect S1x32 := Rect.unit (s := S1x32) ![0, 0] S1x32.size inb_S1x32_S1x32_0_0
abbrev r15_2 : Rect S10000x32 := Rect.unit (s := S10000x32) ![0, 0] S10000x32.size inb_S10000x32_S10000x32_0_0

def out15_2 (x0 : Vec F S10000x32 .f32) (x1 : Vec F S1x32 .f32) : Vec F S10000x32 .f32 :=
  View.canon [⟨r15_2, k15_pay1 (View.ld x0 r15_0) (View.ld x1 r15_1)⟩]

def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => out15_2 (iblk15 V c 0 t) (iblk15 V c 1 t)
  Φ _ := Pipeline.ΦA spec15 c
  q _ := fullShare
  owed _ := 0

theorem A_eq15 (c : Dev nD) (w : Fin cfg15.W) : (dat15 V c).A w = V c (Pipeline.arrRef spec15 w) := by dsimp only [dat15]

theorem after15_2 (c : Dev nD) (t : Fin cfg15.N) : (dat15 V c).after 2 t = out15_2 (iblk15 V c 0 t) (iblk15 V c 1 t) := by dsimp only [dat15]

set_option maxHeartbeats 1000000 in
/-- The one store covers the output's buffer, which so holds the canonical contents of that store. -/
theorem sound_kernel15 (c : Dev nD) (E : Set ℕ) (i : grid15.Coords)
    (arg0 : Memref sig .tc .vmem S10000x32 .f32) (harg0 : arg0.IsWhole)
    (arg1 : Memref sig .tc .vmem S1x32 .f32) (harg1 : arg1.IsWhole)
    (arg2 : Memref sig .tc .vmem S10000x32 .f32) (harg2 : arg2.IsWhole) (f0 f1 f2) (K : PUnit → sProp 𝕄) :
    iprop((arg0.view.loc (c : Thread nD τ) ↦[arg0.view.set]{fullShare} f0) ∗ (arg1.view.loc (c : Thread nD τ) ↦[arg1.view.set]{fullShare} f1)
        ∗ (arg2.view.loc (c : Thread nD τ) ↦[arg2.view.set]{fullShare} f2)
        ∗ (iprop((arg0.view.loc (c : Thread nD τ) ↦[arg0.view.set]{fullShare} f0) ∗ (arg1.view.loc (c : Thread nD τ) ↦[arg1.view.set]{fullShare} f1)
            ∗ owns (c : Thread nD τ) arg2 fullShare (out15_2 (arg0.view.read (Elt F) f0) (arg1.view.read (Elt F) f1))) -∗ K ⟨⟩))
      ⊢ wp frame (wpE (defs₀ (F := F)) Variants.none c none) E (cc15__bias_relu_kernel i arg0 harg0 arg1 harg1 arg2 harg2) K := by
  simp only [cc15__bias_relu_kernel_eq_skeleton]; unfold cc15__bias_relu_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation15 (c : Dev nD) : BodyObligation (dat15 (F := F) V c) (defs₀ (F := F)) Variants.none () Set.univ := fun t => by
  rw [bigSep_W15, bigSep_W15, after15_2]
  exact RLib.body3 (p := bodyAt15 t) (fun d => (dat15 V c).before_in_eq_fetched 0 rfl (fun _ => rfl) (fun _ _ _ => rfl) (fun _ => rfl) t d)
    (fun d => (dat15 V c).before_in_eq_fetched 1 rfl (fun _ => rfl) (fun _ _ _ => rfl) (fun _ => rfl) t d)
    (sound_kernel15 c _ _ _ _ _ _ _ _)

end Cert.Kernel.Hand

end
-- ==== Proof.K.R16.lean ====
import proofs.«416252_j75050258530751_2_alg».proof.Proof.Gen.Kernel.Launch
import proofs.«416252_j75050258530751_2_alg».proof.Proof.Gen.Kernel.Skeleton
import proofs.«416252_j75050258530751_2_alg».proof.Proof.Gen.Kernel.Points
import proofs.«416252_j75050258530751_2_alg».proof.Proof.KI.RLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

abbrev r16_0 : Rect S10000x32 := Rect.unit (s := S10000x32) ![0, 0] S10000x32.size inb_S10000x32_S10000x32_0_0
abbrev r16_1 : Rect S32x64 := Rect.unit (s := S32x64) ![0, 0] S32x64.size inb_S32x64_S32x64_0_0
abbrev r16_2 : Rect S10000x64 := Rect.unit (s := S10000x64) ![0, 0] S10000x64.size inb_S10000x64_S10000x64_0_0

def out16_2 (x0 : Vec F S10000x32 .f32) (x1 : Vec F S32x64 .f32) : Vec F S10000x64 .f32 :=
  View.canon [⟨r16_2, k16_pay1 (View.ld x0 r16_0) (View.ld x1 r16_1)⟩]

def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => out16_2 (iblk16 V c 0 t) (iblk16 V c 1 t)
  Φ _ := Pipeline.ΦA spec16 c
  q _ := fullShare
  owed _ := 0

theorem A_eq16 (c : Dev nD) (w : Fin cfg16.W) : (dat16 V c).A w = V c (Pipeline.arrRef spec16 w) := by dsimp only [dat16]

theorem after16_2 (c : Dev nD) (t : Fin cfg16.N) : (dat16 V c).after 2 t = out16_2 (iblk16 V c 0 t) (iblk16 V c 1 t) := by dsimp only [dat16]

set_option maxHeartbeats 1000000 in
/-- The one store covers the output's buffer, which so holds the canonical contents of that store. -/
theorem sound_kernel16 (c : Dev nD) (E : Set ℕ) (i : grid16.Coords)
    (arg1 : Memref sig .tc .vmem S10000x32 .f32) (harg1 : arg1.IsWhole)
    (arg2 : Memref sig .tc .vmem S32x64 .f32) (harg2 : arg2.IsWhole)
    (arg3 : Memref sig .tc .vmem S10000x64 .f32) (harg3 : arg3.IsWhole) (f0 f1 f2) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (out16_2 (arg1.view.read (Elt F) f0) (arg2.view.read (Elt F) f1))) -∗ K ⟨⟩))
      ⊢ wp frame (wpE (defs₀ (F := F)) Variants.none c none) E (cc16__linear_kernel i arg1 harg1 arg2 harg2 arg3 harg3) K := by
  simp only [cc16__linear_kernel_eq_skeleton]; unfold cc16__linear_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation16 (c : Dev nD) : BodyObligation (dat16 (F := F) V c) (defs₀ (F := F)) Variants.none () Set.univ := fun t => by
  rw [bigSep_W16, bigSep_W16, after16_2]
  exact RLib.body3 (p := bodyAt16 t) (fun d => (dat16 V c).before_in_eq_fetched 0 rfl (fun _ => rfl) (fun _ _ _ => rfl) (fun _ => rfl) t d)
    (fun d => (dat16 V c).before_in_eq_fetched 1 rfl (fun _ => rfl) (fun _ _ _ => rfl) (fun _ => rfl) t d)
    (sound_kernel16 c _ _ _ _ _ _ _ _)

end Cert.Kernel.Hand

end
-- ==== Proof.K.R17.lean ====
import proofs.«416252_j75050258530751_2_alg».proof.Proof.Gen.Kernel.Launch
import proofs.«416252_j75050258530751_2_alg».proof.Proof.Gen.Kernel.Skeleton
import proofs.«416252_j75050258530751_2_alg».proof.Proof.Gen.Kernel.Points
import proofs.«416252_j75050258530751_2_alg».proof.Proof.KI.RLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

abbrev r17_0 : Rect S10000x64 := Rect.unit (s := S10000x64) ![0, 0] S10000x64.size inb_S10000x64_S10000x64_0_0
abbrev r17_1 : Rect S1x64 := Rect.unit (s := S1x64) ![0, 0] S1x64.size inb_S1x64_S1x64_0_0
abbrev r17_2 : Rect S10000x64 := Rect.unit (s := S10000x64) ![0, 0] S10000x64.size inb_S10000x64_S10000x64_0_0

def out17_2 (x0 : Vec F S10000x64 .f32) (x1 : Vec F S1x64 .f32) : Vec F S10000x64 .f32 :=
  View.canon [⟨r17_2, k17_pay1 (View.ld x0 r17_0) (View.ld x1 r17_1)⟩]

def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => out17_2 (iblk17 V c 0 t) (iblk17 V c 1 t)
  Φ _ := Pipeline.ΦA spec17 c
  q _ := fullShare
  owed _ := 0

theorem A_eq17 (c : Dev nD) (w : Fin cfg17.W) : (dat17 V c).A w = V c (Pipeline.arrRef spec17 w) := by dsimp only [dat17]

theorem after17_2 (c : Dev nD) (t : Fin cfg17.N) : (dat17 V c).after 2 t = out17_2 (iblk17 V c 0 t) (iblk17 V c 1 t) := by dsimp only [dat17]

set_option maxHeartbeats 1000000 in
/-- The one store covers the output's buffer, which so holds the canonical contents of that store. -/
theorem sound_kernel17 (c : Dev nD) (E : Set ℕ) (i : grid17.Coords)
    (arg0 : Memref sig .tc .vmem S10000x64 .f32) (harg0 : arg0.IsWhole)
    (arg1 : Memref sig .tc .vmem S1x64 .f32) (harg1 : arg1.IsWhole)
    (arg2 : Memref sig .tc .vmem S10000x64 .f32) (harg2 : arg2.IsWhole) (f0 f1 f2) (K : PUnit → sProp 𝕄) :
    iprop((arg0.view.loc (c : Thread nD τ) ↦[arg0.view.set]{fullShare} f0) ∗ (arg1.view.loc (c : Thread nD τ) ↦[arg1.view.set]{fullShare} f1)
        ∗ (arg2.view.loc (c : Thread nD τ) ↦[arg2.view.set]{fullShare} f2)
        ∗ (iprop((arg0.view.loc (c : Thread nD τ) ↦[arg0.view.set]{fullShare} f0) ∗ (arg1.view.loc (c : Thread nD τ) ↦[arg1.view.set]{fullShare} f1)
            ∗ owns (c : Thread nD τ) arg2 fullShare (out17_2 (arg0.view.read (Elt F) f0) (arg1.view.read (Elt F) f1))) -∗ K ⟨⟩))
      ⊢ wp frame (wpE (defs₀ (F := F)) Variants.none c none) E (cc17__bias_relu_kernel i arg0 harg0 arg1 harg1 arg2 harg2) K := by
  simp only [cc17__bias_relu_kernel_eq_skeleton]; unfold cc17__bias_relu_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation17 (c : Dev nD) : BodyObligation (dat17 (F := F) V c) (defs₀ (F := F)) Variants.none () Set.univ := fun t => by
  rw [bigSep_W17, bigSep_W17, after17_2]
  exact RLib.body3 (p := bodyAt17 t) (fun d => (dat17 V c).before_in_eq_fetched 0 rfl (fun _ => rfl) (fun _ _ _ => rfl) (fun _ => rfl) t d)
    (fun d => (dat17 V c).before_in_eq_fetched 1 rfl (fun _ => rfl) (fun _ _ _ => rfl) (fun _ => rfl) t d)
    (sound_kernel17 c _ _ _ _ _ _ _ _)

end Cert.Kernel.Hand

end
-- ==== Proof.K.R18.lean ====
import proofs.«416252_j75050258530751_2_alg».proof.Proof.Gen.Kernel.Launch
import proofs.«416252_j75050258530751_2_alg».proof.Proof.Gen.Kernel.Skeleton
import proofs.«416252_j75050258530751_2_alg».proof.Proof.Gen.Kernel.Points
import proofs.«416252_j75050258530751_2_alg».proof.Proof.KI.RLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

abbrev r18_0 : Rect S10000x64 := Rect.unit (s := S10000x64) ![0, 0] S10000x64.size inb_S10000x64_S10000x64_0_0
abbrev r18_1 : Rect S64x64 := Rect.unit (s := S64x64) ![0, 0] S64x64.size inb_S64x64_S64x64_0_0
abbrev r18_2 : Rect S10000x64 := Rect.unit (s := S10000x64) ![0, 0] S10000x64.size inb_S10000x64_S10000x64_0_0

def out18_2 (x0 : Vec F S10000x64 .f32) (x1 : Vec F S64x64 .f32) : Vec F S10000x64 .f32 :=
  View.canon [⟨r18_2, k18_pay1 (View.ld x0 r18_0) (View.ld x1 r18_1)⟩]

def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => out18_2 (iblk18 V c 0 t) (iblk18 V c 1 t)
  Φ _ := Pipeline.ΦA spec18 c
  q _ := fullShare
  owed _ := 0

theorem A_eq18 (c : Dev nD) (w : Fin cfg18.W) : (dat18 V c).A w = V c (Pipeline.arrRef spec18 w) := by dsimp only [dat18]

theorem after18_2 (c : Dev nD) (t : Fin cfg18.N) : (dat18 V c).after 2 t = out18_2 (iblk18 V c 0 t) (iblk18 V c 1 t) := by dsimp only [dat18]

set_option maxHeartbeats 1000000 in
/-- The one store covers the output's buffer, which so holds the canonical contents of that store. -/
theorem sound_kernel18 (c : Dev nD) (E : Set ℕ) (i : grid18.Coords)
    (arg1 : Memref sig .tc .vmem S10000x64 .f32) (harg1 : arg1.IsWhole)
    (arg2 : Memref sig .tc .vmem S64x64 .f32) (harg2 : arg2.IsWhole)
    (arg3 : Memref sig .tc .vmem S10000x64 .f32) (harg3 : arg3.IsWhole) (f0 f1 f2) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (out18_2 (arg1.view.read (Elt F) f0) (arg2.view.read (Elt F) f1))) -∗ K ⟨⟩))
      ⊢ wp frame (wpE (defs₀ (F := F)) Variants.none c none) E (cc18__linear_kernel i arg1 harg1 arg2 harg2 arg3 harg3) K := by
  simp only [cc18__linear_kernel_eq_skeleton]; unfold cc18__linear_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation18 (c : Dev nD) : BodyObligation (dat18 (F := F) V c) (defs₀ (F := F)) Variants.none () Set.univ := fun t => by
  rw [bigSep_W18, bigSep_W18, after18_2]
  exact RLib.body3 (p := bodyAt18 t) (fun d => (dat18 V c).before_in_eq_fetched 0 rfl (fun _ => rfl) (fun _ _ _ => rfl) (fun _ => rfl) t d)
    (fun d => (dat18 V c).before_in_eq_fetched 1 rfl (fun _ => rfl) (fun _ _ _ => rfl) (fun _ => rfl) t d)
    (sound_kernel18 c _ _ _ _ _ _ _ _)

end Cert.Kernel.Hand

end
-- ==== Proof.K.R19.lean ====
import proofs.«416252_j75050258530751_2_alg».proof.Proof.Gen.Kernel.Launch
import proofs.«416252_j75050258530751_2_alg».proof.Proof.Gen.Kernel.Skeleton
import proofs.«416252_j75050258530751_2_alg».proof.Proof.Gen.Kernel.Points
import proofs.«416252_j75050258530751_2_alg».proof.Proof.KI.RLib

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

abbrev r19_0 : Rect S10000x64 := Rect.unit (s := S10000x64) ![0, 0] S10000x64.size inb_S10000x64_S10000x64_0_0
abbrev r19_1 : Rect S1x64 := Rect.unit (s := S1x64) ![0, 0] S1x64.size inb_S1x64_S1x64_0_0
abbrev r19_2 : Rect S10000x64 := Rect.unit (s := S10000x64) ![0, 0] S10000x64.size inb_S10000x64_S10000x64_0_0

def out19_2 (x0 : Vec F S10000x64 .f32) (x1 : Vec F S1x64 .f32) : Vec F S10000x64 .f32 :=
  View.canon [⟨r19_2, k19_pay1 (View.ld x0 r19_0) (View.ld x1 r19_1)⟩]

def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => out19_2 (iblk19 V c 0 t) (iblk19 V c 1 t)
  Φ _ := Pipeline.ΦA spec19 c
  q _ := fullShare
  owed _ := 0

theorem A_eq19 (c : Dev nD) (w : Fin cfg19.W) : (dat19 V c).A w = V c (Pipeline.arrRef spec19 w) := by dsimp only [dat19]

theorem after19_2 (c : Dev nD) (t : Fin cfg19.N) : (dat19 V c).after 2 t = out19_2 (iblk19 V c 0 t) (iblk19 V c 1 t) := by dsimp only [dat19]

set_option maxHeartbeats 1000000 in
/-- The one store covers the output's buffer, which so holds the canonical contents of that store. -/
theorem sound_kernel19 (c : Dev nD) (E : Set ℕ) (i : grid19.Coords)
    (arg0 : Memref sig .tc .vmem S10000x64 .f32) (harg0 : arg0.IsWhole)
    (arg1 : Memref sig .tc .vmem S1x64 .f32) (harg1 : arg1.IsWhole)
    (arg2 : Memref sig .tc .vmem S10000x64 .f32) (harg2 : arg2.IsWhole) (f0 f1 f2) (K : PUnit → sProp 𝕄) :
    iprop((arg0.view.loc (c : Thread nD τ) ↦[arg0.view.set]{fullShare} f0) ∗ (arg1.view.loc (c : Thread nD τ) ↦[arg1.view.set]{fullShare} f1)
        ∗ (arg2.view.loc (c : Thread nD τ) ↦[arg2.view.set]{fullShare} f2)
        ∗ (iprop((arg0.view.loc (c : Thread nD τ) ↦[arg0.view.set]{fullShare} f0) ∗ (arg1.view.loc (c : Thread nD τ) ↦[arg1.view.set]{fullShare} f1)
            ∗ owns (c : Thread nD τ) arg2 fullShare (out19_2 (arg0.view.read (Elt F) f0) (arg1.view.read (Elt F) f1))) -∗ K ⟨⟩))
      ⊢ wp frame (wpE (defs₀ (F := F)) Variants.none c none) E (cc19__bias_relu_kernel i arg0 harg0 arg1 harg1 arg2 harg2) K := by
  simp only [cc19__bias_relu_kernel_eq_skeleton]; unfold cc19__bias_relu_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation19 (c : Dev nD) : BodyObligation (dat19 (F := F) V c) (defs₀ (F := F)) Variants.none () Set.univ := fun t => by
  rw [bigSep_W19, bigSep_W19, after19_2]
  exact RLib.body3 (p := bodyAt19 t) (fun d => (dat19 V c).before_in_eq_fetched 0 rfl (fun _ => rfl) (fun _ _ _ => rfl) (fun _ => rfl) t d)
    (fun d => (dat19 V c).before_in_eq_fetched 1 rfl (fun _ => rfl) (fun _ _ _ => rfl) (fun _ => rfl) t d)
    (sound_kernel19 c _ _ _ _ _ _ _ _)

end Cert.Kernel.Hand

end
-- ==== Proof.K.R20.lean ====
import proofs.«416252_j75050258530751_2_alg».proof.Proof.Gen.Kernel.Launch
import proofs.«416252_j75050258530751_2_alg».proof.Proof.Gen.Kernel.Skeleton
import proofs.«416252_j75050258530751_2_alg».proof.Proof.Gen.Kernel.Points
import proofs.«416252_j75050258530751_2_alg».proof.Proof.KI.RLib

noncomputable section

namespace Cert.Kernel.Hand

open Cert.Kernel Cert.Kernel.Gen Cert.RLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

def accAt20 (c : Dev nD) : ℕ → Vec F S512x64 .f32
  | 0 => k20_pay1
  | n + 1 => if h : n < cfg20.N then k20_pay2 (iblk20 V c 1 ⟨n, h⟩) (iblk20 V c 0 ⟨n, h⟩) (accAt20 c n) else accAt20 c n

theorem accAt20_zero (c : Dev nD) : accAt20 V c 0 = k20_pay1 := rfl

theorem accAt20_succ (c : Dev nD) (t : Fin cfg20.N) :
    accAt20 V c (t.val + 1) = k20_pay2 (iblk20 V c 1 t) (iblk20 V c 0 t) (accAt20 V c t.val) := by
  rw [accAt20, dif_pos t.isLt]

abbrev scM20 : Memref sig .tc .vmem S512x64 .f32 := Memref.whole cc20_scratch0

/-- The invariant, with what it holds of the carried block set apart as `S`. -/
abbrev PhiS20_pos (c : Dev nD) (S : sProp 𝕄) : sProp 𝕄 :=
  iprop(iprop(S ∗ Pipeline.scopedRestBut (Ix := Unit) (Name := ℕ) (U := UR sig nD τ) (Lvl := ℕ) (Val := Elt F) spec20 c [cc20_scratch0])
    ∗ (∃ r, prngReg c r))

def PhiS20 (c : Dev nD) : ℕ → sProp 𝕄
  | 0 => Pipeline.ΦA spec20 c
  | n + 1 => PhiS20_pos c (owns (c : Thread nD τ) scM20 fullShare (accAt20 V c (n + 1)))

theorem PhiA20_eq (c : Dev nD) : (Pipeline.ΦA spec20 c : sProp 𝕄) = PhiS20_pos c iprop(∃ d, owns (c : Thread nD τ) scM20 fullShare d) := by
  unfold Pipeline.ΦA; rw [scopedRest20_split]; simp only [scM20, owns_whole]; try rfl

def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => accAt20 V c (t.val + 1)
  Φ t := PhiS20 V c t.val
  q _ := fullShare
  owed _ := 0

theorem A_eq20 (c : Dev nD) (w : Fin cfg20.W) : (dat20 V c).A w = V c (Pipeline.arrRef spec20 w) := rfl

theorem after20_2 (c : Dev nD) (t : Fin cfg20.N) : (dat20 V c).after 2 t = accAt20 V c (t.val + 1) := rfl

theorem hin20 (c : Dev nD) : Pipeline.ΦA spec20 c ⊢ (dat20 V c).Φ 0 := .rfl

/-- Holding the carried block at named contents is holding it at some contents. -/
theorem hout20 (c : Dev nD) : (dat20 V c).Φ (Fin.last cfg20.N) ⊢ Pipeline.ΦA spec20 c := by
  obtain ⟨n, hn⟩ := Nat.exists_eq_succ_of_ne_zero (by decide : grid20.N ≠ 0)
  rw [PhiA20_eq, show (dat20 V c).Φ (Fin.last cfg20.N) = PhiS20 V c (n + 1) from congrArg (PhiS20 V c) hn]
  unfold PhiS20 PhiS20_pos
  iintro ⟨⟨HS, HR⟩, Hg⟩
  iframe HR Hg
  iexists _; iexact HS

abbrev cond20 (i : grid20.Coords) : Prop :=
  (Scalar.cmpi .ne (Scalar.extui (Scalar.cmpi .eq (BitVec.ofNat 32 (i 0).val) 0#32)) 0#32) = 1#1

theorem hcond20 : ∀ t : Fin cfg20.N, cond20 (grid20.coords t) ↔ t.val = 0 :=
  (by decide +kernel : ∀ t : Fin grid20.N, cond20 (grid20.coords t) ↔ t.val = 0)

set_option maxHeartbeats 1000000 in
theorem sound_kernel20_first (c : Dev nD) (E : Set ℕ) (i : grid20.Coords) (hc : cond20 i)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole) (f0 f1 f2 f3) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2) ∗ (arg4.view.loc (c : Thread nD τ) ↦[arg4.view.set]{fullShare} f3)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (k20_pay2 (arg2.view.read (Elt F) f1) (arg1.view.read (Elt F) f0) k20_pay1)
            ∗ owns (c : Thread nD τ) arg4 fullShare (k20_pay2 (arg2.view.read (Elt F) f1) (arg1.view.read (Elt F) f0) k20_pay1)) -∗ K ⟨⟩))
      ⊢ wp frame (wpE (defs₀ (F := F)) Variants.none c none) E (cc20__pool_kernel i arg1 harg1 arg2 harg2 arg3 harg3 arg4 harg4) K := by
  simp only [cc20__pool_kernel_eq_skeleton]; unfold cc20__pool_kernel_skel
  iintro ⟨H0, H1, H2, H3, Hk⟩
  sl_exec (disch := first | exact hc)
  sl_step
  iapply Hk
  iframe H0 H1
  unfold owns
  isplitl [H2] <;>
  (iexists _; iframe; ipureintro; sl_unfold_run_names
   simp only [read_writes_whole arg3.view off_zero, read_writes_whole arg4.view off_zero, readCov_whole arg4.view off_zero,
     readAt_whole arg1.view off_zero, readAt_whole arg2.view off_zero, readAt_whole arg4.view off_zero])

set_option maxHeartbeats 1000000 in
theorem sound_kernel20_rest (c : Dev nD) (E : Set ℕ) (i : grid20.Coords) (hc : ¬cond20 i)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole) (f0 f1 f2 f3) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2) ∗ (arg4.view.loc (c : Thread nD τ) ↦[arg4.view.set]{fullShare} f3)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (k20_pay2 (arg2.view.read (Elt F) f1) (arg1.view.read (Elt F) f0) (arg4.view.read (Elt F) f3))
            ∗ owns (c : Thread nD τ) arg4 fullShare (k20_pay2 (arg2.view.read (Elt F) f1) (arg1.view.read (Elt F) f0) (arg4.view.read (Elt F) f3))) -∗ K ⟨⟩))
      ⊢ wp frame (wpE (defs₀ (F := F)) Variants.none c none) E (cc20__pool_kernel i arg1 harg1 arg2 harg2 arg3 harg3 arg4 harg4) K := by
  simp only [cc20__pool_kernel_eq_skeleton]; unfold cc20__pool_kernel_skel
  iintro ⟨H0, H1, H2, H3, Hk⟩
  sl_exec (disch := first | exact hc)
  sl_step
  iapply Hk
  iframe H0 H1
  unfold owns
  isplitl [H2] <;>
  (iexists _; iframe; ipureintro; sl_unfold_run_names
   simp only [read_writes_whole arg3.view off_zero, read_writes_whole arg4.view off_zero, readCov_whole arg4.view off_zero,
     readAt_whole arg1.view off_zero, readAt_whole arg2.view off_zero, readAt_whole arg4.view off_zero])

theorem PhiS20_zero (c : Dev nD) {X Q : sProp 𝕄} (h : ∀ a, iprop(PhiS20_pos c (owns (c : Thread nD τ) scM20 fullShare a) ∗ X) ⊢ Q) :
    iprop(Pipeline.ΦA spec20 c ∗ X) ⊢ Q := by
  rw [PhiA20_eq]
  unfold PhiS20_pos at h ⊢
  iintro ⟨⟨⟨⟨%a, HS⟩, HR⟩, Hg⟩, HX⟩
  iapply h a
  iframe

theorem body_obligation20 (c : Dev nD) : BodyObligation (dat20 (F := F) V c) (defs₀ (F := F)) Variants.none () Set.univ := fun t => by
  rw [bigSep_W20, bigSep_W20]
  have h0 := fun d => (dat20 V c).before_in_eq_fetched 0 rfl (fun _ => rfl) (fun _ _ _ => rfl) (fun _ => rfl) t d
  have h1 := fun d => (dat20 V c).before_in_eq_fetched 1 rfl (fun _ => rfl) (fun _ _ _ => rfl) (fun _ => rfl) t d
  have hy := (accAt20_succ V c t).symm
  obtain ⟨_ | n, hn⟩ := t
  · exact PhiS20_zero c fun a => body3s (p := bodyAt20 _) (out := fun x0 x1 _ => k20_pay2 x1 x0 k20_pay1) h0 h1 hy
      (sound_kernel20_first c _ _ ((hcond20 _).mpr rfl) _ _ _ _ _ _ _ _)
  · exact body3s (p := bodyAt20 _) (out := fun x0 x1 a => k20_pay2 x1 x0 a) h0 h1 hy
      (sound_kernel20_rest c _ _ (mt (hcond20 _).mp n.succ_ne_zero) _ _ _ _ _ _ _ _)

end Cert.Kernel.Hand

end
-- ==== Proof.K.Fold.lean ====
import proofs.«416252_j75050258530751_2_alg».proof.Proof.KernelRegions
import proofs.«416252_j75050258530751_2_alg».proof.Proof.K.R0
import proofs.«416252_j75050258530751_2_alg».proof.Proof.K.R1
import proofs.«416252_j75050258530751_2_alg».proof.Proof.K.R2
import proofs.«416252_j75050258530751_2_alg».proof.Proof.K.R3
import proofs.«416252_j75050258530751_2_alg».proof.Proof.K.R4
import proofs.«416252_j75050258530751_2_alg».proof.Proof.K.R5
import proofs.«416252_j75050258530751_2_alg».proof.Proof.K.R6
import proofs.«416252_j75050258530751_2_alg».proof.Proof.K.R7
import proofs.«416252_j75050258530751_2_alg».proof.Proof.K.R8
import proofs.«416252_j75050258530751_2_alg».proof.Proof.K.R9
import proofs.«416252_j75050258530751_2_alg».proof.Proof.K.R10
import proofs.«416252_j75050258530751_2_alg».proof.Proof.K.R11
import proofs.«416252_j75050258530751_2_alg».proof.Proof.K.R12
import proofs.«416252_j75050258530751_2_alg».proof.Proof.K.R13
import proofs.«416252_j75050258530751_2_alg».proof.Proof.K.R14
import proofs.«416252_j75050258530751_2_alg».proof.Proof.K.R15
import proofs.«416252_j75050258530751_2_alg».proof.Proof.K.R16
import proofs.«416252_j75050258530751_2_alg».proof.Proof.K.R17
import proofs.«416252_j75050258530751_2_alg».proof.Proof.K.R18
import proofs.«416252_j75050258530751_2_alg».proof.Proof.K.R19
import proofs.«416252_j75050258530751_2_alg».proof.Proof.K.R20

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat)

variable {F : FTy → Type} [FloatOps F]
variable (m : (ℓ : Loc nD τ sig) → Buf (Elt F) ℓ)

/-- A boundary's contents read at the TensorCore's references: what a region's proof data take. -/
abbrev asV (W : Dev nD → Valuation τ sig (Elt F)) : (c : Dev nD) → (b : Ref sig .tc) → Buf (Elt F) ((c : Thread nD τ).loc b) :=
  fun c b => W c b

/-- Core `c`'s buffers at launch. -/
abbrev W0 : Dev nD → Valuation τ sig (Elt F) := fun c => V0 m c
/-- After the host stretch `hostOps0`. -/
abbrev W1 : Dev nD → Valuation τ sig (Elt F) := fun c => StableHlo.after hostOps0 (W0 m c)
/-- What region 0 leaves in its output array `main_v29`: the pipeline's write-backs folded over the grid. -/
def res0 (c : Dev nD) : Buf (Elt F) ((c : Thread nD τ).loc main_v29) := (dat0 (asV (W1 m)) c).arrAt 2 cfg0.N
/-- At region 0's exit: that array at `res0`, every other buffer as entered. -/
def W2 : Dev nD → Valuation τ sig (Elt F) := fun c => Function.update (W1 m c) main_v29 (res0 m c)
/-- After the host stretch `hostOps1`. -/
abbrev W3 : Dev nD → Valuation τ sig (Elt F) := fun c => StableHlo.after hostOps1 (W2 m c)
/-- What region 1 leaves in its output array `main_v44`: the pipeline's write-backs folded over the grid. -/
def res1 (c : Dev nD) : Buf (Elt F) ((c : Thread nD τ).loc main_v44) := (dat1 (asV (W3 m)) c).arrAt 2 cfg1.N
/-- At region 1's exit: that array at `res1`, every other buffer as entered. -/
def W4 : Dev nD → Valuation τ sig (Elt F) := fun c => Function.update (W3 m c) main_v44 (res1 m c)
/-- What region 2 leaves in its output array `main_v45`: the pipeline's write-backs folded over the grid. -/
def res2 (c : Dev nD) : Buf (Elt F) ((c : Thread nD τ).loc main_v45) := (dat2 (asV (W4 m)) c).arrAt 2 cfg2.N
/-- At region 2's exit: that array at `res2`, every other buffer as entered. -/
def W5 : Dev nD → Valuation τ sig (Elt F) := fun c => Function.update (W4 m c) main_v45 (res2 m c)
/-- After the host stretch `hostOps3`. -/
abbrev W6 : Dev nD → Valuation τ sig (Elt F) := fun c => StableHlo.after hostOps3 (W5 m c)
/-- What region 3 leaves in its output array `main_v60`: the pipeline's write-backs folded over the grid. -/
def res3 (c : Dev nD) : Buf (Elt F) ((c : Thread nD τ).loc main_v60) := (dat3 (asV (W6 m)) c).arrAt 2 cfg3.N
/-- At region 3's exit: that array at `res3`, every other buffer as entered. -/
def W7 : Dev nD → Valuation τ sig (Elt F) := fun c => Function.update (W6 m c) main_v60 (res3 m c)
/-- What region 4 leaves in its output array `main_v61`: the pipeline's write-backs folded over the grid. -/
def res4 (c : Dev nD) : Buf (Elt F) ((c : Thread nD τ).loc main_v61) := (dat4 (asV (W7 m)) c).arrAt 2 cfg4.N
/-- At region 4's exit: that array at `res4`, every other buffer as entered. -/
def W8 : Dev nD → Valuation τ sig (Elt F) := fun c => Function.update (W7 m c) main_v61 (res4 m c)
/-- After the host stretch `hostOps5`. -/
abbrev W9 : Dev nD → Valuation τ sig (Elt F) := fun c => StableHlo.after hostOps5 (W8 m c)
/-- What region 5 leaves in its output array `main_v76`: the pipeline's write-backs folded over the grid. -/
def res5 (c : Dev nD) : Buf (Elt F) ((c : Thread nD τ).loc main_v76) := (dat5 (asV (W9 m)) c).arrAt 2 cfg5.N
/-- At region 5's exit: that array at `res5`, every other buffer as entered. -/
def W10 : Dev nD → Valuation τ sig (Elt F) := fun c => Function.update (W9 m c) main_v76 (res5 m c)
/-- After the host stretch `hostOps6`. -/
abbrev W11 : Dev nD → Valuation τ sig (Elt F) := fun c => StableHlo.after hostOps6 (W10 m c)
/-- What region 6 leaves in its output array `main_v78`: the pipeline's write-backs folded over the grid. -/
def res6 (c : Dev nD) : Buf (Elt F) ((c : Thread nD τ).loc main_v78) := (dat6 (asV (W11 m)) c).arrAt 2 cfg6.N
/-- At region 6's exit: that array at `res6`, every other buffer as entered. -/
def W12 : Dev nD → Valuation τ sig (Elt F) := fun c => Function.update (W11 m c) main_v78 (res6 m c)
/-- After the host stretch `hostOps7`. -/
abbrev W13 : Dev nD → Valuation τ sig (Elt F) := fun c => StableHlo.after hostOps7 (W12 m c)
/-- What region 7 leaves in its output array `main_v117`: the pipeline's write-backs folded over the grid. -/
def res7 (c : Dev nD) : Buf (Elt F) ((c : Thread nD τ).loc main_v117) := (dat7 (asV (W13 m)) c).arrAt 2 cfg7.N
/-- At region 7's exit: that array at `res7`, every other buffer as entered. -/
def W14 : Dev nD → Valuation τ sig (Elt F) := fun c => Function.update (W13 m c) main_v117 (res7 m c)
/-- After the host stretch `hostOps8`. -/
abbrev W15 : Dev nD → Valuation τ sig (Elt F) := fun c => StableHlo.after hostOps8 (W14 m c)
/-- What region 8 leaves in its output array `main_v132`: the pipeline's write-backs folded over the grid. -/
def res8 (c : Dev nD) : Buf (Elt F) ((c : Thread nD τ).loc main_v132) := (dat8 (asV (W15 m)) c).arrAt 2 cfg8.N
/-- At region 8's exit: that array at `res8`, every other buffer as entered. -/
def W16 : Dev nD → Valuation τ sig (Elt F) := fun c => Function.update (W15 m c) main_v132 (res8 m c)
/-- What region 9 leaves in its output array `main_v133`: the pipeline's write-backs folded over the grid. -/
def res9 (c : Dev nD) : Buf (Elt F) ((c : Thread nD τ).loc main_v133) := (dat9 (asV (W16 m)) c).arrAt 2 cfg9.N
/-- At region 9's exit: that array at `res9`, every other buffer as entered. -/
def W17 : Dev nD → Valuation τ sig (Elt F) := fun c => Function.update (W16 m c) main_v133 (res9 m c)
/-- After the host stretch `hostOps10`. -/
abbrev W18 : Dev nD → Valuation τ sig (Elt F) := fun c => StableHlo.after hostOps10 (W17 m c)
/-- What region 10 leaves in its output array `main_v148`: the pipeline's write-backs folded over the grid. -/
def res10 (c : Dev nD) : Buf (Elt F) ((c : Thread nD τ).loc main_v148) := (dat10 (asV (W18 m)) c).arrAt 2 cfg10.N
/-- At region 10's exit: that array at `res10`, every other buffer as entered. -/
def W19 : Dev nD → Valuation τ sig (Elt F) := fun c => Function.update (W18 m c) main_v148 (res10 m c)
/-- What region 11 leaves in its output array `main_v149`: the pipeline's write-backs folded over the grid. -/
def res11 (c : Dev nD) : Buf (Elt F) ((c : Thread nD τ).loc main_v149) := (dat11 (asV (W19 m)) c).arrAt 2 cfg11.N
/-- At region 11's exit: that array at `res11`, every other buffer as entered. -/
def W20 : Dev nD → Valuation τ sig (Elt F) := fun c => Function.update (W19 m c) main_v149 (res11 m c)
/-- After the host stretch `hostOps12`. -/
abbrev W21 : Dev nD → Valuation τ sig (Elt F) := fun c => StableHlo.after hostOps12 (W20 m c)
/-- What region 12 leaves in its output array `main_v164`: the pipeline's write-backs folded over the grid. -/
def res12 (c : Dev nD) : Buf (Elt F) ((c : Thread nD τ).loc main_v164) := (dat12 (asV (W21 m)) c).arrAt 2 cfg12.N
/-- At region 12's exit: that array at `res12`, every other buffer as entered. -/
def W22 : Dev nD → Valuation τ sig (Elt F) := fun c => Function.update (W21 m c) main_v164 (res12 m c)
/-- After the host stretch `hostOps13`. -/
abbrev W23 : Dev nD → Valuation τ sig (Elt F) := fun c => StableHlo.after hostOps13 (W22 m c)
/-- What region 13 leaves in its output array `main_v166`: the pipeline's write-backs folded over the grid. -/
def res13 (c : Dev nD) : Buf (Elt F) ((c : Thread nD τ).loc main_v166) := (dat13 (asV (W23 m)) c).arrAt 2 cfg13.N
/-- At region 13's exit: that array at `res13`, every other buffer as entered. -/
def W24 : Dev nD → Valuation τ sig (Elt F) := fun c => Function.update (W23 m c) main_v166 (res13 m c)
/-- After the host stretch `hostOps14`. -/
abbrev W25 : Dev nD → Valuation τ sig (Elt F) := fun c => StableHlo.after hostOps14 (W24 m c)
/-- What region 14 leaves in its output array `main_v205`: the pipeline's write-backs folded over the grid. -/
def res14 (c : Dev nD) : Buf (Elt F) ((c : Thread nD τ).loc main_v205) := (dat14 (asV (W25 m)) c).arrAt 2 cfg14.N
/-- At region 14's exit: that array at `res14`, every other buffer as entered. -/
def W26 : Dev nD → Valuation τ sig (Elt F) := fun c => Function.update (W25 m c) main_v205 (res14 m c)
/-- After the host stretch `hostOps15`. -/
abbrev W27 : Dev nD → Valuation τ sig (Elt F) := fun c => StableHlo.after hostOps15 (W26 m c)
/-- What region 15 leaves in its output array `main_v220`: the pipeline's write-backs folded over the grid. -/
def res15 (c : Dev nD) : Buf (Elt F) ((c : Thread nD τ).loc main_v220) := (dat15 (asV (W27 m)) c).arrAt 2 cfg15.N
/-- At region 15's exit: that array at `res15`, every other buffer as entered. -/
def W28 : Dev nD → Valuation τ sig (Elt F) := fun c => Function.update (W27 m c) main_v220 (res15 m c)
/-- What region 16 leaves in its output array `main_v221`: the pipeline's write-backs folded over the grid. -/
def res16 (c : Dev nD) : Buf (Elt F) ((c : Thread nD τ).loc main_v221) := (dat16 (asV (W28 m)) c).arrAt 2 cfg16.N
/-- At region 16's exit: that array at `res16`, every other buffer as entered. -/
def W29 : Dev nD → Valuation τ sig (Elt F) := fun c => Function.update (W28 m c) main_v221 (res16 m c)
/-- After the host stretch `hostOps17`. -/
abbrev W30 : Dev nD → Valuation τ sig (Elt F) := fun c => StableHlo.after hostOps17 (W29 m c)
/-- What region 17 leaves in its output array `main_v236`: the pipeline's write-backs folded over the grid. -/
def res17 (c : Dev nD) : Buf (Elt F) ((c : Thread nD τ).loc main_v236) := (dat17 (asV (W30 m)) c).arrAt 2 cfg17.N
/-- At region 17's exit: that array at `res17`, every other buffer as entered. -/
def W31 : Dev nD → Valuation τ sig (Elt F) := fun c => Function.update (W30 m c) main_v236 (res17 m c)
/-- What region 18 leaves in its output array `main_v237`: the pipeline's write-backs folded over the grid. -/
def res18 (c : Dev nD) : Buf (Elt F) ((c : Thread nD τ).loc main_v237) := (dat18 (asV (W31 m)) c).arrAt 2 cfg18.N
/-- At region 18's exit: that array at `res18`, every other buffer as entered. -/
def W32 : Dev nD → Valuation τ sig (Elt F) := fun c => Function.update (W31 m c) main_v237 (res18 m c)
/-- After the host stretch `hostOps19`. -/
abbrev W33 : Dev nD → Valuation τ sig (Elt F) := fun c => StableHlo.after hostOps19 (W32 m c)
/-- What region 19 leaves in its output array `main_v252`: the pipeline's write-backs folded over the grid. -/
def res19 (c : Dev nD) : Buf (Elt F) ((c : Thread nD τ).loc main_v252) := (dat19 (asV (W33 m)) c).arrAt 2 cfg19.N
/-- At region 19's exit: that array at `res19`, every other buffer as entered. -/
def W34 : Dev nD → Valuation τ sig (Elt F) := fun c => Function.update (W33 m c) main_v252 (res19 m c)
/-- After the host stretch `hostOps20`. -/
abbrev W35 : Dev nD → Valuation τ sig (Elt F) := fun c => StableHlo.after hostOps20 (W34 m c)
/-- What region 20 leaves in its output array `main_v254`: the pipeline's write-backs folded over the grid. -/
def res20 (c : Dev nD) : Buf (Elt F) ((c : Thread nD τ).loc main_v254) := (dat20 (asV (W35 m)) c).arrAt 2 cfg20.N
/-- At region 20's exit: that array at `res20`, every other buffer as entered. -/
def W36 : Dev nD → Valuation τ sig (Elt F) := fun c => Function.update (W35 m c) main_v254 (res20 m c)
/-- After the host stretch `hostOps21`. -/
abbrev W37 : Dev nD → Valuation τ sig (Elt F) := fun c => StableHlo.after hostOps21 (W36 m c)

/-- The regions' unknowns of the conditional frame, read off the table: boundary `J`'s contents at the reference. -/
def outs : Outs (F := F) := fun J r c =>
  match J with
  | 2 => W2 m c r
  | 4 => W4 m c r
  | 5 => W5 m c r
  | 7 => W7 m c r
  | 8 => W8 m c r
  | 10 => W10 m c r
  | 12 => W12 m c r
  | 14 => W14 m c r
  | 16 => W16 m c r
  | 17 => W17 m c r
  | 19 => W19 m c r
  | 20 => W20 m c r
  | 22 => W22 m c r
  | 24 => W24 m c r
  | 26 => W26 m c r
  | 28 => W28 m c r
  | 29 => W29 m c r
  | 31 => W31 m c r
  | 32 => W32 m c r
  | 34 => W34 m c r
  | 36 => W36 m c r
  | _ => W0 m c r

/-! The conditional frame's valuation at each boundary is the table's. -/
theorem V1_eq (c : Dev nD) : V1 m c = W1 m c := rfl
theorem V2_eq (c : Dev nD) : V2 m (outs m) c = W2 m c := by
  show Function.update (V1 m c) main_v29 (W2 m c main_v29) = W2 m c
  unfold W2; rw [Function.update_self]
theorem V3_eq (c : Dev nD) : V3 m (outs m) c = W3 m c := by
  show StableHlo.after hostOps1 (V2 m (outs m) c) = StableHlo.after hostOps1 (W2 m c)
  rw [V2_eq]
theorem V4_eq (c : Dev nD) : V4 m (outs m) c = W4 m c := by
  show Function.update (V3 m (outs m) c) main_v44 (W4 m c main_v44) = W4 m c
  rw [V3_eq]; unfold W4; rw [Function.update_self]
theorem V5_eq (c : Dev nD) : V5 m (outs m) c = W5 m c := by
  show Function.update (V4 m (outs m) c) main_v45 (W5 m c main_v45) = W5 m c
  rw [V4_eq]; unfold W5; rw [Function.update_self]
theorem V6_eq (c : Dev nD) : V6 m (outs m) c = W6 m c := by
  show StableHlo.after hostOps3 (V5 m (outs m) c) = StableHlo.after hostOps3 (W5 m c)
  rw [V5_eq]
theorem V7_eq (c : Dev nD) : V7 m (outs m) c = W7 m c := by
  show Function.update (V6 m (outs m) c) main_v60 (W7 m c main_v60) = W7 m c
  rw [V6_eq]; unfold W7; rw [Function.update_self]
theorem V8_eq (c : Dev nD) : V8 m (outs m) c = W8 m c := by
  show Function.update (V7 m (outs m) c) main_v61 (W8 m c main_v61) = W8 m c
  rw [V7_eq]; unfold W8; rw [Function.update_self]
theorem V9_eq (c : Dev nD) : V9 m (outs m) c = W9 m c := by
  show StableHlo.after hostOps5 (V8 m (outs m) c) = StableHlo.after hostOps5 (W8 m c)
  rw [V8_eq]
theorem V10_eq (c : Dev nD) : V10 m (outs m) c = W10 m c := by
  show Function.update (V9 m (outs m) c) main_v76 (W10 m c main_v76) = W10 m c
  rw [V9_eq]; unfold W10; rw [Function.update_self]
theorem V11_eq (c : Dev nD) : V11 m (outs m) c = W11 m c := by
  show StableHlo.after hostOps6 (V10 m (outs m) c) = StableHlo.after hostOps6 (W10 m c)
  rw [V10_eq]
theorem V12_eq (c : Dev nD) : V12 m (outs m) c = W12 m c := by
  show Function.update (V11 m (outs m) c) main_v78 (W12 m c main_v78) = W12 m c
  rw [V11_eq]; unfold W12; rw [Function.update_self]
theorem V13_eq (c : Dev nD) : V13 m (outs m) c = W13 m c := by
  show StableHlo.after hostOps7 (V12 m (outs m) c) = StableHlo.after hostOps7 (W12 m c)
  rw [V12_eq]
theorem V14_eq (c : Dev nD) : V14 m (outs m) c = W14 m c := by
  show Function.update (V13 m (outs m) c) main_v117 (W14 m c main_v117) = W14 m c
  rw [V13_eq]; unfold W14; rw [Function.update_self]
theorem V15_eq (c : Dev nD) : V15 m (outs m) c = W15 m c := by
  show StableHlo.after hostOps8 (V14 m (outs m) c) = StableHlo.after hostOps8 (W14 m c)
  rw [V14_eq]
theorem V16_eq (c : Dev nD) : V16 m (outs m) c = W16 m c := by
  show Function.update (V15 m (outs m) c) main_v132 (W16 m c main_v132) = W16 m c
  rw [V15_eq]; unfold W16; rw [Function.update_self]
theorem V17_eq (c : Dev nD) : V17 m (outs m) c = W17 m c := by
  show Function.update (V16 m (outs m) c) main_v133 (W17 m c main_v133) = W17 m c
  rw [V16_eq]; unfold W17; rw [Function.update_self]
theorem V18_eq (c : Dev nD) : V18 m (outs m) c = W18 m c := by
  show StableHlo.after hostOps10 (V17 m (outs m) c) = StableHlo.after hostOps10 (W17 m c)
  rw [V17_eq]
theorem V19_eq (c : Dev nD) : V19 m (outs m) c = W19 m c := by
  show Function.update (V18 m (outs m) c) main_v148 (W19 m c main_v148) = W19 m c
  rw [V18_eq]; unfold W19; rw [Function.update_self]
theorem V20_eq (c : Dev nD) : V20 m (outs m) c = W20 m c := by
  show Function.update (V19 m (outs m) c) main_v149 (W20 m c main_v149) = W20 m c
  rw [V19_eq]; unfold W20; rw [Function.update_self]
theorem V21_eq (c : Dev nD) : V21 m (outs m) c = W21 m c := by
  show StableHlo.after hostOps12 (V20 m (outs m) c) = StableHlo.after hostOps12 (W20 m c)
  rw [V20_eq]
theorem V22_eq (c : Dev nD) : V22 m (outs m) c = W22 m c := by
  show Function.update (V21 m (outs m) c) main_v164 (W22 m c main_v164) = W22 m c
  rw [V21_eq]; unfold W22; rw [Function.update_self]
theorem V23_eq (c : Dev nD) : V23 m (outs m) c = W23 m c := by
  show StableHlo.after hostOps13 (V22 m (outs m) c) = StableHlo.after hostOps13 (W22 m c)
  rw [V22_eq]
theorem V24_eq (c : Dev nD) : V24 m (outs m) c = W24 m c := by
  show Function.update (V23 m (outs m) c) main_v166 (W24 m c main_v166) = W24 m c
  rw [V23_eq]; unfold W24; rw [Function.update_self]
theorem V25_eq (c : Dev nD) : V25 m (outs m) c = W25 m c := by
  show StableHlo.after hostOps14 (V24 m (outs m) c) = StableHlo.after hostOps14 (W24 m c)
  rw [V24_eq]
theorem V26_eq (c : Dev nD) : V26 m (outs m) c = W26 m c := by
  show Function.update (V25 m (outs m) c) main_v205 (W26 m c main_v205) = W26 m c
  rw [V25_eq]; unfold W26; rw [Function.update_self]
theorem V27_eq (c : Dev nD) : V27 m (outs m) c = W27 m c := by
  show StableHlo.after hostOps15 (V26 m (outs m) c) = StableHlo.after hostOps15 (W26 m c)
  rw [V26_eq]
theorem V28_eq (c : Dev nD) : V28 m (outs m) c = W28 m c := by
  show Function.update (V27 m (outs m) c) main_v220 (W28 m c main_v220) = W28 m c
  rw [V27_eq]; unfold W28; rw [Function.update_self]
theorem V29_eq (c : Dev nD) : V29 m (outs m) c = W29 m c := by
  show Function.update (V28 m (outs m) c) main_v221 (W29 m c main_v221) = W29 m c
  rw [V28_eq]; unfold W29; rw [Function.update_self]
theorem V30_eq (c : Dev nD) : V30 m (outs m) c = W30 m c := by
  show StableHlo.after hostOps17 (V29 m (outs m) c) = StableHlo.after hostOps17 (W29 m c)
  rw [V29_eq]
theorem V31_eq (c : Dev nD) : V31 m (outs m) c = W31 m c := by
  show Function.update (V30 m (outs m) c) main_v236 (W31 m c main_v236) = W31 m c
  rw [V30_eq]; unfold W31; rw [Function.update_self]
theorem V32_eq (c : Dev nD) : V32 m (outs m) c = W32 m c := by
  show Function.update (V31 m (outs m) c) main_v237 (W32 m c main_v237) = W32 m c
  rw [V31_eq]; unfold W32; rw [Function.update_self]
theorem V33_eq (c : Dev nD) : V33 m (outs m) c = W33 m c := by
  show StableHlo.after hostOps19 (V32 m (outs m) c) = StableHlo.after hostOps19 (W32 m c)
  rw [V32_eq]
theorem V34_eq (c : Dev nD) : V34 m (outs m) c = W34 m c := by
  show Function.update (V33 m (outs m) c) main_v252 (W34 m c main_v252) = W34 m c
  rw [V33_eq]; unfold W34; rw [Function.update_self]
theorem V35_eq (c : Dev nD) : V35 m (outs m) c = W35 m c := by
  show StableHlo.after hostOps20 (V34 m (outs m) c) = StableHlo.after hostOps20 (W34 m c)
  rw [V34_eq]
theorem V36_eq (c : Dev nD) : V36 m (outs m) c = W36 m c := by
  show Function.update (V35 m (outs m) c) main_v254 (W36 m c main_v254) = W36 m c
  rw [V35_eq]; unfold W36; rw [Function.update_self]
theorem V37_eq (c : Dev nD) : V37 m (outs m) c = W37 m c := by
  show StableHlo.after hostOps21 (V36 m (outs m) c) = StableHlo.after hostOps21 (W36 m c)
  rw [V36_eq]

/-- What rides beside the buffers through every item of @main: the core's generator register at some state and its debts, at nothing. -/
abbrev Rst (c : Dev nD) : sProp (MT nD τ sig Unit (Elt F) ℕ (UR sig nD τ) ℕ) :=
  iprop((∃ r, prngReg c r) ∗ ∃ W, owes (c : Thread nD τ) (0 : CellTallies nD τ sig Unit) W)

/-- Every pipeline's proof data, each at its region's entry contents: a literal match on the pipeline. -/
def pdats : (p : Fin 21) → (c : Dev nD) → Dat τ (Elt F) Unit ℕ (UR sig nD τ) ℕ (cfgs p) c
  | ⟨0, _⟩ => fun c => dat0 (asV (W1 m)) c
  | ⟨1, _⟩ => fun c => dat1 (asV (W3 m)) c
  | ⟨2, _⟩ => fun c => dat2 (asV (W4 m)) c
  | ⟨3, _⟩ => fun c => dat3 (asV (W6 m)) c
  | ⟨4, _⟩ => fun c => dat4 (asV (W7 m)) c
  | ⟨5, _⟩ => fun c => dat5 (asV (W9 m)) c
  | ⟨6, _⟩ => fun c => dat6 (asV (W11 m)) c
  | ⟨7, _⟩ => fun c => dat7 (asV (W13 m)) c
  | ⟨8, _⟩ => fun c => dat8 (asV (W15 m)) c
  | ⟨9, _⟩ => fun c => dat9 (asV (W16 m)) c
  | ⟨10, _⟩ => fun c => dat10 (asV (W18 m)) c
  | ⟨11, _⟩ => fun c => dat11 (asV (W19 m)) c
  | ⟨12, _⟩ => fun c => dat12 (asV (W21 m)) c
  | ⟨13, _⟩ => fun c => dat13 (asV (W23 m)) c
  | ⟨14, _⟩ => fun c => dat14 (asV (W25 m)) c
  | ⟨15, _⟩ => fun c => dat15 (asV (W27 m)) c
  | ⟨16, _⟩ => fun c => dat16 (asV (W28 m)) c
  | ⟨17, _⟩ => fun c => dat17 (asV (W30 m)) c
  | ⟨18, _⟩ => fun c => dat18 (asV (W31 m)) c
  | ⟨19, _⟩ => fun c => dat19 (asV (W33 m)) c
  | ⟨20, _⟩ => fun c => dat20 (asV (W35 m)) c
  | ⟨_ + 21, h⟩ => absurd h (Nat.not_lt.2 (Nat.le_add_left _ _))

end Cert.Kernel.Hand

end
-- ==== Proof.K.Seg.lean ====
import proofs.«416252_j75050258530751_2_alg».proof.Proof.K.Fold

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
variable (m : (ℓ : Loc nD τ sig) → Buf (Elt F) ℓ)

local notation "𝕄" => MT nD τ sig Unit (Elt F) ℕ (UR sig nD τ) ℕ

/-- Each case holds by definition. -/
theorem pdats_plain (p : Fin 21) (c : Dev nD) :
    (∀ w, (pdats m p c).q w = fullShare) ∧ (∀ t, (pdats m p c).owed t = 0) ∧ ∀ t, (pdats m p c).recorded t = Set.univ := by
  fin_cases p <;> exact ⟨fun _ => rfl, fun _ => rfl, fun _ => rfl⟩

section

variable {cfg : Pipeline.Cfg sig Λ₀} {c : Dev nD} (d : Dat τ (Elt F) Unit ℕ (UR sig nD τ) ℕ cfg c) (t : Fin (cfg.N + 1))

/-- The bound is the whole set, so any witness lies within it. -/
theorem owesAt_of_owes (h0 : d.owed t = 0) (hr : d.recorded t = Set.univ) :
    iprop(∃ W, owes (c : Thread nD τ) (0 : CellTallies nD τ sig Unit) W) ⊢ (d.owesAt () t : sProp 𝕄) := by
  unfold Pipeline.Dat.owesAt Pipeline.owesWithin Pipeline.Dat.bound; rw [h0, hr]
  iintro ⟨%W, HO⟩; iexists W; isplitr; · ipureintro; exact fun _ _ => Or.inl trivial
  iexact HO

/-- The witness, without its bound. -/
theorem owes_of_owesAt (h0 : d.owed t = 0) :
    (d.owesAt () t : sProp 𝕄) ⊢ iprop(∃ W, owes (c : Thread nD τ) (0 : CellTallies nD τ sig Unit) W) := by
  unfold Pipeline.Dat.owesAt Pipeline.owesWithin; rw [h0]
  iintro ⟨%W, -, HO⟩; iexists W; iexact HO

end

section

variable {p : Fin 21} (W W' : Dev nD → Valuation τ sig (Elt F)) (o : Fin (cfgs p).W)
  (hW' : ∀ c, W' c = Function.update (W c) (Pipeline.arrRef (cfgs p).spec o) ((pdats m p c).arrAt o (cfgs p).N))

include hW'

/-- `W'` is `W` updated at the output's array, and the arrays' references are pairwise distinct. -/
theorem arrAt_exit (lf : Pipeline.LaunchFacts (nD := nD) (τ := τ) cfgs p)
    (hA : ∀ c w, (pdats m p c).A w = asV W c (Pipeline.arrRef (cfgs p).spec w))
    (hio : ∀ w, w ≠ o → ((cfgs p).win w).isOut = false) (c : Dev nD) (w : Fin (cfgs p).W) :
    (pdats m p c).arrAt w (cfgs p).N = asV W' c (Pipeline.arrRef (cfgs p).spec w) := by
  show _ = W' c _
  rw [hW' c]
  by_cases h : w = o
  · subst h; exact Eq.symm (Function.update_self ..)
  · rw [Function.update_of_ne (StableHlo.devRef_ne_of_ne fun e => h (lf.win.arr_inj e))]
    exact ((pdats m p c).arrAt_in w (hio w h) _).trans (hA c w)

theorem rest_exit (c : Dev nD) (b : Ref sig .tc) (hb : b ∉ Finset.univ.image (Pipeline.arrRef (cfgs p).spec)) :
    asV W' c b = asV W c b := by
  show W' c b = W c b
  rw [hW' c]
  exact Function.update_of_ne (StableHlo.devRef_ne_of_ne fun e =>
    hb (by rw [e]; exact Finset.mem_image_of_mem _ (Finset.mem_univ o))) _ _

end

/-- Region `p` of @main as a segment of the run. -/
abbrev Region (p : Fin 21) :=
  Pipeline.RegionSeg (pcfgs (F := F)) adm (pdats m) () defs₀ Variants.none (fun _ => (∅ : Finset Unit)) (fun _ _ => (0 : ℕ)) p

/-- A region entered with the core's buffers at `W` and left with them at `W'`, which is `W` with the output array at what
    the write-backs leave. -/
def regOf (p : Fin 21) (lf : Pipeline.LaunchFacts (nD := nD) (τ := τ) cfgs p) (W W' : Dev nD → Valuation τ sig (Elt F))
    (o : Fin (cfgs p).W) (hbody : ∀ c, Pipeline.BodyObligation (pdats m p c) (defs₀ (F := F)) Variants.none () Set.univ)
    (hA : ∀ c w, (pdats m p c).A w = asV W c (Pipeline.arrRef (cfgs p).spec w) := by exact fun _ _ => rfl)
    (hW' : ∀ c, W' c = Function.update (W c) (Pipeline.arrRef (cfgs p).spec o) ((pdats m p c).arrAt o (cfgs p).N) := by
      exact fun _ => rfl)
    (hio : ∀ w, w ≠ o → ((cfgs p).win w).isOut = false := by decide)
    (hin : ∀ c, Pipeline.ΦA (cfgs p).spec c ⊢ (pdats m p c).Φ 0 := by exact fun _ => .rfl)
    (hout : ∀ c, (pdats m p c).Φ (Fin.last _) ⊢ Pipeline.ΦA (cfgs p).spec c := by exact fun _ => .rfl) : Region m p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ (fun _ => (∅ : Finset Unit)) (fun _ _ => (0 : ℕ)) p fun c => (pdats_plain m p c).2.1
  pre c := iprop(StableHlo.held (c : Thread nD τ) (Pipeline.ucRefs τ sig) (W c) ∗ Rst c)
  post c := iprop(StableHlo.held (c : Thread nD τ) (Pipeline.ucRefs τ sig) (W' c) ∗ Rst c)
  X c := iprop(∃ r, prngReg c r)
  Y c := iprop(∃ r, prngReg c r)
  Z c := Pipeline.unscopedRest (Ix := Unit) (Name := ℕ) (U := UR sig nD τ) (Lvl := ℕ) (cfgs p).spec c (asV W c)
  hentry c := by
    rw [Pipeline.ownSems0_none]
    have hsplit := Pipeline.arrays_of_unscopedBufs (p := p) (pcfgs (F := F)) adm (pdats m) lf.win lf.arr_whole c
      ((pdats m p c).share_full (pdats_plain m p c).1) (asV W c) (hA c)
    rw [Pipeline.unscopedBufs_held] at hsplit
    have hO := owesAt_of_owes (pdats m p c) 0 ((pdats_plain m p c).2.1 0) ((pdats_plain m p c).2.2 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hO; iexact HO
    isplitl [Hp]; · iexact Hp
    iexact Hrest
  hin c := by
    have hh := hin c
    iintro ⟨Hp, -, Hr⟩
    iapply hh
    unfold Pipeline.ΦA
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (pdats_plain m p c).1)
      (asV W c) (asV W' c) ((pdats m p c).arrAt · (cfgs p).N) (arrAt_exit m W W' o hW' lf hA hio c) (rest_exit m W W' o hW' c)
    rw [Pipeline.unscopedBufs_held] at hjoin
    have hO := owes_of_owesAt (pdats m p c) (Fin.last _) ((pdats_plain m p c).2.1 _)
    iintro ⟨Ha, HO, HY, Hrest⟩
    imodintro
    isplitl [Ha Hrest]
    · iapply hjoin; isplitl [Ha] <;> iassumption
    isplitl [HY]; · iexact HY
    iapply hO; iexact HO

def reg0 : Region m 0 := regOf m 0 launch0 (W1 m) (W2 m) (2 : Fin 3) (body_obligation0 _)
def reg1 : Region m 1 := regOf m 1 launch1 (W3 m) (W4 m) (2 : Fin 3) (body_obligation1 _)
def reg2 : Region m 2 := regOf m 2 launch2 (W4 m) (W5 m) (2 : Fin 3) (body_obligation2 _)
def reg3 : Region m 3 := regOf m 3 launch3 (W6 m) (W7 m) (2 : Fin 3) (body_obligation3 _)
def reg4 : Region m 4 := regOf m 4 launch4 (W7 m) (W8 m) (2 : Fin 3) (body_obligation4 _)
def reg5 : Region m 5 := regOf m 5 launch5 (W9 m) (W10 m) (2 : Fin 3) (body_obligation5 _)
def reg6 : Region m 6 := regOf m 6 launch6 (W11 m) (W12 m) (2 : Fin 3) (body_obligation6 _) (hin := hin6 _) (hout := hout6 _)
def reg7 : Region m 7 := regOf m 7 launch7 (W13 m) (W14 m) (2 : Fin 3) (body_obligation7 _)
def reg8 : Region m 8 := regOf m 8 launch8 (W15 m) (W16 m) (2 : Fin 3) (body_obligation8 _)
def reg9 : Region m 9 := regOf m 9 launch9 (W16 m) (W17 m) (2 : Fin 3) (body_obligation9 _)
def reg10 : Region m 10 := regOf m 10 launch10 (W18 m) (W19 m) (2 : Fin 3) (body_obligation10 _)
def reg11 : Region m 11 := regOf m 11 launch11 (W19 m) (W20 m) (2 : Fin 3) (body_obligation11 _)
def reg12 : Region m 12 := regOf m 12 launch12 (W21 m) (W22 m) (2 : Fin 3) (body_obligation12 _)
def reg13 : Region m 13 := regOf m 13 launch13 (W23 m) (W24 m) (2 : Fin 3) (body_obligation13 _) (hin := hin13 _) (hout := hout13 _)
def reg14 : Region m 14 := regOf m 14 launch14 (W25 m) (W26 m) (2 : Fin 3) (body_obligation14 _)
def reg15 : Region m 15 := regOf m 15 launch15 (W27 m) (W28 m) (2 : Fin 3) (body_obligation15 _)
def reg16 : Region m 16 := regOf m 16 launch16 (W28 m) (W29 m) (2 : Fin 3) (body_obligation16 _)
def reg17 : Region m 17 := regOf m 17 launch17 (W30 m) (W31 m) (2 : Fin 3) (body_obligation17 _)
def reg18 : Region m 18 := regOf m 18 launch18 (W31 m) (W32 m) (2 : Fin 3) (body_obligation18 _)
def reg19 : Region m 19 := regOf m 19 launch19 (W33 m) (W34 m) (2 : Fin 3) (body_obligation19 _)
def reg20 : Region m 20 := regOf m 20 launch20 (W35 m) (W36 m) (2 : Fin 3) (body_obligation20 _) (hin := hin20 _) (hout := hout20 _)

end Cert.Kernel.Hand

end
-- ==== Proof.K.Launch.lean ====
import proofs.«416252_j75050258530751_2_alg».proof.Proof.K.RunCond
import proofs.«416252_j75050258530751_2_alg».proof.Proof.K.Seg

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in

theorem run_all : θ_run defs (onTc (τ := τ) (main (F := F))) ⟨m, fun _ => 0, ρ⟩
    (fun r => ∀ c : Dev nD, ∀ b ∈ Pipeline.ucRefs τ sig, r.2.mem ((c : Thread nD τ).1, b) = W37 m c b) := by
  have h := run_cond m (Ix := Unit) (U := UR sig nD τ) (Lvl := ℕ) emb₁ () Variants.none (fun _ => ∅) (fun _ _ => 0) (fun _ _ => rfl) ρ (outs m) (pdats m)
    (O₀ := 0) (G := fun _ => iprop(emp)) (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach (fun _ => (∅ : Finset Unit)) (fun _ _ => (0 : ℕ)) fun c => ?_
      iintro ⟨⟨-, HO, -, Hp, -⟩, -⟩
      imodintro
      isplitl [Hp]; · iexists _; iexact Hp
      iexists ∅; iexact HO)
    (hE21 := fun c => by iintro ⟨-, H⟩; iexact H)
    (reg0 m) (fun c => .rfl) (fun c => by rw [V2_eq]; exact .rfl)
    (reg1 m) (fun c => by rw [V3_eq]; exact .rfl) (fun c => by rw [V4_eq]; exact .rfl)
    (reg2 m) (fun c => by rw [V4_eq]; exact .rfl) (fun c => by rw [V5_eq]; exact .rfl)
    (reg3 m) (fun c => by rw [V6_eq]; exact .rfl) (fun c => by rw [V7_eq]; exact .rfl)
    (reg4 m) (fun c => by rw [V7_eq]; exact .rfl) (fun c => by rw [V8_eq]; exact .rfl)
    (reg5 m) (fun c => by rw [V9_eq]; exact .rfl) (fun c => by rw [V10_eq]; exact .rfl)
    (reg6 m) (fun c => by rw [V11_eq]; exact .rfl) (fun c => by rw [V12_eq]; exact .rfl)
    (reg7 m) (fun c => by rw [V13_eq]; exact .rfl) (fun c => by rw [V14_eq]; exact .rfl)
    (reg8 m) (fun c => by rw [V15_eq]; exact .rfl) (fun c => by rw [V16_eq]; exact .rfl)
    (reg9 m) (fun c => by rw [V16_eq]; exact .rfl) (fun c => by rw [V17_eq]; exact .rfl)
    (reg10 m) (fun c => by rw [V18_eq]; exact .rfl) (fun c => by rw [V19_eq]; exact .rfl)
    (reg11 m) (fun c => by rw [V19_eq]; exact .rfl) (fun c => by rw [V20_eq]; exact .rfl)
    (reg12 m) (fun c => by rw [V21_eq]; exact .rfl) (fun c => by rw [V22_eq]; exact .rfl)
    (reg13 m) (fun c => by rw [V23_eq]; exact .rfl) (fun c => by rw [V24_eq]; exact .rfl)
    (reg14 m) (fun c => by rw [V25_eq]; exact .rfl) (fun c => by rw [V26_eq]; exact .rfl)
    (reg15 m) (fun c => by rw [V27_eq]; exact .rfl) (fun c => by rw [V28_eq]; exact .rfl)
    (reg16 m) (fun c => by rw [V28_eq]; exact .rfl) (fun c => by rw [V29_eq]; exact .rfl)
    (reg17 m) (fun c => by rw [V30_eq]; exact .rfl) (fun c => by rw [V31_eq]; exact .rfl)
    (reg18 m) (fun c => by rw [V31_eq]; exact .rfl) (fun c => by rw [V32_eq]; exact .rfl)
    (reg19 m) (fun c => by rw [V33_eq]; exact .rfl) (fun c => by rw [V34_eq]; exact .rfl)
    (reg20 m) (fun c => by rw [V35_eq]; exact .rfl) (fun c => by rw [V36_eq]; exact .rfl)
  refine (θ_run defs _ _).mono (fun r hr c b hb => ?_) h
  rw [← V37_eq]; exact hr c b hb

end Cert.Kernel.Hand

end
-- ==== Proof.K.Frame.lean ====
/-
  The run of @main ends with each tower's result array at the last boundary's contents and every argument array as
  launched; dropping the results gives the frame.
-/
import proofs.«416252_j75050258530751_2_alg».proof.Proof.K.Launch

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]
variable (m : (ℓ : Loc nD τ sig) → Buf (Elt F) ℓ) (ρ : Dev nD → PrngReg)

theorem run_full : θ_run defs (onTc (τ := τ) (main (F := F))) ⟨m, fun _ => 0, ρ⟩ (fun r => ∀ c : Dev nD,
      r.2.mem ((c.tc : Thread nD τ).loc main_v87) = W37 m c main_v87
      ∧ r.2.mem ((c.tc : Thread nD τ).loc main_v175) = W37 m c main_v175
      ∧ r.2.mem ((c.tc : Thread nD τ).loc main_v263) = W37 m c main_v263
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨
    h c (Proc.devRef .tc main_v87) (Finset.mem_filter.mpr ⟨StableHlo.devRef_mem_tcRefs main_v87, by decide⟩),
    h c (Proc.devRef .tc main_v175) (Finset.mem_filter.mpr ⟨StableHlo.devRef_mem_tcRefs main_v175, by decide⟩),
    h c (Proc.devRef .tc main_v263) (Finset.mem_filter.mpr ⟨StableHlo.devRef_mem_tcRefs main_v263, by decide⟩),
    (h c (Proc.devRef .tc main_arg0) (Finset.mem_filter.mpr ⟨StableHlo.devRef_mem_tcRefs main_arg0, by decide⟩)).trans
      ((congrFun (V37_eq m c) _).symm.trans (V37_main_arg0 m (outs m) c)),
    (h c (Proc.devRef .tc main_arg1) (Finset.mem_filter.mpr ⟨StableHlo.devRef_mem_tcRefs main_arg1, by decide⟩)).trans
      ((congrFun (V37_eq m c) _).symm.trans (V37_main_arg1 m (outs m) c)),
    (h c (Proc.devRef .tc main_arg2) (Finset.mem_filter.mpr ⟨StableHlo.devRef_mem_tcRefs main_arg2, by decide⟩)).trans
      ((congrFun (V37_eq m c) _).symm.trans (V37_main_arg2 m (outs m) c)),
    (h c (Proc.devRef .tc main_arg3) (Finset.mem_filter.mpr ⟨StableHlo.devRef_mem_tcRefs main_arg3, by decide⟩)).trans
      ((congrFun (V37_eq m c) _).symm.trans (V37_main_arg3 m (outs m) c)),
    (h c (Proc.devRef .tc main_arg4) (Finset.mem_filter.mpr ⟨StableHlo.devRef_mem_tcRefs main_arg4, by decide⟩)).trans
      ((congrFun (V37_eq m c) _).symm.trans (V37_main_arg4 m (outs m) c)),
    (h c (Proc.devRef .tc main_arg5) (Finset.mem_filter.mpr ⟨StableHlo.devRef_mem_tcRefs main_arg5, by decide⟩)).trans
      ((congrFun (V37_eq m c) _).symm.trans (V37_main_arg5 m (outs m) c)),
    (h c (Proc.devRef .tc main_arg6) (Finset.mem_filter.mpr ⟨StableHlo.devRef_mem_tcRefs main_arg6, by decide⟩)).trans
      ((congrFun (V37_eq m c) _).symm.trans (V37_main_arg6 m (outs m) c)),
    (h c (Proc.devRef .tc main_arg7) (Finset.mem_filter.mpr ⟨StableHlo.devRef_mem_tcRefs main_arg7, by decide⟩)).trans
      ((congrFun (V37_eq m c) _).symm.trans (V37_main_arg7 m (outs m) c)),
    (h c (Proc.devRef .tc main_arg8) (Finset.mem_filter.mpr ⟨StableHlo.devRef_mem_tcRefs main_arg8, by decide⟩)).trans
      ((congrFun (V37_eq m c) _).symm.trans (V37_main_arg8 m (outs m) c)),
    (h c (Proc.devRef .tc main_arg9) (Finset.mem_filter.mpr ⟨StableHlo.devRef_mem_tcRefs main_arg9, by decide⟩)).trans
      ((congrFun (V37_eq m c) _).symm.trans (V37_main_arg9 m (outs m) c)),
    (h c (Proc.devRef .tc main_arg10) (Finset.mem_filter.mpr ⟨StableHlo.devRef_mem_tcRefs main_arg10, by decide⟩)).trans
      ((congrFun (V37_eq m c) _).symm.trans (V37_main_arg10 m (outs m) c)),
    (h c (Proc.devRef .tc main_arg11) (Finset.mem_filter.mpr ⟨StableHlo.devRef_mem_tcRefs main_arg11, by decide⟩)).trans
      ((congrFun (V37_eq m c) _).symm.trans (V37_main_arg11 m (outs m) c)),
    (h c (Proc.devRef .tc main_arg12) (Finset.mem_filter.mpr ⟨StableHlo.devRef_mem_tcRefs main_arg12, by decide⟩)).trans
      ((congrFun (V37_eq m c) _).symm.trans (V37_main_arg12 m (outs m) c)),
    (h c (Proc.devRef .tc main_arg13) (Finset.mem_filter.mpr ⟨StableHlo.devRef_mem_tcRefs main_arg13, by decide⟩)).trans
      ((congrFun (V37_eq m c) _).symm.trans (V37_main_arg13 m (outs m) c)),
    (h c (Proc.devRef .tc main_arg14) (Finset.mem_filter.mpr ⟨StableHlo.devRef_mem_tcRefs main_arg14, by decide⟩)).trans
      ((congrFun (V37_eq m c) _).symm.trans (V37_main_arg14 m (outs m) c))⟩)
    (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2.2.2) (run_full m ρ)

end Cert.Kernel.Hand

end
-- ==== Proof.KI.RunCond.lean ====
import proofs.«416252_j75050258530751_2_alg».proof.Proof.KernelIdealRegions

set_option maxRecDepth 2288

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]
variable (m : (ℓ : Loc nD τ sig) → Buf (Elt F) ℓ)

set_option backward.isDefEq.respectTransparency.types false in

theorem run_cond {Ix : Type} [DecidableEq Ix] {U : Type} [URA U] {Lvl : Type} [Preorder Lvl]
    (EP : Emb (URounds (GSem nD τ sig) Unit) (MT nD τ sig Ix (Elt F) ℕ U Lvl)) [EP.LandsIn (upEmb : UEmb _ (MT nD τ sig Ix (Elt F) ℕ U Lvl))]
    (ι : Ix) (𝒱₀ : Variants) (L : GSem nD τ sig → Finset Ix) (lv : GSem nD τ sig → Ix → Lvl) (hL : ∀ g : GSem nD τ sig, g.1.2 ≠ .tc → L g = ∅)
    (ρ : Dev nD → PrngReg) (outs : Outs (F := F))
    (pdats : (p : Fin 21) → (c : Dev nD) → Dat τ (Elt F) Ix ℕ U Lvl (cfgs p) c)
    (O₀ : Dev nD → CellTallies nD τ sig Ix) (G : Dev nD → sProp (MT nD τ sig Ix (Elt F) ℕ U Lvl)) (u₀ : U)
    (hu₀ : (ownU u₀ : sProp (MT nD τ sig Ix (Elt F) ℕ U Lvl)) ⊢ |={Set.univ}=> iprop(BI.own (EP (initOf (Pipeline.cells cfgs cellOf_inj) (Pipeline.launchToks cfgs cellOf_inj))) ∗ bigSep Finset.univ G))
    (E : Fin 22 → Dev nD → sProp (MT nD τ sig Ix (Elt F) ℕ U Lvl))
    (hE0 : iprop((bigSep Finset.univ fun c : Dev nD => iprop(unscopedSems0 c ∗ owes (c : Thread nD τ) (O₀ c) ∅ ∗ Pipeline.launchCred O₀ c ∗ prngReg c (ρ c) ∗ G c)) ∗ levAts L lv)
      ⊢ (|={Set.univ}=> bigSep Finset.univ (E 0) : sProp (MT nD τ sig Ix (Elt F) ℕ U Lvl)))
    (hE21 : ∀ c : Dev nD, E 21 c ⊢ (iprop(∃ W, owes (c : Thread nD τ) (0 : CellTallies nD τ sig Ix) W) : sProp (MT nD τ sig Ix (Elt F) ℕ U Lvl)))
    (R0 : RegionSeg (pcfgs (F := F)) adm pdats ι defs₀ 𝒱₀ L lv 0)
    (hpre0 : ∀ c : Dev nD, iprop(StableHlo.held (c : Thread nD τ) (Pipeline.ucRefs τ sig) (V1 m c) ∗ E 0 c) ⊢ R0.pre c)
    (hpost0 : ∀ c : Dev nD, R0.post c ⊢ iprop(StableHlo.held (c : Thread nD τ) (Pipeline.ucRefs τ sig) (V2 m outs c) ∗ E 1 c))
    (R1 : RegionSeg (pcfgs (F := F)) adm pdats ι defs₀ 𝒱₀ L lv 1)
    (hpre1 : ∀ c : Dev nD, iprop(StableHlo.held (c : Thread nD τ) (Pipeline.ucRefs τ sig) (V3 m outs c) ∗ E 1 c) ⊢ R1.pre c)
    (hpost1 : ∀ c : Dev nD, R1.post c ⊢ iprop(StableHlo.held (c : Thread nD τ) (Pipeline.ucRefs τ sig) (V4 m outs c) ∗ E 2 c))
    (R2 : RegionSeg (pcfgs (F := F)) adm pdats ι defs₀ 𝒱₀ L lv 2)
    (hpre2 : ∀ c : Dev nD, iprop(StableHlo.held (c : Thread nD τ) (Pipeline.ucRefs τ sig) (V4 m outs c) ∗ E 2 c) ⊢ R2.pre c)
    (hpost2 : ∀ c : Dev nD, R2.post c ⊢ iprop(StableHlo.held (c : Thread nD τ) (Pipeline.ucRefs τ sig) (V5 m outs c) ∗ E 3 c))
    (R3 : RegionSeg (pcfgs (F := F)) adm pdats ι defs₀ 𝒱₀ L lv 3)
    (hpre3 : ∀ c : Dev nD, iprop(StableHlo.held (c : Thread nD τ) (Pipeline.ucRefs τ sig) (V6 m outs c) ∗ E 3 c) ⊢ R3.pre c)
    (hpost3 : ∀ c : Dev nD, R3.post c ⊢ iprop(StableHlo.held (c : Thread nD τ) (Pipeline.ucRefs τ sig) (V7 m outs c) ∗ E 4 c))
    (R4 : RegionSeg (pcfgs (F := F)) adm pdats ι defs₀ 𝒱₀ L lv 4)
    (hpre4 : ∀ c : Dev nD, iprop(StableHlo.held (c : Thread nD τ) (Pipeline.ucRefs τ sig) (V7 m outs c) ∗ E 4 c) ⊢ R4.pre c)
    (hpost4 : ∀ c : Dev nD, R4.post c ⊢ iprop(StableHlo.held (c : Thread nD τ) (Pipeline.ucRefs τ sig) (V8 m outs c) ∗ E 5 c))
    (R5 : RegionSeg (pcfgs (F := F)) adm pdats ι defs₀ 𝒱₀ L lv 5)
    (hpre5 : ∀ c : Dev nD, iprop(StableHlo.held (c : Thread nD τ) (Pipeline.ucRefs τ sig) (V9 m outs c) ∗ E 5 c) ⊢ R5.pre c)
    (hpost5 : ∀ c : Dev nD, R5.post c ⊢ iprop(StableHlo.held (c : Thread nD τ) (Pipeline.ucRefs τ sig) (V10 m outs c) ∗ E 6 c))
    (R6 : RegionSeg (pcfgs (F := F)) adm pdats ι defs₀ 𝒱₀ L lv 6)
    (hpre6 : ∀ c : Dev nD, iprop(StableHlo.held (c : Thread nD τ) (Pipeline.ucRefs τ sig) (V11 m outs c) ∗ E 6 c) ⊢ R6.pre c)
    (hpost6 : ∀ c : Dev nD, R6.post c ⊢ iprop(StableHlo.held (c : Thread nD τ) (Pipeline.ucRefs τ sig) (V12 m outs c) ∗ E 7 c))
    (R7 : RegionSeg (pcfgs (F := F)) adm pdats ι defs₀ 𝒱₀ L lv 7)
    (hpre7 : ∀ c : Dev nD, iprop(StableHlo.held (c : Thread nD τ) (Pipeline.ucRefs τ sig) (V13 m outs c) ∗ E 7 c) ⊢ R7.pre c)
    (hpost7 : ∀ c : Dev nD, R7.post c ⊢ iprop(StableHlo.held (c : Thread nD τ) (Pipeline.ucRefs τ sig) (V14 m outs c) ∗ E 8 c))
    (R8 : RegionSeg (pcfgs (F := F)) adm pdats ι defs₀ 𝒱₀ L lv 8)
    (hpre8 : ∀ c : Dev nD, iprop(StableHlo.held (c : Thread nD τ) (Pipeline.ucRefs τ sig) (V15 m outs c) ∗ E 8 c) ⊢ R8.pre c)
    (hpost8 : ∀ c : Dev nD, R8.post c ⊢ iprop(StableHlo.held (c : Thread nD τ) (Pipeline.ucRefs τ sig) (V16 m outs c) ∗ E 9 c))
    (R9 : RegionSeg (pcfgs (F := F)) adm pdats ι defs₀ 𝒱₀ L lv 9)
    (hpre9 : ∀ c : Dev nD, iprop(StableHlo.held (c : Thread nD τ) (Pipeline.ucRefs τ sig) (V16 m outs c) ∗ E 9 c) ⊢ R9.pre c)
    (hpost9 : ∀ c : Dev nD, R9.post c ⊢ iprop(StableHlo.held (c : Thread nD τ) (Pipeline.ucRefs τ sig) (V17 m outs c) ∗ E 10 c))
    (R10 : RegionSeg (pcfgs (F := F)) adm pdats ι defs₀ 𝒱₀ L lv 10)
    (hpre10 : ∀ c : Dev nD, iprop(StableHlo.held (c : Thread nD τ) (Pipeline.ucRefs τ sig) (V18 m outs c) ∗ E 10 c) ⊢ R10.pre c)
    (hpost10 : ∀ c : Dev nD, R10.post c ⊢ iprop(StableHlo.held (c : Thread nD τ) (Pipeline.ucRefs τ sig) (V19 m outs c) ∗ E 11 c))
    (R11 : RegionSeg (pcfgs (F := F)) adm pdats ι defs₀ 𝒱₀ L lv 11)
    (hpre11 : ∀ c : Dev nD, iprop(StableHlo.held (c : Thread nD τ) (Pipeline.ucRefs τ sig) (V19 m outs c) ∗ E 11 c) ⊢ R11.pre c)
    (hpost11 : ∀ c : Dev nD, R11.post c ⊢ iprop(StableHlo.held (c : Thread nD τ) (Pipeline.ucRefs τ sig) (V20 m outs c) ∗ E 12 c))
    (R12 : RegionSeg (pcfgs (F := F)) adm pdats ι defs₀ 𝒱₀ L lv 12)
    (hpre12 : ∀ c : Dev nD, iprop(StableHlo.held (c : Thread nD τ) (Pipeline.ucRefs τ sig) (V21 m outs c) ∗ E 12 c) ⊢ R12.pre c)
    (hpost12 : ∀ c : Dev nD, R12.post c ⊢ iprop(StableHlo.held (c : Thread nD τ) (Pipeline.ucRefs τ sig) (V22 m outs c) ∗ E 13 c))
    (R13 : RegionSeg (pcfgs (F := F)) adm pdats ι defs₀ 𝒱₀ L lv 13)
    (hpre13 : ∀ c : Dev nD, iprop(StableHlo.held (c : Thread nD τ) (Pipeline.ucRefs τ sig) (V23 m outs c) ∗ E 13 c) ⊢ R13.pre c)
    (hpost13 : ∀ c : Dev nD, R13.post c ⊢ iprop(StableHlo.held (c : Thread nD τ) (Pipeline.ucRefs τ sig) (V24 m outs c) ∗ E 14 c))
    (R14 : RegionSeg (pcfgs (F := F)) adm pdats ι defs₀ 𝒱₀ L lv 14)
    (hpre14 : ∀ c : Dev nD, iprop(StableHlo.held (c : Thread nD τ) (Pipeline.ucRefs τ sig) (V25 m outs c) ∗ E 14 c) ⊢ R14.pre c)
    (hpost14 : ∀ c : Dev nD, R14.post c ⊢ iprop(StableHlo.held (c : Thread nD τ) (Pipeline.ucRefs τ sig) (V26 m outs c) ∗ E 15 c))
    (R15 : RegionSeg (pcfgs (F := F)) adm pdats ι defs₀ 𝒱₀ L lv 15)
    (hpre15 : ∀ c : Dev nD, iprop(StableHlo.held (c : Thread nD τ) (Pipeline.ucRefs τ sig) (V27 m outs c) ∗ E 15 c) ⊢ R15.pre c)
    (hpost15 : ∀ c : Dev nD, R15.post c ⊢ iprop(StableHlo.held (c : Thread nD τ) (Pipeline.ucRefs τ sig) (V28 m outs c) ∗ E 16 c))
    (R16 : RegionSeg (pcfgs (F := F)) adm pdats ι defs₀ 𝒱₀ L lv 16)
    (hpre16 : ∀ c : Dev nD, iprop(StableHlo.held (c : Thread nD τ) (Pipeline.ucRefs τ sig) (V28 m outs c) ∗ E 16 c) ⊢ R16.pre c)
    (hpost16 : ∀ c : Dev nD, R16.post c ⊢ iprop(StableHlo.held (c : Thread nD τ) (Pipeline.ucRefs τ sig) (V29 m outs c) ∗ E 17 c))
    (R17 : RegionSeg (pcfgs (F := F)) adm pdats ι defs₀ 𝒱₀ L lv 17)
    (hpre17 : ∀ c : Dev nD, iprop(StableHlo.held (c : Thread nD τ) (Pipeline.ucRefs τ sig) (V30 m outs c) ∗ E 17 c) ⊢ R17.pre c)
    (hpost17 : ∀ c : Dev nD, R17.post c ⊢ iprop(StableHlo.held (c : Thread nD τ) (Pipeline.ucRefs τ sig) (V31 m outs c) ∗ E 18 c))
    (R18 : RegionSeg (pcfgs (F := F)) adm pdats ι defs₀ 𝒱₀ L lv 18)
    (hpre18 : ∀ c : Dev nD, iprop(StableHlo.held (c : Thread nD τ) (Pipeline.ucRefs τ sig) (V31 m outs c) ∗ E 18 c) ⊢ R18.pre c)
    (hpost18 : ∀ c : Dev nD, R18.post c ⊢ iprop(StableHlo.held (c : Thread nD τ) (Pipeline.ucRefs τ sig) (V32 m outs c) ∗ E 19 c))
    (R19 : RegionSeg (pcfgs (F := F)) adm pdats ι defs₀ 𝒱₀ L lv 19)
    (hpre19 : ∀ c : Dev nD, iprop(StableHlo.held (c : Thread nD τ) (Pipeline.ucRefs τ sig) (V33 m outs c) ∗ E 19 c) ⊢ R19.pre c)
    (hpost19 : ∀ c : Dev nD, R19.post c ⊢ iprop(StableHlo.held (c : Thread nD τ) (Pipeline.ucRefs τ sig) (V34 m outs c) ∗ E 20 c))
    (R20 : RegionSeg (pcfgs (F := F)) adm pdats ι defs₀ 𝒱₀ L lv 20)
    (hpre20 : ∀ c : Dev nD, iprop(StableHlo.held (c : Thread nD τ) (Pipeline.ucRefs τ sig) (V35 m outs c) ∗ E 20 c) ⊢ R20.pre c)
    (hpost20 : ∀ c : Dev nD, R20.post c ⊢ iprop(StableHlo.held (c : Thread nD τ) (Pipeline.ucRefs τ sig) (V36 m outs c) ∗ E 21 c)) :
    θ_run defs (onTc (τ := τ) (main (F := F))) ⟨m, fun _ => 0, ρ⟩ (fun r => ∀ c : Dev nD, ∀ b ∈ Pipeline.ucRefs τ sig, r.2.mem ((c : Thread nD τ).1, b) = V37 m outs c b) := by
  refine Pipeline.θ_run_regions_kit_dev (pcfgs (F := F)) adm pdats ι cellOf_inj EP defs₀ 𝒱₀ L lv m ρ main
    (segs m outs 𝒱₀ L lv E ι pdats R0 R1 R2 R3 R4 R5 R6 R7 R8 R9 R10 R11 R12 R13 R14 R15 R16 R17 R18 R19 R20)
    (fun c Q => by
      rewrite [main_chain c, Seg.run_eq_chain,
        show (segs m outs 𝒱₀ L lv E ι pdats R0 R1 R2 R3 R4 R5 R6 R7 R8 R9 R10 R11 R12 R13 R14 R15 R16 R17 R18 R19 R20 c).map Seg.prog = [
          StableHlo.seq hostOps0,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7,
          Prog.lift (.customCall (Pipeline.entry 7) ()),
          StableHlo.seq hostOps8,
          Prog.lift (.customCall (Pipeline.entry 8) ()),
          Prog.lift (.customCall (Pipeline.entry 9) ()),
          StableHlo.seq hostOps10,
          Prog.lift (.customCall (Pipeline.entry 10) ()),
          Prog.lift (.customCall (Pipeline.entry 11) ()),
          StableHlo.seq hostOps12,
          Prog.lift (.customCall (Pipeline.entry 12) ()),
          StableHlo.seq hostOps13,
          Prog.lift (.customCall (Pipeline.entry 13) ()),
          StableHlo.seq hostOps14,
          Prog.lift (.customCall (Pipeline.entry 14) ()),
          StableHlo.seq hostOps15,
          Prog.lift (.customCall (Pipeline.entry 15) ()),
          Prog.lift (.customCall (Pipeline.entry 16) ()),
          StableHlo.seq hostOps17,
          Prog.lift (.customCall (Pipeline.entry 17) ()),
          Prog.lift (.customCall (Pipeline.entry 18) ()),
          StableHlo.seq hostOps19,
          Prog.lift (.customCall (Pipeline.entry 19) ()),
          StableHlo.seq hostOps20,
          Prog.lift (.customCall (Pipeline.entry 20) ()),
          StableHlo.seq hostOps21 ] from rfl]
      with_reducible exact .rfl)
    (fun c => by simp only [segs, Seg.pipes_host, Seg.pipes_region, Seg.pipes_nil]; decide) O₀ hL G u₀ hu₀
    (T₀ := fun c => iprop(StableHlo.held (c : Thread nD τ) (Pipeline.ucRefs τ sig) (V0 m c) ∗ E 0 c))
    (Tₙ := fun c => StableHlo.held (c : Thread nD τ) (Pipeline.ucRefs τ sig) (V37 m outs c))
    (hch := fun c => ⟨.rfl, hpre0 c, hpost0 c, hpre1 c, (hpost1 c).trans (hpre2 c), hpost2 c, hpre3 c, (hpost3 c).trans (hpre4 c), hpost4 c, hpre5 c, hpost5 c, hpre6 c, hpost6 c, hpre7 c, hpost7 c, hpre8 c, (hpost8 c).trans (hpre9 c), hpost9 c, hpre10 c, (hpost10 c).trans (hpre11 c), hpost11 c, hpre12 c, hpost12 c, hpre13 c, hpost13 c, hpre14 c, hpost14 c, hpre15 c, (hpost15 c).trans (hpre16 c), hpost16 c, hpre17 c, (hpost17 c).trans (hpre18 c), hpost18 c, hpre19 c, hpost19 c, hpre20 c, hpost20 c, sep_mono .rfl (hE21 c)⟩)
    (hinit := ?_) (QY := fun c s => ∀ b ∈ Pipeline.ucRefs τ sig, s.mem ((c : Thread nD τ).1, b) = V37 m outs c b)
    (hfin := fun c s' => ?_) (hQ := fun _ h => h)
  ·
    have hsplit : (bigSep Finset.univ fun c : Dev nD => iprop(unscopedBufs c (fun b => m ((c.tc : Thread nD τ).loc b)) ∗ unscopedSems0 c
          ∗ owes (c.tc : Thread nD τ) (O₀ c) ∅ ∗ Pipeline.launchCred O₀ c ∗ prngReg c (ρ c) ∗ G c))
        ⊢ (iprop((bigSep Finset.univ fun c : Dev nD => StableHlo.held (c : Thread nD τ) (Pipeline.ucRefs τ sig) (V0 m c))
            ∗ bigSep Finset.univ fun c : Dev nD => iprop(unscopedSems0 c ∗ owes (c : Thread nD τ) (O₀ c) ∅ ∗ Pipeline.launchCred O₀ c ∗ prngReg c (ρ c) ∗ G c))
            : sProp (MT nD τ sig Ix (Elt F) ℕ U Lvl)) := by
      rw [← bigSep_sep']
      exact bigSep_mono fun c _ => by rw [← Pipeline.unscopedBufs_held (Ix := Ix) (Name := ℕ) (U := U) (Lvl := Lvl) c (V0 m c)]; exact BI.Entails.refl _
    iintro ⟨H, Hla⟩
    ihave H' := hsplit $$ H
    icases H' with ⟨Hh, Hr⟩
    imod hE0 $$ [Hr Hla] with HE
    · isplitl [Hr]; · iexact Hr
      iexact Hla
    imodintro
    rw [bigSep_sep']
    isplitl [Hh]; · iexact Hh
    iexact HE
  ·
    unfold StableHlo.held
    iintro ⟨Hh, HSI⟩
    ihave Hr := (pointsTo_read_all (Pipeline.ucRefs τ sig) (fun b => ((c : Thread nD τ).1, b)) (V37 m outs c) s') $$ [Hh HSI]
    · isplitl [Hh] <;> iassumption
    icases Hr with ⟨%h, HSI⟩
    imodintro
    isplitr
    · ipureintro
      exact h
    · iexact HSI

end Cert.KernelIdeal.Hand

end
-- ==== Proof.KI.R0.lean ====
import proofs.«416252_j75050258530751_2_alg».proof.Proof.Gen.KernelIdeal.Launch
import proofs.«416252_j75050258530751_2_alg».proof.Proof.Gen.KernelIdeal.Skeleton
import proofs.«416252_j75050258530751_2_alg».proof.Proof.Gen.KernelIdeal.Points
import proofs.«416252_j75050258530751_2_alg».proof.Proof.KI.RLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev r0_0 : Rect S10000x128 := Rect.unit (s := S10000x128) ![0, 0] S10000x128.size inb_S10000x128_S10000x128_0_0
abbrev r0_1 : Rect S128x32 := Rect.unit (s := S128x32) ![0, 0] S128x32.size inb_S128x32_S128x32_0_0
abbrev r0_2 : Rect S10000x32 := Rect.unit (s := S10000x32) ![0, 0] S10000x32.size inb_S10000x32_S10000x32_0_0

def out0_2 (x0 : Vec F S10000x128 .f32) (x1 : Vec F S128x32 .f32) : Vec F S10000x32 .f32 :=
  View.canon [⟨r0_2, k0_pay1 (View.ld x0 r0_0) (View.ld x1 r0_1)⟩]

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by dsimp only [dat0]

theorem after0_2 (c : Dev nD) (t : Fin cfg0.N) : (dat0 V c).after 2 t = out0_2 (iblk0 V c 0 t) (iblk0 V c 1 t) := by dsimp only [dat0]

set_option maxHeartbeats 1000000 in
/-- The one store covers the output's buffer, which so holds the canonical contents of that store. -/
theorem sound_kernel0 (c : Dev nD) (E : Set ℕ) (i : grid0.Coords)
    (arg1 : Memref sig .tc .vmem S10000x128 .f32) (harg1 : arg1.IsWhole)
    (arg2 : Memref sig .tc .vmem S128x32 .f32) (harg2 : arg2.IsWhole)
    (arg3 : Memref sig .tc .vmem S10000x32 .f32) (harg3 : arg3.IsWhole) (f0 f1 f2) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (out0_2 (arg1.view.read (Elt F) f0) (arg2.view.read (Elt F) f1))) -∗ K ⟨⟩))
      ⊢ wp frame (wpE (defs₀ (F := F)) Variants.none c none) E (cc0__linear_kernel i arg1 harg1 arg2 harg2 arg3 harg3) K := by
  simp only [cc0__linear_kernel_eq_skeleton]; unfold cc0__linear_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation0 (c : Dev nD) : BodyObligation (dat0 (F := F) V c) (defs₀ (F := F)) Variants.none () Set.univ := fun t => by
  rw [bigSep_W0, bigSep_W0, after0_2]
  exact RLib.body3 (p := bodyAt0 t) (fun d => (dat0 V c).before_in_eq_fetched 0 rfl (fun _ => rfl) (fun _ _ _ => rfl) (fun _ => rfl) t d)
    (fun d => (dat0 V c).before_in_eq_fetched 1 rfl (fun _ => rfl) (fun _ _ _ => rfl) (fun _ => rfl) t d)
    (sound_kernel0 c _ _ _ _ _ _ _ _)

end Cert.KernelIdeal.Hand

end
-- ==== Proof.KI.R1.lean ====
import proofs.«416252_j75050258530751_2_alg».proof.Proof.Gen.KernelIdeal.Launch
import proofs.«416252_j75050258530751_2_alg».proof.Proof.Gen.KernelIdeal.Skeleton
import proofs.«416252_j75050258530751_2_alg».proof.Proof.Gen.KernelIdeal.Points
import proofs.«416252_j75050258530751_2_alg».proof.Proof.KI.RLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev r1_0 : Rect S10000x32 := Rect.unit (s := S10000x32) ![0, 0] S10000x32.size inb_S10000x32_S10000x32_0_0
abbrev r1_1 : Rect S1x32 := Rect.unit (s := S1x32) ![0, 0] S1x32.size inb_S1x32_S1x32_0_0
abbrev r1_2 : Rect S10000x32 := Rect.unit (s := S10000x32) ![0, 0] S10000x32.size inb_S10000x32_S10000x32_0_0

def out1_2 (x0 : Vec F S10000x32 .f32) (x1 : Vec F S1x32 .f32) : Vec F S10000x32 .f32 :=
  View.canon [⟨r1_2, k1_pay1 (View.ld x0 r1_0) (View.ld x1 r1_1)⟩]

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by dsimp only [dat1]

theorem after1_2 (c : Dev nD) (t : Fin cfg1.N) : (dat1 V c).after 2 t = out1_2 (iblk1 V c 0 t) (iblk1 V c 1 t) := by dsimp only [dat1]

set_option maxHeartbeats 1000000 in
/-- The one store covers the output's buffer, which so holds the canonical contents of that store. -/
theorem sound_kernel1 (c : Dev nD) (E : Set ℕ) (i : grid1.Coords)
    (arg0 : Memref sig .tc .vmem S10000x32 .f32) (harg0 : arg0.IsWhole)
    (arg1 : Memref sig .tc .vmem S1x32 .f32) (harg1 : arg1.IsWhole)
    (arg2 : Memref sig .tc .vmem S10000x32 .f32) (harg2 : arg2.IsWhole) (f0 f1 f2) (K : PUnit → sProp 𝕄) :
    iprop((arg0.view.loc (c : Thread nD τ) ↦[arg0.view.set]{fullShare} f0) ∗ (arg1.view.loc (c : Thread nD τ) ↦[arg1.view.set]{fullShare} f1)
        ∗ (arg2.view.loc (c : Thread nD τ) ↦[arg2.view.set]{fullShare} f2)
        ∗ (iprop((arg0.view.loc (c : Thread nD τ) ↦[arg0.view.set]{fullShare} f0) ∗ (arg1.view.loc (c : Thread nD τ) ↦[arg1.view.set]{fullShare} f1)
            ∗ owns (c : Thread nD τ) arg2 fullShare (out1_2 (arg0.view.read (Elt F) f0) (arg1.view.read (Elt F) f1))) -∗ K ⟨⟩))
      ⊢ wp frame (wpE (defs₀ (F := F)) Variants.none c none) E (cc1__bias_relu_kernel i arg0 harg0 arg1 harg1 arg2 harg2) K := by
  simp only [cc1__bias_relu_kernel_eq_skeleton]; unfold cc1__bias_relu_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation1 (c : Dev nD) : BodyObligation (dat1 (F := F) V c) (defs₀ (F := F)) Variants.none () Set.univ := fun t => by
  rw [bigSep_W1, bigSep_W1, after1_2]
  exact RLib.body3 (p := bodyAt1 t) (fun d => (dat1 V c).before_in_eq_fetched 0 rfl (fun _ => rfl) (fun _ _ _ => rfl) (fun _ => rfl) t d)
    (fun d => (dat1 V c).before_in_eq_fetched 1 rfl (fun _ => rfl) (fun _ _ _ => rfl) (fun _ => rfl) t d)
    (sound_kernel1 c _ _ _ _ _ _ _ _)

end Cert.KernelIdeal.Hand

end
-- ==== Proof.KI.R2.lean ====
import proofs.«416252_j75050258530751_2_alg».proof.Proof.Gen.KernelIdeal.Launch
import proofs.«416252_j75050258530751_2_alg».proof.Proof.Gen.KernelIdeal.Skeleton
import proofs.«416252_j75050258530751_2_alg».proof.Proof.Gen.KernelIdeal.Points
import proofs.«416252_j75050258530751_2_alg».proof.Proof.KI.RLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev r2_0 : Rect S10000x32 := Rect.unit (s := S10000x32) ![0, 0] S10000x32.size inb_S10000x32_S10000x32_0_0
abbrev r2_1 : Rect S32x64 := Rect.unit (s := S32x64) ![0, 0] S32x64.size inb_S32x64_S32x64_0_0
abbrev r2_2 : Rect S10000x64 := Rect.unit (s := S10000x64) ![0, 0] S10000x64.size inb_S10000x64_S10000x64_0_0

def out2_2 (x0 : Vec F S10000x32 .f32) (x1 : Vec F S32x64 .f32) : Vec F S10000x64 .f32 :=
  View.canon [⟨r2_2, k2_pay1 (View.ld x0 r2_0) (View.ld x1 r2_1)⟩]

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by dsimp only [dat2]

theorem after2_2 (c : Dev nD) (t : Fin cfg2.N) : (dat2 V c).after 2 t = out2_2 (iblk2 V c 0 t) (iblk2 V c 1 t) := by dsimp only [dat2]

set_option maxHeartbeats 1000000 in
/-- The one store covers the output's buffer, which so holds the canonical contents of that store. -/
theorem sound_kernel2 (c : Dev nD) (E : Set ℕ) (i : grid2.Coords)
    (arg1 : Memref sig .tc .vmem S10000x32 .f32) (harg1 : arg1.IsWhole)
    (arg2 : Memref sig .tc .vmem S32x64 .f32) (harg2 : arg2.IsWhole)
    (arg3 : Memref sig .tc .vmem S10000x64 .f32) (harg3 : arg3.IsWhole) (f0 f1 f2) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (out2_2 (arg1.view.read (Elt F) f0) (arg2.view.read (Elt F) f1))) -∗ K ⟨⟩))
      ⊢ wp frame (wpE (defs₀ (F := F)) Variants.none c none) E (cc2__linear_kernel i arg1 harg1 arg2 harg2 arg3 harg3) K := by
  simp only [cc2__linear_kernel_eq_skeleton]; unfold cc2__linear_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation2 (c : Dev nD) : BodyObligation (dat2 (F := F) V c) (defs₀ (F := F)) Variants.none () Set.univ := fun t => by
  rw [bigSep_W2, bigSep_W2, after2_2]
  exact RLib.body3 (p := bodyAt2 t) (fun d => (dat2 V c).before_in_eq_fetched 0 rfl (fun _ => rfl) (fun _ _ _ => rfl) (fun _ => rfl) t d)
    (fun d => (dat2 V c).before_in_eq_fetched 1 rfl (fun _ => rfl) (fun _ _ _ => rfl) (fun _ => rfl) t d)
    (sound_kernel2 c _ _ _ _ _ _ _ _)

end Cert.KernelIdeal.Hand

end
-- ==== Proof.KI.R3.lean ====
import proofs.«416252_j75050258530751_2_alg».proof.Proof.Gen.KernelIdeal.Launch
import proofs.«416252_j75050258530751_2_alg».proof.Proof.Gen.KernelIdeal.Skeleton
import proofs.«416252_j75050258530751_2_alg».proof.Proof.Gen.KernelIdeal.Points
import proofs.«416252_j75050258530751_2_alg».proof.Proof.KI.RLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev r3_0 : Rect S10000x64 := Rect.unit (s := S10000x64) ![0, 0] S10000x64.size inb_S10000x64_S10000x64_0_0
abbrev r3_1 : Rect S1x64 := Rect.unit (s := S1x64) ![0, 0] S1x64.size inb_S1x64_S1x64_0_0
abbrev r3_2 : Rect S10000x64 := Rect.unit (s := S10000x64) ![0, 0] S10000x64.size inb_S10000x64_S10000x64_0_0

def out3_2 (x0 : Vec F S10000x64 .f32) (x1 : Vec F S1x64 .f32) : Vec F S10000x64 .f32 :=
  View.canon [⟨r3_2, k3_pay1 (View.ld x0 r3_0) (View.ld x1 r3_1)⟩]

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by dsimp only [dat3]

theorem after3_2 (c : Dev nD) (t : Fin cfg3.N) : (dat3 V c).after 2 t = out3_2 (iblk3 V c 0 t) (iblk3 V c 1 t) := by dsimp only [dat3]

set_option maxHeartbeats 1000000 in
/-- The one store covers the output's buffer, which so holds the canonical contents of that store. -/
theorem sound_kernel3 (c : Dev nD) (E : Set ℕ) (i : grid3.Coords)
    (arg0 : Memref sig .tc .vmem S10000x64 .f32) (harg0 : arg0.IsWhole)
    (arg1 : Memref sig .tc .vmem S1x64 .f32) (harg1 : arg1.IsWhole)
    (arg2 : Memref sig .tc .vmem S10000x64 .f32) (harg2 : arg2.IsWhole) (f0 f1 f2) (K : PUnit → sProp 𝕄) :
    iprop((arg0.view.loc (c : Thread nD τ) ↦[arg0.view.set]{fullShare} f0) ∗ (arg1.view.loc (c : Thread nD τ) ↦[arg1.view.set]{fullShare} f1)
        ∗ (arg2.view.loc (c : Thread nD τ) ↦[arg2.view.set]{fullShare} f2)
        ∗ (iprop((arg0.view.loc (c : Thread nD τ) ↦[arg0.view.set]{fullShare} f0) ∗ (arg1.view.loc (c : Thread nD τ) ↦[arg1.view.set]{fullShare} f1)
            ∗ owns (c : Thread nD τ) arg2 fullShare (out3_2 (arg0.view.read (Elt F) f0) (arg1.view.read (Elt F) f1))) -∗ K ⟨⟩))
      ⊢ wp frame (wpE (defs₀ (F := F)) Variants.none c none) E (cc3__bias_relu_kernel i arg0 harg0 arg1 harg1 arg2 harg2) K := by
  simp only [cc3__bias_relu_kernel_eq_skeleton]; unfold cc3__bias_relu_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation3 (c : Dev nD) : BodyObligation (dat3 (F := F) V c) (defs₀ (F := F)) Variants.none () Set.univ := fun t => by
  rw [bigSep_W3, bigSep_W3, after3_2]
  exact RLib.body3 (p := bodyAt3 t) (fun d => (dat3 V c).before_in_eq_fetched 0 rfl (fun _ => rfl) (fun _ _ _ => rfl) (fun _ => rfl) t d)
    (fun d => (dat3 V c).before_in_eq_fetched 1 rfl (fun _ => rfl) (fun _ _ _ => rfl) (fun _ => rfl) t d)
    (sound_kernel3 c _ _ _ _ _ _ _ _)

end Cert.KernelIdeal.Hand

end
-- ==== Proof.KI.R4.lean ====
import proofs.«416252_j75050258530751_2_alg».proof.Proof.Gen.KernelIdeal.Launch
import proofs.«416252_j75050258530751_2_alg».proof.Proof.Gen.KernelIdeal.Skeleton
import proofs.«416252_j75050258530751_2_alg».proof.Proof.Gen.KernelIdeal.Points
import proofs.«416252_j75050258530751_2_alg».proof.Proof.KI.RLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev r4_0 : Rect S10000x64 := Rect.unit (s := S10000x64) ![0, 0] S10000x64.size inb_S10000x64_S10000x64_0_0
abbrev r4_1 : Rect S64x64 := Rect.unit (s := S64x64) ![0, 0] S64x64.size inb_S64x64_S64x64_0_0
abbrev r4_2 : Rect S10000x64 := Rect.unit (s := S10000x64) ![0, 0] S10000x64.size inb_S10000x64_S10000x64_0_0

def out4_2 (x0 : Vec F S10000x64 .f32) (x1 : Vec F S64x64 .f32) : Vec F S10000x64 .f32 :=
  View.canon [⟨r4_2, k4_pay1 (View.ld x0 r4_0) (View.ld x1 r4_1)⟩]

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by dsimp only [dat4]

theorem after4_2 (c : Dev nD) (t : Fin cfg4.N) : (dat4 V c).after 2 t = out4_2 (iblk4 V c 0 t) (iblk4 V c 1 t) := by dsimp only [dat4]

set_option maxHeartbeats 1000000 in
/-- The one store covers the output's buffer, which so holds the canonical contents of that store. -/
theorem sound_kernel4 (c : Dev nD) (E : Set ℕ) (i : grid4.Coords)
    (arg1 : Memref sig .tc .vmem S10000x64 .f32) (harg1 : arg1.IsWhole)
    (arg2 : Memref sig .tc .vmem S64x64 .f32) (harg2 : arg2.IsWhole)
    (arg3 : Memref sig .tc .vmem S10000x64 .f32) (harg3 : arg3.IsWhole) (f0 f1 f2) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (out4_2 (arg1.view.read (Elt F) f0) (arg2.view.read (Elt F) f1))) -∗ K ⟨⟩))
      ⊢ wp frame (wpE (defs₀ (F := F)) Variants.none c none) E (cc4__linear_kernel i arg1 harg1 arg2 harg2 arg3 harg3) K := by
  simp only [cc4__linear_kernel_eq_skeleton]; unfold cc4__linear_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation4 (c : Dev nD) : BodyObligation (dat4 (F := F) V c) (defs₀ (F := F)) Variants.none () Set.univ := fun t => by
  rw [bigSep_W4, bigSep_W4, after4_2]
  exact RLib.body3 (p := bodyAt4 t) (fun d => (dat4 V c).before_in_eq_fetched 0 rfl (fun _ => rfl) (fun _ _ _ => rfl) (fun _ => rfl) t d)
    (fun d => (dat4 V c).before_in_eq_fetched 1 rfl (fun _ => rfl) (fun _ _ _ => rfl) (fun _ => rfl) t d)
    (sound_kernel4 c _ _ _ _ _ _ _ _)

end Cert.KernelIdeal.Hand

end
-- ==== Proof.KI.R5.lean ====
import proofs.«416252_j75050258530751_2_alg».proof.Proof.Gen.KernelIdeal.Launch
import proofs.«416252_j75050258530751_2_alg».proof.Proof.Gen.KernelIdeal.Skeleton
import proofs.«416252_j75050258530751_2_alg».proof.Proof.Gen.KernelIdeal.Points
import proofs.«416252_j75050258530751_2_alg».proof.Proof.KI.RLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev r5_0 : Rect S10000x64 := Rect.unit (s := S10000x64) ![0, 0] S10000x64.size inb_S10000x64_S10000x64_0_0
abbrev r5_1 : Rect S1x64 := Rect.unit (s := S1x64) ![0, 0] S1x64.size inb_S1x64_S1x64_0_0
abbrev r5_2 : Rect S10000x64 := Rect.unit (s := S10000x64) ![0, 0] S10000x64.size inb_S10000x64_S10000x64_0_0

def out5_2 (x0 : Vec F S10000x64 .f32) (x1 : Vec F S1x64 .f32) : Vec F S10000x64 .f32 :=
  View.canon [⟨r5_2, k5_pay1 (View.ld x0 r5_0) (View.ld x1 r5_1)⟩]

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by dsimp only [dat5]

theorem after5_2 (c : Dev nD) (t : Fin cfg5.N) : (dat5 V c).after 2 t = out5_2 (iblk5 V c 0 t) (iblk5 V c 1 t) := by dsimp only [dat5]

set_option maxHeartbeats 1000000 in
/-- The one store covers the output's buffer, which so holds the canonical contents of that store. -/
theorem sound_kernel5 (c : Dev nD) (E : Set ℕ) (i : grid5.Coords)
    (arg0 : Memref sig .tc .vmem S10000x64 .f32) (harg0 : arg0.IsWhole)
    (arg1 : Memref sig .tc .vmem S1x64 .f32) (harg1 : arg1.IsWhole)
    (arg2 : Memref sig .tc .vmem S10000x64 .f32) (harg2 : arg2.IsWhole) (f0 f1 f2) (K : PUnit → sProp 𝕄) :
    iprop((arg0.view.loc (c : Thread nD τ) ↦[arg0.view.set]{fullShare} f0) ∗ (arg1.view.loc (c : Thread nD τ) ↦[arg1.view.set]{fullShare} f1)
        ∗ (arg2.view.loc (c : Thread nD τ) ↦[arg2.view.set]{fullShare} f2)
        ∗ (iprop((arg0.view.loc (c : Thread nD τ) ↦[arg0.view.set]{fullShare} f0) ∗ (arg1.view.loc (c : Thread nD τ) ↦[arg1.view.set]{fullShare} f1)
            ∗ owns (c : Thread nD τ) arg2 fullShare (out5_2 (arg0.view.read (Elt F) f0) (arg1.view.read (Elt F) f1))) -∗ K ⟨⟩))
      ⊢ wp frame (wpE (defs₀ (F := F)) Variants.none c none) E (cc5__bias_relu_kernel i arg0 harg0 arg1 harg1 arg2 harg2) K := by
  simp only [cc5__bias_relu_kernel_eq_skeleton]; unfold cc5__bias_relu_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation5 (c : Dev nD) : BodyObligation (dat5 (F := F) V c) (defs₀ (F := F)) Variants.none () Set.univ := fun t => by
  rw [bigSep_W5, bigSep_W5, after5_2]
  exact RLib.body3 (p := bodyAt5 t) (fun d => (dat5 V c).before_in_eq_fetched 0 rfl (fun _ => rfl) (fun _ _ _ => rfl) (fun _ => rfl) t d)
    (fun d => (dat5 V c).before_in_eq_fetched 1 rfl (fun _ => rfl) (fun _ _ _ => rfl) (fun _ => rfl) t d)
    (sound_kernel5 c _ _ _ _ _ _ _ _)

end Cert.KernelIdeal.Hand

end
-- ==== Proof.KI.R6.lean ====
import proofs.«416252_j75050258530751_2_alg».proof.Proof.Gen.KernelIdeal.Launch
import proofs.«416252_j75050258530751_2_alg».proof.Proof.Gen.KernelIdeal.Skeleton
import proofs.«416252_j75050258530751_2_alg».proof.Proof.Gen.KernelIdeal.Points
import proofs.«416252_j75050258530751_2_alg».proof.Proof.KI.RLib

noncomputable section

namespace Cert.KernelIdeal.Hand

open Cert.KernelIdeal Cert.KernelIdeal.Gen Cert.RLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

def accAt6 (c : Dev nD) : ℕ → Vec F S512x64 .f32
  | 0 => k6_pay1
  | n + 1 => if h : n < cfg6.N then k6_pay2 (iblk6 V c 1 ⟨n, h⟩) (iblk6 V c 0 ⟨n, h⟩) (accAt6 c n) else accAt6 c n

theorem accAt6_zero (c : Dev nD) : accAt6 V c 0 = k6_pay1 := rfl

theorem accAt6_succ (c : Dev nD) (t : Fin cfg6.N) :
    accAt6 V c (t.val + 1) = k6_pay2 (iblk6 V c 1 t) (iblk6 V c 0 t) (accAt6 V c t.val) := by
  rw [accAt6, dif_pos t.isLt]

abbrev scM6 : Memref sig .tc .vmem S512x64 .f32 := Memref.whole cc6_scratch0

/-- The invariant, with what it holds of the carried block set apart as `S`. -/
abbrev PhiS6_pos (c : Dev nD) (S : sProp 𝕄) : sProp 𝕄 :=
  iprop(iprop(S ∗ Pipeline.scopedRestBut (Ix := Unit) (Name := ℕ) (U := UR sig nD τ) (Lvl := ℕ) (Val := Elt F) spec6 c [cc6_scratch0])
    ∗ (∃ r, prngReg c r))

def PhiS6 (c : Dev nD) : ℕ → sProp 𝕄
  | 0 => Pipeline.ΦA spec6 c
  | n + 1 => PhiS6_pos c (owns (c : Thread nD τ) scM6 fullShare (accAt6 V c (n + 1)))

theorem PhiA6_eq (c : Dev nD) : (Pipeline.ΦA spec6 c : sProp 𝕄) = PhiS6_pos c iprop(∃ d, owns (c : Thread nD τ) scM6 fullShare d) := by
  unfold Pipeline.ΦA; rw [scopedRest6_split]; simp only [scM6, owns_whole]; try rfl

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => accAt6 V c (t.val + 1)
  Φ t := PhiS6 V c t.val
  q _ := fullShare
  owed _ := 0

theorem A_eq6 (c : Dev nD) (w : Fin cfg6.W) : (dat6 V c).A w = V c (Pipeline.arrRef spec6 w) := rfl

theorem after6_2 (c : Dev nD) (t : Fin cfg6.N) : (dat6 V c).after 2 t = accAt6 V c (t.val + 1) := rfl

theorem hin6 (c : Dev nD) : Pipeline.ΦA spec6 c ⊢ (dat6 V c).Φ 0 := .rfl

/-- Holding the carried block at named contents is holding it at some contents. -/
theorem hout6 (c : Dev nD) : (dat6 V c).Φ (Fin.last cfg6.N) ⊢ Pipeline.ΦA spec6 c := by
  obtain ⟨n, hn⟩ := Nat.exists_eq_succ_of_ne_zero (by decide : grid6.N ≠ 0)
  rw [PhiA6_eq, show (dat6 V c).Φ (Fin.last cfg6.N) = PhiS6 V c (n + 1) from congrArg (PhiS6 V c) hn]
  unfold PhiS6 PhiS6_pos
  iintro ⟨⟨HS, HR⟩, Hg⟩
  iframe HR Hg
  iexists _; iexact HS

abbrev cond6 (i : grid6.Coords) : Prop :=
  (Scalar.cmpi .ne (Scalar.extui (Scalar.cmpi .eq (BitVec.ofNat 32 (i 0).val) 0#32)) 0#32) = 1#1

theorem hcond6 : ∀ t : Fin cfg6.N, cond6 (grid6.coords t) ↔ t.val = 0 :=
  (by decide +kernel : ∀ t : Fin grid6.N, cond6 (grid6.coords t) ↔ t.val = 0)

set_option maxHeartbeats 1000000 in
theorem sound_kernel6_first (c : Dev nD) (E : Set ℕ) (i : grid6.Coords) (hc : cond6 i)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole) (f0 f1 f2 f3) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2) ∗ (arg4.view.loc (c : Thread nD τ) ↦[arg4.view.set]{fullShare} f3)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (k6_pay2 (arg2.view.read (Elt F) f1) (arg1.view.read (Elt F) f0) k6_pay1)
            ∗ owns (c : Thread nD τ) arg4 fullShare (k6_pay2 (arg2.view.read (Elt F) f1) (arg1.view.read (Elt F) f0) k6_pay1)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  iintro ⟨H0, H1, H2, H3, Hk⟩
  sl_exec (disch := first | exact hc)
  sl_step
  iapply Hk
  iframe H0 H1
  unfold owns
  isplitl [H2] <;>
  (iexists _; iframe; ipureintro; sl_unfold_run_names
   simp only [read_writes_whole arg3.view off_zero, read_writes_whole arg4.view off_zero, readCov_whole arg4.view off_zero,
     readAt_whole arg1.view off_zero, readAt_whole arg2.view off_zero, readAt_whole arg4.view off_zero])

set_option maxHeartbeats 1000000 in
theorem sound_kernel6_rest (c : Dev nD) (E : Set ℕ) (i : grid6.Coords) (hc : ¬cond6 i)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole) (f0 f1 f2 f3) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2) ∗ (arg4.view.loc (c : Thread nD τ) ↦[arg4.view.set]{fullShare} f3)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (k6_pay2 (arg2.view.read (Elt F) f1) (arg1.view.read (Elt F) f0) (arg4.view.read (Elt F) f3))
            ∗ owns (c : Thread nD τ) arg4 fullShare (k6_pay2 (arg2.view.read (Elt F) f1) (arg1.view.read (Elt F) f0) (arg4.view.read (Elt F) f3))) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  iintro ⟨H0, H1, H2, H3, Hk⟩
  sl_exec (disch := first | exact hc)
  sl_step
  iapply Hk
  iframe H0 H1
  unfold owns
  isplitl [H2] <;>
  (iexists _; iframe; ipureintro; sl_unfold_run_names
   simp only [read_writes_whole arg3.view off_zero, read_writes_whole arg4.view off_zero, readCov_whole arg4.view off_zero,
     readAt_whole arg1.view off_zero, readAt_whole arg2.view off_zero, readAt_whole arg4.view off_zero])

theorem PhiS6_zero (c : Dev nD) {X Q : sProp 𝕄} (h : ∀ a, iprop(PhiS6_pos c (owns (c : Thread nD τ) scM6 fullShare a) ∗ X) ⊢ Q) :
    iprop(Pipeline.ΦA spec6 c ∗ X) ⊢ Q := by
  rw [PhiA6_eq]
  unfold PhiS6_pos at h ⊢
  iintro ⟨⟨⟨⟨%a, HS⟩, HR⟩, Hg⟩, HX⟩
  iapply h a
  iframe

theorem body_obligation6 (c : Dev nD) : BodyObligation (dat6 (F := F) V c) (defs₀ (F := F)) Variants.none () Set.univ := fun t => by
  rw [bigSep_W6, bigSep_W6]
  have h0 := fun d => (dat6 V c).before_in_eq_fetched 0 rfl (fun _ => rfl) (fun _ _ _ => rfl) (fun _ => rfl) t d
  have h1 := fun d => (dat6 V c).before_in_eq_fetched 1 rfl (fun _ => rfl) (fun _ _ _ => rfl) (fun _ => rfl) t d
  have hy := (accAt6_succ V c t).symm
  obtain ⟨_ | n, hn⟩ := t
  · exact PhiS6_zero c fun a => body3s (p := bodyAt6 _) (out := fun x0 x1 _ => k6_pay2 x1 x0 k6_pay1) h0 h1 hy
      (sound_kernel6_first c _ _ ((hcond6 _).mpr rfl) _ _ _ _ _ _ _ _)
  · exact body3s (p := bodyAt6 _) (out := fun x0 x1 a => k6_pay2 x1 x0 a) h0 h1 hy
      (sound_kernel6_rest c _ _ (mt (hcond6 _).mp n.succ_ne_zero) _ _ _ _ _ _ _ _)

end Cert.KernelIdeal.Hand

end
-- ==== Proof.KI.R7.lean ====
import proofs.«416252_j75050258530751_2_alg».proof.Proof.Gen.KernelIdeal.Launch
import proofs.«416252_j75050258530751_2_alg».proof.Proof.Gen.KernelIdeal.Skeleton
import proofs.«416252_j75050258530751_2_alg».proof.Proof.Gen.KernelIdeal.Points
import proofs.«416252_j75050258530751_2_alg».proof.Proof.KI.RLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk7 (c : Dev nD) (w : Fin cfg7.W) (t : Fin cfg7.N) : ((cfg7.win w).xblock (cfg7.grid.coords t)).Idx → Elt F (cfg7.win w).elt :=
  ((cfg7.win w).blk t).view.read (Elt F) (V c (Pipeline.arrRef spec7 w))

abbrev r7_0 : Rect S10000x128 := Rect.unit (s := S10000x128) ![0, 0] S10000x128.size inb_S10000x128_S10000x128_0_0
abbrev r7_1 : Rect S128x32 := Rect.unit (s := S128x32) ![0, 0] S128x32.size inb_S128x32_S128x32_0_0
abbrev r7_2 : Rect S10000x32 := Rect.unit (s := S10000x32) ![0, 0] S10000x32.size inb_S10000x32_S10000x32_0_0

def out7_2 (x0 : Vec F S10000x128 .f32) (x1 : Vec F S128x32 .f32) : Vec F S10000x32 .f32 :=
  View.canon [⟨r7_2, k7_pay1 (View.ld x0 r7_0) (View.ld x1 r7_1)⟩]

def dat7 (c : Dev nD) : Dat τ (Elt F) Unit ℕ (UR sig nD τ) ℕ cfg7 c where
  A w := V c (Pipeline.arrRef spec7 w)
  after w t := match w with
    | ⟨0, _⟩ => iblk7 V c 0 t
    | ⟨1, _⟩ => iblk7 V c 1 t
    | ⟨2, _⟩ => out7_2 (iblk7 V c 0 t) (iblk7 V c 1 t)
  Φ _ := Pipeline.ΦA spec7 c
  q _ := fullShare
  owed _ := 0

theorem A_eq7 (c : Dev nD) (w : Fin cfg7.W) : (dat7 V c).A w = V c (Pipeline.arrRef spec7 w) := by dsimp only [dat7]

theorem after7_2 (c : Dev nD) (t : Fin cfg7.N) : (dat7 V c).after 2 t = out7_2 (iblk7 V c 0 t) (iblk7 V c 1 t) := by dsimp only [dat7]

set_option maxHeartbeats 1000000 in
/-- The one store covers the output's buffer, which so holds the canonical contents of that store. -/
theorem sound_kernel7 (c : Dev nD) (E : Set ℕ) (i : grid7.Coords)
    (arg1 : Memref sig .tc .vmem S10000x128 .f32) (harg1 : arg1.IsWhole)
    (arg2 : Memref sig .tc .vmem S128x32 .f32) (harg2 : arg2.IsWhole)
    (arg3 : Memref sig .tc .vmem S10000x32 .f32) (harg3 : arg3.IsWhole) (f0 f1 f2) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (out7_2 (arg1.view.read (Elt F) f0) (arg2.view.read (Elt F) f1))) -∗ K ⟨⟩))
      ⊢ wp frame (wpE (defs₀ (F := F)) Variants.none c none) E (cc7__linear_kernel i arg1 harg1 arg2 harg2 arg3 harg3) K := by
  simp only [cc7__linear_kernel_eq_skeleton]; unfold cc7__linear_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation7 (c : Dev nD) : BodyObligation (dat7 (F := F) V c) (defs₀ (F := F)) Variants.none () Set.univ := fun t => by
  rw [bigSep_W7, bigSep_W7, after7_2]
  exact RLib.body3 (p := bodyAt7 t) (fun d => (dat7 V c).before_in_eq_fetched 0 rfl (fun _ => rfl) (fun _ _ _ => rfl) (fun _ => rfl) t d)
    (fun d => (dat7 V c).before_in_eq_fetched 1 rfl (fun _ => rfl) (fun _ _ _ => rfl) (fun _ => rfl) t d)
    (sound_kernel7 c _ _ _ _ _ _ _ _)

end Cert.KernelIdeal.Hand

end
-- ==== Proof.KI.R8.lean ====
import proofs.«416252_j75050258530751_2_alg».proof.Proof.Gen.KernelIdeal.Launch
import proofs.«416252_j75050258530751_2_alg».proof.Proof.Gen.KernelIdeal.Skeleton
import proofs.«416252_j75050258530751_2_alg».proof.Proof.Gen.KernelIdeal.Points
import proofs.«416252_j75050258530751_2_alg».proof.Proof.KI.RLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk8 (c : Dev nD) (w : Fin cfg8.W) (t : Fin cfg8.N) : ((cfg8.win w).xblock (cfg8.grid.coords t)).Idx → Elt F (cfg8.win w).elt :=
  ((cfg8.win w).blk t).view.read (Elt F) (V c (Pipeline.arrRef spec8 w))

abbrev r8_0 : Rect S10000x32 := Rect.unit (s := S10000x32) ![0, 0] S10000x32.size inb_S10000x32_S10000x32_0_0
abbrev r8_1 : Rect S1x32 := Rect.unit (s := S1x32) ![0, 0] S1x32.size inb_S1x32_S1x32_0_0
abbrev r8_2 : Rect S10000x32 := Rect.unit (s := S10000x32) ![0, 0] S10000x32.size inb_S10000x32_S10000x32_0_0

def out8_2 (x0 : Vec F S10000x32 .f32) (x1 : Vec F S1x32 .f32) : Vec F S10000x32 .f32 :=
  View.canon [⟨r8_2, k8_pay1 (View.ld x0 r8_0) (View.ld x1 r8_1)⟩]

def dat8 (c : Dev nD) : Dat τ (Elt F) Unit ℕ (UR sig nD τ) ℕ cfg8 c where
  A w := V c (Pipeline.arrRef spec8 w)
  after w t := match w with
    | ⟨0, _⟩ => iblk8 V c 0 t
    | ⟨1, _⟩ => iblk8 V c 1 t
    | ⟨2, _⟩ => out8_2 (iblk8 V c 0 t) (iblk8 V c 1 t)
  Φ _ := Pipeline.ΦA spec8 c
  q _ := fullShare
  owed _ := 0

theorem A_eq8 (c : Dev nD) (w : Fin cfg8.W) : (dat8 V c).A w = V c (Pipeline.arrRef spec8 w) := by dsimp only [dat8]

theorem after8_2 (c : Dev nD) (t : Fin cfg8.N) : (dat8 V c).after 2 t = out8_2 (iblk8 V c 0 t) (iblk8 V c 1 t) := by dsimp only [dat8]

set_option maxHeartbeats 1000000 in
/-- The one store covers the output's buffer, which so holds the canonical contents of that store. -/
theorem sound_kernel8 (c : Dev nD) (E : Set ℕ) (i : grid8.Coords)
    (arg0 : Memref sig .tc .vmem S10000x32 .f32) (harg0 : arg0.IsWhole)
    (arg1 : Memref sig .tc .vmem S1x32 .f32) (harg1 : arg1.IsWhole)
    (arg2 : Memref sig .tc .vmem S10000x32 .f32) (harg2 : arg2.IsWhole) (f0 f1 f2) (K : PUnit → sProp 𝕄) :
    iprop((arg0.view.loc (c : Thread nD τ) ↦[arg0.view.set]{fullShare} f0) ∗ (arg1.view.loc (c : Thread nD τ) ↦[arg1.view.set]{fullShare} f1)
        ∗ (arg2.view.loc (c : Thread nD τ) ↦[arg2.view.set]{fullShare} f2)
        ∗ (iprop((arg0.view.loc (c : Thread nD τ) ↦[arg0.view.set]{fullShare} f0) ∗ (arg1.view.loc (c : Thread nD τ) ↦[arg1.view.set]{fullShare} f1)
            ∗ owns (c : Thread nD τ) arg2 fullShare (out8_2 (arg0.view.read (Elt F) f0) (arg1.view.read (Elt F) f1))) -∗ K ⟨⟩))
      ⊢ wp frame (wpE (defs₀ (F := F)) Variants.none c none) E (cc8__bias_relu_kernel i arg0 harg0 arg1 harg1 arg2 harg2) K := by
  simp only [cc8__bias_relu_kernel_eq_skeleton]; unfold cc8__bias_relu_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation8 (c : Dev nD) : BodyObligation (dat8 (F := F) V c) (defs₀ (F := F)) Variants.none () Set.univ := fun t => by
  rw [bigSep_W8, bigSep_W8, after8_2]
  exact RLib.body3 (p := bodyAt8 t) (fun d => (dat8 V c).before_in_eq_fetched 0 rfl (fun _ => rfl) (fun _ _ _ => rfl) (fun _ => rfl) t d)
    (fun d => (dat8 V c).before_in_eq_fetched 1 rfl (fun _ => rfl) (fun _ _ _ => rfl) (fun _ => rfl) t d)
    (sound_kernel8 c _ _ _ _ _ _ _ _)

end Cert.KernelIdeal.Hand

end
-- ==== Proof.KI.R9.lean ====
import proofs.«416252_j75050258530751_2_alg».proof.Proof.Gen.KernelIdeal.Launch
import proofs.«416252_j75050258530751_2_alg».proof.Proof.Gen.KernelIdeal.Skeleton
import proofs.«416252_j75050258530751_2_alg».proof.Proof.Gen.KernelIdeal.Points
import proofs.«416252_j75050258530751_2_alg».proof.Proof.KI.RLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk9 (c : Dev nD) (w : Fin cfg9.W) (t : Fin cfg9.N) : ((cfg9.win w).xblock (cfg9.grid.coords t)).Idx → Elt F (cfg9.win w).elt :=
  ((cfg9.win w).blk t).view.read (Elt F) (V c (Pipeline.arrRef spec9 w))

abbrev r9_0 : Rect S10000x32 := Rect.unit (s := S10000x32) ![0, 0] S10000x32.size inb_S10000x32_S10000x32_0_0
abbrev r9_1 : Rect S32x64 := Rect.unit (s := S32x64) ![0, 0] S32x64.size inb_S32x64_S32x64_0_0
abbrev r9_2 : Rect S10000x64 := Rect.unit (s := S10000x64) ![0, 0] S10000x64.size inb_S10000x64_S10000x64_0_0

def out9_2 (x0 : Vec F S10000x32 .f32) (x1 : Vec F S32x64 .f32) : Vec F S10000x64 .f32 :=
  View.canon [⟨r9_2, k9_pay1 (View.ld x0 r9_0) (View.ld x1 r9_1)⟩]

def dat9 (c : Dev nD) : Dat τ (Elt F) Unit ℕ (UR sig nD τ) ℕ cfg9 c where
  A w := V c (Pipeline.arrRef spec9 w)
  after w t := match w with
    | ⟨0, _⟩ => iblk9 V c 0 t
    | ⟨1, _⟩ => iblk9 V c 1 t
    | ⟨2, _⟩ => out9_2 (iblk9 V c 0 t) (iblk9 V c 1 t)
  Φ _ := Pipeline.ΦA spec9 c
  q _ := fullShare
  owed _ := 0

theorem A_eq9 (c : Dev nD) (w : Fin cfg9.W) : (dat9 V c).A w = V c (Pipeline.arrRef spec9 w) := by dsimp only [dat9]

theorem after9_2 (c : Dev nD) (t : Fin cfg9.N) : (dat9 V c).after 2 t = out9_2 (iblk9 V c 0 t) (iblk9 V c 1 t) := by dsimp only [dat9]

set_option maxHeartbeats 1000000 in
/-- The one store covers the output's buffer, which so holds the canonical contents of that store. -/
theorem sound_kernel9 (c : Dev nD) (E : Set ℕ) (i : grid9.Coords)
    (arg1 : Memref sig .tc .vmem S10000x32 .f32) (harg1 : arg1.IsWhole)
    (arg2 : Memref sig .tc .vmem S32x64 .f32) (harg2 : arg2.IsWhole)
    (arg3 : Memref sig .tc .vmem S10000x64 .f32) (harg3 : arg3.IsWhole) (f0 f1 f2) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (out9_2 (arg1.view.read (Elt F) f0) (arg2.view.read (Elt F) f1))) -∗ K ⟨⟩))
      ⊢ wp frame (wpE (defs₀ (F := F)) Variants.none c none) E (cc9__linear_kernel i arg1 harg1 arg2 harg2 arg3 harg3) K := by
  simp only [cc9__linear_kernel_eq_skeleton]; unfold cc9__linear_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation9 (c : Dev nD) : BodyObligation (dat9 (F := F) V c) (defs₀ (F := F)) Variants.none () Set.univ := fun t => by
  rw [bigSep_W9, bigSep_W9, after9_2]
  exact RLib.body3 (p := bodyAt9 t) (fun d => (dat9 V c).before_in_eq_fetched 0 rfl (fun _ => rfl) (fun _ _ _ => rfl) (fun _ => rfl) t d)
    (fun d => (dat9 V c).before_in_eq_fetched 1 rfl (fun _ => rfl) (fun _ _ _ => rfl) (fun _ => rfl) t d)
    (sound_kernel9 c _ _ _ _ _ _ _ _)

end Cert.KernelIdeal.Hand

end
-- ==== Proof.KI.R10.lean ====
import proofs.«416252_j75050258530751_2_alg».proof.Proof.Gen.KernelIdeal.Launch
import proofs.«416252_j75050258530751_2_alg».proof.Proof.Gen.KernelIdeal.Skeleton
import proofs.«416252_j75050258530751_2_alg».proof.Proof.Gen.KernelIdeal.Points
import proofs.«416252_j75050258530751_2_alg».proof.Proof.KI.RLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk10 (c : Dev nD) (w : Fin cfg10.W) (t : Fin cfg10.N) : ((cfg10.win w).xblock (cfg10.grid.coords t)).Idx → Elt F (cfg10.win w).elt :=
  ((cfg10.win w).blk t).view.read (Elt F) (V c (Pipeline.arrRef spec10 w))

abbrev r10_0 : Rect S10000x64 := Rect.unit (s := S10000x64) ![0, 0] S10000x64.size inb_S10000x64_S10000x64_0_0
abbrev r10_1 : Rect S1x64 := Rect.unit (s := S1x64) ![0, 0] S1x64.size inb_S1x64_S1x64_0_0
abbrev r10_2 : Rect S10000x64 := Rect.unit (s := S10000x64) ![0, 0] S10000x64.size inb_S10000x64_S10000x64_0_0

def out10_2 (x0 : Vec F S10000x64 .f32) (x1 : Vec F S1x64 .f32) : Vec F S10000x64 .f32 :=
  View.canon [⟨r10_2, k10_pay1 (View.ld x0 r10_0) (View.ld x1 r10_1)⟩]

def dat10 (c : Dev nD) : Dat τ (Elt F) Unit ℕ (UR sig nD τ) ℕ cfg10 c where
  A w := V c (Pipeline.arrRef spec10 w)
  after w t := match w with
    | ⟨0, _⟩ => iblk10 V c 0 t
    | ⟨1, _⟩ => iblk10 V c 1 t
    | ⟨2, _⟩ => out10_2 (iblk10 V c 0 t) (iblk10 V c 1 t)
  Φ _ := Pipeline.ΦA spec10 c
  q _ := fullShare
  owed _ := 0

theorem A_eq10 (c : Dev nD) (w : Fin cfg10.W) : (dat10 V c).A w = V c (Pipeline.arrRef spec10 w) := by dsimp only [dat10]

theorem after10_2 (c : Dev nD) (t : Fin cfg10.N) : (dat10 V c).after 2 t = out10_2 (iblk10 V c 0 t) (iblk10 V c 1 t) := by dsimp only [dat10]

set_option maxHeartbeats 1000000 in
/-- The one store covers the output's buffer, which so holds the canonical contents of that store. -/
theorem sound_kernel10 (c : Dev nD) (E : Set ℕ) (i : grid10.Coords)
    (arg0 : Memref sig .tc .vmem S10000x64 .f32) (harg0 : arg0.IsWhole)
    (arg1 : Memref sig .tc .vmem S1x64 .f32) (harg1 : arg1.IsWhole)
    (arg2 : Memref sig .tc .vmem S10000x64 .f32) (harg2 : arg2.IsWhole) (f0 f1 f2) (K : PUnit → sProp 𝕄) :
    iprop((arg0.view.loc (c : Thread nD τ) ↦[arg0.view.set]{fullShare} f0) ∗ (arg1.view.loc (c : Thread nD τ) ↦[arg1.view.set]{fullShare} f1)
        ∗ (arg2.view.loc (c : Thread nD τ) ↦[arg2.view.set]{fullShare} f2)
        ∗ (iprop((arg0.view.loc (c : Thread nD τ) ↦[arg0.view.set]{fullShare} f0) ∗ (arg1.view.loc (c : Thread nD τ) ↦[arg1.view.set]{fullShare} f1)
            ∗ owns (c : Thread nD τ) arg2 fullShare (out10_2 (arg0.view.read (Elt F) f0) (arg1.view.read (Elt F) f1))) -∗ K ⟨⟩))
      ⊢ wp frame (wpE (defs₀ (F := F)) Variants.none c none) E (cc10__bias_relu_kernel i arg0 harg0 arg1 harg1 arg2 harg2) K := by
  simp only [cc10__bias_relu_kernel_eq_skeleton]; unfold cc10__bias_relu_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation10 (c : Dev nD) : BodyObligation (dat10 (F := F) V c) (defs₀ (F := F)) Variants.none () Set.univ := fun t => by
  rw [bigSep_W10, bigSep_W10, after10_2]
  exact RLib.body3 (p := bodyAt10 t) (fun d => (dat10 V c).before_in_eq_fetched 0 rfl (fun _ => rfl) (fun _ _ _ => rfl) (fun _ => rfl) t d)
    (fun d => (dat10 V c).before_in_eq_fetched 1 rfl (fun _ => rfl) (fun _ _ _ => rfl) (fun _ => rfl) t d)
    (sound_kernel10 c _ _ _ _ _ _ _ _)

end Cert.KernelIdeal.Hand

end
-- ==== Proof.KI.R11.lean ====
import proofs.«416252_j75050258530751_2_alg».proof.Proof.Gen.KernelIdeal.Launch
import proofs.«416252_j75050258530751_2_alg».proof.Proof.Gen.KernelIdeal.Skeleton
import proofs.«416252_j75050258530751_2_alg».proof.Proof.Gen.KernelIdeal.Points
import proofs.«416252_j75050258530751_2_alg».proof.Proof.KI.RLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk11 (c : Dev nD) (w : Fin cfg11.W) (t : Fin cfg11.N) : ((cfg11.win w).xblock (cfg11.grid.coords t)).Idx → Elt F (cfg11.win w).elt :=
  ((cfg11.win w).blk t).view.read (Elt F) (V c (Pipeline.arrRef spec11 w))

abbrev r11_0 : Rect S10000x64 := Rect.unit (s := S10000x64) ![0, 0] S10000x64.size inb_S10000x64_S10000x64_0_0
abbrev r11_1 : Rect S64x64 := Rect.unit (s := S64x64) ![0, 0] S64x64.size inb_S64x64_S64x64_0_0
abbrev r11_2 : Rect S10000x64 := Rect.unit (s := S10000x64) ![0, 0] S10000x64.size inb_S10000x64_S10000x64_0_0

def out11_2 (x0 : Vec F S10000x64 .f32) (x1 : Vec F S64x64 .f32) : Vec F S10000x64 .f32 :=
  View.canon [⟨r11_2, k11_pay1 (View.ld x0 r11_0) (View.ld x1 r11_1)⟩]

def dat11 (c : Dev nD) : Dat τ (Elt F) Unit ℕ (UR sig nD τ) ℕ cfg11 c where
  A w := V c (Pipeline.arrRef spec11 w)
  after w t := match w with
    | ⟨0, _⟩ => iblk11 V c 0 t
    | ⟨1, _⟩ => iblk11 V c 1 t
    | ⟨2, _⟩ => out11_2 (iblk11 V c 0 t) (iblk11 V c 1 t)
  Φ _ := Pipeline.ΦA spec11 c
  q _ := fullShare
  owed _ := 0

theorem A_eq11 (c : Dev nD) (w : Fin cfg11.W) : (dat11 V c).A w = V c (Pipeline.arrRef spec11 w) := by dsimp only [dat11]

theorem after11_2 (c : Dev nD) (t : Fin cfg11.N) : (dat11 V c).after 2 t = out11_2 (iblk11 V c 0 t) (iblk11 V c 1 t) := by dsimp only [dat11]

set_option maxHeartbeats 1000000 in
/-- The one store covers the output's buffer, which so holds the canonical contents of that store. -/
theorem sound_kernel11 (c : Dev nD) (E : Set ℕ) (i : grid11.Coords)
    (arg1 : Memref sig .tc .vmem S10000x64 .f32) (harg1 : arg1.IsWhole)
    (arg2 : Memref sig .tc .vmem S64x64 .f32) (harg2 : arg2.IsWhole)
    (arg3 : Memref sig .tc .vmem S10000x64 .f32) (harg3 : arg3.IsWhole) (f0 f1 f2) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (out11_2 (arg1.view.read (Elt F) f0) (arg2.view.read (Elt F) f1))) -∗ K ⟨⟩))
      ⊢ wp frame (wpE (defs₀ (F := F)) Variants.none c none) E (cc11__linear_kernel i arg1 harg1 arg2 harg2 arg3 harg3) K := by
  simp only [cc11__linear_kernel_eq_skeleton]; unfold cc11__linear_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation11 (c : Dev nD) : BodyObligation (dat11 (F := F) V c) (defs₀ (F := F)) Variants.none () Set.univ := fun t => by
  rw [bigSep_W11, bigSep_W11, after11_2]
  exact RLib.body3 (p := bodyAt11 t) (fun d => (dat11 V c).before_in_eq_fetched 0 rfl (fun _ => rfl) (fun _ _ _ => rfl) (fun _ => rfl) t d)
    (fun d => (dat11 V c).before_in_eq_fetched 1 rfl (fun _ => rfl) (fun _ _ _ => rfl) (fun _ => rfl) t d)
    (sound_kernel11 c _ _ _ _ _ _ _ _)

end Cert.KernelIdeal.Hand

end
-- ==== Proof.KI.R12.lean ====
import proofs.«416252_j75050258530751_2_alg».proof.Proof.Gen.KernelIdeal.Launch
import proofs.«416252_j75050258530751_2_alg».proof.Proof.Gen.KernelIdeal.Skeleton
import proofs.«416252_j75050258530751_2_alg».proof.Proof.Gen.KernelIdeal.Points
import proofs.«416252_j75050258530751_2_alg».proof.Proof.KI.RLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk12 (c : Dev nD) (w : Fin cfg12.W) (t : Fin cfg12.N) : ((cfg12.win w).xblock (cfg12.grid.coords t)).Idx → Elt F (cfg12.win w).elt :=
  ((cfg12.win w).blk t).view.read (Elt F) (V c (Pipeline.arrRef spec12 w))

abbrev r12_0 : Rect S10000x64 := Rect.unit (s := S10000x64) ![0, 0] S10000x64.size inb_S10000x64_S10000x64_0_0
abbrev r12_1 : Rect S1x64 := Rect.unit (s := S1x64) ![0, 0] S1x64.size inb_S1x64_S1x64_0_0
abbrev r12_2 : Rect S10000x64 := Rect.unit (s := S10000x64) ![0, 0] S10000x64.size inb_S10000x64_S10000x64_0_0

def out12_2 (x0 : Vec F S10000x64 .f32) (x1 : Vec F S1x64 .f32) : Vec F S10000x64 .f32 :=
  View.canon [⟨r12_2, k12_pay1 (View.ld x0 r12_0) (View.ld x1 r12_1)⟩]

def dat12 (c : Dev nD) : Dat τ (Elt F) Unit ℕ (UR sig nD τ) ℕ cfg12 c where
  A w := V c (Pipeline.arrRef spec12 w)
  after w t := match w with
    | ⟨0, _⟩ => iblk12 V c 0 t
    | ⟨1, _⟩ => iblk12 V c 1 t
    | ⟨2, _⟩ => out12_2 (iblk12 V c 0 t) (iblk12 V c 1 t)
  Φ _ := Pipeline.ΦA spec12 c
  q _ := fullShare
  owed _ := 0

theorem A_eq12 (c : Dev nD) (w : Fin cfg12.W) : (dat12 V c).A w = V c (Pipeline.arrRef spec12 w) := by dsimp only [dat12]

theorem after12_2 (c : Dev nD) (t : Fin cfg12.N) : (dat12 V c).after 2 t = out12_2 (iblk12 V c 0 t) (iblk12 V c 1 t) := by dsimp only [dat12]

set_option maxHeartbeats 1000000 in
/-- The one store covers the output's buffer, which so holds the canonical contents of that store. -/
theorem sound_kernel12 (c : Dev nD) (E : Set ℕ) (i : grid12.Coords)
    (arg0 : Memref sig .tc .vmem S10000x64 .f32) (harg0 : arg0.IsWhole)
    (arg1 : Memref sig .tc .vmem S1x64 .f32) (harg1 : arg1.IsWhole)
    (arg2 : Memref sig .tc .vmem S10000x64 .f32) (harg2 : arg2.IsWhole) (f0 f1 f2) (K : PUnit → sProp 𝕄) :
    iprop((arg0.view.loc (c : Thread nD τ) ↦[arg0.view.set]{fullShare} f0) ∗ (arg1.view.loc (c : Thread nD τ) ↦[arg1.view.set]{fullShare} f1)
        ∗ (arg2.view.loc (c : Thread nD τ) ↦[arg2.view.set]{fullShare} f2)
        ∗ (iprop((arg0.view.loc (c : Thread nD τ) ↦[arg0.view.set]{fullShare} f0) ∗ (arg1.view.loc (c : Thread nD τ) ↦[arg1.view.set]{fullShare} f1)
            ∗ owns (c : Thread nD τ) arg2 fullShare (out12_2 (arg0.view.read (Elt F) f0) (arg1.view.read (Elt F) f1))) -∗ K ⟨⟩))
      ⊢ wp frame (wpE (defs₀ (F := F)) Variants.none c none) E (cc12__bias_relu_kernel i arg0 harg0 arg1 harg1 arg2 harg2) K := by
  simp only [cc12__bias_relu_kernel_eq_skeleton]; unfold cc12__bias_relu_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation12 (c : Dev nD) : BodyObligation (dat12 (F := F) V c) (defs₀ (F := F)) Variants.none () Set.univ := fun t => by
  rw [bigSep_W12, bigSep_W12, after12_2]
  exact RLib.body3 (p := bodyAt12 t) (fun d => (dat12 V c).before_in_eq_fetched 0 rfl (fun _ => rfl) (fun _ _ _ => rfl) (fun _ => rfl) t d)
    (fun d => (dat12 V c).before_in_eq_fetched 1 rfl (fun _ => rfl) (fun _ _ _ => rfl) (fun _ => rfl) t d)
    (sound_kernel12 c _ _ _ _ _ _ _ _)

end Cert.KernelIdeal.Hand

end
-- ==== Proof.KI.R13.lean ====
import proofs.«416252_j75050258530751_2_alg».proof.Proof.Gen.KernelIdeal.Launch
import proofs.«416252_j75050258530751_2_alg».proof.Proof.Gen.KernelIdeal.Skeleton
import proofs.«416252_j75050258530751_2_alg».proof.Proof.Gen.KernelIdeal.Points
import proofs.«416252_j75050258530751_2_alg».proof.Proof.KI.RLib

noncomputable section

namespace Cert.KernelIdeal.Hand

open Cert.KernelIdeal Cert.KernelIdeal.Gen Cert.RLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk13 (c : Dev nD) (w : Fin cfg13.W) (t : Fin cfg13.N) : ((cfg13.win w).xblock (cfg13.grid.coords t)).Idx → Elt F (cfg13.win w).elt :=
  ((cfg13.win w).blk t).view.read (Elt F) (V c (Pipeline.arrRef spec13 w))

def accAt13 (c : Dev nD) : ℕ → Vec F S512x64 .f32
  | 0 => k13_pay1
  | n + 1 => if h : n < cfg13.N then k13_pay2 (iblk13 V c 1 ⟨n, h⟩) (iblk13 V c 0 ⟨n, h⟩) (accAt13 c n) else accAt13 c n

theorem accAt13_zero (c : Dev nD) : accAt13 V c 0 = k13_pay1 := rfl

theorem accAt13_succ (c : Dev nD) (t : Fin cfg13.N) :
    accAt13 V c (t.val + 1) = k13_pay2 (iblk13 V c 1 t) (iblk13 V c 0 t) (accAt13 V c t.val) := by
  rw [accAt13, dif_pos t.isLt]

abbrev scM13 : Memref sig .tc .vmem S512x64 .f32 := Memref.whole cc13_scratch0

/-- The invariant, with what it holds of the carried block set apart as `S`. -/
abbrev PhiS13_pos (c : Dev nD) (S : sProp 𝕄) : sProp 𝕄 :=
  iprop(iprop(S ∗ Pipeline.scopedRestBut (Ix := Unit) (Name := ℕ) (U := UR sig nD τ) (Lvl := ℕ) (Val := Elt F) spec13 c [cc13_scratch0])
    ∗ (∃ r, prngReg c r))

def PhiS13 (c : Dev nD) : ℕ → sProp 𝕄
  | 0 => Pipeline.ΦA spec13 c
  | n + 1 => PhiS13_pos c (owns (c : Thread nD τ) scM13 fullShare (accAt13 V c (n + 1)))

theorem PhiA13_eq (c : Dev nD) : (Pipeline.ΦA spec13 c : sProp 𝕄) = PhiS13_pos c iprop(∃ d, owns (c : Thread nD τ) scM13 fullShare d) := by
  unfold Pipeline.ΦA; rw [scopedRest13_split]; simp only [scM13, owns_whole]; try rfl

def dat13 (c : Dev nD) : Dat τ (Elt F) Unit ℕ (UR sig nD τ) ℕ cfg13 c where
  A w := V c (Pipeline.arrRef spec13 w)
  after w t := match w with
    | ⟨0, _⟩ => iblk13 V c 0 t
    | ⟨1, _⟩ => iblk13 V c 1 t
    | ⟨2, _⟩ => accAt13 V c (t.val + 1)
  Φ t := PhiS13 V c t.val
  q _ := fullShare
  owed _ := 0

theorem A_eq13 (c : Dev nD) (w : Fin cfg13.W) : (dat13 V c).A w = V c (Pipeline.arrRef spec13 w) := rfl

theorem after13_2 (c : Dev nD) (t : Fin cfg13.N) : (dat13 V c).after 2 t = accAt13 V c (t.val + 1) := rfl

theorem hin13 (c : Dev nD) : Pipeline.ΦA spec13 c ⊢ (dat13 V c).Φ 0 := .rfl

/-- Holding the carried block at named contents is holding it at some contents. -/
theorem hout13 (c : Dev nD) : (dat13 V c).Φ (Fin.last cfg13.N) ⊢ Pipeline.ΦA spec13 c := by
  obtain ⟨n, hn⟩ := Nat.exists_eq_succ_of_ne_zero (by decide : grid13.N ≠ 0)
  rw [PhiA13_eq, show (dat13 V c).Φ (Fin.last cfg13.N) = PhiS13 V c (n + 1) from congrArg (PhiS13 V c) hn]
  unfold PhiS13 PhiS13_pos
  iintro ⟨⟨HS, HR⟩, Hg⟩
  iframe HR Hg
  iexists _; iexact HS

abbrev cond13 (i : grid13.Coords) : Prop :=
  (Scalar.cmpi .ne (Scalar.extui (Scalar.cmpi .eq (BitVec.ofNat 32 (i 0).val) 0#32)) 0#32) = 1#1

theorem hcond13 : ∀ t : Fin cfg13.N, cond13 (grid13.coords t) ↔ t.val = 0 :=
  (by decide +kernel : ∀ t : Fin grid13.N, cond13 (grid13.coords t) ↔ t.val = 0)

set_option maxHeartbeats 1000000 in
theorem sound_kernel13_first (c : Dev nD) (E : Set ℕ) (i : grid13.Coords) (hc : cond13 i)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole) (f0 f1 f2 f3) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2) ∗ (arg4.view.loc (c : Thread nD τ) ↦[arg4.view.set]{fullShare} f3)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (k13_pay2 (arg2.view.read (Elt F) f1) (arg1.view.read (Elt F) f0) k13_pay1)
            ∗ owns (c : Thread nD τ) arg4 fullShare (k13_pay2 (arg2.view.read (Elt F) f1) (arg1.view.read (Elt F) f0) k13_pay1)) -∗ K ⟨⟩))
      ⊢ wp frame (wpE (defs₀ (F := F)) Variants.none c none) E (cc13__pool_kernel i arg1 harg1 arg2 harg2 arg3 harg3 arg4 harg4) K := by
  simp only [cc13__pool_kernel_eq_skeleton]; unfold cc13__pool_kernel_skel
  iintro ⟨H0, H1, H2, H3, Hk⟩
  sl_exec (disch := first | exact hc)
  sl_step
  iapply Hk
  iframe H0 H1
  unfold owns
  isplitl [H2] <;>
  (iexists _; iframe; ipureintro; sl_unfold_run_names
   simp only [read_writes_whole arg3.view off_zero, read_writes_whole arg4.view off_zero, readCov_whole arg4.view off_zero,
     readAt_whole arg1.view off_zero, readAt_whole arg2.view off_zero, readAt_whole arg4.view off_zero])

set_option maxHeartbeats 1000000 in
theorem sound_kernel13_rest (c : Dev nD) (E : Set ℕ) (i : grid13.Coords) (hc : ¬cond13 i)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole) (f0 f1 f2 f3) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2) ∗ (arg4.view.loc (c : Thread nD τ) ↦[arg4.view.set]{fullShare} f3)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (k13_pay2 (arg2.view.read (Elt F) f1) (arg1.view.read (Elt F) f0) (arg4.view.read (Elt F) f3))
            ∗ owns (c : Thread nD τ) arg4 fullShare (k13_pay2 (arg2.view.read (Elt F) f1) (arg1.view.read (Elt F) f0) (arg4.view.read (Elt F) f3))) -∗ K ⟨⟩))
      ⊢ wp frame (wpE (defs₀ (F := F)) Variants.none c none) E (cc13__pool_kernel i arg1 harg1 arg2 harg2 arg3 harg3 arg4 harg4) K := by
  simp only [cc13__pool_kernel_eq_skeleton]; unfold cc13__pool_kernel_skel
  iintro ⟨H0, H1, H2, H3, Hk⟩
  sl_exec (disch := first | exact hc)
  sl_step
  iapply Hk
  iframe H0 H1
  unfold owns
  isplitl [H2] <;>
  (iexists _; iframe; ipureintro; sl_unfold_run_names
   simp only [read_writes_whole arg3.view off_zero, read_writes_whole arg4.view off_zero, readCov_whole arg4.view off_zero,
     readAt_whole arg1.view off_zero, readAt_whole arg2.view off_zero, readAt_whole arg4.view off_zero])

theorem PhiS13_zero (c : Dev nD) {X Q : sProp 𝕄} (h : ∀ a, iprop(PhiS13_pos c (owns (c : Thread nD τ) scM13 fullShare a) ∗ X) ⊢ Q) :
    iprop(Pipeline.ΦA spec13 c ∗ X) ⊢ Q := by
  rw [PhiA13_eq]
  unfold PhiS13_pos at h ⊢
  iintro ⟨⟨⟨⟨%a, HS⟩, HR⟩, Hg⟩, HX⟩
  iapply h a
  iframe

theorem body_obligation13 (c : Dev nD) : BodyObligation (dat13 (F := F) V c) (defs₀ (F := F)) Variants.none () Set.univ := fun t => by
  rw [bigSep_W13, bigSep_W13]
  have h0 := fun d => (dat13 V c).before_in_eq_fetched 0 rfl (fun _ => rfl) (fun _ _ _ => rfl) (fun _ => rfl) t d
  have h1 := fun d => (dat13 V c).before_in_eq_fetched 1 rfl (fun _ => rfl) (fun _ _ _ => rfl) (fun _ => rfl) t d
  have hy := (accAt13_succ V c t).symm
  obtain ⟨_ | n, hn⟩ := t
  · exact PhiS13_zero c fun a => body3s (p := bodyAt13 _) (out := fun x0 x1 _ => k13_pay2 x1 x0 k13_pay1) h0 h1 hy
      (sound_kernel13_first c _ _ ((hcond13 _).mpr rfl) _ _ _ _ _ _ _ _)
  · exact body3s (p := bodyAt13 _) (out := fun x0 x1 a => k13_pay2 x1 x0 a) h0 h1 hy
      (sound_kernel13_rest c _ _ (mt (hcond13 _).mp n.succ_ne_zero) _ _ _ _ _ _ _ _)

end Cert.KernelIdeal.Hand

end
-- ==== Proof.KI.R14.lean ====
import proofs.«416252_j75050258530751_2_alg».proof.Proof.Gen.KernelIdeal.Launch
import proofs.«416252_j75050258530751_2_alg».proof.Proof.Gen.KernelIdeal.Skeleton
import proofs.«416252_j75050258530751_2_alg».proof.Proof.Gen.KernelIdeal.Points
import proofs.«416252_j75050258530751_2_alg».proof.Proof.KI.RLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk14 (c : Dev nD) (w : Fin cfg14.W) (t : Fin cfg14.N) : ((cfg14.win w).xblock (cfg14.grid.coords t)).Idx → Elt F (cfg14.win w).elt :=
  ((cfg14.win w).blk t).view.read (Elt F) (V c (Pipeline.arrRef spec14 w))

abbrev r14_0 : Rect S10000x128 := Rect.unit (s := S10000x128) ![0, 0] S10000x128.size inb_S10000x128_S10000x128_0_0
abbrev r14_1 : Rect S128x32 := Rect.unit (s := S128x32) ![0, 0] S128x32.size inb_S128x32_S128x32_0_0
abbrev r14_2 : Rect S10000x32 := Rect.unit (s := S10000x32) ![0, 0] S10000x32.size inb_S10000x32_S10000x32_0_0

def out14_2 (x0 : Vec F S10000x128 .f32) (x1 : Vec F S128x32 .f32) : Vec F S10000x32 .f32 :=
  View.canon [⟨r14_2, k14_pay1 (View.ld x0 r14_0) (View.ld x1 r14_1)⟩]

def dat14 (c : Dev nD) : Dat τ (Elt F) Unit ℕ (UR sig nD τ) ℕ cfg14 c where
  A w := V c (Pipeline.arrRef spec14 w)
  after w t := match w with
    | ⟨0, _⟩ => iblk14 V c 0 t
    | ⟨1, _⟩ => iblk14 V c 1 t
    | ⟨2, _⟩ => out14_2 (iblk14 V c 0 t) (iblk14 V c 1 t)
  Φ _ := Pipeline.ΦA spec14 c
  q _ := fullShare
  owed _ := 0

theorem A_eq14 (c : Dev nD) (w : Fin cfg14.W) : (dat14 V c).A w = V c (Pipeline.arrRef spec14 w) := by dsimp only [dat14]

theorem after14_2 (c : Dev nD) (t : Fin cfg14.N) : (dat14 V c).after 2 t = out14_2 (iblk14 V c 0 t) (iblk14 V c 1 t) := by dsimp only [dat14]

set_option maxHeartbeats 1000000 in
/-- The one store covers the output's buffer, which so holds the canonical contents of that store. -/
theorem sound_kernel14 (c : Dev nD) (E : Set ℕ) (i : grid14.Coords)
    (arg1 : Memref sig .tc .vmem S10000x128 .f32) (harg1 : arg1.IsWhole)
    (arg2 : Memref sig .tc .vmem S128x32 .f32) (harg2 : arg2.IsWhole)
    (arg3 : Memref sig .tc .vmem S10000x32 .f32) (harg3 : arg3.IsWhole) (f0 f1 f2) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (out14_2 (arg1.view.read (Elt F) f0) (arg2.view.read (Elt F) f1))) -∗ K ⟨⟩))
      ⊢ wp frame (wpE (defs₀ (F := F)) Variants.none c none) E (cc14__linear_kernel i arg1 harg1 arg2 harg2 arg3 harg3) K := by
  simp only [cc14__linear_kernel_eq_skeleton]; unfold cc14__linear_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation14 (c : Dev nD) : BodyObligation (dat14 (F := F) V c) (defs₀ (F := F)) Variants.none () Set.univ := fun t => by
  rw [bigSep_W14, bigSep_W14, after14_2]
  exact RLib.body3 (p := bodyAt14 t) (fun d => (dat14 V c).before_in_eq_fetched 0 rfl (fun _ => rfl) (fun _ _ _ => rfl) (fun _ => rfl) t d)
    (fun d => (dat14 V c).before_in_eq_fetched 1 rfl (fun _ => rfl) (fun _ _ _ => rfl) (fun _ => rfl) t d)
    (sound_kernel14 c _ _ _ _ _ _ _ _)

end Cert.KernelIdeal.Hand

end
-- ==== Proof.KI.R15.lean ====
import proofs.«416252_j75050258530751_2_alg».proof.Proof.Gen.KernelIdeal.Launch
import proofs.«416252_j75050258530751_2_alg».proof.Proof.Gen.KernelIdeal.Skeleton
import proofs.«416252_j75050258530751_2_alg».proof.Proof.Gen.KernelIdeal.Points
import proofs.«416252_j75050258530751_2_alg».proof.Proof.KI.RLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk15 (c : Dev nD) (w : Fin cfg15.W) (t : Fin cfg15.N) : ((cfg15.win w).xblock (cfg15.grid.coords t)).Idx → Elt F (cfg15.win w).elt :=
  ((cfg15.win w).blk t).view.read (Elt F) (V c (Pipeline.arrRef spec15 w))

abbrev r15_0 : Rect S10000x32 := Rect.unit (s := S10000x32) ![0, 0] S10000x32.size inb_S10000x32_S10000x32_0_0
abbrev r15_1 : Rect S1x32 := Rect.unit (s := S1x32) ![0, 0] S1x32.size inb_S1x32_S1x32_0_0
abbrev r15_2 : Rect S10000x32 := Rect.unit (s := S10000x32) ![0, 0] S10000x32.size inb_S10000x32_S10000x32_0_0

def out15_2 (x0 : Vec F S10000x32 .f32) (x1 : Vec F S1x32 .f32) : Vec F S10000x32 .f32 :=
  View.canon [⟨r15_2, k15_pay1 (View.ld x0 r15_0) (View.ld x1 r15_1)⟩]

def dat15 (c : Dev nD) : Dat τ (Elt F) Unit ℕ (UR sig nD τ) ℕ cfg15 c where
  A w := V c (Pipeline.arrRef spec15 w)
  after w t := match w with
    | ⟨0, _⟩ => iblk15 V c 0 t
    | ⟨1, _⟩ => iblk15 V c 1 t
    | ⟨2, _⟩ => out15_2 (iblk15 V c 0 t) (iblk15 V c 1 t)
  Φ _ := Pipeline.ΦA spec15 c
  q _ := fullShare
  owed _ := 0

theorem A_eq15 (c : Dev nD) (w : Fin cfg15.W) : (dat15 V c).A w = V c (Pipeline.arrRef spec15 w) := by dsimp only [dat15]

theorem after15_2 (c : Dev nD) (t : Fin cfg15.N) : (dat15 V c).after 2 t = out15_2 (iblk15 V c 0 t) (iblk15 V c 1 t) := by dsimp only [dat15]

set_option maxHeartbeats 1000000 in
/-- The one store covers the output's buffer, which so holds the canonical contents of that store. -/
theorem sound_kernel15 (c : Dev nD) (E : Set ℕ) (i : grid15.Coords)
    (arg0 : Memref sig .tc .vmem S10000x32 .f32) (harg0 : arg0.IsWhole)
    (arg1 : Memref sig .tc .vmem S1x32 .f32) (harg1 : arg1.IsWhole)
    (arg2 : Memref sig .tc .vmem S10000x32 .f32) (harg2 : arg2.IsWhole) (f0 f1 f2) (K : PUnit → sProp 𝕄) :
    iprop((arg0.view.loc (c : Thread nD τ) ↦[arg0.view.set]{fullShare} f0) ∗ (arg1.view.loc (c : Thread nD τ) ↦[arg1.view.set]{fullShare} f1)
        ∗ (arg2.view.loc (c : Thread nD τ) ↦[arg2.view.set]{fullShare} f2)
        ∗ (iprop((arg0.view.loc (c : Thread nD τ) ↦[arg0.view.set]{fullShare} f0) ∗ (arg1.view.loc (c : Thread nD τ) ↦[arg1.view.set]{fullShare} f1)
            ∗ owns (c : Thread nD τ) arg2 fullShare (out15_2 (arg0.view.read (Elt F) f0) (arg1.view.read (Elt F) f1))) -∗ K ⟨⟩))
      ⊢ wp frame (wpE (defs₀ (F := F)) Variants.none c none) E (cc15__bias_relu_kernel i arg0 harg0 arg1 harg1 arg2 harg2) K := by
  simp only [cc15__bias_relu_kernel_eq_skeleton]; unfold cc15__bias_relu_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation15 (c : Dev nD) : BodyObligation (dat15 (F := F) V c) (defs₀ (F := F)) Variants.none () Set.univ := fun t => by
  rw [bigSep_W15, bigSep_W15, after15_2]
  exact RLib.body3 (p := bodyAt15 t) (fun d => (dat15 V c).before_in_eq_fetched 0 rfl (fun _ => rfl) (fun _ _ _ => rfl) (fun _ => rfl) t d)
    (fun d => (dat15 V c).before_in_eq_fetched 1 rfl (fun _ => rfl) (fun _ _ _ => rfl) (fun _ => rfl) t d)
    (sound_kernel15 c _ _ _ _ _ _ _ _)

end Cert.KernelIdeal.Hand

end
-- ==== Proof.KI.R16.lean ====
import proofs.«416252_j75050258530751_2_alg».proof.Proof.Gen.KernelIdeal.Launch
import proofs.«416252_j75050258530751_2_alg».proof.Proof.Gen.KernelIdeal.Skeleton
import proofs.«416252_j75050258530751_2_alg».proof.Proof.Gen.KernelIdeal.Points
import proofs.«416252_j75050258530751_2_alg».proof.Proof.KI.RLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk16 (c : Dev nD) (w : Fin cfg16.W) (t : Fin cfg16.N) : ((cfg16.win w).xblock (cfg16.grid.coords t)).Idx → Elt F (cfg16.win w).elt :=
  ((cfg16.win w).blk t).view.read (Elt F) (V c (Pipeline.arrRef spec16 w))

abbrev r16_0 : Rect S10000x32 := Rect.unit (s := S10000x32) ![0, 0] S10000x32.size inb_S10000x32_S10000x32_0_0
abbrev r16_1 : Rect S32x64 := Rect.unit (s := S32x64) ![0, 0] S32x64.size inb_S32x64_S32x64_0_0
abbrev r16_2 : Rect S10000x64 := Rect.unit (s := S10000x64) ![0, 0] S10000x64.size inb_S10000x64_S10000x64_0_0

def out16_2 (x0 : Vec F S10000x32 .f32) (x1 : Vec F S32x64 .f32) : Vec F S10000x64 .f32 :=
  View.canon [⟨r16_2, k16_pay1 (View.ld x0 r16_0) (View.ld x1 r16_1)⟩]

def dat16 (c : Dev nD) : Dat τ (Elt F) Unit ℕ (UR sig nD τ) ℕ cfg16 c where
  A w := V c (Pipeline.arrRef spec16 w)
  after w t := match w with
    | ⟨0, _⟩ => iblk16 V c 0 t
    | ⟨1, _⟩ => iblk16 V c 1 t
    | ⟨2, _⟩ => out16_2 (iblk16 V c 0 t) (iblk16 V c 1 t)
  Φ _ := Pipeline.ΦA spec16 c
  q _ := fullShare
  owed _ := 0

theorem A_eq16 (c : Dev nD) (w : Fin cfg16.W) : (dat16 V c).A w = V c (Pipeline.arrRef spec16 w) := by dsimp only [dat16]

theorem after16_2 (c : Dev nD) (t : Fin cfg16.N) : (dat16 V c).after 2 t = out16_2 (iblk16 V c 0 t) (iblk16 V c 1 t) := by dsimp only [dat16]

set_option maxHeartbeats 1000000 in
/-- The one store covers the output's buffer, which so holds the canonical contents of that store. -/
theorem sound_kernel16 (c : Dev nD) (E : Set ℕ) (i : grid16.Coords)
    (arg1 : Memref sig .tc .vmem S10000x32 .f32) (harg1 : arg1.IsWhole)
    (arg2 : Memref sig .tc .vmem S32x64 .f32) (harg2 : arg2.IsWhole)
    (arg3 : Memref sig .tc .vmem S10000x64 .f32) (harg3 : arg3.IsWhole) (f0 f1 f2) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (out16_2 (arg1.view.read (Elt F) f0) (arg2.view.read (Elt F) f1))) -∗ K ⟨⟩))
      ⊢ wp frame (wpE (defs₀ (F := F)) Variants.none c none) E (cc16__linear_kernel i arg1 harg1 arg2 harg2 arg3 harg3) K := by
  simp only [cc16__linear_kernel_eq_skeleton]; unfold cc16__linear_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation16 (c : Dev nD) : BodyObligation (dat16 (F := F) V c) (defs₀ (F := F)) Variants.none () Set.univ := fun t => by
  rw [bigSep_W16, bigSep_W16, after16_2]
  exact RLib.body3 (p := bodyAt16 t) (fun d => (dat16 V c).before_in_eq_fetched 0 rfl (fun _ => rfl) (fun _ _ _ => rfl) (fun _ => rfl) t d)
    (fun d => (dat16 V c).before_in_eq_fetched 1 rfl (fun _ => rfl) (fun _ _ _ => rfl) (fun _ => rfl) t d)
    (sound_kernel16 c _ _ _ _ _ _ _ _)

end Cert.KernelIdeal.Hand

end
-- ==== Proof.KI.R17.lean ====
import proofs.«416252_j75050258530751_2_alg».proof.Proof.Gen.KernelIdeal.Launch
import proofs.«416252_j75050258530751_2_alg».proof.Proof.Gen.KernelIdeal.Skeleton
import proofs.«416252_j75050258530751_2_alg».proof.Proof.Gen.KernelIdeal.Points
import proofs.«416252_j75050258530751_2_alg».proof.Proof.KI.RLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk17 (c : Dev nD) (w : Fin cfg17.W) (t : Fin cfg17.N) : ((cfg17.win w).xblock (cfg17.grid.coords t)).Idx → Elt F (cfg17.win w).elt :=
  ((cfg17.win w).blk t).view.read (Elt F) (V c (Pipeline.arrRef spec17 w))

abbrev r17_0 : Rect S10000x64 := Rect.unit (s := S10000x64) ![0, 0] S10000x64.size inb_S10000x64_S10000x64_0_0
abbrev r17_1 : Rect S1x64 := Rect.unit (s := S1x64) ![0, 0] S1x64.size inb_S1x64_S1x64_0_0
abbrev r17_2 : Rect S10000x64 := Rect.unit (s := S10000x64) ![0, 0] S10000x64.size inb_S10000x64_S10000x64_0_0

def out17_2 (x0 : Vec F S10000x64 .f32) (x1 : Vec F S1x64 .f32) : Vec F S10000x64 .f32 :=
  View.canon [⟨r17_2, k17_pay1 (View.ld x0 r17_0) (View.ld x1 r17_1)⟩]

def dat17 (c : Dev nD) : Dat τ (Elt F) Unit ℕ (UR sig nD τ) ℕ cfg17 c where
  A w := V c (Pipeline.arrRef spec17 w)
  after w t := match w with
    | ⟨0, _⟩ => iblk17 V c 0 t
    | ⟨1, _⟩ => iblk17 V c 1 t
    | ⟨2, _⟩ => out17_2 (iblk17 V c 0 t) (iblk17 V c 1 t)
  Φ _ := Pipeline.ΦA spec17 c
  q _ := fullShare
  owed _ := 0

theorem A_eq17 (c : Dev nD) (w : Fin cfg17.W) : (dat17 V c).A w = V c (Pipeline.arrRef spec17 w) := by dsimp only [dat17]

theorem after17_2 (c : Dev nD) (t : Fin cfg17.N) : (dat17 V c).after 2 t = out17_2 (iblk17 V c 0 t) (iblk17 V c 1 t) := by dsimp only [dat17]

set_option maxHeartbeats 1000000 in
/-- The one store covers the output's buffer, which so holds the canonical contents of that store. -/
theorem sound_kernel17 (c : Dev nD) (E : Set ℕ) (i : grid17.Coords)
    (arg0 : Memref sig .tc .vmem S10000x64 .f32) (harg0 : arg0.IsWhole)
    (arg1 : Memref sig .tc .vmem S1x64 .f32) (harg1 : arg1.IsWhole)
    (arg2 : Memref sig .tc .vmem S10000x64 .f32) (harg2 : arg2.IsWhole) (f0 f1 f2) (K : PUnit → sProp 𝕄) :
    iprop((arg0.view.loc (c : Thread nD τ) ↦[arg0.view.set]{fullShare} f0) ∗ (arg1.view.loc (c : Thread nD τ) ↦[arg1.view.set]{fullShare} f1)
        ∗ (arg2.view.loc (c : Thread nD τ) ↦[arg2.view.set]{fullShare} f2)
        ∗ (iprop((arg0.view.loc (c : Thread nD τ) ↦[arg0.view.set]{fullShare} f0) ∗ (arg1.view.loc (c : Thread nD τ) ↦[arg1.view.set]{fullShare} f1)
            ∗ owns (c : Thread nD τ) arg2 fullShare (out17_2 (arg0.view.read (Elt F) f0) (arg1.view.read (Elt F) f1))) -∗ K ⟨⟩))
      ⊢ wp frame (wpE (defs₀ (F := F)) Variants.none c none) E (cc17__bias_relu_kernel i arg0 harg0 arg1 harg1 arg2 harg2) K := by
  simp only [cc17__bias_relu_kernel_eq_skeleton]; unfold cc17__bias_relu_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation17 (c : Dev nD) : BodyObligation (dat17 (F := F) V c) (defs₀ (F := F)) Variants.none () Set.univ := fun t => by
  rw [bigSep_W17, bigSep_W17, after17_2]
  exact RLib.body3 (p := bodyAt17 t) (fun d => (dat17 V c).before_in_eq_fetched 0 rfl (fun _ => rfl) (fun _ _ _ => rfl) (fun _ => rfl) t d)
    (fun d => (dat17 V c).before_in_eq_fetched 1 rfl (fun _ => rfl) (fun _ _ _ => rfl) (fun _ => rfl) t d)
    (sound_kernel17 c _ _ _ _ _ _ _ _)

end Cert.KernelIdeal.Hand

end
-- ==== Proof.KI.R18.lean ====
import proofs.«416252_j75050258530751_2_alg».proof.Proof.Gen.KernelIdeal.Launch
import proofs.«416252_j75050258530751_2_alg».proof.Proof.Gen.KernelIdeal.Skeleton
import proofs.«416252_j75050258530751_2_alg».proof.Proof.Gen.KernelIdeal.Points
import proofs.«416252_j75050258530751_2_alg».proof.Proof.KI.RLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk18 (c : Dev nD) (w : Fin cfg18.W) (t : Fin cfg18.N) : ((cfg18.win w).xblock (cfg18.grid.coords t)).Idx → Elt F (cfg18.win w).elt :=
  ((cfg18.win w).blk t).view.read (Elt F) (V c (Pipeline.arrRef spec18 w))

abbrev r18_0 : Rect S10000x64 := Rect.unit (s := S10000x64) ![0, 0] S10000x64.size inb_S10000x64_S10000x64_0_0
abbrev r18_1 : Rect S64x64 := Rect.unit (s := S64x64) ![0, 0] S64x64.size inb_S64x64_S64x64_0_0
abbrev r18_2 : Rect S10000x64 := Rect.unit (s := S10000x64) ![0, 0] S10000x64.size inb_S10000x64_S10000x64_0_0

def out18_2 (x0 : Vec F S10000x64 .f32) (x1 : Vec F S64x64 .f32) : Vec F S10000x64 .f32 :=
  View.canon [⟨r18_2, k18_pay1 (View.ld x0 r18_0) (View.ld x1 r18_1)⟩]

def dat18 (c : Dev nD) : Dat τ (Elt F) Unit ℕ (UR sig nD τ) ℕ cfg18 c where
  A w := V c (Pipeline.arrRef spec18 w)
  after w t := match w with
    | ⟨0, _⟩ => iblk18 V c 0 t
    | ⟨1, _⟩ => iblk18 V c 1 t
    | ⟨2, _⟩ => out18_2 (iblk18 V c 0 t) (iblk18 V c 1 t)
  Φ _ := Pipeline.ΦA spec18 c
  q _ := fullShare
  owed _ := 0

theorem A_eq18 (c : Dev nD) (w : Fin cfg18.W) : (dat18 V c).A w = V c (Pipeline.arrRef spec18 w) := by dsimp only [dat18]

theorem after18_2 (c : Dev nD) (t : Fin cfg18.N) : (dat18 V c).after 2 t = out18_2 (iblk18 V c 0 t) (iblk18 V c 1 t) := by dsimp only [dat18]

set_option maxHeartbeats 1000000 in
/-- The one store covers the output's buffer, which so holds the canonical contents of that store. -/
theorem sound_kernel18 (c : Dev nD) (E : Set ℕ) (i : grid18.Coords)
    (arg1 : Memref sig .tc .vmem S10000x64 .f32) (harg1 : arg1.IsWhole)
    (arg2 : Memref sig .tc .vmem S64x64 .f32) (harg2 : arg2.IsWhole)
    (arg3 : Memref sig .tc .vmem S10000x64 .f32) (harg3 : arg3.IsWhole) (f0 f1 f2) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (out18_2 (arg1.view.read (Elt F) f0) (arg2.view.read (Elt F) f1))) -∗ K ⟨⟩))
      ⊢ wp frame (wpE (defs₀ (F := F)) Variants.none c none) E (cc18__linear_kernel i arg1 harg1 arg2 harg2 arg3 harg3) K := by
  simp only [cc18__linear_kernel_eq_skeleton]; unfold cc18__linear_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation18 (c : Dev nD) : BodyObligation (dat18 (F := F) V c) (defs₀ (F := F)) Variants.none () Set.univ := fun t => by
  rw [bigSep_W18, bigSep_W18, after18_2]
  exact RLib.body3 (p := bodyAt18 t) (fun d => (dat18 V c).before_in_eq_fetched 0 rfl (fun _ => rfl) (fun _ _ _ => rfl) (fun _ => rfl) t d)
    (fun d => (dat18 V c).before_in_eq_fetched 1 rfl (fun _ => rfl) (fun _ _ _ => rfl) (fun _ => rfl) t d)
    (sound_kernel18 c _ _ _ _ _ _ _ _)

end Cert.KernelIdeal.Hand

end
-- ==== Proof.KI.R19.lean ====
import proofs.«416252_j75050258530751_2_alg».proof.Proof.Gen.KernelIdeal.Launch
import proofs.«416252_j75050258530751_2_alg».proof.Proof.Gen.KernelIdeal.Skeleton
import proofs.«416252_j75050258530751_2_alg».proof.Proof.Gen.KernelIdeal.Points
import proofs.«416252_j75050258530751_2_alg».proof.Proof.KI.RLib

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk19 (c : Dev nD) (w : Fin cfg19.W) (t : Fin cfg19.N) : ((cfg19.win w).xblock (cfg19.grid.coords t)).Idx → Elt F (cfg19.win w).elt :=
  ((cfg19.win w).blk t).view.read (Elt F) (V c (Pipeline.arrRef spec19 w))

abbrev r19_0 : Rect S10000x64 := Rect.unit (s := S10000x64) ![0, 0] S10000x64.size inb_S10000x64_S10000x64_0_0
abbrev r19_1 : Rect S1x64 := Rect.unit (s := S1x64) ![0, 0] S1x64.size inb_S1x64_S1x64_0_0
abbrev r19_2 : Rect S10000x64 := Rect.unit (s := S10000x64) ![0, 0] S10000x64.size inb_S10000x64_S10000x64_0_0

def out19_2 (x0 : Vec F S10000x64 .f32) (x1 : Vec F S1x64 .f32) : Vec F S10000x64 .f32 :=
  View.canon [⟨r19_2, k19_pay1 (View.ld x0 r19_0) (View.ld x1 r19_1)⟩]

def dat19 (c : Dev nD) : Dat τ (Elt F) Unit ℕ (UR sig nD τ) ℕ cfg19 c where
  A w := V c (Pipeline.arrRef spec19 w)
  after w t := match w with
    | ⟨0, _⟩ => iblk19 V c 0 t
    | ⟨1, _⟩ => iblk19 V c 1 t
    | ⟨2, _⟩ => out19_2 (iblk19 V c 0 t) (iblk19 V c 1 t)
  Φ _ := Pipeline.ΦA spec19 c
  q _ := fullShare
  owed _ := 0

theorem A_eq19 (c : Dev nD) (w : Fin cfg19.W) : (dat19 V c).A w = V c (Pipeline.arrRef spec19 w) := by dsimp only [dat19]

theorem after19_2 (c : Dev nD) (t : Fin cfg19.N) : (dat19 V c).after 2 t = out19_2 (iblk19 V c 0 t) (iblk19 V c 1 t) := by dsimp only [dat19]

set_option maxHeartbeats 1000000 in
/-- The one store covers the output's buffer, which so holds the canonical contents of that store. -/
theorem sound_kernel19 (c : Dev nD) (E : Set ℕ) (i : grid19.Coords)
    (arg0 : Memref sig .tc .vmem S10000x64 .f32) (harg0 : arg0.IsWhole)
    (arg1 : Memref sig .tc .vmem S1x64 .f32) (harg1 : arg1.IsWhole)
    (arg2 : Memref sig .tc .vmem S10000x64 .f32) (harg2 : arg2.IsWhole) (f0 f1 f2) (K : PUnit → sProp 𝕄) :
    iprop((arg0.view.loc (c : Thread nD τ) ↦[arg0.view.set]{fullShare} f0) ∗ (arg1.view.loc (c : Thread nD τ) ↦[arg1.view.set]{fullShare} f1)
        ∗ (arg2.view.loc (c : Thread nD τ) ↦[arg2.view.set]{fullShare} f2)
        ∗ (iprop((arg0.view.loc (c : Thread nD τ) ↦[arg0.view.set]{fullShare} f0) ∗ (arg1.view.loc (c : Thread nD τ) ↦[arg1.view.set]{fullShare} f1)
            ∗ owns (c : Thread nD τ) arg2 fullShare (out19_2 (arg0.view.read (Elt F) f0) (arg1.view.read (Elt F) f1))) -∗ K ⟨⟩))
      ⊢ wp frame (wpE (defs₀ (F := F)) Variants.none c none) E (cc19__bias_relu_kernel i arg0 harg0 arg1 harg1 arg2 harg2) K := by
  simp only [cc19__bias_relu_kernel_eq_skeleton]; unfold cc19__bias_relu_kernel_skel
  iintro ⟨H0, H1, H2, Hk⟩
  sl_exec
  sl_step
  iapply Hk
  iframe H0 H1
  unfold owns
  iexists _; iframe H2
  ipureintro
  exact RLib.read_writes_canon _ RLib.off_zero _ _ _ _

theorem body_obligation19 (c : Dev nD) : BodyObligation (dat19 (F := F) V c) (defs₀ (F := F)) Variants.none () Set.univ := fun t => by
  rw [bigSep_W19, bigSep_W19, after19_2]
  exact RLib.body3 (p := bodyAt19 t) (fun d => (dat19 V c).before_in_eq_fetched 0 rfl (fun _ => rfl) (fun _ _ _ => rfl) (fun _ => rfl) t d)
    (fun d => (dat19 V c).before_in_eq_fetched 1 rfl (fun _ => rfl) (fun _ _ _ => rfl) (fun _ => rfl) t d)
    (sound_kernel19 c _ _ _ _ _ _ _ _)

end Cert.KernelIdeal.Hand

end
-- ==== Proof.KI.R20.lean ====
import proofs.«416252_j75050258530751_2_alg».proof.Proof.Gen.KernelIdeal.Launch
import proofs.«416252_j75050258530751_2_alg».proof.Proof.Gen.KernelIdeal.Skeleton
import proofs.«416252_j75050258530751_2_alg».proof.Proof.Gen.KernelIdeal.Points
import proofs.«416252_j75050258530751_2_alg».proof.Proof.KI.RLib

noncomputable section

namespace Cert.KernelIdeal.Hand

open Cert.KernelIdeal Cert.KernelIdeal.Gen Cert.RLib
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk20 (c : Dev nD) (w : Fin cfg20.W) (t : Fin cfg20.N) : ((cfg20.win w).xblock (cfg20.grid.coords t)).Idx → Elt F (cfg20.win w).elt :=
  ((cfg20.win w).blk t).view.read (Elt F) (V c (Pipeline.arrRef spec20 w))

def accAt20 (c : Dev nD) : ℕ → Vec F S512x64 .f32
  | 0 => k20_pay1
  | n + 1 => if h : n < cfg20.N then k20_pay2 (iblk20 V c 1 ⟨n, h⟩) (iblk20 V c 0 ⟨n, h⟩) (accAt20 c n) else accAt20 c n

theorem accAt20_zero (c : Dev nD) : accAt20 V c 0 = k20_pay1 := rfl

theorem accAt20_succ (c : Dev nD) (t : Fin cfg20.N) :
    accAt20 V c (t.val + 1) = k20_pay2 (iblk20 V c 1 t) (iblk20 V c 0 t) (accAt20 V c t.val) := by
  rw [accAt20, dif_pos t.isLt]

abbrev scM20 : Memref sig .tc .vmem S512x64 .f32 := Memref.whole cc20_scratch0

/-- The invariant, with what it holds of the carried block set apart as `S`. -/
abbrev PhiS20_pos (c : Dev nD) (S : sProp 𝕄) : sProp 𝕄 :=
  iprop(iprop(S ∗ Pipeline.scopedRestBut (Ix := Unit) (Name := ℕ) (U := UR sig nD τ) (Lvl := ℕ) (Val := Elt F) spec20 c [cc20_scratch0])
    ∗ (∃ r, prngReg c r))

def PhiS20 (c : Dev nD) : ℕ → sProp 𝕄
  | 0 => Pipeline.ΦA spec20 c
  | n + 1 => PhiS20_pos c (owns (c : Thread nD τ) scM20 fullShare (accAt20 V c (n + 1)))

theorem PhiA20_eq (c : Dev nD) : (Pipeline.ΦA spec20 c : sProp 𝕄) = PhiS20_pos c iprop(∃ d, owns (c : Thread nD τ) scM20 fullShare d) := by
  unfold Pipeline.ΦA; rw [scopedRest20_split]; simp only [scM20, owns_whole]; try rfl

def dat20 (c : Dev nD) : Dat τ (Elt F) Unit ℕ (UR sig nD τ) ℕ cfg20 c where
  A w := V c (Pipeline.arrRef spec20 w)
  after w t := match w with
    | ⟨0, _⟩ => iblk20 V c 0 t
    | ⟨1, _⟩ => iblk20 V c 1 t
    | ⟨2, _⟩ => accAt20 V c (t.val + 1)
  Φ t := PhiS20 V c t.val
  q _ := fullShare
  owed _ := 0

theorem A_eq20 (c : Dev nD) (w : Fin cfg20.W) : (dat20 V c).A w = V c (Pipeline.arrRef spec20 w) := rfl

theorem after20_2 (c : Dev nD) (t : Fin cfg20.N) : (dat20 V c).after 2 t = accAt20 V c (t.val + 1) := rfl

theorem hin20 (c : Dev nD) : Pipeline.ΦA spec20 c ⊢ (dat20 V c).Φ 0 := .rfl

/-- Holding the carried block at named contents is holding it at some contents. -/
theorem hout20 (c : Dev nD) : (dat20 V c).Φ (Fin.last cfg20.N) ⊢ Pipeline.ΦA spec20 c := by
  obtain ⟨n, hn⟩ := Nat.exists_eq_succ_of_ne_zero (by decide : grid20.N ≠ 0)
  rw [PhiA20_eq, show (dat20 V c).Φ (Fin.last cfg20.N) = PhiS20 V c (n + 1) from congrArg (PhiS20 V c) hn]
  unfold PhiS20 PhiS20_pos
  iintro ⟨⟨HS, HR⟩, Hg⟩
  iframe HR Hg
  iexists _; iexact HS

abbrev cond20 (i : grid20.Coords) : Prop :=
  (Scalar.cmpi .ne (Scalar.extui (Scalar.cmpi .eq (BitVec.ofNat 32 (i 0).val) 0#32)) 0#32) = 1#1

theorem hcond20 : ∀ t : Fin cfg20.N, cond20 (grid20.coords t) ↔ t.val = 0 :=
  (by decide +kernel : ∀ t : Fin grid20.N, cond20 (grid20.coords t) ↔ t.val = 0)

set_option maxHeartbeats 1000000 in
theorem sound_kernel20_first (c : Dev nD) (E : Set ℕ) (i : grid20.Coords) (hc : cond20 i)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole) (f0 f1 f2 f3) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2) ∗ (arg4.view.loc (c : Thread nD τ) ↦[arg4.view.set]{fullShare} f3)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (k20_pay2 (arg2.view.read (Elt F) f1) (arg1.view.read (Elt F) f0) k20_pay1)
            ∗ owns (c : Thread nD τ) arg4 fullShare (k20_pay2 (arg2.view.read (Elt F) f1) (arg1.view.read (Elt F) f0) k20_pay1)) -∗ K ⟨⟩))
      ⊢ wp frame (wpE (defs₀ (F := F)) Variants.none c none) E (cc20__pool_kernel i arg1 harg1 arg2 harg2 arg3 harg3 arg4 harg4) K := by
  simp only [cc20__pool_kernel_eq_skeleton]; unfold cc20__pool_kernel_skel
  iintro ⟨H0, H1, H2, H3, Hk⟩
  sl_exec (disch := first | exact hc)
  sl_step
  iapply Hk
  iframe H0 H1
  unfold owns
  isplitl [H2] <;>
  (iexists _; iframe; ipureintro; sl_unfold_run_names
   simp only [read_writes_whole arg3.view off_zero, read_writes_whole arg4.view off_zero, readCov_whole arg4.view off_zero,
     readAt_whole arg1.view off_zero, readAt_whole arg2.view off_zero, readAt_whole arg4.view off_zero])

set_option maxHeartbeats 1000000 in
theorem sound_kernel20_rest (c : Dev nD) (E : Set ℕ) (i : grid20.Coords) (hc : ¬cond20 i)
    (arg1 : Memref sig .tc .vmem S2000x64 .f32) (harg1 : arg1.IsWhole)
    (arg2 : Memref sig .tc .vmem S2000x1 .i32) (harg2 : arg2.IsWhole)
    (arg3 : Memref sig .tc .vmem S512x64 .f32) (harg3 : arg3.IsWhole)
    (arg4 : Memref sig .tc .vmem S512x64 .f32) (harg4 : arg4.IsWhole) (f0 f1 f2 f3) (K : PUnit → sProp 𝕄) :
    iprop((arg1.view.loc (c : Thread nD τ) ↦[arg1.view.set]{fullShare} f0) ∗ (arg2.view.loc (c : Thread nD τ) ↦[arg2.view.set]{fullShare} f1)
        ∗ (arg3.view.loc (c : Thread nD τ) ↦[arg3.view.set]{fullShare} f2) ∗ (arg4.view.loc (c : Thread nD τ) ↦[arg4.view.set]{fullShare} f3)
        ∗ (iprop((arg1.view.loc (c : Thread nD τ) ↦[arg1.view.set]{fullShare} f0) ∗ (arg2.view.loc (c : Thread nD τ) ↦[arg2.view.set]{fullShare} f1)
            ∗ owns (c : Thread nD τ) arg3 fullShare (k20_pay2 (arg2.view.read (Elt F) f1) (arg1.view.read (Elt F) f0) (arg4.view.read (Elt F) f3))
            ∗ owns (c : Thread nD τ) arg4 fullShare (k20_pay2 (arg2.view.read (Elt F) f1) (arg1.view.read (Elt F) f0) (arg4.view.read (Elt F) f3))) -∗ K ⟨⟩))
      ⊢ wp frame (wpE (defs₀ (F := F)) Variants.none c none) E (cc20__pool_kernel i arg1 harg1 arg2 harg2 arg3 harg3 arg4 harg4) K := by
  simp only [cc20__pool_kernel_eq_skeleton]; unfold cc20__pool_kernel_skel
  iintro ⟨H0, H1, H2, H3, Hk⟩
  sl_exec (disch := first | exact hc)
  sl_step
  iapply Hk
  iframe H0 H1
  unfold owns
  isplitl [H2] <;>
  (iexists _; iframe; ipureintro; sl_unfold_run_names
   simp only [read_writes_whole arg3.view off_zero, read_writes_whole arg4.view off_zero, readCov_whole arg4.view off_zero,
     readAt_whole arg1.view off_zero, readAt_whole arg2.view off_zero, readAt_whole arg4.view off_zero])

theorem PhiS20_zero (c : Dev nD) {X Q : sProp 𝕄} (h : ∀ a, iprop(PhiS20_pos c (owns (c : Thread nD τ) scM20 fullShare a) ∗ X) ⊢ Q) :
    iprop(Pipeline.ΦA spec20 c ∗ X) ⊢ Q := by
  rw [PhiA20_eq]
  unfold PhiS20_pos at h ⊢
  iintro ⟨⟨⟨⟨%a, HS⟩, HR⟩, Hg⟩, HX⟩
  iapply h a
  iframe

theorem body_obligation20 (c : Dev nD) : BodyObligation (dat20 (F := F) V c) (defs₀ (F := F)) Variants.none () Set.univ := fun t => by
  rw [bigSep_W20, bigSep_W20]
  have h0 := fun d => (dat20 V c).before_in_eq_fetched 0 rfl (fun _ => rfl) (fun _ _ _ => rfl) (fun _ => rfl) t d
  have h1 := fun d => (dat20 V c).before_in_eq_fetched 1 rfl (fun _ => rfl) (fun _ _ _ => rfl) (fun _ => rfl) t d
  have hy := (accAt20_succ V c t).symm
  obtain ⟨_ | n, hn⟩ := t
  · exact PhiS20_zero c fun a => body3s (p := bodyAt20 _) (out := fun x0 x1 _ => k20_pay2 x1 x0 k20_pay1) h0 h1 hy
      (sound_kernel20_first c _ _ ((hcond20 _).mpr rfl) _ _ _ _ _ _ _ _)
  · exact body3s (p := bodyAt20 _) (out := fun x0 x1 a => k20_pay2 x1 x0 a) h0 h1 hy
      (sound_kernel20_rest c _ _ (mt (hcond20 _).mp n.succ_ne_zero) _ _ _ _ _ _ _ _)

end Cert.KernelIdeal.Hand

end
-- ==== Proof.KI.Fold.lean ====
import proofs.«416252_j75050258530751_2_alg».proof.Proof.KernelIdealRegions
import proofs.«416252_j75050258530751_2_alg».proof.Proof.KI.R0
import proofs.«416252_j75050258530751_2_alg».proof.Proof.KI.R1
import proofs.«416252_j75050258530751_2_alg».proof.Proof.KI.R2
import proofs.«416252_j75050258530751_2_alg».proof.Proof.KI.R3
import proofs.«416252_j75050258530751_2_alg».proof.Proof.KI.R4
import proofs.«416252_j75050258530751_2_alg».proof.Proof.KI.R5
import proofs.«416252_j75050258530751_2_alg».proof.Proof.KI.R6
import proofs.«416252_j75050258530751_2_alg».proof.Proof.KI.R7
import proofs.«416252_j75050258530751_2_alg».proof.Proof.KI.R8
import proofs.«416252_j75050258530751_2_alg».proof.Proof.KI.R9
import proofs.«416252_j75050258530751_2_alg».proof.Proof.KI.R10
import proofs.«416252_j75050258530751_2_alg».proof.Proof.KI.R11
import proofs.«416252_j75050258530751_2_alg».proof.Proof.KI.R12
import proofs.«416252_j75050258530751_2_alg».proof.Proof.KI.R13
import proofs.«416252_j75050258530751_2_alg».proof.Proof.KI.R14
import proofs.«416252_j75050258530751_2_alg».proof.Proof.KI.R15
import proofs.«416252_j75050258530751_2_alg».proof.Proof.KI.R16
import proofs.«416252_j75050258530751_2_alg».proof.Proof.KI.R17
import proofs.«416252_j75050258530751_2_alg».proof.Proof.KI.R18
import proofs.«416252_j75050258530751_2_alg».proof.Proof.KI.R19
import proofs.«416252_j75050258530751_2_alg».proof.Proof.KI.R20

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat)

variable {F : FTy → Type} [FloatOps F]
variable (m : (ℓ : Loc nD τ sig) → Buf (Elt F) ℓ)

/-- A boundary's contents read at the TensorCore's references: what a region's proof data take. -/
abbrev asV (W : Dev nD → Valuation τ sig (Elt F)) : (c : Dev nD) → (b : Ref sig .tc) → Buf (Elt F) ((c : Thread nD τ).loc b) :=
  fun c b => W c b

/-- Core `c`'s buffers at launch. -/
abbrev W0 : Dev nD → Valuation τ sig (Elt F) := fun c => V0 m c
/-- After the host stretch `hostOps0`. -/
abbrev W1 : Dev nD → Valuation τ sig (Elt F) := fun c => StableHlo.after hostOps0 (W0 m c)
/-- What region 0 leaves in its output array `main_v29`: the pipeline's write-backs folded over the grid. -/
def res0 (c : Dev nD) : Buf (Elt F) ((c : Thread nD τ).loc main_v29) := (dat0 (asV (W1 m)) c).arrAt 2 cfg0.N
/-- At region 0's exit: that array at `res0`, every other buffer as entered. -/
def W2 : Dev nD → Valuation τ sig (Elt F) := fun c => Function.update (W1 m c) main_v29 (res0 m c)
/-- After the host stretch `hostOps1`. -/
abbrev W3 : Dev nD → Valuation τ sig (Elt F) := fun c => StableHlo.after hostOps1 (W2 m c)
/-- What region 1 leaves in its output array `main_v44`: the pipeline's write-backs folded over the grid. -/
def res1 (c : Dev nD) : Buf (Elt F) ((c : Thread nD τ).loc main_v44) := (dat1 (asV (W3 m)) c).arrAt 2 cfg1.N
/-- At region 1's exit: that array at `res1`, every other buffer as entered. -/
def W4 : Dev nD → Valuation τ sig (Elt F) := fun c => Function.update (W3 m c) main_v44 (res1 m c)
/-- What region 2 leaves in its output array `main_v45`: the pipeline's write-backs folded over the grid. -/
def res2 (c : Dev nD) : Buf (Elt F) ((c : Thread nD τ).loc main_v45) := (dat2 (asV (W4 m)) c).arrAt 2 cfg2.N
/-- At region 2's exit: that array at `res2`, every other buffer as entered. -/
def W5 : Dev nD → Valuation τ sig (Elt F) := fun c => Function.update (W4 m c) main_v45 (res2 m c)
/-- After the host stretch `hostOps3`. -/
abbrev W6 : Dev nD → Valuation τ sig (Elt F) := fun c => StableHlo.after hostOps3 (W5 m c)
/-- What region 3 leaves in its output array `main_v60`: the pipeline's write-backs folded over the grid. -/
def res3 (c : Dev nD) : Buf (Elt F) ((c : Thread nD τ).loc main_v60) := (dat3 (asV (W6 m)) c).arrAt 2 cfg3.N
/-- At region 3's exit: that array at `res3`, every other buffer as entered. -/
def W7 : Dev nD → Valuation τ sig (Elt F) := fun c => Function.update (W6 m c) main_v60 (res3 m c)
/-- What region 4 leaves in its output array `main_v61`: the pipeline's write-backs folded over the grid. -/
def res4 (c : Dev nD) : Buf (Elt F) ((c : Thread nD τ).loc main_v61) := (dat4 (asV (W7 m)) c).arrAt 2 cfg4.N
/-- At region 4's exit: that array at `res4`, every other buffer as entered. -/
def W8 : Dev nD → Valuation τ sig (Elt F) := fun c => Function.update (W7 m c) main_v61 (res4 m c)
/-- After the host stretch `hostOps5`. -/
abbrev W9 : Dev nD → Valuation τ sig (Elt F) := fun c => StableHlo.after hostOps5 (W8 m c)
/-- What region 5 leaves in its output array `main_v76`: the pipeline's write-backs folded over the grid. -/
def res5 (c : Dev nD) : Buf (Elt F) ((c : Thread nD τ).loc main_v76) := (dat5 (asV (W9 m)) c).arrAt 2 cfg5.N
/-- At region 5's exit: that array at `res5`, every other buffer as entered. -/
def W10 : Dev nD → Valuation τ sig (Elt F) := fun c => Function.update (W9 m c) main_v76 (res5 m c)
/-- After the host stretch `hostOps6`. -/
abbrev W11 : Dev nD → Valuation τ sig (Elt F) := fun c => StableHlo.after hostOps6 (W10 m c)
/-- What region 6 leaves in its output array `main_v78`: the pipeline's write-backs folded over the grid. -/
def res6 (c : Dev nD) : Buf (Elt F) ((c : Thread nD τ).loc main_v78) := (dat6 (asV (W11 m)) c).arrAt 2 cfg6.N
/-- At region 6's exit: that array at `res6`, every other buffer as entered. -/
def W12 : Dev nD → Valuation τ sig (Elt F) := fun c => Function.update (W11 m c) main_v78 (res6 m c)
/-- After the host stretch `hostOps7`. -/
abbrev W13 : Dev nD → Valuation τ sig (Elt F) := fun c => StableHlo.after hostOps7 (W12 m c)
/-- What region 7 leaves in its output array `main_v117`: the pipeline's write-backs folded over the grid. -/
def res7 (c : Dev nD) : Buf (Elt F) ((c : Thread nD τ).loc main_v117) := (dat7 (asV (W13 m)) c).arrAt 2 cfg7.N
/-- At region 7's exit: that array at `res7`, every other buffer as entered. -/
def W14 : Dev nD → Valuation τ sig (Elt F) := fun c => Function.update (W13 m c) main_v117 (res7 m c)
/-- After the host stretch `hostOps8`. -/
abbrev W15 : Dev nD → Valuation τ sig (Elt F) := fun c => StableHlo.after hostOps8 (W14 m c)
/-- What region 8 leaves in its output array `main_v132`: the pipeline's write-backs folded over the grid. -/
def res8 (c : Dev nD) : Buf (Elt F) ((c : Thread nD τ).loc main_v132) := (dat8 (asV (W15 m)) c).arrAt 2 cfg8.N
/-- At region 8's exit: that array at `res8`, every other buffer as entered. -/
def W16 : Dev nD → Valuation τ sig (Elt F) := fun c => Function.update (W15 m c) main_v132 (res8 m c)
/-- What region 9 leaves in its output array `main_v133`: the pipeline's write-backs folded over the grid. -/
def res9 (c : Dev nD) : Buf (Elt F) ((c : Thread nD τ).loc main_v133) := (dat9 (asV (W16 m)) c).arrAt 2 cfg9.N
/-- At region 9's exit: that array at `res9`, every other buffer as entered. -/
def W17 : Dev nD → Valuation τ sig (Elt F) := fun c => Function.update (W16 m c) main_v133 (res9 m c)
/-- After the host stretch `hostOps10`. -/
abbrev W18 : Dev nD → Valuation τ sig (Elt F) := fun c => StableHlo.after hostOps10 (W17 m c)
/-- What region 10 leaves in its output array `main_v148`: the pipeline's write-backs folded over the grid. -/
def res10 (c : Dev nD) : Buf (Elt F) ((c : Thread nD τ).loc main_v148) := (dat10 (asV (W18 m)) c).arrAt 2 cfg10.N
/-- At region 10's exit: that array at `res10`, every other buffer as entered. -/
def W19 : Dev nD → Valuation τ sig (Elt F) := fun c => Function.update (W18 m c) main_v148 (res10 m c)
/-- What region 11 leaves in its output array `main_v149`: the pipeline's write-backs folded over the grid. -/
def res11 (c : Dev nD) : Buf (Elt F) ((c : Thread nD τ).loc main_v149) := (dat11 (asV (W19 m)) c).arrAt 2 cfg11.N
/-- At region 11's exit: that array at `res11`, every other buffer as entered. -/
def W20 : Dev nD → Valuation τ sig (Elt F) := fun c => Function.update (W19 m c) main_v149 (res11 m c)
/-- After the host stretch `hostOps12`. -/
abbrev W21 : Dev nD → Valuation τ sig (Elt F) := fun c => StableHlo.after hostOps12 (W20 m c)
/-- What region 12 leaves in its output array `main_v164`: the pipeline's write-backs folded over the grid. -/
def res12 (c : Dev nD) : Buf (Elt F) ((c : Thread nD τ).loc main_v164) := (dat12 (asV (W21 m)) c).arrAt 2 cfg12.N
/-- At region 12's exit: that array at `res12`, every other buffer as entered. -/
def W22 : Dev nD → Valuation τ sig (Elt F) := fun c => Function.update (W21 m c) main_v164 (res12 m c)
/-- After the host stretch `hostOps13`. -/
abbrev W23 : Dev nD → Valuation τ sig (Elt F) := fun c => StableHlo.after hostOps13 (W22 m c)
/-- What region 13 leaves in its output array `main_v166`: the pipeline's write-backs folded over the grid. -/
def res13 (c : Dev nD) : Buf (Elt F) ((c : Thread nD τ).loc main_v166) := (dat13 (asV (W23 m)) c).arrAt 2 cfg13.N
/-- At region 13's exit: that array at `res13`, every other buffer as entered. -/
def W24 : Dev nD → Valuation τ sig (Elt F) := fun c => Function.update (W23 m c) main_v166 (res13 m c)
/-- After the host stretch `hostOps14`. -/
abbrev W25 : Dev nD → Valuation τ sig (Elt F) := fun c => StableHlo.after hostOps14 (W24 m c)
/-- What region 14 leaves in its output array `main_v205`: the pipeline's write-backs folded over the grid. -/
def res14 (c : Dev nD) : Buf (Elt F) ((c : Thread nD τ).loc main_v205) := (dat14 (asV (W25 m)) c).arrAt 2 cfg14.N
/-- At region 14's exit: that array at `res14`, every other buffer as entered. -/
def W26 : Dev nD → Valuation τ sig (Elt F) := fun c => Function.update (W25 m c) main_v205 (res14 m c)
/-- After the host stretch `hostOps15`. -/
abbrev W27 : Dev nD → Valuation τ sig (Elt F) := fun c => StableHlo.after hostOps15 (W26 m c)
/-- What region 15 leaves in its output array `main_v220`: the pipeline's write-backs folded over the grid. -/
def res15 (c : Dev nD) : Buf (Elt F) ((c : Thread nD τ).loc main_v220) := (dat15 (asV (W27 m)) c).arrAt 2 cfg15.N
/-- At region 15's exit: that array at `res15`, every other buffer as entered. -/
def W28 : Dev nD → Valuation τ sig (Elt F) := fun c => Function.update (W27 m c) main_v220 (res15 m c)
/-- What region 16 leaves in its output array `main_v221`: the pipeline's write-backs folded over the grid. -/
def res16 (c : Dev nD) : Buf (Elt F) ((c : Thread nD τ).loc main_v221) := (dat16 (asV (W28 m)) c).arrAt 2 cfg16.N
/-- At region 16's exit: that array at `res16`, every other buffer as entered. -/
def W29 : Dev nD → Valuation τ sig (Elt F) := fun c => Function.update (W28 m c) main_v221 (res16 m c)
/-- After the host stretch `hostOps17`. -/
abbrev W30 : Dev nD → Valuation τ sig (Elt F) := fun c => StableHlo.after hostOps17 (W29 m c)
/-- What region 17 leaves in its output array `main_v236`: the pipeline's write-backs folded over the grid. -/
def res17 (c : Dev nD) : Buf (Elt F) ((c : Thread nD τ).loc main_v236) := (dat17 (asV (W30 m)) c).arrAt 2 cfg17.N
/-- At region 17's exit: that array at `res17`, every other buffer as entered. -/
def W31 : Dev nD → Valuation τ sig (Elt F) := fun c => Function.update (W30 m c) main_v236 (res17 m c)
/-- What region 18 leaves in its output array `main_v237`: the pipeline's write-backs folded over the grid. -/
def res18 (c : Dev nD) : Buf (Elt F) ((c : Thread nD τ).loc main_v237) := (dat18 (asV (W31 m)) c).arrAt 2 cfg18.N
/-- At region 18's exit: that array at `res18`, every other buffer as entered. -/
def W32 : Dev nD → Valuation τ sig (Elt F) := fun c => Function.update (W31 m c) main_v237 (res18 m c)
/-- After the host stretch `hostOps19`. -/
abbrev W33 : Dev nD → Valuation τ sig (Elt F) := fun c => StableHlo.after hostOps19 (W32 m c)
/-- What region 19 leaves in its output array `main_v252`: the pipeline's write-backs folded over the grid. -/
def res19 (c : Dev nD) : Buf (Elt F) ((c : Thread nD τ).loc main_v252) := (dat19 (asV (W33 m)) c).arrAt 2 cfg19.N
/-- At region 19's exit: that array at `res19`, every other buffer as entered. -/
def W34 : Dev nD → Valuation τ sig (Elt F) := fun c => Function.update (W33 m c) main_v252 (res19 m c)
/-- After the host stretch `hostOps20`. -/
abbrev W35 : Dev nD → Valuation τ sig (Elt F) := fun c => StableHlo.after hostOps20 (W34 m c)
/-- What region 20 leaves in its output array `main_v254`: the pipeline's write-backs folded over the grid. -/
def res20 (c : Dev nD) : Buf (Elt F) ((c : Thread nD τ).loc main_v254) := (dat20 (asV (W35 m)) c).arrAt 2 cfg20.N
/-- At region 20's exit: that array at `res20`, every other buffer as entered. -/
def W36 : Dev nD → Valuation τ sig (Elt F) := fun c => Function.update (W35 m c) main_v254 (res20 m c)
/-- After the host stretch `hostOps21`. -/
abbrev W37 : Dev nD → Valuation τ sig (Elt F) := fun c => StableHlo.after hostOps21 (W36 m c)

/-- The regions' unknowns of the conditional frame, read off the table: boundary `J`'s contents at the reference. -/
def outs : Outs (F := F) := fun J r c =>
  match J with
  | 2 => W2 m c r
  | 4 => W4 m c r
  | 5 => W5 m c r
  | 7 => W7 m c r
  | 8 => W8 m c r
  | 10 => W10 m c r
  | 12 => W12 m c r
  | 14 => W14 m c r
  | 16 => W16 m c r
  | 17 => W17 m c r
  | 19 => W19 m c r
  | 20 => W20 m c r
  | 22 => W22 m c r
  | 24 => W24 m c r
  | 26 => W26 m c r
  | 28 => W28 m c r
  | 29 => W29 m c r
  | 31 => W31 m c r
  | 32 => W32 m c r
  | 34 => W34 m c r
  | 36 => W36 m c r
  | _ => W0 m c r

/-! The conditional frame's valuation at each boundary is the table's. -/
theorem V1_eq (c : Dev nD) : V1 m c = W1 m c := rfl
theorem V2_eq (c : Dev nD) : V2 m (outs m) c = W2 m c := by
  show Function.update (V1 m c) main_v29 (W2 m c main_v29) = W2 m c
  unfold W2; rw [Function.update_self]
theorem V3_eq (c : Dev nD) : V3 m (outs m) c = W3 m c := by
  show StableHlo.after hostOps1 (V2 m (outs m) c) = StableHlo.after hostOps1 (W2 m c)
  rw [V2_eq]
theorem V4_eq (c : Dev nD) : V4 m (outs m) c = W4 m c := by
  show Function.update (V3 m (outs m) c) main_v44 (W4 m c main_v44) = W4 m c
  rw [V3_eq]; unfold W4; rw [Function.update_self]
theorem V5_eq (c : Dev nD) : V5 m (outs m) c = W5 m c := by
  show Function.update (V4 m (outs m) c) main_v45 (W5 m c main_v45) = W5 m c
  rw [V4_eq]; unfold W5; rw [Function.update_self]
theorem V6_eq (c : Dev nD) : V6 m (outs m) c = W6 m c := by
  show StableHlo.after hostOps3 (V5 m (outs m) c) = StableHlo.after hostOps3 (W5 m c)
  rw [V5_eq]
theorem V7_eq (c : Dev nD) : V7 m (outs m) c = W7 m c := by
  show Function.update (V6 m (outs m) c) main_v60 (W7 m c main_v60) = W7 m c
  rw [V6_eq]; unfold W7; rw [Function.update_self]
theorem V8_eq (c : Dev nD) : V8 m (outs m) c = W8 m c := by
  show Function.update (V7 m (outs m) c) main_v61 (W8 m c main_v61) = W8 m c
  rw [V7_eq]; unfold W8; rw [Function.update_self]
theorem V9_eq (c : Dev nD) : V9 m (outs m) c = W9 m c := by
  show StableHlo.after hostOps5 (V8 m (outs m) c) = StableHlo.after hostOps5 (W8 m c)
  rw [V8_eq]
theorem V10_eq (c : Dev nD) : V10 m (outs m) c = W10 m c := by
  show Function.update (V9 m (outs m) c) main_v76 (W10 m c main_v76) = W10 m c
  rw [V9_eq]; unfold W10; rw [Function.update_self]
theorem V11_eq (c : Dev nD) : V11 m (outs m) c = W11 m c := by
  show StableHlo.after hostOps6 (V10 m (outs m) c) = StableHlo.after hostOps6 (W10 m c)
  rw [V10_eq]
theorem V12_eq (c : Dev nD) : V12 m (outs m) c = W12 m c := by
  show Function.update (V11 m (outs m) c) main_v78 (W12 m c main_v78) = W12 m c
  rw [V11_eq]; unfold W12; rw [Function.update_self]
theorem V13_eq (c : Dev nD) : V13 m (outs m) c = W13 m c := by
  show StableHlo.after hostOps7 (V12 m (outs m) c) = StableHlo.after hostOps7 (W12 m c)
  rw [V12_eq]
theorem V14_eq (c : Dev nD) : V14 m (outs m) c = W14 m c := by
  show Function.update (V13 m (outs m) c) main_v117 (W14 m c main_v117) = W14 m c
  rw [V13_eq]; unfold W14; rw [Function.update_self]
theorem V15_eq (c : Dev nD) : V15 m (outs m) c = W15 m c := by
  show StableHlo.after hostOps8 (V14 m (outs m) c) = StableHlo.after hostOps8 (W14 m c)
  rw [V14_eq]
theorem V16_eq (c : Dev nD) : V16 m (outs m) c = W16 m c := by
  show Function.update (V15 m (outs m) c) main_v132 (W16 m c main_v132) = W16 m c
  rw [V15_eq]; unfold W16; rw [Function.update_self]
theorem V17_eq (c : Dev nD) : V17 m (outs m) c = W17 m c := by
  show Function.update (V16 m (outs m) c) main_v133 (W17 m c main_v133) = W17 m c
  rw [V16_eq]; unfold W17; rw [Function.update_self]
theorem V18_eq (c : Dev nD) : V18 m (outs m) c = W18 m c := by
  show StableHlo.after hostOps10 (V17 m (outs m) c) = StableHlo.after hostOps10 (W17 m c)
  rw [V17_eq]
theorem V19_eq (c : Dev nD) : V19 m (outs m) c = W19 m c := by
  show Function.update (V18 m (outs m) c) main_v148 (W19 m c main_v148) = W19 m c
  rw [V18_eq]; unfold W19; rw [Function.update_self]
theorem V20_eq (c : Dev nD) : V20 m (outs m) c = W20 m c := by
  show Function.update (V19 m (outs m) c) main_v149 (W20 m c main_v149) = W20 m c
  rw [V19_eq]; unfold W20; rw [Function.update_self]
theorem V21_eq (c : Dev nD) : V21 m (outs m) c = W21 m c := by
  show StableHlo.after hostOps12 (V20 m (outs m) c) = StableHlo.after hostOps12 (W20 m c)
  rw [V20_eq]
theorem V22_eq (c : Dev nD) : V22 m (outs m) c = W22 m c := by
  show Function.update (V21 m (outs m) c) main_v164 (W22 m c main_v164) = W22 m c
  rw [V21_eq]; unfold W22; rw [Function.update_self]
theorem V23_eq (c : Dev nD) : V23 m (outs m) c = W23 m c := by
  show StableHlo.after hostOps13 (V22 m (outs m) c) = StableHlo.after hostOps13 (W22 m c)
  rw [V22_eq]
theorem V24_eq (c : Dev nD) : V24 m (outs m) c = W24 m c := by
  show Function.update (V23 m (outs m) c) main_v166 (W24 m c main_v166) = W24 m c
  rw [V23_eq]; unfold W24; rw [Function.update_self]
theorem V25_eq (c : Dev nD) : V25 m (outs m) c = W25 m c := by
  show StableHlo.after hostOps14 (V24 m (outs m) c) = StableHlo.after hostOps14 (W24 m c)
  rw [V24_eq]
theorem V26_eq (c : Dev nD) : V26 m (outs m) c = W26 m c := by
  show Function.update (V25 m (outs m) c) main_v205 (W26 m c main_v205) = W26 m c
  rw [V25_eq]; unfold W26; rw [Function.update_self]
theorem V27_eq (c : Dev nD) : V27 m (outs m) c = W27 m c := by
  show StableHlo.after hostOps15 (V26 m (outs m) c) = StableHlo.after hostOps15 (W26 m c)
  rw [V26_eq]
theorem V28_eq (c : Dev nD) : V28 m (outs m) c = W28 m c := by
  show Function.update (V27 m (outs m) c) main_v220 (W28 m c main_v220) = W28 m c
  rw [V27_eq]; unfold W28; rw [Function.update_self]
theorem V29_eq (c : Dev nD) : V29 m (outs m) c = W29 m c := by
  show Function.update (V28 m (outs m) c) main_v221 (W29 m c main_v221) = W29 m c
  rw [V28_eq]; unfold W29; rw [Function.update_self]
theorem V30_eq (c : Dev nD) : V30 m (outs m) c = W30 m c := by
  show StableHlo.after hostOps17 (V29 m (outs m) c) = StableHlo.after hostOps17 (W29 m c)
  rw [V29_eq]
theorem V31_eq (c : Dev nD) : V31 m (outs m) c = W31 m c := by
  show Function.update (V30 m (outs m) c) main_v236 (W31 m c main_v236) = W31 m c
  rw [V30_eq]; unfold W31; rw [Function.update_self]
theorem V32_eq (c : Dev nD) : V32 m (outs m) c = W32 m c := by
  show Function.update (V31 m (outs m) c) main_v237 (W32 m c main_v237) = W32 m c
  rw [V31_eq]; unfold W32; rw [Function.update_self]
theorem V33_eq (c : Dev nD) : V33 m (outs m) c = W33 m c := by
  show StableHlo.after hostOps19 (V32 m (outs m) c) = StableHlo.after hostOps19 (W32 m c)
  rw [V32_eq]
theorem V34_eq (c : Dev nD) : V34 m (outs m) c = W34 m c := by
  show Function.update (V33 m (outs m) c) main_v252 (W34 m c main_v252) = W34 m c
  rw [V33_eq]; unfold W34; rw [Function.update_self]
theorem V35_eq (c : Dev nD) : V35 m (outs m) c = W35 m c := by
  show StableHlo.after hostOps20 (V34 m (outs m) c) = StableHlo.after hostOps20 (W34 m c)
  rw [V34_eq]
theorem V36_eq (c : Dev nD) : V36 m (outs m) c = W36 m c := by
  show Function.update (V35 m (outs m) c) main_v254 (W36 m c main_v254) = W36 m c
  rw [V35_eq]; unfold W36; rw [Function.update_self]
theorem V37_eq (c : Dev nD) : V37 m (outs m) c = W37 m c := by
  show StableHlo.after hostOps21 (V36 m (outs m) c) = StableHlo.after hostOps21 (W36 m c)
  rw [V36_eq]

/-- What rides beside the buffers through every item of @main: the core's generator register at some state and its debts, at nothing. -/
abbrev Rst (c : Dev nD) : sProp (MT nD τ sig Unit (Elt F) ℕ (UR sig nD τ) ℕ) :=
  iprop((∃ r, prngReg c r) ∗ ∃ W, owes (c : Thread nD τ) (0 : CellTallies nD τ sig Unit) W)

/-- Every pipeline's proof data, each at its region's entry contents: a literal match on the pipeline. -/
def pdats : (p : Fin 21) → (c : Dev nD) → Dat τ (Elt F) Unit ℕ (UR sig nD τ) ℕ (cfgs p) c
  | ⟨0, _⟩ => fun c => dat0 (asV (W1 m)) c
  | ⟨1, _⟩ => fun c => dat1 (asV (W3 m)) c
  | ⟨2, _⟩ => fun c => dat2 (asV (W4 m)) c
  | ⟨3, _⟩ => fun c => dat3 (asV (W6 m)) c
  | ⟨4, _⟩ => fun c => dat4 (asV (W7 m)) c
  | ⟨5, _⟩ => fun c => dat5 (asV (W9 m)) c
  | ⟨6, _⟩ => fun c => dat6 (asV (W11 m)) c
  | ⟨7, _⟩ => fun c => dat7 (asV (W13 m)) c
  | ⟨8, _⟩ => fun c => dat8 (asV (W15 m)) c
  | ⟨9, _⟩ => fun c => dat9 (asV (W16 m)) c
  | ⟨10, _⟩ => fun c => dat10 (asV (W18 m)) c
  | ⟨11, _⟩ => fun c => dat11 (asV (W19 m)) c
  | ⟨12, _⟩ => fun c => dat12 (asV (W21 m)) c
  | ⟨13, _⟩ => fun c => dat13 (asV (W23 m)) c
  | ⟨14, _⟩ => fun c => dat14 (asV (W25 m)) c
  | ⟨15, _⟩ => fun c => dat15 (asV (W27 m)) c
  | ⟨16, _⟩ => fun c => dat16 (asV (W28 m)) c
  | ⟨17, _⟩ => fun c => dat17 (asV (W30 m)) c
  | ⟨18, _⟩ => fun c => dat18 (asV (W31 m)) c
  | ⟨19, _⟩ => fun c => dat19 (asV (W33 m)) c
  | ⟨20, _⟩ => fun c => dat20 (asV (W35 m)) c
  | ⟨_ + 21, h⟩ => absurd h (Nat.not_lt.2 (Nat.le_add_left _ _))

end Cert.KernelIdeal.Hand

end
-- ==== Proof.KI.Seg.lean ====
import proofs.«416252_j75050258530751_2_alg».proof.Proof.KI.Fold

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat)

variable {F : FTy → Type} [FloatOps F]
variable (m : (ℓ : Loc nD τ sig) → Buf (Elt F) ℓ)

local notation "𝕄" => MT nD τ sig Unit (Elt F) ℕ (UR sig nD τ) ℕ

/-- Each case holds by definition. -/
theorem pdats_plain (p : Fin 21) (c : Dev nD) :
    (∀ w, (pdats m p c).q w = fullShare) ∧ (∀ t, (pdats m p c).owed t = 0) ∧ ∀ t, (pdats m p c).recorded t = Set.univ := by
  fin_cases p <;> exact ⟨fun _ => rfl, fun _ => rfl, fun _ => rfl⟩

section

variable {cfg : Pipeline.Cfg sig Λ₀} {c : Dev nD} (d : Dat τ (Elt F) Unit ℕ (UR sig nD τ) ℕ cfg c) (t : Fin (cfg.N + 1))

/-- The bound is the whole set, so any witness lies within it. -/
theorem owesAt_of_owes (h0 : d.owed t = 0) (hr : d.recorded t = Set.univ) :
    iprop(∃ W, owes (c : Thread nD τ) (0 : CellTallies nD τ sig Unit) W) ⊢ (d.owesAt () t : sProp 𝕄) := by
  unfold Pipeline.Dat.owesAt Pipeline.owesWithin Pipeline.Dat.bound; rw [h0, hr]
  iintro ⟨%W, HO⟩; iexists W; isplitr; · ipureintro; exact fun _ _ => Or.inl trivial
  iexact HO

/-- The witness, without its bound. -/
theorem owes_of_owesAt (h0 : d.owed t = 0) :
    (d.owesAt () t : sProp 𝕄) ⊢ iprop(∃ W, owes (c : Thread nD τ) (0 : CellTallies nD τ sig Unit) W) := by
  unfold Pipeline.Dat.owesAt Pipeline.owesWithin; rw [h0]
  iintro ⟨%W, -, HO⟩; iexists W; iexact HO

end

section

variable {p : Fin 21} (W W' : Dev nD → Valuation τ sig (Elt F)) (o : Fin (cfgs p).W)
  (hW' : ∀ c, W' c = Function.update (W c) (Pipeline.arrRef (cfgs p).spec o) ((pdats m p c).arrAt o (cfgs p).N))

include hW'

/-- `W'` is `W` updated at the output's array, and the arrays' references are pairwise distinct. -/
theorem arrAt_exit (lf : Pipeline.LaunchFacts (nD := nD) (τ := τ) cfgs p)
    (hA : ∀ c w, (pdats m p c).A w = asV W c (Pipeline.arrRef (cfgs p).spec w))
    (hio : ∀ w, w ≠ o → ((cfgs p).win w).isOut = false) (c : Dev nD) (w : Fin (cfgs p).W) :
    (pdats m p c).arrAt w (cfgs p).N = asV W' c (Pipeline.arrRef (cfgs p).spec w) := by
  show _ = W' c _
  rw [hW' c]
  by_cases h : w = o
  · subst h; exact Eq.symm (Function.update_self ..)
  · rw [Function.update_of_ne (StableHlo.devRef_ne_of_ne fun e => h (lf.win.arr_inj e))]
    exact ((pdats m p c).arrAt_in w (hio w h) _).trans (hA c w)

theorem rest_exit (c : Dev nD) (b : Ref sig .tc) (hb : b ∉ Finset.univ.image (Pipeline.arrRef (cfgs p).spec)) :
    asV W' c b = asV W c b := by
  show W' c b = W c b
  rw [hW' c]
  exact Function.update_of_ne (StableHlo.devRef_ne_of_ne fun e =>
    hb (by rw [e]; exact Finset.mem_image_of_mem _ (Finset.mem_univ o))) _ _

end

/-- Region `p` of @main as a segment of the run. -/
abbrev Region (p : Fin 21) :=
  Pipeline.RegionSeg (pcfgs (F := F)) adm (pdats m) () defs₀ Variants.none (fun _ => (∅ : Finset Unit)) (fun _ _ => (0 : ℕ)) p

/-- A region entered with the core's buffers at `W` and left with them at `W'`, which is `W` with the output array at what
    the write-backs leave. -/
def regOf (p : Fin 21) (lf : Pipeline.LaunchFacts (nD := nD) (τ := τ) cfgs p) (W W' : Dev nD → Valuation τ sig (Elt F))
    (o : Fin (cfgs p).W) (hbody : ∀ c, Pipeline.BodyObligation (pdats m p c) (defs₀ (F := F)) Variants.none () Set.univ)
    (hA : ∀ c w, (pdats m p c).A w = asV W c (Pipeline.arrRef (cfgs p).spec w) := by exact fun _ _ => rfl)
    (hW' : ∀ c, W' c = Function.update (W c) (Pipeline.arrRef (cfgs p).spec o) ((pdats m p c).arrAt o (cfgs p).N) := by
      exact fun _ => rfl)
    (hio : ∀ w, w ≠ o → ((cfgs p).win w).isOut = false := by decide)
    (hin : ∀ c, Pipeline.ΦA (cfgs p).spec c ⊢ (pdats m p c).Φ 0 := by exact fun _ => .rfl)
    (hout : ∀ c, (pdats m p c).Φ (Fin.last _) ⊢ Pipeline.ΦA (cfgs p).spec c := by exact fun _ => .rfl) : Region m p where
  win := lf.win.to₀
  block_pos := lf.block_pos
  stage_whole := lf.stage_whole
  K := PEmpty
  osem k := k.elim
  ho := Pipeline.OwnSemFacts.none _
  hbody c := (hbody c).loose
  hwaits := Pipeline.hwaits_of_owed_zero _ _ _ _ (fun _ => (∅ : Finset Unit)) (fun _ _ => (0 : ℕ)) p fun c => (pdats_plain m p c).2.1
  pre c := iprop(StableHlo.held (c : Thread nD τ) (Pipeline.ucRefs τ sig) (W c) ∗ Rst c)
  post c := iprop(StableHlo.held (c : Thread nD τ) (Pipeline.ucRefs τ sig) (W' c) ∗ Rst c)
  X c := iprop(∃ r, prngReg c r)
  Y c := iprop(∃ r, prngReg c r)
  Z c := Pipeline.unscopedRest (Ix := Unit) (Name := ℕ) (U := UR sig nD τ) (Lvl := ℕ) (cfgs p).spec c (asV W c)
  hentry c := by
    rw [Pipeline.ownSems0_none]
    have hsplit := Pipeline.arrays_of_unscopedBufs (p := p) (pcfgs (F := F)) adm (pdats m) lf.win lf.arr_whole c
      ((pdats m p c).share_full (pdats_plain m p c).1) (asV W c) (hA c)
    rw [Pipeline.unscopedBufs_held] at hsplit
    have hO := owesAt_of_owes (pdats m p c) 0 ((pdats_plain m p c).2.1 0) ((pdats_plain m p c).2.2 0)
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply hO; iexact HO
    isplitl [Hp]; · iexact Hp
    iexact Hrest
  hin c := by
    have hh := hin c
    iintro ⟨Hp, -, Hr⟩
    iapply hh
    unfold Pipeline.ΦA
    isplitl [Hr]; · iexact Hr
    iexact Hp
  hout c := by
    rw [Pipeline.ownSems0_none]
    refine (hout c).trans ?_
    unfold Pipeline.ΦA
    iintro ⟨Hr, Hp⟩
    isplitl [Hp]; · iexact Hp
    isplitr; · iempintro
    iexact Hr
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (pdats_plain m p c).1)
      (asV W c) (asV W' c) ((pdats m p c).arrAt · (cfgs p).N) (arrAt_exit m W W' o hW' lf hA hio c) (rest_exit m W W' o hW' c)
    rw [Pipeline.unscopedBufs_held] at hjoin
    have hO := owes_of_owesAt (pdats m p c) (Fin.last _) ((pdats_plain m p c).2.1 _)
    iintro ⟨Ha, HO, HY, Hrest⟩
    imodintro
    isplitl [Ha Hrest]
    · iapply hjoin; isplitl [Ha] <;> iassumption
    isplitl [HY]; · iexact HY
    iapply hO; iexact HO

def reg0 : Region m 0 := regOf m 0 launch0 (W1 m) (W2 m) (2 : Fin 3) (body_obligation0 _)
def reg1 : Region m 1 := regOf m 1 launch1 (W3 m) (W4 m) (2 : Fin 3) (body_obligation1 _)
def reg2 : Region m 2 := regOf m 2 launch2 (W4 m) (W5 m) (2 : Fin 3) (body_obligation2 _)
def reg3 : Region m 3 := regOf m 3 launch3 (W6 m) (W7 m) (2 : Fin 3) (body_obligation3 _)
def reg4 : Region m 4 := regOf m 4 launch4 (W7 m) (W8 m) (2 : Fin 3) (body_obligation4 _)
def reg5 : Region m 5 := regOf m 5 launch5 (W9 m) (W10 m) (2 : Fin 3) (body_obligation5 _)
def reg6 : Region m 6 := regOf m 6 launch6 (W11 m) (W12 m) (2 : Fin 3) (body_obligation6 _) (hin := hin6 _) (hout := hout6 _)
def reg7 : Region m 7 := regOf m 7 launch7 (W13 m) (W14 m) (2 : Fin 3) (body_obligation7 _)
def reg8 : Region m 8 := regOf m 8 launch8 (W15 m) (W16 m) (2 : Fin 3) (body_obligation8 _)
def reg9 : Region m 9 := regOf m 9 launch9 (W16 m) (W17 m) (2 : Fin 3) (body_obligation9 _)
def reg10 : Region m 10 := regOf m 10 launch10 (W18 m) (W19 m) (2 : Fin 3) (body_obligation10 _)
def reg11 : Region m 11 := regOf m 11 launch11 (W19 m) (W20 m) (2 : Fin 3) (body_obligation11 _)
def reg12 : Region m 12 := regOf m 12 launch12 (W21 m) (W22 m) (2 : Fin 3) (body_obligation12 _)
def reg13 : Region m 13 := regOf m 13 launch13 (W23 m) (W24 m) (2 : Fin 3) (body_obligation13 _) (hin := hin13 _) (hout := hout13 _)
def reg14 : Region m 14 := regOf m 14 launch14 (W25 m) (W26 m) (2 : Fin 3) (body_obligation14 _)
def reg15 : Region m 15 := regOf m 15 launch15 (W27 m) (W28 m) (2 : Fin 3) (body_obligation15 _)
def reg16 : Region m 16 := regOf m 16 launch16 (W28 m) (W29 m) (2 : Fin 3) (body_obligation16 _)
def reg17 : Region m 17 := regOf m 17 launch17 (W30 m) (W31 m) (2 : Fin 3) (body_obligation17 _)
def reg18 : Region m 18 := regOf m 18 launch18 (W31 m) (W32 m) (2 : Fin 3) (body_obligation18 _)
def reg19 : Region m 19 := regOf m 19 launch19 (W33 m) (W34 m) (2 : Fin 3) (body_obligation19 _)
def reg20 : Region m 20 := regOf m 20 launch20 (W35 m) (W36 m) (2 : Fin 3) (body_obligation20 _) (hin := hin20 _) (hout := hout20 _)

end Cert.KernelIdeal.Hand

end
-- ==== Proof.KI.Launch.lean ====
import proofs.«416252_j75050258530751_2_alg».proof.Proof.KI.RunCond
import proofs.«416252_j75050258530751_2_alg».proof.Proof.KI.Seg

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]
variable (m : (ℓ : Loc nD τ sig) → Buf (Elt F) ℓ) (ρ : Dev nD → PrngReg)

local notation "𝕄" => MT nD τ sig Unit (Elt F) ℕ (UR sig nD τ) ℕ

set_option backward.isDefEq.respectTransparency.types false in

theorem run_all : θ_run defs (onTc (τ := τ) (main (F := F))) ⟨m, fun _ => 0, ρ⟩
    (fun r => ∀ c : Dev nD, ∀ b ∈ Pipeline.ucRefs τ sig, r.2.mem ((c : Thread nD τ).1, b) = W37 m c b) := by
  have h := run_cond m (Ix := Unit) (U := UR sig nD τ) (Lvl := ℕ) emb₁ () Variants.none (fun _ => ∅) (fun _ _ => 0) (fun _ _ => rfl) ρ (outs m) (pdats m)
    (O₀ := 0) (G := fun _ => iprop(emp)) (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (E := fun _ c => Rst c)
    (hE0 := by
      refine Pipeline.initEach (fun _ => (∅ : Finset Unit)) (fun _ _ => (0 : ℕ)) fun c => ?_
      iintro ⟨⟨-, HO, -, Hp, -⟩, -⟩
      imodintro
      isplitl [Hp]; · iexists _; iexact Hp
      iexists ∅; iexact HO)
    (hE21 := fun c => by iintro ⟨-, H⟩; iexact H)
    (reg0 m) (fun c => .rfl) (fun c => by rw [V2_eq]; exact .rfl)
    (reg1 m) (fun c => by rw [V3_eq]; exact .rfl) (fun c => by rw [V4_eq]; exact .rfl)
    (reg2 m) (fun c => by rw [V4_eq]; exact .rfl) (fun c => by rw [V5_eq]; exact .rfl)
    (reg3 m) (fun c => by rw [V6_eq]; exact .rfl) (fun c => by rw [V7_eq]; exact .rfl)
    (reg4 m) (fun c => by rw [V7_eq]; exact .rfl) (fun c => by rw [V8_eq]; exact .rfl)
    (reg5 m) (fun c => by rw [V9_eq]; exact .rfl) (fun c => by rw [V10_eq]; exact .rfl)
    (reg6 m) (fun c => by rw [V11_eq]; exact .rfl) (fun c => by rw [V12_eq]; exact .rfl)
    (reg7 m) (fun c => by rw [V13_eq]; exact .rfl) (fun c => by rw [V14_eq]; exact .rfl)
    (reg8 m) (fun c => by rw [V15_eq]; exact .rfl) (fun c => by rw [V16_eq]; exact .rfl)
    (reg9 m) (fun c => by rw [V16_eq]; exact .rfl) (fun c => by rw [V17_eq]; exact .rfl)
    (reg10 m) (fun c => by rw [V18_eq]; exact .rfl) (fun c => by rw [V19_eq]; exact .rfl)
    (reg11 m) (fun c => by rw [V19_eq]; exact .rfl) (fun c => by rw [V20_eq]; exact .rfl)
    (reg12 m) (fun c => by rw [V21_eq]; exact .rfl) (fun c => by rw [V22_eq]; exact .rfl)
    (reg13 m) (fun c => by rw [V23_eq]; exact .rfl) (fun c => by rw [V24_eq]; exact .rfl)
    (reg14 m) (fun c => by rw [V25_eq]; exact .rfl) (fun c => by rw [V26_eq]; exact .rfl)
    (reg15 m) (fun c => by rw [V27_eq]; exact .rfl) (fun c => by rw [V28_eq]; exact .rfl)
    (reg16 m) (fun c => by rw [V28_eq]; exact .rfl) (fun c => by rw [V29_eq]; exact .rfl)
    (reg17 m) (fun c => by rw [V30_eq]; exact .rfl) (fun c => by rw [V31_eq]; exact .rfl)
    (reg18 m) (fun c => by rw [V31_eq]; exact .rfl) (fun c => by rw [V32_eq]; exact .rfl)
    (reg19 m) (fun c => by rw [V33_eq]; exact .rfl) (fun c => by rw [V34_eq]; exact .rfl)
    (reg20 m) (fun c => by rw [V35_eq]; exact .rfl) (fun c => by rw [V36_eq]; exact .rfl)
  refine (θ_run defs _ _).mono (fun r hr c b hb => ?_) h
  rw [← V37_eq]; exact hr c b hb

end Cert.KernelIdeal.Hand

end
-- ==== Proof.KI.Frame.lean ====
/-
  The run of @main ends with each tower's result array at the last boundary's contents and every argument array as
  launched; dropping the results gives the frame.
-/
import proofs.«416252_j75050258530751_2_alg».proof.Proof.KI.Launch

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.Sem
open Idealize.ShloMosaic.Rounds

variable {F : FTy → Type} [FloatOps F]
variable (m : (ℓ : Loc nD τ sig) → Buf (Elt F) ℓ) (ρ : Dev nD → PrngReg)

theorem run_full : θ_run defs (onTc (τ := τ) (main (F := F))) ⟨m, fun _ => 0, ρ⟩ (fun r => ∀ c : Dev nD,
      r.2.mem ((c.tc : Thread nD τ).loc main_v87) = W37 m c main_v87
      ∧ r.2.mem ((c.tc : Thread nD τ).loc main_v175) = W37 m c main_v175
      ∧ r.2.mem ((c.tc : Thread nD τ).loc main_v263) = W37 m c main_v263
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨
    h c (Proc.devRef .tc main_v87) (Finset.mem_filter.mpr ⟨StableHlo.devRef_mem_tcRefs main_v87, by decide⟩),
    h c (Proc.devRef .tc main_v175) (Finset.mem_filter.mpr ⟨StableHlo.devRef_mem_tcRefs main_v175, by decide⟩),
    h c (Proc.devRef .tc main_v263) (Finset.mem_filter.mpr ⟨StableHlo.devRef_mem_tcRefs main_v263, by decide⟩),
    (h c (Proc.devRef .tc main_arg0) (Finset.mem_filter.mpr ⟨StableHlo.devRef_mem_tcRefs main_arg0, by decide⟩)).trans
      ((congrFun (V37_eq m c) _).symm.trans (V37_main_arg0 m (outs m) c)),
    (h c (Proc.devRef .tc main_arg1) (Finset.mem_filter.mpr ⟨StableHlo.devRef_mem_tcRefs main_arg1, by decide⟩)).trans
      ((congrFun (V37_eq m c) _).symm.trans (V37_main_arg1 m (outs m) c)),
    (h c (Proc.devRef .tc main_arg2) (Finset.mem_filter.mpr ⟨StableHlo.devRef_mem_tcRefs main_arg2, by decide⟩)).trans
      ((congrFun (V37_eq m c) _).symm.trans (V37_main_arg2 m (outs m) c)),
    (h c (Proc.devRef .tc main_arg3) (Finset.mem_filter.mpr ⟨StableHlo.devRef_mem_tcRefs main_arg3, by decide⟩)).trans
      ((congrFun (V37_eq m c) _).symm.trans (V37_main_arg3 m (outs m) c)),
    (h c (Proc.devRef .tc main_arg4) (Finset.mem_filter.mpr ⟨StableHlo.devRef_mem_tcRefs main_arg4, by decide⟩)).trans
      ((congrFun (V37_eq m c) _).symm.trans (V37_main_arg4 m (outs m) c)),
    (h c (Proc.devRef .tc main_arg5) (Finset.mem_filter.mpr ⟨StableHlo.devRef_mem_tcRefs main_arg5, by decide⟩)).trans
      ((congrFun (V37_eq m c) _).symm.trans (V37_main_arg5 m (outs m) c)),
    (h c (Proc.devRef .tc main_arg6) (Finset.mem_filter.mpr ⟨StableHlo.devRef_mem_tcRefs main_arg6, by decide⟩)).trans
      ((congrFun (V37_eq m c) _).symm.trans (V37_main_arg6 m (outs m) c)),
    (h c (Proc.devRef .tc main_arg7) (Finset.mem_filter.mpr ⟨StableHlo.devRef_mem_tcRefs main_arg7, by decide⟩)).trans
      ((congrFun (V37_eq m c) _).symm.trans (V37_main_arg7 m (outs m) c)),
    (h c (Proc.devRef .tc main_arg8) (Finset.mem_filter.mpr ⟨StableHlo.devRef_mem_tcRefs main_arg8, by decide⟩)).trans
      ((congrFun (V37_eq m c) _).symm.trans (V37_main_arg8 m (outs m) c)),
    (h c (Proc.devRef .tc main_arg9) (Finset.mem_filter.mpr ⟨StableHlo.devRef_mem_tcRefs main_arg9, by decide⟩)).trans
      ((congrFun (V37_eq m c) _).symm.trans (V37_main_arg9 m (outs m) c)),
    (h c (Proc.devRef .tc main_arg10) (Finset.mem_filter.mpr ⟨StableHlo.devRef_mem_tcRefs main_arg10, by decide⟩)).trans
      ((congrFun (V37_eq m c) _).symm.trans (V37_main_arg10 m (outs m) c)),
    (h c (Proc.devRef .tc main_arg11) (Finset.mem_filter.mpr ⟨StableHlo.devRef_mem_tcRefs main_arg11, by decide⟩)).trans
      ((congrFun (V37_eq m c) _).symm.trans (V37_main_arg11 m (outs m) c)),
    (h c (Proc.devRef .tc main_arg12) (Finset.mem_filter.mpr ⟨StableHlo.devRef_mem_tcRefs main_arg12, by decide⟩)).trans
      ((congrFun (V37_eq m c) _).symm.trans (V37_main_arg12 m (outs m) c)),
    (h c (Proc.devRef .tc main_arg13) (Finset.mem_filter.mpr ⟨StableHlo.devRef_mem_tcRefs main_arg13, by decide⟩)).trans
      ((congrFun (V37_eq m c) _).symm.trans (V37_main_arg13 m (outs m) c)),
    (h c (Proc.devRef .tc main_arg14) (Finset.mem_filter.mpr ⟨StableHlo.devRef_mem_tcRefs main_arg14, by decide⟩)).trans
      ((congrFun (V37_eq m c) _).symm.trans (V37_main_arg14 m (outs m) c))⟩)
    (run_all m ρ)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun _ h c => (h c).2.2.2) (run_full m ρ)

end Cert.KernelIdeal.Hand

end
-- ==== Proof.KI.Back.lean ====
import proofs.«416252_j75050258530751_2_alg».proof.Proof.KI.Fold

set_option maxRecDepth 16384

noncomputable section

namespace Cert.KernelIdeal.Hand

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ)

theorem W1_of (c : Dev nD) (r : Ref sig .tc) (h : r ∉ hostOps0_W) : W1 m c r = W0 m c r :=
  V1_of m c r h
theorem W2_of (c : Dev nD) (r : Ref sig .tc) (h : r ∉ ([main_v29] : List (Ref sig .tc))) : W2 m c r = W1 m c r :=
  (congrFun (V2_eq m c) r).symm.trans (V2_of m (outs m) c r h)
theorem W2_out (c : Dev nD) : W2 m c main_v29 = res0 m c := by
  unfold W2; exact Function.update_self (f := W1 m c) (a := (main_v29 : DevRef τ sig)) (v := res0 m c)
theorem W3_of (c : Dev nD) (r : Ref sig .tc) (h : r ∉ hostOps1_W) : W3 m c r = W2 m c r :=
  (congrFun (V3_eq m c) r).symm.trans ((V3_of m (outs m) c r h).trans (congrFun (V2_eq m c) r))
theorem W4_of (c : Dev nD) (r : Ref sig .tc) (h : r ∉ ([main_v44] : List (Ref sig .tc))) : W4 m c r = W3 m c r :=
  (congrFun (V4_eq m c) r).symm.trans ((V4_of m (outs m) c r h).trans (congrFun (V3_eq m c) r))
theorem W4_out (c : Dev nD) : W4 m c main_v44 = res1 m c := by
  unfold W4; exact Function.update_self (f := W3 m c) (a := (main_v44 : DevRef τ sig)) (v := res1 m c)
theorem W5_of (c : Dev nD) (r : Ref sig .tc) (h : r ∉ ([main_v45] : List (Ref sig .tc))) : W5 m c r = W4 m c r :=
  (congrFun (V5_eq m c) r).symm.trans ((V5_of m (outs m) c r h).trans (congrFun (V4_eq m c) r))
theorem W5_out (c : Dev nD) : W5 m c main_v45 = res2 m c := by
  unfold W5; exact Function.update_self (f := W4 m c) (a := (main_v45 : DevRef τ sig)) (v := res2 m c)
theorem W6_of (c : Dev nD) (r : Ref sig .tc) (h : r ∉ hostOps3_W) : W6 m c r = W5 m c r :=
  (congrFun (V6_eq m c) r).symm.trans ((V6_of m (outs m) c r h).trans (congrFun (V5_eq m c) r))
theorem W7_of (c : Dev nD) (r : Ref sig .tc) (h : r ∉ ([main_v60] : List (Ref sig .tc))) : W7 m c r = W6 m c r :=
  (congrFun (V7_eq m c) r).symm.trans ((V7_of m (outs m) c r h).trans (congrFun (V6_eq m c) r))
theorem W7_out (c : Dev nD) : W7 m c main_v60 = res3 m c := by
  unfold W7; exact Function.update_self (f := W6 m c) (a := (main_v60 : DevRef τ sig)) (v := res3 m c)
theorem W8_of (c : Dev nD) (r : Ref sig .tc) (h : r ∉ ([main_v61] : List (Ref sig .tc))) : W8 m c r = W7 m c r :=
  (congrFun (V8_eq m c) r).symm.trans ((V8_of m (outs m) c r h).trans (congrFun (V7_eq m c) r))
theorem W8_out (c : Dev nD) : W8 m c main_v61 = res4 m c := by
  unfold W8; exact Function.update_self (f := W7 m c) (a := (main_v61 : DevRef τ sig)) (v := res4 m c)
theorem W9_of (c : Dev nD) (r : Ref sig .tc) (h : r ∉ hostOps5_W) : W9 m c r = W8 m c r :=
  (congrFun (V9_eq m c) r).symm.trans ((V9_of m (outs m) c r h).trans (congrFun (V8_eq m c) r))
theorem W10_of (c : Dev nD) (r : Ref sig .tc) (h : r ∉ ([main_v76] : List (Ref sig .tc))) : W10 m c r = W9 m c r :=
  (congrFun (V10_eq m c) r).symm.trans ((V10_of m (outs m) c r h).trans (congrFun (V9_eq m c) r))
theorem W10_out (c : Dev nD) : W10 m c main_v76 = res5 m c := by
  unfold W10; exact Function.update_self (f := W9 m c) (a := (main_v76 : DevRef τ sig)) (v := res5 m c)
theorem W11_of (c : Dev nD) (r : Ref sig .tc) (h : r ∉ hostOps6_W) : W11 m c r = W10 m c r :=
  (congrFun (V11_eq m c) r).symm.trans ((V11_of m (outs m) c r h).trans (congrFun (V10_eq m c) r))
theorem W12_of (c : Dev nD) (r : Ref sig .tc) (h : r ∉ ([main_v78] : List (Ref sig .tc))) : W12 m c r = W11 m c r :=
  (congrFun (V12_eq m c) r).symm.trans ((V12_of m (outs m) c r h).trans (congrFun (V11_eq m c) r))
theorem W12_out (c : Dev nD) : W12 m c main_v78 = res6 m c := by
  unfold W12; exact Function.update_self (f := W11 m c) (a := (main_v78 : DevRef τ sig)) (v := res6 m c)
theorem W13_of (c : Dev nD) (r : Ref sig .tc) (h : r ∉ hostOps7_W) : W13 m c r = W12 m c r :=
  (congrFun (V13_eq m c) r).symm.trans ((V13_of m (outs m) c r h).trans (congrFun (V12_eq m c) r))
theorem W14_of (c : Dev nD) (r : Ref sig .tc) (h : r ∉ ([main_v117] : List (Ref sig .tc))) : W14 m c r = W13 m c r :=
  (congrFun (V14_eq m c) r).symm.trans ((V14_of m (outs m) c r h).trans (congrFun (V13_eq m c) r))
theorem W14_out (c : Dev nD) : W14 m c main_v117 = res7 m c := by
  unfold W14; exact Function.update_self (f := W13 m c) (a := (main_v117 : DevRef τ sig)) (v := res7 m c)
theorem W15_of (c : Dev nD) (r : Ref sig .tc) (h : r ∉ hostOps8_W) : W15 m c r = W14 m c r :=
  (congrFun (V15_eq m c) r).symm.trans ((V15_of m (outs m) c r h).trans (congrFun (V14_eq m c) r))
theorem W16_of (c : Dev nD) (r : Ref sig .tc) (h : r ∉ ([main_v132] : List (Ref sig .tc))) : W16 m c r = W15 m c r :=
  (congrFun (V16_eq m c) r).symm.trans ((V16_of m (outs m) c r h).trans (congrFun (V15_eq m c) r))
theorem W16_out (c : Dev nD) : W16 m c main_v132 = res8 m c := by
  unfold W16; exact Function.update_self (f := W15 m c) (a := (main_v132 : DevRef τ sig)) (v := res8 m c)
theorem W17_of (c : Dev nD) (r : Ref sig .tc) (h : r ∉ ([main_v133] : List (Ref sig .tc))) : W17 m c r = W16 m c r :=
  (congrFun (V17_eq m c) r).symm.trans ((V17_of m (outs m) c r h).trans (congrFun (V16_eq m c) r))
theorem W17_out (c : Dev nD) : W17 m c main_v133 = res9 m c := by
  unfold W17; exact Function.update_self (f := W16 m c) (a := (main_v133 : DevRef τ sig)) (v := res9 m c)
theorem W18_of (c : Dev nD) (r : Ref sig .tc) (h : r ∉ hostOps10_W) : W18 m c r = W17 m c r :=
  (congrFun (V18_eq m c) r).symm.trans ((V18_of m (outs m) c r h).trans (congrFun (V17_eq m c) r))
theorem W19_of (c : Dev nD) (r : Ref sig .tc) (h : r ∉ ([main_v148] : List (Ref sig .tc))) : W19 m c r = W18 m c r :=
  (congrFun (V19_eq m c) r).symm.trans ((V19_of m (outs m) c r h).trans (congrFun (V18_eq m c) r))
theorem W19_out (c : Dev nD) : W19 m c main_v148 = res10 m c := by
  unfold W19; exact Function.update_self (f := W18 m c) (a := (main_v148 : DevRef τ sig)) (v := res10 m c)
theorem W20_of (c : Dev nD) (r : Ref sig .tc) (h : r ∉ ([main_v149] : List (Ref sig .tc))) : W20 m c r = W19 m c r :=
  (congrFun (V20_eq m c) r).symm.trans ((V20_of m (outs m) c r h).trans (congrFun (V19_eq m c) r))
theorem W20_out (c : Dev nD) : W20 m c main_v149 = res11 m c := by
  unfold W20; exact Function.update_self (f := W19 m c) (a := (main_v149 : DevRef τ sig)) (v := res11 m c)
theorem W21_of (c : Dev nD) (r : Ref sig .tc) (h : r ∉ hostOps12_W) : W21 m c r = W20 m c r :=
  (congrFun (V21_eq m c) r).symm.trans ((V21_of m (outs m) c r h).trans (congrFun (V20_eq m c) r))
theorem W22_of (c : Dev nD) (r : Ref sig .tc) (h : r ∉ ([main_v164] : List (Ref sig .tc))) : W22 m c r = W21 m c r :=
  (congrFun (V22_eq m c) r).symm.trans ((V22_of m (outs m) c r h).trans (congrFun (V21_eq m c) r))
theorem W22_out (c : Dev nD) : W22 m c main_v164 = res12 m c := by
  unfold W22; exact Function.update_self (f := W21 m c) (a := (main_v164 : DevRef τ sig)) (v := res12 m c)
theorem W23_of (c : Dev nD) (r : Ref sig .tc) (h : r ∉ hostOps13_W) : W23 m c r = W22 m c r :=
  (congrFun (V23_eq m c) r).symm.trans ((V23_of m (outs m) c r h).trans (congrFun (V22_eq m c) r))
theorem W24_of (c : Dev nD) (r : Ref sig .tc) (h : r ∉ ([main_v166] : List (Ref sig .tc))) : W24 m c r = W23 m c r :=
  (congrFun (V24_eq m c) r).symm.trans ((V24_of m (outs m) c r h).trans (congrFun (V23_eq m c) r))
theorem W24_out (c : Dev nD) : W24 m c main_v166 = res13 m c := by
  unfold W24; exact Function.update_self (f := W23 m c) (a := (main_v166 : DevRef τ sig)) (v := res13 m c)
theorem W25_of (c : Dev nD) (r : Ref sig .tc) (h : r ∉ hostOps14_W) : W25 m c r = W24 m c r :=
  (congrFun (V25_eq m c) r).symm.trans ((V25_of m (outs m) c r h).trans (congrFun (V24_eq m c) r))
theorem W26_of (c : Dev nD) (r : Ref sig .tc) (h : r ∉ ([main_v205] : List (Ref sig .tc))) : W26 m c r = W25 m c r :=
  (congrFun (V26_eq m c) r).symm.trans ((V26_of m (outs m) c r h).trans (congrFun (V25_eq m c) r))
theorem W26_out (c : Dev nD) : W26 m c main_v205 = res14 m c := by
  unfold W26; exact Function.update_self (f := W25 m c) (a := (main_v205 : DevRef τ sig)) (v := res14 m c)
theorem W27_of (c : Dev nD) (r : Ref sig .tc) (h : r ∉ hostOps15_W) : W27 m c r = W26 m c r :=
  (congrFun (V27_eq m c) r).symm.trans ((V27_of m (outs m) c r h).trans (congrFun (V26_eq m c) r))
theorem W28_of (c : Dev nD) (r : Ref sig .tc) (h : r ∉ ([main_v220] : List (Ref sig .tc))) : W28 m c r = W27 m c r :=
  (congrFun (V28_eq m c) r).symm.trans ((V28_of m (outs m) c r h).trans (congrFun (V27_eq m c) r))
theorem W28_out (c : Dev nD) : W28 m c main_v220 = res15 m c := by
  unfold W28; exact Function.update_self (f := W27 m c) (a := (main_v220 : DevRef τ sig)) (v := res15 m c)
theorem W29_of (c : Dev nD) (r : Ref sig .tc) (h : r ∉ ([main_v221] : List (Ref sig .tc))) : W29 m c r = W28 m c r :=
  (congrFun (V29_eq m c) r).symm.trans ((V29_of m (outs m) c r h).trans (congrFun (V28_eq m c) r))
theorem W29_out (c : Dev nD) : W29 m c main_v221 = res16 m c := by
  unfold W29; exact Function.update_self (f := W28 m c) (a := (main_v221 : DevRef τ sig)) (v := res16 m c)
theorem W30_of (c : Dev nD) (r : Ref sig .tc) (h : r ∉ hostOps17_W) : W30 m c r = W29 m c r :=
  (congrFun (V30_eq m c) r).symm.trans ((V30_of m (outs m) c r h).trans (congrFun (V29_eq m c) r))
theorem W31_of (c : Dev nD) (r : Ref sig .tc) (h : r ∉ ([main_v236] : List (Ref sig .tc))) : W31 m c r = W30 m c r :=
  (congrFun (V31_eq m c) r).symm.trans ((V31_of m (outs m) c r h).trans (congrFun (V30_eq m c) r))
theorem W31_out (c : Dev nD) : W31 m c main_v236 = res17 m c := by
  unfold W31; exact Function.update_self (f := W30 m c) (a := (main_v236 : DevRef τ sig)) (v := res17 m c)
theorem W32_of (c : Dev nD) (r : Ref sig .tc) (h : r ∉ ([main_v237] : List (Ref sig .tc))) : W32 m c r = W31 m c r :=
  (congrFun (V32_eq m c) r).symm.trans ((V32_of m (outs m) c r h).trans (congrFun (V31_eq m c) r))
theorem W32_out (c : Dev nD) : W32 m c main_v237 = res18 m c := by
  unfold W32; exact Function.update_self (f := W31 m c) (a := (main_v237 : DevRef τ sig)) (v := res18 m c)
theorem W33_of (c : Dev nD) (r : Ref sig .tc) (h : r ∉ hostOps19_W) : W33 m c r = W32 m c r :=
  (congrFun (V33_eq m c) r).symm.trans ((V33_of m (outs m) c r h).trans (congrFun (V32_eq m c) r))
theorem W34_of (c : Dev nD) (r : Ref sig .tc) (h : r ∉ ([main_v252] : List (Ref sig .tc))) : W34 m c r = W33 m c r :=
  (congrFun (V34_eq m c) r).symm.trans ((V34_of m (outs m) c r h).trans (congrFun (V33_eq m c) r))
theorem W34_out (c : Dev nD) : W34 m c main_v252 = res19 m c := by
  unfold W34; exact Function.update_self (f := W33 m c) (a := (main_v252 : DevRef τ sig)) (v := res19 m c)
theorem W35_of (c : Dev nD) (r : Ref sig .tc) (h : r ∉ hostOps20_W) : W35 m c r = W34 m c r :=
  (congrFun (V35_eq m c) r).symm.trans ((V35_of m (outs m) c r h).trans (congrFun (V34_eq m c) r))
theorem W36_of (c : Dev nD) (r : Ref sig .tc) (h : r ∉ ([main_v254] : List (Ref sig .tc))) : W36 m c r = W35 m c r :=
  (congrFun (V36_eq m c) r).symm.trans ((V36_of m (outs m) c r h).trans (congrFun (V35_eq m c) r))
theorem W36_out (c : Dev nD) : W36 m c main_v254 = res20 m c := by
  unfold W36; exact Function.update_self (f := W35 m c) (a := (main_v254 : DevRef τ sig)) (v := res20 m c)
theorem W37_of (c : Dev nD) (r : Ref sig .tc) (h : r ∉ hostOps21_W) : W37 m c r = W36 m c r :=
  (congrFun (V37_eq m c) r).symm.trans ((V37_of m (outs m) c r h).trans (congrFun (V36_eq m c) r))

abbrev IsArg (r : Ref sig .tc) : Prop := r.space = .hbm ∧ r.idx.val < 15

theorem not_mem_of_isArg {L : List (Ref sig .tc)} (hL : ∀ x ∈ L, ¬ IsArg x) {r : Ref sig .tc} (hr : IsArg r) : r ∉ L :=
  fun h => hL r h hr

theorem W0_args (c : Dev nD) (r : Ref sig .tc) (_ : IsArg r) : W0 m c r = m ((c : Thread nD τ).loc r) := rfl
theorem W1_args (c : Dev nD) (r : Ref sig .tc) (hr : IsArg r) : W1 m c r = m ((c : Thread nD τ).loc r) :=
  (W1_of m c r (not_mem_of_isArg (by decide) hr)).trans (W0_args m c r hr)
theorem W2_args (c : Dev nD) (r : Ref sig .tc) (hr : IsArg r) : W2 m c r = m ((c : Thread nD τ).loc r) :=
  (W2_of m c r (not_mem_of_isArg (by decide) hr)).trans (W1_args m c r hr)
theorem W3_args (c : Dev nD) (r : Ref sig .tc) (hr : IsArg r) : W3 m c r = m ((c : Thread nD τ).loc r) :=
  (W3_of m c r (not_mem_of_isArg (by decide) hr)).trans (W2_args m c r hr)
theorem W4_args (c : Dev nD) (r : Ref sig .tc) (hr : IsArg r) : W4 m c r = m ((c : Thread nD τ).loc r) :=
  (W4_of m c r (not_mem_of_isArg (by decide) hr)).trans (W3_args m c r hr)
theorem W5_args (c : Dev nD) (r : Ref sig .tc) (hr : IsArg r) : W5 m c r = m ((c : Thread nD τ).loc r) :=
  (W5_of m c r (not_mem_of_isArg (by decide) hr)).trans (W4_args m c r hr)
theorem W6_args (c : Dev nD) (r : Ref sig .tc) (hr : IsArg r) : W6 m c r = m ((c : Thread nD τ).loc r) :=
  (W6_of m c r (not_mem_of_isArg (by decide) hr)).trans (W5_args m c r hr)
theorem W7_args (c : Dev nD) (r : Ref sig .tc) (hr : IsArg r) : W7 m c r = m ((c : Thread nD τ).loc r) :=
  (W7_of m c r (not_mem_of_isArg (by decide) hr)).trans (W6_args m c r hr)
theorem W8_args (c : Dev nD) (r : Ref sig .tc) (hr : IsArg r) : W8 m c r = m ((c : Thread nD τ).loc r) :=
  (W8_of m c r (not_mem_of_isArg (by decide) hr)).trans (W7_args m c r hr)
theorem W9_args (c : Dev nD) (r : Ref sig .tc) (hr : IsArg r) : W9 m c r = m ((c : Thread nD τ).loc r) :=
  (W9_of m c r (not_mem_of_isArg (by decide) hr)).trans (W8_args m c r hr)
theorem W10_args (c : Dev nD) (r : Ref sig .tc) (hr : IsArg r) : W10 m c r = m ((c : Thread nD τ).loc r) :=
  (W10_of m c r (not_mem_of_isArg (by decide) hr)).trans (W9_args m c r hr)
theorem W11_args (c : Dev nD) (r : Ref sig .tc) (hr : IsArg r) : W11 m c r = m ((c : Thread nD τ).loc r) :=
  (W11_of m c r (not_mem_of_isArg (by decide) hr)).trans (W10_args m c r hr)
theorem W12_args (c : Dev nD) (r : Ref sig .tc) (hr : IsArg r) : W12 m c r = m ((c : Thread nD τ).loc r) :=
  (W12_of m c r (not_mem_of_isArg (by decide) hr)).trans (W11_args m c r hr)
theorem W13_args (c : Dev nD) (r : Ref sig .tc) (hr : IsArg r) : W13 m c r = m ((c : Thread nD τ).loc r) :=
  (W13_of m c r (not_mem_of_isArg (by decide) hr)).trans (W12_args m c r hr)
theorem W14_args (c : Dev nD) (r : Ref sig .tc) (hr : IsArg r) : W14 m c r = m ((c : Thread nD τ).loc r) :=
  (W14_of m c r (not_mem_of_isArg (by decide) hr)).trans (W13_args m c r hr)
theorem W15_args (c : Dev nD) (r : Ref sig .tc) (hr : IsArg r) : W15 m c r = m ((c : Thread nD τ).loc r) :=
  (W15_of m c r (not_mem_of_isArg (by decide) hr)).trans (W14_args m c r hr)
theorem W16_args (c : Dev nD) (r : Ref sig .tc) (hr : IsArg r) : W16 m c r = m ((c : Thread nD τ).loc r) :=
  (W16_of m c r (not_mem_of_isArg (by decide) hr)).trans (W15_args m c r hr)
theorem W17_args (c : Dev nD) (r : Ref sig .tc) (hr : IsArg r) : W17 m c r = m ((c : Thread nD τ).loc r) :=
  (W17_of m c r (not_mem_of_isArg (by decide) hr)).trans (W16_args m c r hr)
theorem W18_args (c : Dev nD) (r : Ref sig .tc) (hr : IsArg r) : W18 m c r = m ((c : Thread nD τ).loc r) :=
  (W18_of m c r (not_mem_of_isArg (by decide) hr)).trans (W17_args m c r hr)
theorem W19_args (c : Dev nD) (r : Ref sig .tc) (hr : IsArg r) : W19 m c r = m ((c : Thread nD τ).loc r) :=
  (W19_of m c r (not_mem_of_isArg (by decide) hr)).trans (W18_args m c r hr)
theorem W20_args (c : Dev nD) (r : Ref sig .tc) (hr : IsArg r) : W20 m c r = m ((c : Thread nD τ).loc r) :=
  (W20_of m c r (not_mem_of_isArg (by decide) hr)).trans (W19_args m c r hr)
theorem W21_args (c : Dev nD) (r : Ref sig .tc) (hr : IsArg r) : W21 m c r = m ((c : Thread nD τ).loc r) :=
  (W21_of m c r (not_mem_of_isArg (by decide) hr)).trans (W20_args m c r hr)
theorem W22_args (c : Dev nD) (r : Ref sig .tc) (hr : IsArg r) : W22 m c r = m ((c : Thread nD τ).loc r) :=
  (W22_of m c r (not_mem_of_isArg (by decide) hr)).trans (W21_args m c r hr)
theorem W23_args (c : Dev nD) (r : Ref sig .tc) (hr : IsArg r) : W23 m c r = m ((c : Thread nD τ).loc r) :=
  (W23_of m c r (not_mem_of_isArg (by decide) hr)).trans (W22_args m c r hr)
theorem W24_args (c : Dev nD) (r : Ref sig .tc) (hr : IsArg r) : W24 m c r = m ((c : Thread nD τ).loc r) :=
  (W24_of m c r (not_mem_of_isArg (by decide) hr)).trans (W23_args m c r hr)
theorem W25_args (c : Dev nD) (r : Ref sig .tc) (hr : IsArg r) : W25 m c r = m ((c : Thread nD τ).loc r) :=
  (W25_of m c r (not_mem_of_isArg (by decide) hr)).trans (W24_args m c r hr)
theorem W26_args (c : Dev nD) (r : Ref sig .tc) (hr : IsArg r) : W26 m c r = m ((c : Thread nD τ).loc r) :=
  (W26_of m c r (not_mem_of_isArg (by decide) hr)).trans (W25_args m c r hr)
theorem W27_args (c : Dev nD) (r : Ref sig .tc) (hr : IsArg r) : W27 m c r = m ((c : Thread nD τ).loc r) :=
  (W27_of m c r (not_mem_of_isArg (by decide) hr)).trans (W26_args m c r hr)
theorem W28_args (c : Dev nD) (r : Ref sig .tc) (hr : IsArg r) : W28 m c r = m ((c : Thread nD τ).loc r) :=
  (W28_of m c r (not_mem_of_isArg (by decide) hr)).trans (W27_args m c r hr)
theorem W29_args (c : Dev nD) (r : Ref sig .tc) (hr : IsArg r) : W29 m c r = m ((c : Thread nD τ).loc r) :=
  (W29_of m c r (not_mem_of_isArg (by decide) hr)).trans (W28_args m c r hr)
theorem W30_args (c : Dev nD) (r : Ref sig .tc) (hr : IsArg r) : W30 m c r = m ((c : Thread nD τ).loc r) :=
  (W30_of m c r (not_mem_of_isArg (by decide) hr)).trans (W29_args m c r hr)
theorem W31_args (c : Dev nD) (r : Ref sig .tc) (hr : IsArg r) : W31 m c r = m ((c : Thread nD τ).loc r) :=
  (W31_of m c r (not_mem_of_isArg (by decide) hr)).trans (W30_args m c r hr)
theorem W32_args (c : Dev nD) (r : Ref sig .tc) (hr : IsArg r) : W32 m c r = m ((c : Thread nD τ).loc r) :=
  (W32_of m c r (not_mem_of_isArg (by decide) hr)).trans (W31_args m c r hr)
theorem W33_args (c : Dev nD) (r : Ref sig .tc) (hr : IsArg r) : W33 m c r = m ((c : Thread nD τ).loc r) :=
  (W33_of m c r (not_mem_of_isArg (by decide) hr)).trans (W32_args m c r hr)
theorem W34_args (c : Dev nD) (r : Ref sig .tc) (hr : IsArg r) : W34 m c r = m ((c : Thread nD τ).loc r) :=
  (W34_of m c r (not_mem_of_isArg (by decide) hr)).trans (W33_args m c r hr)
theorem W35_args (c : Dev nD) (r : Ref sig .tc) (hr : IsArg r) : W35 m c r = m ((c : Thread nD τ).loc r) :=
  (W35_of m c r (not_mem_of_isArg (by decide) hr)).trans (W34_args m c r hr)
theorem W36_args (c : Dev nD) (r : Ref sig .tc) (hr : IsArg r) : W36 m c r = m ((c : Thread nD τ).loc r) :=
  (W36_of m c r (not_mem_of_isArg (by decide) hr)).trans (W35_args m c r hr)
theorem W37_args (c : Dev nD) (r : Ref sig .tc) (hr : IsArg r) : W37 m c r = m ((c : Thread nD τ).loc r) :=
  (W37_of m c r (not_mem_of_isArg (by decide) hr)).trans (W36_args m c r hr)

end Cert.KernelIdeal.Hand

end
-- ==== Proof.KI.HostTerms.lean ====
import proofs.«416252_j75050258530751_2_alg».proof.Proof.Gen.KernelIdeal

set_option maxRecDepth 8192

noncomputable section

namespace Cert.KernelIdeal.Hand

open Cert.KernelIdeal Cert.KernelIdeal.Facts₀ Cert.KernelIdeal.Facts Idealize.ShloMosaic

variable {F : FTy → Type} [FloatOps F]

def srcT (ei : IVec S2x1600000 32) : IVec S1700000 32 :=
  concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0

def dstT (ei : IVec S2x1600000 32) : IVec S1700000 32 :=
  concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0

def normT (ei : IVec S2x1600000 32) : FVec F S1700000 .f32 :=
  mulf (Host.gather gather_S100000_S1700000x1_S1700000_n_0_n_n_0_1_1 (Host.rsqrt (maximumf (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x2B8CBCCC#32)))) (broadcastInDim S1700000x1 ![0] bcast_S1700000_S1700000x1_0 (select (cmpi .slt (concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] ei slices_S2x1600000_S1x1600000_0_0) shapeCasts_S1x1600000_S1600000)⟩, ⟨S100000, (iotaInDim S100000 32 0)⟩] concatenates_S1600000_S100000_S1700000_d0)))) (Host.gather gather_S100000_S1700000x1_S1700000_n_0_n_n_0_1_1 (Host.rsqrt (maximumf (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x2B8CBCCC#32)))) (broadcastInDim S1700000x1 ![0] bcast_S1700000_S1700000x1_0 (select (cmpi .slt (concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![1, 0] ei slices_S2x1600000_S1x1600000_1_0) shapeCasts_S1x1600000_S1600000)⟩, ⟨S100000, (iotaInDim S100000 32 0)⟩] concatenates_S1600000_S100000_S1700000_d0))))

def convK32 (h : FVec F S100000x32 .f32) (src dst : IVec S1700000 32) (nrm : FVec F S1700000 .f32) : FVec F S100000x32 .f32 :=
  Host.scatterAdd scatter_S100000x32_S1700000x1_S1700000x32_1_0_0_1 (broadcastInDim S100000x32 ![] bcast_S_S100000x32 (constant S_ .f32 0x00000000#32)) (broadcastInDim S1700000x1 ![0] bcast_S1700000_S1700000x1_0 dst) (mulf (Host.gather gather_S100000x32_S1700000x1_S1700000x32_1_0_n_n_0_1_132 h (broadcastInDim S1700000x1 ![0] bcast_S1700000_S1700000x1_0 (select (cmpi .slt src (broadcastInDim S1700000 ![] bcast_S_S1700000 (constantI S_ 32 0#32))) (addi src (broadcastInDim S1700000 ![] bcast_S_S1700000 (constantI S_ 32 100000#32))) src))) (broadcastInDim S1700000x32 ![0, 1] bcast_S1700000x1_S1700000x32_0_1 (broadcastInDim S1700000x1 ![0] bcast_S1700000_S1700000x1_0 nrm)))

def convK64 (h : FVec F S100000x64 .f32) (src dst : IVec S1700000 32) (nrm : FVec F S1700000 .f32) : FVec F S100000x64 .f32 :=
  Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 dst) (mulf (Host.gather gather_S100000x64_S1700000x1_S1700000x64_1_0_n_n_0_1_164 h (broadcastInDim S1700000x1 ![0] bcast_S1700000_S1700000x1_0 (select (cmpi .slt src (broadcastInDim S1700000 ![] bcast_S_S1700000 (constantI S_ 32 0#32))) (addi src (broadcastInDim S1700000 ![] bcast_S_S1700000 (constantI S_ 32 100000#32))) src))) (broadcastInDim S1700000x64 ![0, 1] bcast_S1700000x1_S1700000x64_0_1 (broadcastInDim S1700000x1 ![0] bcast_S1700000_S1700000x1_0 nrm)))

def tailT (pooled : FVec F S512x64 .f32) (bt : IVec S100000 32) : FVec F S512x64 .f32 :=
  Host.divf pooled (broadcastInDim S512x64 ![0, 1] bcast_S512x1_S512x64_0_1 (broadcastInDim S512x1 ![0] bcast_S512_S512x1_0 (maximumf (Host.scatterAdd scatter_S512_S100000x1_S100000_n_0_0_1 (broadcastInDim S512 ![] bcast_S_S512 (constant S_ .f32 0x00000000#32)) (broadcastInDim S100000x1 ![0] bcast_S100000_S100000x1_0 bt) (broadcastInDim S100000 ![] bcast_S_S100000 (constant S_ .f32 0x3F800000#32))) (broadcastInDim S512 ![] bcast_S_S512 (constant S_ .f32 0x3F800000#32)))))

end Cert.KernelIdeal.Hand

end
-- ==== Proof.KI.St1.lean ====
import proofs.«416252_j75050258530751_2_alg».proof.Proof.Gen.KernelIdeal.Launch
import proofs.«416252_j75050258530751_2_alg».proof.Proof.KI.HostTerms
import Idealize.ShloMosaic.Lib.StableHlo.Run

set_option maxRecDepth 16384

noncomputable section

namespace Cert.KernelIdeal.Hand

open Cert.KernelIdeal Cert.KernelIdeal.Facts₀ Cert.KernelIdeal.Facts
open Idealize.ShloMosaic Idealize.ShloMosaic.StableHlo

variable {F : FTy → Type} [FloatOps F]

variable (W : Valuation τ sig (Elt F))

theorem st_v5 : StableHlo.after Gen.hostOps0 W (Proc.devRef .tc main_v5) = srcT (W (Proc.devRef .tc main_arg1)) := by
  dsimp only [Gen.hostOps0]; after_results_simp; unfold srcT; rfl

theorem st_v6 : StableHlo.after Gen.hostOps0 W (Proc.devRef .tc main_v6) = dstT (W (Proc.devRef .tc main_arg1)) := by
  dsimp only [Gen.hostOps0]; after_results_simp; unfold dstT; rfl

theorem st_v28 : StableHlo.after Gen.hostOps0 W (Proc.devRef .tc main_v28) = normT (W (Proc.devRef .tc main_arg1)) := by
  dsimp only [Gen.hostOps0]; after_results_simp; unfold normT; rfl

theorem st_v42 : StableHlo.after Gen.hostOps1 W (Proc.devRef .tc main_v42) = convK32 (W (Proc.devRef .tc main_v29)) (W (Proc.devRef .tc main_v5)) (W (Proc.devRef .tc main_v6)) (W (Proc.devRef .tc main_v28)) := by
  dsimp only [Gen.hostOps1]; after_results_simp; unfold convK32; rfl

theorem st_v43 : StableHlo.after Gen.hostOps1 W (Proc.devRef .tc main_v43) = shapeCast S1x32 (W (Proc.devRef .tc main_arg10)) shapeCasts_S32_S1x32 := by
  dsimp only [Gen.hostOps1]; after_results; rfl

theorem st_v58 : StableHlo.after Gen.hostOps3 W (Proc.devRef .tc main_v58) = convK64 (W (Proc.devRef .tc main_v45)) (W (Proc.devRef .tc main_v5)) (W (Proc.devRef .tc main_v6)) (W (Proc.devRef .tc main_v28)) := by
  dsimp only [Gen.hostOps3]; after_results_simp; unfold convK64; rfl

theorem st_v59 : StableHlo.after Gen.hostOps3 W (Proc.devRef .tc main_v59) = shapeCast S1x64 (W (Proc.devRef .tc main_arg12)) shapeCasts_S64_S1x64 := by
  dsimp only [Gen.hostOps3]; after_results; rfl

theorem st_v74 : StableHlo.after Gen.hostOps5 W (Proc.devRef .tc main_v74) = convK64 (W (Proc.devRef .tc main_v61)) (W (Proc.devRef .tc main_v5)) (W (Proc.devRef .tc main_v6)) (W (Proc.devRef .tc main_v28)) := by
  dsimp only [Gen.hostOps5]; after_results_simp; unfold convK64; rfl

theorem st_v75 : StableHlo.after Gen.hostOps5 W (Proc.devRef .tc main_v75) = shapeCast S1x64 (W (Proc.devRef .tc main_arg14)) shapeCasts_S64_S1x64 := by
  dsimp only [Gen.hostOps5]; after_results; rfl

theorem st_v77 : StableHlo.after Gen.hostOps6 W (Proc.devRef .tc main_v77) = shapeCast S100000x1 (W (Proc.devRef .tc main_arg2)) shapeCasts_S100000_S100000x1 := by
  dsimp only [Gen.hostOps6]; after_results; rfl

theorem st_v87 : StableHlo.after Gen.hostOps7 W (Proc.devRef .tc main_v87) = tailT (W (Proc.devRef .tc main_v78)) (W (Proc.devRef .tc main_arg2)) := by
  dsimp only [Gen.hostOps7]; after_results_simp; unfold tailT; rfl

end Cert.KernelIdeal.Hand

end
-- ==== Proof.KI.ValDefs.lean ====
import proofs.«416252_j75050258530751_2_alg».proof.Proof.KI.HostTerms
import Idealize.ShloMosaic.PureOps.Ideal
import Idealize.ShloMosaic.Lib.ValueIdx

set_option maxRecDepth 8192

noncomputable section

namespace Cert.KernelIdeal.Hand

open Cert.KernelIdeal Cert.KernelIdeal.Facts₀ Cert.KernelIdeal.Facts Idealize.ShloMosaic Idealize.ShloMosaic.ValueIdx

abbrev matProduct128x32 (a0 : S100000x128.Idx → EReal) (a1 : S128x32.Idx → EReal) : S100000x32.Idx → EReal :=
  fun i => ∑ k : Fin 128, a0 (ix2 (i 0) k) * a1 (ix2 k (i 1))
abbrev matProduct32x64 (a0 : S100000x32.Idx → EReal) (a1 : S32x64.Idx → EReal) : S100000x64.Idx → EReal :=
  fun i => ∑ k : Fin 32, a0 (ix2 (i 0) k) * a1 (ix2 k (i 1))
abbrev matProduct64x64 (a0 : S100000x64.Idx → EReal) (a1 : S64x64.Idx → EReal) : S100000x64.Idx → EReal :=
  fun i => ∑ k : Fin 64, a0 (ix2 (i 0) k) * a1 (ix2 k (i 1))

abbrev biasRelu32 (a : S100000x32.Idx → EReal) (b : S1x32.Idx → EReal) : S100000x32.Idx → EReal :=
  fun i => max (a i + b (ix2 (0 : Fin 1) ⟨(i 1).val, idx2_lt1 i⟩)) 0
abbrev biasRelu64 (a : S100000x64.Idx → EReal) (b : S1x64.Idx → EReal) : S100000x64.Idx → EReal :=
  fun i => max (a i + b (ix2 (0 : Fin 1) ⟨(i 1).val, idx2_lt1 i⟩)) 0

abbrev maskedSum (bt : IVec S100000x1 32) (x : S100000x64.Idx → EReal) : S512x64.Idx → EReal :=
  fun i => ∑ n : Fin 100000, (if bt (ix2 n 0) = BitVec.ofNat 32 (i 0).val then x (ix2 n (i 1 : Fin 64)) else 0)

def towerV (x : S100000x128.Idx → EReal) (ei : IVec S2x1600000 32) (bt : IVec S100000 32)
    (w1 : S128x32.Idx → EReal) (b1 : S32.Idx → EReal) (w2 : S32x64.Idx → EReal) (b2 : S64.Idx → EReal)
    (w3 : S64x64.Idx → EReal) (b3 : S64.Idx → EReal) : S512x64.Idx → EReal :=
  tailT (F := Ideal)
    (maskedSum (shapeCast S100000x1 bt shapeCasts_S100000_S100000x1)
      (biasRelu64
        (convK64 (F := Ideal)
          (matProduct64x64
            (biasRelu64
              (convK64 (F := Ideal)
                (matProduct32x64
                  (biasRelu32
                    (convK32 (F := Ideal) (matProduct128x32 x w1) (srcT ei) (dstT ei) (normT (F := Ideal) ei))
                    (shapeCast S1x32 b1 shapeCasts_S32_S1x32))
                  w2)
                (srcT ei) (dstT ei) (normT (F := Ideal) ei))
              (shapeCast S1x64 b2 shapeCasts_S64_S1x64))
            w3)
          (srcT ei) (dstT ei) (normT (F := Ideal) ei))
        (shapeCast S1x64 b3 shapeCasts_S64_S1x64)))
    bt

end Cert.KernelIdeal.Hand

end
-- ==== Proof.KI.VLib.lean ====
import Idealize.ShloMosaic.PureOps.Ideal.Laws
import Idealize.ShloMosaic.Lib.ValueIdx
import Idealize.ShloMosaic.Lib.ValueLayout
import Idealize.ShloMosaic.Lib.Pipeline.Value

namespace Cert.VLib

open Idealize.ShloMosaic Idealize.ShloMosaic.ValueIdx

theorem zero2 : (![0, 0] : Fin 2 → ℕ) = fun _ => 0 := funext fun a => by fin_cases a <;> rfl

-- The contraction index has one coordinate; at it the operands are read at (row, k) and (k, column).
theorem plainDot_apply {M K N : ℕ} {φ₁ φ₂ : FTy} {wf} (x0 : FVec Ideal ⟨2, ![M, K]⟩ φ₁) (x1 : FVec Ideal ⟨2, ![K, N]⟩ φ₂)
    (j : (⟨2, ![M, N]⟩ : Shape).Idx) :
    FloatOps.matmul (⟨[1], [0], [0], [1], [], [], wf⟩ : DotDims ⟨2, ![M, K]⟩ ⟨2, ![K, N]⟩ ⟨2, ![M, N]⟩) none x0 x1
        (constant _ .f32 0x00000000#32) j = ∑ k : Fin K, x0 (ix2 (j 0) k) * x1 (ix2 k (j 1)) := by
  rw [Ideal.matmul_constant_zero_apply, ← Equiv.sum_comp (contrEquiv1 _ K rfl rfl).symm]
  exact Finset.sum_congr rfl fun k _ =>
    congrArg₂ _ (congrArg x0 (Shape.idx_ext₂ rfl rfl)) (congrArg x1 (Shape.idx_ext₂ rfl rfl))

-- The same with both operands contracted over their rows: read at (k, row) and (k, column).
theorem rowsDot_apply {M K N : ℕ} {φ₁ φ₂ : FTy} {wf} (x0 : FVec Ideal ⟨2, ![K, M]⟩ φ₁) (x1 : FVec Ideal ⟨2, ![K, N]⟩ φ₂)
    (g : Fin M) (h : Fin N) :
    FloatOps.matmul (⟨[0], [0], [1], [1], [], [], wf⟩ : DotDims ⟨2, ![K, M]⟩ ⟨2, ![K, N]⟩ ⟨2, ![M, N]⟩) none x0 x1
        (constant _ .f32 0x00000000#32) (ix2 g h) = ∑ k : Fin K, x0 (ix2 k g) * x1 (ix2 k h) := by
  rw [Ideal.matmul_constant_zero_apply, ← Equiv.sum_comp (contrEquiv1 _ K rfl rfl).symm]
  exact Finset.sum_congr rfl fun k _ =>
    congrArg₂ _ (congrArg x0 (Shape.idx_ext₂ rfl rfl)) (congrArg x1 (Shape.idx_ext₂ rfl rfl))

-- Every index is (row, column); there the broadcast reads the one row at that column and the constant reads zero.
theorem biasRelu_apply {M N : ℕ} {h0 h1 hb} (x0 : (⟨2, ![M, N]⟩ : Shape).Idx → EReal) (x1 : (⟨2, ![1, N]⟩ : Shape).Idx → EReal)
    (j : (⟨2, ![M, N]⟩ : Shape).Idx) :
    maximumf (F := Ideal) (φ := .f32) (addf (shapeCast ⟨2, ![M, N]⟩ x0 h0) (broadcastTo ⟨2, ![M, N]⟩ (shapeCast ⟨2, ![1, N]⟩ x1 h1) hb))
        (broadcast ⟨2, ![M, N]⟩ (Scalar.ofBits .f32 0x00000000#32)) j
      = max (x0 j + x1 (ix2 (0 : Fin 1) ⟨(j 1).val, idx2_lt1 j⟩)) 0 := by
  obtain ⟨p, q, rfl⟩ : ∃ p q, j = ix2 p q := ⟨j 0, j 1, eq_ix2 j⟩
  rw [maximumf_apply, addf_apply, broadcast_apply, shapeCast_self, shapeCast_self, broadcastTo_1b_ab_apply]
  exact congrArg _ Ideal.ofBits_zero_f32

-- r / B · B ≤ r < r / B · B + B, and a column index is below the column count.
theorem mem_rowBlock {R C : ℕ} (B : ℕ) {ix : Fin 2 → ℕ} {inb} (i : (⟨2, ![R, C]⟩ : Shape).Idx) (hB : 0 < B)
    (h0 : ix 0 = (i 0).val / B) (h1 : ix 1 = 0) :
    i ∈ (Rect.unit (s := ⟨2, ![R, C]⟩) (fun a => ix a * ![B, C] a) ![B, C] inb).set := by
  rw [Rect.mem_set_unit]
  intro a
  match a with
  | ⟨0, _⟩ =>
    show ix 0 * B ≤ (i 0).val ∧ (i 0).val < ix 0 * B + B
    rw [h0]; exact ⟨Nat.div_mul_le_self _ _, Nat.lt_div_mul_add hB⟩
  | ⟨1, _⟩ =>
    show ix 1 * C ≤ (i 1).val ∧ (i 1).val < ix 1 * C + C
    rw [h1]; have := idx2_lt1 i; omega

theorem mem_slice_whole {sig : RefSig} {κ : Kind} (b : Ref sig κ) (r : Rect b.ty.shape) {i : b.ty.shape.Idx} (h : i ∈ r.set) :
    i ∈ ((View.whole b).slice r).set := (View.set_slice_whole b r).symm ▸ h

-- The one-bit equality of two words, widened and converted, is 1 where they agree and 0 elsewhere.
theorem onehot_word (a b : BitVec 32) :
    FloatOps.sitofp (F := Ideal) .f32 ((IntOp.cmpi .eq a b).setWidth 32) = if a = b then (1 : EReal) else 0 := by
  show (((((IntOp.cmpi .eq a b).setWidth 32).toInt : ℤ) : ℝ) : EReal) = _
  by_cases h : a = b
  · subst h
    rw [if_pos rfl, show IntOp.cmpi .eq a a = 1#1 from by simp [IntOp.cmpi], show ((1#1 : BitVec 1).setWidth 32).toInt = 1 from by decide]
    simp
  · rw [if_neg h, show IntOp.cmpi .eq a b = 0#1 from by
      show BitVec.ofBool (a == b) = 0#1
      rw [show (a == b) = false from beq_eq_false_iff_ne.mpr h]; rfl,
      show ((0#1 : BitVec 1).setWidth 32).toInt = 0 from by decide]
    simp

end Cert.VLib
-- ==== Proof.KI.V0.lean ====
import proofs.«416252_j75050258530751_2_alg».proof.Proof.KI.R0
import proofs.«416252_j75050258530751_2_alg».proof.Proof.KI.ValDefs
import proofs.«416252_j75050258530751_2_alg».proof.Proof.KI.VLib

namespace Cert.KernelIdeal.Hand

open Cert.KernelIdeal Cert.KernelIdeal.Gen Cert.VLib Idealize.ShloMosaic Idealize.ShloMosaic.TcCoe Idealize.ShloMosaic.ValueIdx

variable (V : (c : Dev nD) → (b : Ref sig .tc) → Buf (Elt Ideal) ((c : Thread nD τ).loc b))

namespace Reg0

theorem index_facts0 : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (0 : Fin 2) = t.val
    ∧ win0_2.index t (1 : Fin 2) = 0 :=
  (by decide +kernel : ∀ t : Fin grid0.N, _)

-- Entry by entry the block product is the sum over the shared axis, and each block entry is its array's at the matching index.
theorem flushed0_2_eq (c : Dev nD) (t : Fin cfg0.N) :
    (dat0 (F := Ideal) V c).flushed 2 t
      = ((cfg0.win 2).blk t).view.read (Elt Ideal) (matProduct128x32 (V c main_arg0) (V c main_arg9)) := by
  have := index_facts0 t
  show (cfg0.win 2).cut (grid0.coords t) ((dat0 (F := Ideal) V c).after 2 t) = _
  rw [after0_2, out0_2, View.canon_unit_zero zero2, View.ld_unit_zero zero2, View.ld_unit_zero zero2]
  funext j
  show _ = matProduct128x32 _ _ (((cfg0.win 2).blk t).view.emb j)
  refine (plainDot_apply _ _ _).trans (Finset.sum_congr rfl fun k _ => congrArg₂ (· * ·)
    (congrArg (V c main_arg0) (Shape.idx_ext₂ ?_ ?_)) (congrArg (V c main_arg9) (Shape.idx_ext₂ ?_ ?_)))
  · show win0_0.index t (0 : Fin 2) * 10000 + 1 * (j 0).val = win0_2.index t (0 : Fin 2) * 10000 + 1 * (j 0).val; omega
  · show win0_0.index t (1 : Fin 2) * 128 + 1 * k.val = k.val; omega
  · show win0_1.index t (0 : Fin 2) * 128 + 1 * k.val = k.val; omega
  · show win0_1.index t (1 : Fin 2) * 32 + 1 * (j 1).val = win0_2.index t (1 : Fin 2) * 32 + 1 * (j 1).val; omega

-- Row r lies in the block of point r / 10000.
theorem cover0 (i : S100000x32.Idx) : ∃ t : Fin cfg0.N, (cfg0.win 2).flush t = true ∧ i ∈ ((cfg0.win 2).blk t).view.set := by
  have := idx2_lt0 i
  have e := index_facts0 ⟨(i 0).val / 10000, by show _ < 10; omega⟩
  exact ⟨_, flush0_2 _, mem_slice_whole _ _ (mem_rowBlock 10000 i (by decide) e.2.2.2.2.1 e.2.2.2.2.2)⟩

end Reg0

theorem final0 (c : Dev nD) :
    (dat0 (F := Ideal) V c).arrAt 2 cfg0.N = matProduct128x32 (V c main_arg0) (V c main_arg9) :=
  (dat0 (F := Ideal) V c).arrAt_eq_of_cover 2 _ (fun t _ => Reg0.flushed0_2_eq V c t) Reg0.cover0

end Cert.KernelIdeal.Hand
-- ==== Proof.KI.V1.lean ====
import proofs.«416252_j75050258530751_2_alg».proof.Proof.KI.R1
import proofs.«416252_j75050258530751_2_alg».proof.Proof.KI.ValDefs
import proofs.«416252_j75050258530751_2_alg».proof.Proof.KI.VLib

namespace Cert.KernelIdeal.Hand

open Cert.KernelIdeal Cert.KernelIdeal.Gen Cert.VLib Idealize.ShloMosaic Idealize.ShloMosaic.TcCoe Idealize.ShloMosaic.ValueIdx

variable (V : (c : Dev nD) → (b : Ref sig .tc) → Buf (Elt Ideal) ((c : Thread nD τ).loc b))

namespace Reg1

theorem index_facts : ∀ t : Fin cfg1.N, win1_0.index t (0 : Fin 2) = win1_2.index t (0 : Fin 2)
    ∧ win1_0.index t (1 : Fin 2) = win1_2.index t (1 : Fin 2)
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

-- Entry by entry: the block's entry plus the bias row's entry in its column, rectified, each read off its array at the matching index.
theorem flushed_eq (c : Dev nD) (t : Fin cfg1.N) :
    (dat1 (F := Ideal) V c).flushed 2 t
      = ((cfg1.win 2).blk t).view.read (Elt Ideal) (biasRelu32 (V c main_v42) (V c main_v43)) := by
  have := index_facts t
  show (cfg1.win 2).cut (grid1.coords t) ((dat1 V c).after 2 t) = _
  rw [after1_2, out1_2, View.canon_unit_zero zero2, View.ld_unit_zero zero2, View.ld_unit_zero zero2]
  funext j
  refine (biasRelu_apply _ _ _).trans (congrArg₂ (fun x y : EReal => max (x + y) 0)
    (congrArg (V c main_v42) (Shape.idx_ext₂ ?_ ?_)) (congrArg (V c main_v43) (Shape.idx_ext₂ ?_ ?_)))
  · show win1_0.index t (0 : Fin 2) * 10000 + 1 * (j 0).val = win1_2.index t (0 : Fin 2) * 10000 + 1 * (j 0).val; omega
  · show win1_0.index t (1 : Fin 2) * 32 + 1 * (j 1).val = win1_2.index t (1 : Fin 2) * 32 + 1 * (j 1).val; omega
  · show win1_1.index t (0 : Fin 2) * 1 + 1 * 0 = 0; omega
  · show win1_1.index t (1 : Fin 2) * 32 + 1 * (j 1).val = win1_2.index t (1 : Fin 2) * 32 + 1 * (j 1).val; omega

-- Row r lies in the block of point r / 10000.
theorem covered (i : S100000x32.Idx) : ∃ t : Fin cfg1.N, (cfg1.win 2).flush t = true ∧ i ∈ ((cfg1.win 2).blk t).view.set := by
  have := idx2_lt0 i
  have e := index_facts ⟨(i 0).val / 10000, by show _ < 10; omega⟩
  exact ⟨_, flush1_2 _, mem_slice_whole _ _ (mem_rowBlock 10000 i (by decide) e.2.2.2.2.1 e.2.2.2.2.2)⟩

end Reg1

theorem final1 (c : Dev nD) :
    (dat1 (F := Ideal) V c).arrAt 2 cfg1.N = biasRelu32 (V c main_v42) (V c main_v43) :=
  (dat1 (F := Ideal) V c).arrAt_eq_of_cover 2 _ (fun t _ => Reg1.flushed_eq V c t) Reg1.covered

end Cert.KernelIdeal.Hand
-- ==== Proof.KI.V2.lean ====
import proofs.«416252_j75050258530751_2_alg».proof.Proof.KI.R2
import proofs.«416252_j75050258530751_2_alg».proof.Proof.KI.ValDefs
import proofs.«416252_j75050258530751_2_alg».proof.Proof.KI.VLib

namespace Cert.KernelIdeal.Hand

open Cert.KernelIdeal Cert.KernelIdeal.Gen Cert.VLib Idealize.ShloMosaic Idealize.ShloMosaic.TcCoe Idealize.ShloMosaic.ValueIdx

variable (V : (c : Dev nD) → (b : Ref sig .tc) → Buf (Elt Ideal) ((c : Thread nD τ).loc b))

namespace Reg2

theorem index_facts2 : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (0 : Fin 2) = t.val
    ∧ win2_2.index t (1 : Fin 2) = 0 :=
  (by decide +kernel : ∀ t : Fin grid2.N, _)

-- Entry by entry the block product is the sum over the shared axis, and each block entry is its array's at the matching index.
theorem flushed2_2_eq (c : Dev nD) (t : Fin cfg2.N) :
    (dat2 (F := Ideal) V c).flushed 2 t
      = ((cfg2.win 2).blk t).view.read (Elt Ideal) (matProduct32x64 (V c main_v44) (V c main_arg11)) := by
  have := index_facts2 t
  show (cfg2.win 2).cut (grid2.coords t) ((dat2 (F := Ideal) V c).after 2 t) = _
  rw [after2_2, out2_2, View.canon_unit_zero zero2, View.ld_unit_zero zero2, View.ld_unit_zero zero2,
    k2_pay1, shapeCast_self]
  funext j
  show _ = matProduct32x64 _ _ (((cfg2.win 2).blk t).view.emb j)
  refine (plainDot_apply _ _ _).trans (Finset.sum_congr rfl fun k _ => congrArg₂ (· * ·)
    (congrArg (V c main_v44) (Shape.idx_ext₂ ?_ ?_)) (congrArg (V c main_arg11) (Shape.idx_ext₂ ?_ ?_)))
  · show win2_0.index t (0 : Fin 2) * 10000 + 1 * (j 0).val = win2_2.index t (0 : Fin 2) * 10000 + 1 * (j 0).val; omega
  · show win2_0.index t (1 : Fin 2) * 32 + 1 * k.val = k.val; omega
  · show win2_1.index t (0 : Fin 2) * 32 + 1 * k.val = k.val; omega
  · show win2_1.index t (1 : Fin 2) * 64 + 1 * (j 1).val = win2_2.index t (1 : Fin 2) * 64 + 1 * (j 1).val; omega

-- Row r lies in the block of point r / 10000.
theorem cover2 (i : S100000x64.Idx) : ∃ t : Fin cfg2.N, (cfg2.win 2).flush t = true ∧ i ∈ ((cfg2.win 2).blk t).view.set := by
  have := idx2_lt0 i
  have e := index_facts2 ⟨(i 0).val / 10000, by show _ < 10; omega⟩
  exact ⟨_, flush2_2 _, mem_slice_whole _ _ (mem_rowBlock 10000 i (by decide) e.2.2.2.2.1 e.2.2.2.2.2)⟩

end Reg2

theorem final2 (c : Dev nD) :
    (dat2 (F := Ideal) V c).arrAt 2 cfg2.N = matProduct32x64 (V c main_v44) (V c main_arg11) :=
  (dat2 (F := Ideal) V c).arrAt_eq_of_cover 2 _ (fun t _ => Reg2.flushed2_2_eq V c t) Reg2.cover2

end Cert.KernelIdeal.Hand
-- ==== Proof.KI.V3.lean ====
import proofs.«416252_j75050258530751_2_alg».proof.Proof.KI.R3
import proofs.«416252_j75050258530751_2_alg».proof.Proof.KI.ValDefs
import proofs.«416252_j75050258530751_2_alg».proof.Proof.KI.VLib

namespace Cert.KernelIdeal.Hand

open Cert.KernelIdeal Cert.KernelIdeal.Gen Cert.VLib Idealize.ShloMosaic Idealize.ShloMosaic.TcCoe Idealize.ShloMosaic.ValueIdx

variable (V : (c : Dev nD) → (b : Ref sig .tc) → Buf (Elt Ideal) ((c : Thread nD τ).loc b))

namespace Reg3

theorem index_facts : ∀ t : Fin cfg3.N, win3_0.index t (0 : Fin 2) = win3_2.index t (0 : Fin 2)
    ∧ win3_0.index t (1 : Fin 2) = win3_2.index t (1 : Fin 2)
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

-- Entry by entry: the block's entry plus the bias row's entry in its column, rectified, each read off its array at the matching index.
theorem flushed_eq (c : Dev nD) (t : Fin cfg3.N) :
    (dat3 (F := Ideal) V c).flushed 2 t
      = ((cfg3.win 2).blk t).view.read (Elt Ideal) (biasRelu64 (V c main_v58) (V c main_v59)) := by
  have := index_facts t
  show (cfg3.win 2).cut (grid3.coords t) ((dat3 V c).after 2 t) = _
  rw [after3_2, out3_2, View.canon_unit_zero zero2, View.ld_unit_zero zero2, View.ld_unit_zero zero2]
  funext j
  refine (biasRelu_apply _ _ _).trans (congrArg₂ (fun x y : EReal => max (x + y) 0)
    (congrArg (V c main_v58) (Shape.idx_ext₂ ?_ ?_)) (congrArg (V c main_v59) (Shape.idx_ext₂ ?_ ?_)))
  · show win3_0.index t (0 : Fin 2) * 10000 + 1 * (j 0).val = win3_2.index t (0 : Fin 2) * 10000 + 1 * (j 0).val; omega
  · show win3_0.index t (1 : Fin 2) * 64 + 1 * (j 1).val = win3_2.index t (1 : Fin 2) * 64 + 1 * (j 1).val; omega
  · show win3_1.index t (0 : Fin 2) * 1 + 1 * 0 = 0; omega
  · show win3_1.index t (1 : Fin 2) * 64 + 1 * (j 1).val = win3_2.index t (1 : Fin 2) * 64 + 1 * (j 1).val; omega

-- Row r lies in the block of point r / 10000.
theorem covered (i : S100000x64.Idx) : ∃ t : Fin cfg3.N, (cfg3.win 2).flush t = true ∧ i ∈ ((cfg3.win 2).blk t).view.set := by
  have := idx2_lt0 i
  have e := index_facts ⟨(i 0).val / 10000, by show _ < 10; omega⟩
  exact ⟨_, flush3_2 _, mem_slice_whole _ _ (mem_rowBlock 10000 i (by decide) e.2.2.2.2.1 e.2.2.2.2.2)⟩

end Reg3

theorem final3 (c : Dev nD) :
    (dat3 (F := Ideal) V c).arrAt 2 cfg3.N = biasRelu64 (V c main_v58) (V c main_v59) :=
  (dat3 (F := Ideal) V c).arrAt_eq_of_cover 2 _ (fun t _ => Reg3.flushed_eq V c t) Reg3.covered

end Cert.KernelIdeal.Hand
-- ==== Proof.KI.V4.lean ====
import proofs.«416252_j75050258530751_2_alg».proof.Proof.KI.R4
import proofs.«416252_j75050258530751_2_alg».proof.Proof.KI.ValDefs
import proofs.«416252_j75050258530751_2_alg».proof.Proof.KI.VLib

namespace Cert.KernelIdeal.Hand

open Cert.KernelIdeal Cert.KernelIdeal.Gen Cert.VLib Idealize.ShloMosaic Idealize.ShloMosaic.TcCoe Idealize.ShloMosaic.ValueIdx

variable (V : (c : Dev nD) → (b : Ref sig .tc) → Buf (Elt Ideal) ((c : Thread nD τ).loc b))

namespace Reg4

theorem index_facts4 : ∀ t : Fin cfg4.N, win4_0.index t (0 : Fin 2) = win4_2.index t (0 : Fin 2)
    ∧ win4_0.index t (1 : Fin 2) = 0
    ∧ win4_1.index t (0 : Fin 2) = 0
    ∧ win4_1.index t (1 : Fin 2) = 0
    ∧ win4_2.index t (0 : Fin 2) = t.val
    ∧ win4_2.index t (1 : Fin 2) = 0 :=
  (by decide +kernel : ∀ t : Fin grid4.N, _)

-- Entry by entry the block product is the sum over the shared axis, and each block entry is its array's at the matching index.
theorem flushed4_2_eq (c : Dev nD) (t : Fin cfg4.N) :
    (dat4 (F := Ideal) V c).flushed 2 t
      = ((cfg4.win 2).blk t).view.read (Elt Ideal) (matProduct64x64 (V c main_v60) (V c main_arg13)) := by
  have := index_facts4 t
  show (cfg4.win 2).cut (grid4.coords t) ((dat4 (F := Ideal) V c).after 2 t) = _
  rw [after4_2, out4_2, View.canon_unit_zero zero2, View.ld_unit_zero zero2, View.ld_unit_zero zero2,
    k4_pay1, shapeCast_self]
  funext j
  show _ = matProduct64x64 _ _ (((cfg4.win 2).blk t).view.emb j)
  refine (plainDot_apply _ _ _).trans (Finset.sum_congr rfl fun k _ => congrArg₂ (· * ·)
    (congrArg (V c main_v60) (Shape.idx_ext₂ ?_ ?_)) (congrArg (V c main_arg13) (Shape.idx_ext₂ ?_ ?_)))
  · show win4_0.index t (0 : Fin 2) * 10000 + 1 * (j 0).val = win4_2.index t (0 : Fin 2) * 10000 + 1 * (j 0).val; omega
  · show win4_0.index t (1 : Fin 2) * 64 + 1 * k.val = k.val; omega
  · show win4_1.index t (0 : Fin 2) * 64 + 1 * k.val = k.val; omega
  · show win4_1.index t (1 : Fin 2) * 64 + 1 * (j 1).val = win4_2.index t (1 : Fin 2) * 64 + 1 * (j 1).val; omega

-- Row r lies in the block of point r / 10000.
theorem cover4 (i : S100000x64.Idx) : ∃ t : Fin cfg4.N, (cfg4.win 2).flush t = true ∧ i ∈ ((cfg4.win 2).blk t).view.set := by
  have := idx2_lt0 i
  have e := index_facts4 ⟨(i 0).val / 10000, by show _ < 10; omega⟩
  exact ⟨_, flush4_2 _, mem_slice_whole _ _ (mem_rowBlock 10000 i (by decide) e.2.2.2.2.1 e.2.2.2.2.2)⟩

end Reg4

theorem final4 (c : Dev nD) :
    (dat4 (F := Ideal) V c).arrAt 2 cfg4.N = matProduct64x64 (V c main_v60) (V c main_arg13) :=
  (dat4 (F := Ideal) V c).arrAt_eq_of_cover 2 _ (fun t _ => Reg4.flushed4_2_eq V c t) Reg4.cover4

end Cert.KernelIdeal.Hand
-- ==== Proof.KI.V5.lean ====
import proofs.«416252_j75050258530751_2_alg».proof.Proof.KI.R5
import proofs.«416252_j75050258530751_2_alg».proof.Proof.KI.ValDefs
import proofs.«416252_j75050258530751_2_alg».proof.Proof.KI.VLib

namespace Cert.KernelIdeal.Hand

open Cert.KernelIdeal Cert.KernelIdeal.Gen Cert.VLib Idealize.ShloMosaic Idealize.ShloMosaic.TcCoe Idealize.ShloMosaic.ValueIdx

variable (V : (c : Dev nD) → (b : Ref sig .tc) → Buf (Elt Ideal) ((c : Thread nD τ).loc b))

namespace Reg5

theorem index_facts : ∀ t : Fin cfg5.N, win5_0.index t (0 : Fin 2) = win5_2.index t (0 : Fin 2)
    ∧ win5_0.index t (1 : Fin 2) = win5_2.index t (1 : Fin 2)
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

-- Entry by entry: the block's entry plus the bias row's entry in its column, rectified, each read off its array at the matching index.
theorem flushed_eq (c : Dev nD) (t : Fin cfg5.N) :
    (dat5 (F := Ideal) V c).flushed 2 t
      = ((cfg5.win 2).blk t).view.read (Elt Ideal) (biasRelu64 (V c main_v74) (V c main_v75)) := by
  have := index_facts t
  show (cfg5.win 2).cut (grid5.coords t) ((dat5 V c).after 2 t) = _
  rw [after5_2, out5_2, View.canon_unit_zero zero2, View.ld_unit_zero zero2, View.ld_unit_zero zero2]
  funext j
  refine (biasRelu_apply _ _ _).trans (congrArg₂ (fun x y : EReal => max (x + y) 0)
    (congrArg (V c main_v74) (Shape.idx_ext₂ ?_ ?_)) (congrArg (V c main_v75) (Shape.idx_ext₂ ?_ ?_)))
  · show win5_0.index t (0 : Fin 2) * 10000 + 1 * (j 0).val = win5_2.index t (0 : Fin 2) * 10000 + 1 * (j 0).val; omega
  · show win5_0.index t (1 : Fin 2) * 64 + 1 * (j 1).val = win5_2.index t (1 : Fin 2) * 64 + 1 * (j 1).val; omega
  · show win5_1.index t (0 : Fin 2) * 1 + 1 * 0 = 0; omega
  · show win5_1.index t (1 : Fin 2) * 64 + 1 * (j 1).val = win5_2.index t (1 : Fin 2) * 64 + 1 * (j 1).val; omega

-- Row r lies in the block of point r / 10000.
theorem covered (i : S100000x64.Idx) : ∃ t : Fin cfg5.N, (cfg5.win 2).flush t = true ∧ i ∈ ((cfg5.win 2).blk t).view.set := by
  have := idx2_lt0 i
  have e := index_facts ⟨(i 0).val / 10000, by show _ < 10; omega⟩
  exact ⟨_, flush5_2 _, mem_slice_whole _ _ (mem_rowBlock 10000 i (by decide) e.2.2.2.2.1 e.2.2.2.2.2)⟩

end Reg5

theorem final5 (c : Dev nD) :
    (dat5 (F := Ideal) V c).arrAt 2 cfg5.N = biasRelu64 (V c main_v74) (V c main_v75) :=
  (dat5 (F := Ideal) V c).arrAt_eq_of_cover 2 _ (fun t _ => Reg5.flushed_eq V c t) Reg5.covered

end Cert.KernelIdeal.Hand
-- ==== Proof.KI.V6.lean ====
import proofs.«416252_j75050258530751_2_alg».proof.Proof.KI.R6
import proofs.«416252_j75050258530751_2_alg».proof.Proof.KI.ValDefs
import proofs.«416252_j75050258530751_2_alg».proof.Proof.KI.VLib

namespace Cert.KernelIdeal.Hand

open Cert.KernelIdeal Cert.KernelIdeal.Gen Cert.VLib Idealize.ShloMosaic Idealize.ShloMosaic.TcCoe Idealize.ShloMosaic.ValueIdx

variable (V : (c : Dev nD) → (b : Ref sig .tc) → Buf (Elt Ideal) ((c : Thread nD τ).loc b))

namespace Reg6

-- At (r, g) the broadcast reads row r's word and the iota reads g.
theorem onehot_apply (v3 : IVec S2000x1 32) (r : Fin 2000) (g : Fin 512) :
    (sitofp .f32 (extui 32 (cmpi .eq (broadcastTo S2000x512 v3 broadcasts_S2000x1_S2000x512)
        (iota .tc S2000x512 32 [1] iota_S2000x512_d1_w32)) natLt_1_32) : FVec Ideal S2000x512 .f32) (ix2 r g)
      = if v3 (ix2 r 0) = BitVec.ofNat 32 g.val then (1 : EReal) else 0 := by
  refine (onehot_word _ _).trans ?_
  rw [broadcastTo_apply v3 _ (ix2 r g) (ix2 r 0) (Fin.forall_fin_two.mpr ⟨rfl, rfl⟩), iota_single_apply]

-- The product's entry sums, over the block's rows, a one-hot entry times an entry of x.
theorem poolStep_apply (v3 : Vec Ideal S2000x1 .i32) (v11 : Vec Ideal S2000x64 .f32) (v14 : Vec Ideal S512x64 .f32)
    (g : Fin 512) (h : Fin 64) :
    k6_pay2 (F := Ideal) v3 v11 v14 (ix2 g h)
      = (v14 : S512x64.Idx → EReal) (ix2 g h) + ∑ r : Fin 2000, (if (v3 : IVec S2000x1 32) (ix2 r 0) = BitVec.ofNat 32 g.val
          then (v11 : S2000x64.Idx → EReal) (ix2 r h) else 0) := by
  unfold k6_pay2
  simp only [shapeCast_self]
  refine congrArg (v14 (ix2 g h) + ·) ((rowsDot_apply _ _ g h).trans (Finset.sum_congr rfl fun r _ => ?_))
  rw [truncf_apply, truncf_apply, onehot_apply, ite_mul, one_mul, zero_mul]

theorem poolZero_apply (j : S512x64.Idx) : k6_pay1 (F := Ideal) j = (0 : EReal) := by
  unfold k6_pay1
  rw [shapeCast_self]
  exact Ideal.ofBits_zero_f32

noncomputable def rowTerm (bt : IVec S100000x1 32) (x : S100000x64.Idx → EReal) (g : Fin 512) (h : Fin 64) (m : ℕ) : EReal :=
  if hm : m < 100000 then (if bt (ix2 ⟨m, hm⟩ 0) = BitVec.ofNat 32 g.val then x (ix2 ⟨m, hm⟩ h) else 0) else 0

theorem index_facts6 : ∀ t : Fin cfg6.N, win6_0.index t (0 : Fin 2) = t.val
    ∧ win6_0.index t (1 : Fin 2) = 0
    ∧ win6_1.index t (0 : Fin 2) = t.val
    ∧ win6_1.index t (1 : Fin 2) = 0
    ∧ win6_2.index t (0 : Fin 2) = 0
    ∧ win6_2.index t (1 : Fin 2) = 0 :=
  (by decide +kernel : ∀ t : Fin grid6.N, _)

-- By induction on n: point n adds the terms of rows 2000·n … 2000·n + 1999, its blocks' rows.
theorem accAt6_apply (c : Dev nD) (g : Fin 512) (h : Fin 64) : ∀ n : ℕ, n ≤ 50 →
    (accAt6 (F := Ideal) V c n : S512x64.Idx → EReal) (ix2 g h)
      = ∑ m ∈ Finset.range (2000 * n), rowTerm (V c main_v77) (V c main_v76) g h m
  | 0, _ => by
    rw [Nat.mul_zero, Finset.sum_range_zero]
    exact poolZero_apply _
  | n + 1, hn => by
    have hN : cfg6.N = 50 := N_6
    have hlt : n < cfg6.N := by omega
    have := index_facts6 ⟨n, hlt⟩
    dsimp only at this
    rw [show accAt6 (F := Ideal) V c (n + 1) = _ from accAt6_succ V c ⟨n, hlt⟩, poolStep_apply, mul_add_one, Finset.sum_range_add,
      Finset.sum_range fun x => rowTerm _ _ g h (2000 * n + x)]
    refine congrArg₂ (· + ·) (accAt6_apply c g h n (by omega)) (Finset.sum_congr rfl fun r _ => ?_)
    have := r.isLt
    unfold rowTerm
    rw [dif_pos (show 2000 * n + r.val < 100000 by omega)]
    refine congrArg₂ (fun a b => if a = BitVec.ofNat 32 g.val then b else 0)
      (congrArg (V c main_v77) (Shape.idx_ext₂ ?_ ?_)) (congrArg (V c main_v76) (Shape.idx_ext₂ ?_ ?_))
    · show win6_1.index ⟨n, hlt⟩ (0 : Fin 2) * 2000 + 1 * r.val = 2000 * n + r.val; omega
    · show win6_1.index ⟨n, hlt⟩ (1 : Fin 2) * 1 + 1 * 0 = 0; omega
    · show win6_0.index ⟨n, hlt⟩ (0 : Fin 2) * 2000 + 1 * r.val = 2000 * n + r.val; omega
    · show win6_0.index ⟨n, hlt⟩ (1 : Fin 2) * 64 + 1 * h.val = h.val; omega

-- The output's one block is the whole array: its block index is (0, 0).
theorem flushed6_2_eq (c : Dev nD) (t : Fin cfg6.N) (hf : (cfg6.win 2).flush t = true) :
    (dat6 (F := Ideal) V c).flushed 2 t = ((cfg6.win 2).blk t).view.read (Elt Ideal) (accAt6 (F := Ideal) V c 50) := by
  have e := index_facts6 t
  have h49 : t.val + 1 = 50 := by have := (flush6_2 t).mp hf; have := t.isLt; have : cfg6.N = 50 := N_6; omega
  show (cfg6.win 2).cut (grid6.coords t) ((dat6 (F := Ideal) V c).after 2 t) = _
  rw [after6_2, h49]
  funext j
  exact congrArg (accAt6 (F := Ideal) V c 50) (Shape.idx_ext₂ (win6_2.rect_emb_val_of_index_zero t 0 e.2.2.2.2.1 j)
    (win6_2.rect_emb_val_of_index_zero t 1 e.2.2.2.2.2 j)).symm

theorem cover6 (i : S512x64.Idx) : ∃ t : Fin cfg6.N, (cfg6.win 2).flush t = true ∧ i ∈ ((cfg6.win 2).blk t).view.set := by
  have e := index_facts6 ⟨49, by have : cfg6.N = 50 := N_6; omega⟩
  exact ⟨_, (flush6_2 _).mpr rfl, mem_slice_whole _ _
    (mem_rowBlock 512 i (by decide) (e.2.2.2.2.1.trans (Nat.div_eq_of_lt (idx2_lt0 i)).symm) e.2.2.2.2.2)⟩

end Reg6

theorem final6 (c : Dev nD) :
    (dat6 (F := Ideal) V c).arrAt 2 cfg6.N = maskedSum (V c main_v77) (V c main_v76) := by
  rw [(dat6 (F := Ideal) V c).arrAt_eq_of_cover 2 _ (Reg6.flushed6_2_eq V c) Reg6.cover6]
  funext j
  obtain ⟨g, h, rfl⟩ : ∃ g h, j = ix2 g h := ⟨j 0, j 1, eq_ix2 j⟩
  rw [Reg6.accAt6_apply V c g h 50 le_rfl, Finset.sum_range]
  exact Finset.sum_congr rfl fun n _ => dif_pos n.isLt

end Cert.KernelIdeal.Hand
-- ==== Proof.KI.Tower0.lean ====
/-
  One tower of the network, boundary by boundary: each buffer a later item reads is one step's function of the buffers
  the item before it left; composing the steps gives `towerV` of the tower's arguments.
-/
import proofs.«416252_j75050258530751_2_alg».proof.Proof.KI.Back
import proofs.«416252_j75050258530751_2_alg».proof.Proof.KI.St1
import proofs.«416252_j75050258530751_2_alg».proof.Proof.KI.ValDefs
import proofs.«416252_j75050258530751_2_alg».proof.Proof.KI.V0
import proofs.«416252_j75050258530751_2_alg».proof.Proof.KI.V1
import proofs.«416252_j75050258530751_2_alg».proof.Proof.KI.V2
import proofs.«416252_j75050258530751_2_alg».proof.Proof.KI.V3
import proofs.«416252_j75050258530751_2_alg».proof.Proof.KI.V4
import proofs.«416252_j75050258530751_2_alg».proof.Proof.KI.V5
import proofs.«416252_j75050258530751_2_alg».proof.Proof.KI.V6

set_option maxRecDepth 16384

noncomputable section

namespace Cert.KernelIdeal.Hand

open Cert.KernelIdeal Cert.KernelIdeal.Facts₀ Cert.KernelIdeal.Facts
open Idealize.ShloMosaic Idealize.ShloMosaic.TcCoe Idealize.SL.Sem

variable (m : (ℓ : Loc nD τ sig) → Buf (Elt Ideal) ℓ) (c : Dev nD)

theorem tw0_src1 : W1 m c main_v5 = srcT (m ((c : Thread nD τ).loc main_arg1)) := st_v5 (W0 m c)
theorem tw0_dst1 : W1 m c main_v6 = dstT (m ((c : Thread nD τ).loc main_arg1)) := st_v6 (W0 m c)
theorem tw0_nrm1 : W1 m c main_v28 = normT (F := Ideal) (m ((c : Thread nD τ).loc main_arg1)) := st_v28 (W0 m c)

-- No item between writes the edge lists or the normalisation.
theorem tw0_src2 : W2 m c main_v5 = srcT (m ((c : Thread nD τ).loc main_arg1)) :=
  (W2_of m c main_v5 (by decide)).trans (tw0_src1 m c)
theorem tw0_dst2 : W2 m c main_v6 = dstT (m ((c : Thread nD τ).loc main_arg1)) :=
  (W2_of m c main_v6 (by decide)).trans (tw0_dst1 m c)
theorem tw0_nrm2 : W2 m c main_v28 = normT (F := Ideal) (m ((c : Thread nD τ).loc main_arg1)) :=
  (W2_of m c main_v28 (by decide)).trans (tw0_nrm1 m c)
theorem tw0_src5 : W5 m c main_v5 = srcT (m ((c : Thread nD τ).loc main_arg1)) :=
  (W5_of m c main_v5 (by decide)).trans ((W4_of m c main_v5 (by decide)).trans ((W3_of m c main_v5 (by decide)).trans (tw0_src2 m c)))
theorem tw0_dst5 : W5 m c main_v6 = dstT (m ((c : Thread nD τ).loc main_arg1)) :=
  (W5_of m c main_v6 (by decide)).trans ((W4_of m c main_v6 (by decide)).trans ((W3_of m c main_v6 (by decide)).trans (tw0_dst2 m c)))
theorem tw0_nrm5 : W5 m c main_v28 = normT (F := Ideal) (m ((c : Thread nD τ).loc main_arg1)) :=
  (W5_of m c main_v28 (by decide)).trans ((W4_of m c main_v28 (by decide)).trans ((W3_of m c main_v28 (by decide)).trans (tw0_nrm2 m c)))
theorem tw0_src8 : W8 m c main_v5 = srcT (m ((c : Thread nD τ).loc main_arg1)) :=
  (W8_of m c main_v5 (by decide)).trans ((W7_of m c main_v5 (by decide)).trans ((W6_of m c main_v5 (by decide)).trans (tw0_src5 m c)))
theorem tw0_dst8 : W8 m c main_v6 = dstT (m ((c : Thread nD τ).loc main_arg1)) :=
  (W8_of m c main_v6 (by decide)).trans ((W7_of m c main_v6 (by decide)).trans ((W6_of m c main_v6 (by decide)).trans (tw0_dst5 m c)))
theorem tw0_nrm8 : W8 m c main_v28 = normT (F := Ideal) (m ((c : Thread nD τ).loc main_arg1)) :=
  (W8_of m c main_v28 (by decide)).trans ((W7_of m c main_v28 (by decide)).trans ((W6_of m c main_v28 (by decide)).trans (tw0_nrm5 m c)))

theorem tw0_h1 : W2 m c main_v29 = matProduct128x32 (m ((c : Thread nD τ).loc main_arg0)) (m ((c : Thread nD τ).loc main_arg9)) := by
  rw [W2_out]; unfold res0; rw [final0]
  exact congrArg₂ matProduct128x32 (W1_args m c main_arg0 (by decide)) (W1_args m c main_arg9 (by decide))

theorem tw0_a1 : W3 m c main_v42 = convK32 (F := Ideal) (W2 m c main_v29) (srcT (m ((c : Thread nD τ).loc main_arg1))) (dstT (m ((c : Thread nD τ).loc main_arg1))) (normT (F := Ideal) (m ((c : Thread nD τ).loc main_arg1))) := by
  refine (st_v42 (W2 m c)).trans ?_
  rw [show W2 m c (Proc.devRef .tc main_v29) = W2 m c main_v29 from rfl, show W2 m c (Proc.devRef .tc main_v5) = W2 m c main_v5 from rfl, tw0_src2, show W2 m c (Proc.devRef .tc main_v6) = W2 m c main_v6 from rfl, tw0_dst2,
    show W2 m c (Proc.devRef .tc main_v28) = W2 m c main_v28 from rfl, tw0_nrm2]
theorem tw0_b1 : W3 m c main_v43 = shapeCast S1x32 (m ((c : Thread nD τ).loc main_arg10)) shapeCasts_S32_S1x32 := by
  refine (st_v43 (W2 m c)).trans ?_
  rw [show W2 m c (Proc.devRef .tc main_arg10) = W2 m c main_arg10 from rfl, W2_args m c main_arg10 (by decide)]

theorem tw0_x1 : W4 m c main_v44 = biasRelu32 (W3 m c main_v42) (W3 m c main_v43) := by
  rw [W4_out]; unfold res1; exact final1 _ c

theorem tw0_h2 : W5 m c main_v45 = matProduct32x64 (W4 m c main_v44) (m ((c : Thread nD τ).loc main_arg11)) := by
  rw [W5_out]; unfold res2; rw [final2]
  exact congrArg (matProduct32x64 (W4 m c main_v44)) (W4_args m c main_arg11 (by decide))

theorem tw0_a2 : W6 m c main_v58 = convK64 (F := Ideal) (W5 m c main_v45) (srcT (m ((c : Thread nD τ).loc main_arg1))) (dstT (m ((c : Thread nD τ).loc main_arg1))) (normT (F := Ideal) (m ((c : Thread nD τ).loc main_arg1))) := by
  refine (st_v58 (W5 m c)).trans ?_
  rw [show W5 m c (Proc.devRef .tc main_v45) = W5 m c main_v45 from rfl, show W5 m c (Proc.devRef .tc main_v5) = W5 m c main_v5 from rfl, tw0_src5, show W5 m c (Proc.devRef .tc main_v6) = W5 m c main_v6 from rfl, tw0_dst5,
    show W5 m c (Proc.devRef .tc main_v28) = W5 m c main_v28 from rfl, tw0_nrm5]
theorem tw0_b2 : W6 m c main_v59 = shapeCast S1x64 (m ((c : Thread nD τ).loc main_arg12)) shapeCasts_S64_S1x64 := by
  refine (st_v59 (W5 m c)).trans ?_
  rw [show W5 m c (Proc.devRef .tc main_arg12) = W5 m c main_arg12 from rfl, W5_args m c main_arg12 (by decide)]

theorem tw0_x2 : W7 m c main_v60 = biasRelu64 (W6 m c main_v58) (W6 m c main_v59) := by
  rw [W7_out]; unfold res3; exact final3 _ c

theorem tw0_h3 : W8 m c main_v61 = matProduct64x64 (W7 m c main_v60) (m ((c : Thread nD τ).loc main_arg13)) := by
  rw [W8_out]; unfold res4; rw [final4]
  exact congrArg (matProduct64x64 (W7 m c main_v60)) (W7_args m c main_arg13 (by decide))

theorem tw0_a3 : W9 m c main_v74 = convK64 (F := Ideal) (W8 m c main_v61) (srcT (m ((c : Thread nD τ).loc main_arg1))) (dstT (m ((c : Thread nD τ).loc main_arg1))) (normT (F := Ideal) (m ((c : Thread nD τ).loc main_arg1))) := by
  refine (st_v74 (W8 m c)).trans ?_
  rw [show W8 m c (Proc.devRef .tc main_v61) = W8 m c main_v61 from rfl, show W8 m c (Proc.devRef .tc main_v5) = W8 m c main_v5 from rfl, tw0_src8, show W8 m c (Proc.devRef .tc main_v6) = W8 m c main_v6 from rfl, tw0_dst8,
    show W8 m c (Proc.devRef .tc main_v28) = W8 m c main_v28 from rfl, tw0_nrm8]
theorem tw0_b3 : W9 m c main_v75 = shapeCast S1x64 (m ((c : Thread nD τ).loc main_arg14)) shapeCasts_S64_S1x64 := by
  refine (st_v75 (W8 m c)).trans ?_
  rw [show W8 m c (Proc.devRef .tc main_arg14) = W8 m c main_arg14 from rfl, W8_args m c main_arg14 (by decide)]

theorem tw0_x3 : W10 m c main_v76 = biasRelu64 (W9 m c main_v74) (W9 m c main_v75) := by
  rw [W10_out]; unfold res5; exact final5 _ c

theorem tw0_col : W11 m c main_v77 = shapeCast S100000x1 (m ((c : Thread nD τ).loc main_arg2)) shapeCasts_S100000_S100000x1 := by
  refine (st_v77 (W10 m c)).trans ?_
  rw [show W10 m c (Proc.devRef .tc main_arg2) = W10 m c main_arg2 from rfl, W10_args m c main_arg2 (by decide)]

theorem tw0_pool : W12 m c main_v78 = maskedSum (W11 m c main_v77) (W11 m c main_v76) := by
  rw [W12_out]; unfold res6; exact final6 _ c

-- The steps composed: the pooled sums of the third layer's activations, divided by the graphs' sizes.
theorem tw0_out : W13 m c main_v87 = towerV (m ((c : Thread nD τ).loc main_arg0)) (m ((c : Thread nD τ).loc main_arg1)) (m ((c : Thread nD τ).loc main_arg2)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (st_v87 (W12 m c)).trans ?_
  rw [show W12 m c (Proc.devRef .tc main_v78) = W12 m c main_v78 from rfl, tw0_pool, tw0_col, W11_of m c main_v76 (by decide), tw0_x3, tw0_a3, tw0_b3, tw0_h3,
    tw0_x2, tw0_a2, tw0_b2, tw0_h2, tw0_x1, tw0_a1, tw0_b1, tw0_h1,
    show W12 m c (Proc.devRef .tc main_arg2) = W12 m c main_arg2 from rfl, W12_args m c main_arg2 (by decide)]
  rfl

end Cert.KernelIdeal.Hand

end
-- ==== Proof.KI.St2.lean ====
import proofs.«416252_j75050258530751_2_alg».proof.Proof.Gen.KernelIdeal.Launch
import proofs.«416252_j75050258530751_2_alg».proof.Proof.KI.HostTerms
import Idealize.ShloMosaic.Lib.StableHlo.Run

set_option maxRecDepth 16384

noncomputable section

namespace Cert.KernelIdeal.Hand

open Cert.KernelIdeal Cert.KernelIdeal.Facts₀ Cert.KernelIdeal.Facts
open Idealize.ShloMosaic Idealize.ShloMosaic.StableHlo

variable {F : FTy → Type} [FloatOps F]

variable (W : Valuation τ sig (Elt F))

theorem st_v93 : StableHlo.after Gen.hostOps7 W (Proc.devRef .tc main_v93) = srcT (W (Proc.devRef .tc main_arg4)) := by
  dsimp only [Gen.hostOps7]; after_results_simp; unfold srcT; rfl

theorem st_v94 : StableHlo.after Gen.hostOps7 W (Proc.devRef .tc main_v94) = dstT (W (Proc.devRef .tc main_arg4)) := by
  dsimp only [Gen.hostOps7]; after_results_simp; unfold dstT; rfl

theorem st_v116 : StableHlo.after Gen.hostOps7 W (Proc.devRef .tc main_v116) = normT (W (Proc.devRef .tc main_arg4)) := by
  dsimp only [Gen.hostOps7]; after_results_simp; unfold normT; rfl

theorem st_v130 : StableHlo.after Gen.hostOps8 W (Proc.devRef .tc main_v130) = convK32 (W (Proc.devRef .tc main_v117)) (W (Proc.devRef .tc main_v93)) (W (Proc.devRef .tc main_v94)) (W (Proc.devRef .tc main_v116)) := by
  dsimp only [Gen.hostOps8]; after_results_simp; unfold convK32; rfl

theorem st_v131 : StableHlo.after Gen.hostOps8 W (Proc.devRef .tc main_v131) = shapeCast S1x32 (W (Proc.devRef .tc main_arg10)) shapeCasts_S32_S1x32 := by
  dsimp only [Gen.hostOps8]; after_results; rfl

theorem st_v146 : StableHlo.after Gen.hostOps10 W (Proc.devRef .tc main_v146) = convK64 (W (Proc.devRef .tc main_v133)) (W (Proc.devRef .tc main_v93)) (W (Proc.devRef .tc main_v94)) (W (Proc.devRef .tc main_v116)) := by
  dsimp only [Gen.hostOps10]; after_results_simp; unfold convK64; rfl

theorem st_v147 : StableHlo.after Gen.hostOps10 W (Proc.devRef .tc main_v147) = shapeCast S1x64 (W (Proc.devRef .tc main_arg12)) shapeCasts_S64_S1x64 := by
  dsimp only [Gen.hostOps10]; after_results; rfl

theorem st_v162 : StableHlo.after Gen.hostOps12 W (Proc.devRef .tc main_v162) = convK64 (W (Proc.devRef .tc main_v149)) (W (Proc.devRef .tc main_v93)) (W (Proc.devRef .tc main_v94)) (W (Proc.devRef .tc main_v116)) := by
  dsimp only [Gen.hostOps12]; after_results_simp; unfold convK64; rfl

theorem st_v163 : StableHlo.after Gen.hostOps12 W (Proc.devRef .tc main_v163) = shapeCast S1x64 (W (Proc.devRef .tc main_arg14)) shapeCasts_S64_S1x64 := by
  dsimp only [Gen.hostOps12]; after_results; rfl

theorem st_v165 : StableHlo.after Gen.hostOps13 W (Proc.devRef .tc main_v165) = shapeCast S100000x1 (W (Proc.devRef .tc main_arg5)) shapeCasts_S100000_S100000x1 := by
  dsimp only [Gen.hostOps13]; after_results; rfl

theorem st_v175 : StableHlo.after Gen.hostOps14 W (Proc.devRef .tc main_v175) = tailT (W (Proc.devRef .tc main_v166)) (W (Proc.devRef .tc main_arg5)) := by
  dsimp only [Gen.hostOps14]; after_results_simp; unfold tailT; rfl

end Cert.KernelIdeal.Hand

end
-- ==== Proof.KI.V7.lean ====
import proofs.«416252_j75050258530751_2_alg».proof.Proof.KI.R7
import proofs.«416252_j75050258530751_2_alg».proof.Proof.KI.ValDefs
import proofs.«416252_j75050258530751_2_alg».proof.Proof.KI.VLib

namespace Cert.KernelIdeal.Hand

open Cert.KernelIdeal Cert.KernelIdeal.Gen Cert.VLib Idealize.ShloMosaic Idealize.ShloMosaic.TcCoe Idealize.ShloMosaic.ValueIdx

variable (V : (c : Dev nD) → (b : Ref sig .tc) → Buf (Elt Ideal) ((c : Thread nD τ).loc b))

namespace Reg7

theorem index_facts7 : ∀ t : Fin cfg7.N, win7_0.index t (0 : Fin 2) = win7_2.index t (0 : Fin 2)
    ∧ win7_0.index t (1 : Fin 2) = 0
    ∧ win7_1.index t (0 : Fin 2) = 0
    ∧ win7_1.index t (1 : Fin 2) = 0
    ∧ win7_2.index t (0 : Fin 2) = t.val
    ∧ win7_2.index t (1 : Fin 2) = 0 :=
  (by decide +kernel : ∀ t : Fin grid7.N, _)

-- Entry by entry the block product is the sum over the shared axis, and each block entry is its array's at the matching index.
theorem flushed7_2_eq (c : Dev nD) (t : Fin cfg7.N) :
    (dat7 (F := Ideal) V c).flushed 2 t
      = ((cfg7.win 2).blk t).view.read (Elt Ideal) (matProduct128x32 (V c main_arg3) (V c main_arg9)) := by
  have := index_facts7 t
  show (cfg7.win 2).cut (grid7.coords t) ((dat7 (F := Ideal) V c).after 2 t) = _
  rw [after7_2, out7_2, View.canon_unit_zero zero2, View.ld_unit_zero zero2, View.ld_unit_zero zero2]
  funext j
  show _ = matProduct128x32 _ _ (((cfg7.win 2).blk t).view.emb j)
  refine (plainDot_apply _ _ _).trans (Finset.sum_congr rfl fun k _ => congrArg₂ (· * ·)
    (congrArg (V c main_arg3) (Shape.idx_ext₂ ?_ ?_)) (congrArg (V c main_arg9) (Shape.idx_ext₂ ?_ ?_)))
  · show win7_0.index t (0 : Fin 2) * 10000 + 1 * (j 0).val = win7_2.index t (0 : Fin 2) * 10000 + 1 * (j 0).val; omega
  · show win7_0.index t (1 : Fin 2) * 128 + 1 * k.val = k.val; omega
  · show win7_1.index t (0 : Fin 2) * 128 + 1 * k.val = k.val; omega
  · show win7_1.index t (1 : Fin 2) * 32 + 1 * (j 1).val = win7_2.index t (1 : Fin 2) * 32 + 1 * (j 1).val; omega

-- Row r lies in the block of point r / 10000.
theorem cover7 (i : S100000x32.Idx) : ∃ t : Fin cfg7.N, (cfg7.win 2).flush t = true ∧ i ∈ ((cfg7.win 2).blk t).view.set := by
  have := idx2_lt0 i
  have e := index_facts7 ⟨(i 0).val / 10000, by show _ < 10; omega⟩
  exact ⟨_, flush7_2 _, mem_slice_whole _ _ (mem_rowBlock 10000 i (by decide) e.2.2.2.2.1 e.2.2.2.2.2)⟩

end Reg7

theorem final7 (c : Dev nD) :
    (dat7 (F := Ideal) V c).arrAt 2 cfg7.N = matProduct128x32 (V c main_arg3) (V c main_arg9) :=
  (dat7 (F := Ideal) V c).arrAt_eq_of_cover 2 _ (fun t _ => Reg7.flushed7_2_eq V c t) Reg7.cover7

end Cert.KernelIdeal.Hand
-- ==== Proof.KI.V8.lean ====
import proofs.«416252_j75050258530751_2_alg».proof.Proof.KI.R8
import proofs.«416252_j75050258530751_2_alg».proof.Proof.KI.ValDefs
import proofs.«416252_j75050258530751_2_alg».proof.Proof.KI.VLib

namespace Cert.KernelIdeal.Hand

open Cert.KernelIdeal Cert.KernelIdeal.Gen Cert.VLib Idealize.ShloMosaic Idealize.ShloMosaic.TcCoe Idealize.ShloMosaic.ValueIdx

variable (V : (c : Dev nD) → (b : Ref sig .tc) → Buf (Elt Ideal) ((c : Thread nD τ).loc b))

namespace Reg8

theorem index_facts : ∀ t : Fin cfg8.N, win8_0.index t (0 : Fin 2) = win8_2.index t (0 : Fin 2)
    ∧ win8_0.index t (1 : Fin 2) = win8_2.index t (1 : Fin 2)
    ∧ win8_1.index t (0 : Fin 2) = 0 ∧ win8_1.index t (1 : Fin 2) = 0
    ∧ win8_2.index t (0 : Fin 2) = t.val ∧ win8_2.index t (1 : Fin 2) = 0 :=
  (by decide +kernel : ∀ t : Fin grid8.N, _)

-- Entry by entry: the block's entry plus the bias row's entry in its column, rectified, each read off its array at the matching index.
theorem flushed_eq (c : Dev nD) (t : Fin cfg8.N) :
    (dat8 (F := Ideal) V c).flushed 2 t
      = ((cfg8.win 2).blk t).view.read (Elt Ideal) (biasRelu32 (V c main_v130) (V c main_v131)) := by
  have := index_facts t
  show (cfg8.win 2).cut (grid8.coords t) ((dat8 V c).after 2 t) = _
  rw [after8_2, out8_2, View.canon_unit_zero zero2, View.ld_unit_zero zero2, View.ld_unit_zero zero2]
  funext j
  refine (biasRelu_apply _ _ _).trans (congrArg₂ (fun x y : EReal => max (x + y) 0)
    (congrArg (V c main_v130) (Shape.idx_ext₂ ?_ ?_)) (congrArg (V c main_v131) (Shape.idx_ext₂ ?_ ?_)))
  · show win8_0.index t (0 : Fin 2) * 10000 + 1 * (j 0).val = win8_2.index t (0 : Fin 2) * 10000 + 1 * (j 0).val; omega
  · show win8_0.index t (1 : Fin 2) * 32 + 1 * (j 1).val = win8_2.index t (1 : Fin 2) * 32 + 1 * (j 1).val; omega
  · show win8_1.index t (0 : Fin 2) * 1 + 1 * 0 = 0; omega
  · show win8_1.index t (1 : Fin 2) * 32 + 1 * (j 1).val = win8_2.index t (1 : Fin 2) * 32 + 1 * (j 1).val; omega

-- Row r lies in the block of point r / 10000.
theorem covered (i : S100000x32.Idx) : ∃ t : Fin cfg8.N, (cfg8.win 2).flush t = true ∧ i ∈ ((cfg8.win 2).blk t).view.set := by
  have := idx2_lt0 i
  have e := index_facts ⟨(i 0).val / 10000, by show _ < 10; omega⟩
  exact ⟨_, flush8_2 _, mem_slice_whole _ _ (mem_rowBlock 10000 i (by decide) e.2.2.2.2.1 e.2.2.2.2.2)⟩

end Reg8

theorem final8 (c : Dev nD) :
    (dat8 (F := Ideal) V c).arrAt 2 cfg8.N = biasRelu32 (V c main_v130) (V c main_v131) :=
  (dat8 (F := Ideal) V c).arrAt_eq_of_cover 2 _ (fun t _ => Reg8.flushed_eq V c t) Reg8.covered

end Cert.KernelIdeal.Hand
-- ==== Proof.KI.V9.lean ====
import proofs.«416252_j75050258530751_2_alg».proof.Proof.KI.R9
import proofs.«416252_j75050258530751_2_alg».proof.Proof.KI.ValDefs
import proofs.«416252_j75050258530751_2_alg».proof.Proof.KI.VLib

namespace Cert.KernelIdeal.Hand

open Cert.KernelIdeal Cert.KernelIdeal.Gen Cert.VLib Idealize.ShloMosaic Idealize.ShloMosaic.TcCoe Idealize.ShloMosaic.ValueIdx

variable (V : (c : Dev nD) → (b : Ref sig .tc) → Buf (Elt Ideal) ((c : Thread nD τ).loc b))

namespace Reg9

theorem index_facts9 : ∀ t : Fin cfg9.N, win9_0.index t (0 : Fin 2) = win9_2.index t (0 : Fin 2)
    ∧ win9_0.index t (1 : Fin 2) = 0
    ∧ win9_1.index t (0 : Fin 2) = 0
    ∧ win9_1.index t (1 : Fin 2) = 0
    ∧ win9_2.index t (0 : Fin 2) = t.val
    ∧ win9_2.index t (1 : Fin 2) = 0 :=
  (by decide +kernel : ∀ t : Fin grid9.N, _)

-- Entry by entry the block product is the sum over the shared axis, and each block entry is its array's at the matching index.
theorem flushed9_2_eq (c : Dev nD) (t : Fin cfg9.N) :
    (dat9 (F := Ideal) V c).flushed 2 t
      = ((cfg9.win 2).blk t).view.read (Elt Ideal) (matProduct32x64 (V c main_v132) (V c main_arg11)) := by
  have := index_facts9 t
  show (cfg9.win 2).cut (grid9.coords t) ((dat9 (F := Ideal) V c).after 2 t) = _
  rw [after9_2, out9_2, View.canon_unit_zero zero2, View.ld_unit_zero zero2, View.ld_unit_zero zero2,
    k9_pay1, shapeCast_self]
  funext j
  show _ = matProduct32x64 _ _ (((cfg9.win 2).blk t).view.emb j)
  refine (plainDot_apply _ _ _).trans (Finset.sum_congr rfl fun k _ => congrArg₂ (· * ·)
    (congrArg (V c main_v132) (Shape.idx_ext₂ ?_ ?_)) (congrArg (V c main_arg11) (Shape.idx_ext₂ ?_ ?_)))
  · show win9_0.index t (0 : Fin 2) * 10000 + 1 * (j 0).val = win9_2.index t (0 : Fin 2) * 10000 + 1 * (j 0).val; omega
  · show win9_0.index t (1 : Fin 2) * 32 + 1 * k.val = k.val; omega
  · show win9_1.index t (0 : Fin 2) * 32 + 1 * k.val = k.val; omega
  · show win9_1.index t (1 : Fin 2) * 64 + 1 * (j 1).val = win9_2.index t (1 : Fin 2) * 64 + 1 * (j 1).val; omega

-- Row r lies in the block of point r / 10000.
theorem cover9 (i : S100000x64.Idx) : ∃ t : Fin cfg9.N, (cfg9.win 2).flush t = true ∧ i ∈ ((cfg9.win 2).blk t).view.set := by
  have := idx2_lt0 i
  have e := index_facts9 ⟨(i 0).val / 10000, by show _ < 10; omega⟩
  exact ⟨_, flush9_2 _, mem_slice_whole _ _ (mem_rowBlock 10000 i (by decide) e.2.2.2.2.1 e.2.2.2.2.2)⟩

end Reg9

theorem final9 (c : Dev nD) :
    (dat9 (F := Ideal) V c).arrAt 2 cfg9.N = matProduct32x64 (V c main_v132) (V c main_arg11) :=
  (dat9 (F := Ideal) V c).arrAt_eq_of_cover 2 _ (fun t _ => Reg9.flushed9_2_eq V c t) Reg9.cover9

end Cert.KernelIdeal.Hand
-- ==== Proof.KI.V10.lean ====
import proofs.«416252_j75050258530751_2_alg».proof.Proof.KI.R10
import proofs.«416252_j75050258530751_2_alg».proof.Proof.KI.ValDefs
import proofs.«416252_j75050258530751_2_alg».proof.Proof.KI.VLib

namespace Cert.KernelIdeal.Hand

open Cert.KernelIdeal Cert.KernelIdeal.Gen Cert.VLib Idealize.ShloMosaic Idealize.ShloMosaic.TcCoe Idealize.ShloMosaic.ValueIdx

variable (V : (c : Dev nD) → (b : Ref sig .tc) → Buf (Elt Ideal) ((c : Thread nD τ).loc b))

namespace Reg10

theorem index_facts : ∀ t : Fin cfg10.N, win10_0.index t (0 : Fin 2) = win10_2.index t (0 : Fin 2)
    ∧ win10_0.index t (1 : Fin 2) = win10_2.index t (1 : Fin 2)
    ∧ win10_1.index t (0 : Fin 2) = 0 ∧ win10_1.index t (1 : Fin 2) = 0
    ∧ win10_2.index t (0 : Fin 2) = t.val ∧ win10_2.index t (1 : Fin 2) = 0 :=
  (by decide +kernel : ∀ t : Fin grid10.N, _)

-- Entry by entry: the block's entry plus the bias row's entry in its column, rectified, each read off its array at the matching index.
theorem flushed_eq (c : Dev nD) (t : Fin cfg10.N) :
    (dat10 (F := Ideal) V c).flushed 2 t
      = ((cfg10.win 2).blk t).view.read (Elt Ideal) (biasRelu64 (V c main_v146) (V c main_v147)) := by
  have := index_facts t
  show (cfg10.win 2).cut (grid10.coords t) ((dat10 V c).after 2 t) = _
  rw [after10_2, out10_2, View.canon_unit_zero zero2, View.ld_unit_zero zero2, View.ld_unit_zero zero2]
  funext j
  refine (biasRelu_apply _ _ _).trans (congrArg₂ (fun x y : EReal => max (x + y) 0)
    (congrArg (V c main_v146) (Shape.idx_ext₂ ?_ ?_)) (congrArg (V c main_v147) (Shape.idx_ext₂ ?_ ?_)))
  · show win10_0.index t (0 : Fin 2) * 10000 + 1 * (j 0).val = win10_2.index t (0 : Fin 2) * 10000 + 1 * (j 0).val; omega
  · show win10_0.index t (1 : Fin 2) * 64 + 1 * (j 1).val = win10_2.index t (1 : Fin 2) * 64 + 1 * (j 1).val; omega
  · show win10_1.index t (0 : Fin 2) * 1 + 1 * 0 = 0; omega
  · show win10_1.index t (1 : Fin 2) * 64 + 1 * (j 1).val = win10_2.index t (1 : Fin 2) * 64 + 1 * (j 1).val; omega

-- Row r lies in the block of point r / 10000.
theorem covered (i : S100000x64.Idx) : ∃ t : Fin cfg10.N, (cfg10.win 2).flush t = true ∧ i ∈ ((cfg10.win 2).blk t).view.set := by
  have := idx2_lt0 i
  have e := index_facts ⟨(i 0).val / 10000, by show _ < 10; omega⟩
  exact ⟨_, flush10_2 _, mem_slice_whole _ _ (mem_rowBlock 10000 i (by decide) e.2.2.2.2.1 e.2.2.2.2.2)⟩

end Reg10

theorem final10 (c : Dev nD) :
    (dat10 (F := Ideal) V c).arrAt 2 cfg10.N = biasRelu64 (V c main_v146) (V c main_v147) :=
  (dat10 (F := Ideal) V c).arrAt_eq_of_cover 2 _ (fun t _ => Reg10.flushed_eq V c t) Reg10.covered

end Cert.KernelIdeal.Hand
-- ==== Proof.KI.V11.lean ====
import proofs.«416252_j75050258530751_2_alg».proof.Proof.KI.R11
import proofs.«416252_j75050258530751_2_alg».proof.Proof.KI.ValDefs
import proofs.«416252_j75050258530751_2_alg».proof.Proof.KI.VLib

namespace Cert.KernelIdeal.Hand

open Cert.KernelIdeal Cert.KernelIdeal.Gen Cert.VLib Idealize.ShloMosaic Idealize.ShloMosaic.TcCoe Idealize.ShloMosaic.ValueIdx

variable (V : (c : Dev nD) → (b : Ref sig .tc) → Buf (Elt Ideal) ((c : Thread nD τ).loc b))

namespace Reg11

theorem index_facts11 : ∀ t : Fin cfg11.N, win11_0.index t (0 : Fin 2) = win11_2.index t (0 : Fin 2)
    ∧ win11_0.index t (1 : Fin 2) = 0
    ∧ win11_1.index t (0 : Fin 2) = 0
    ∧ win11_1.index t (1 : Fin 2) = 0
    ∧ win11_2.index t (0 : Fin 2) = t.val
    ∧ win11_2.index t (1 : Fin 2) = 0 :=
  (by decide +kernel : ∀ t : Fin grid11.N, _)

-- Entry by entry the block product is the sum over the shared axis, and each block entry is its array's at the matching index.
theorem flushed11_2_eq (c : Dev nD) (t : Fin cfg11.N) :
    (dat11 (F := Ideal) V c).flushed 2 t
      = ((cfg11.win 2).blk t).view.read (Elt Ideal) (matProduct64x64 (V c main_v148) (V c main_arg13)) := by
  have := index_facts11 t
  show (cfg11.win 2).cut (grid11.coords t) ((dat11 (F := Ideal) V c).after 2 t) = _
  rw [after11_2, out11_2, View.canon_unit_zero zero2, View.ld_unit_zero zero2, View.ld_unit_zero zero2,
    k11_pay1, shapeCast_self]
  funext j
  show _ = matProduct64x64 _ _ (((cfg11.win 2).blk t).view.emb j)
  refine (plainDot_apply _ _ _).trans (Finset.sum_congr rfl fun k _ => congrArg₂ (· * ·)
    (congrArg (V c main_v148) (Shape.idx_ext₂ ?_ ?_)) (congrArg (V c main_arg13) (Shape.idx_ext₂ ?_ ?_)))
  · show win11_0.index t (0 : Fin 2) * 10000 + 1 * (j 0).val = win11_2.index t (0 : Fin 2) * 10000 + 1 * (j 0).val; omega
  · show win11_0.index t (1 : Fin 2) * 64 + 1 * k.val = k.val; omega
  · show win11_1.index t (0 : Fin 2) * 64 + 1 * k.val = k.val; omega
  · show win11_1.index t (1 : Fin 2) * 64 + 1 * (j 1).val = win11_2.index t (1 : Fin 2) * 64 + 1 * (j 1).val; omega

-- Row r lies in the block of point r / 10000.
theorem cover11 (i : S100000x64.Idx) : ∃ t : Fin cfg11.N, (cfg11.win 2).flush t = true ∧ i ∈ ((cfg11.win 2).blk t).view.set := by
  have := idx2_lt0 i
  have e := index_facts11 ⟨(i 0).val / 10000, by show _ < 10; omega⟩
  exact ⟨_, flush11_2 _, mem_slice_whole _ _ (mem_rowBlock 10000 i (by decide) e.2.2.2.2.1 e.2.2.2.2.2)⟩

end Reg11

theorem final11 (c : Dev nD) :
    (dat11 (F := Ideal) V c).arrAt 2 cfg11.N = matProduct64x64 (V c main_v148) (V c main_arg13) :=
  (dat11 (F := Ideal) V c).arrAt_eq_of_cover 2 _ (fun t _ => Reg11.flushed11_2_eq V c t) Reg11.cover11

end Cert.KernelIdeal.Hand
-- ==== Proof.KI.V12.lean ====
import proofs.«416252_j75050258530751_2_alg».proof.Proof.KI.R12
import proofs.«416252_j75050258530751_2_alg».proof.Proof.KI.ValDefs
import proofs.«416252_j75050258530751_2_alg».proof.Proof.KI.VLib

namespace Cert.KernelIdeal.Hand

open Cert.KernelIdeal Cert.KernelIdeal.Gen Cert.VLib Idealize.ShloMosaic Idealize.ShloMosaic.TcCoe Idealize.ShloMosaic.ValueIdx

variable (V : (c : Dev nD) → (b : Ref sig .tc) → Buf (Elt Ideal) ((c : Thread nD τ).loc b))

namespace Reg12

theorem index_facts : ∀ t : Fin cfg12.N, win12_0.index t (0 : Fin 2) = win12_2.index t (0 : Fin 2)
    ∧ win12_0.index t (1 : Fin 2) = win12_2.index t (1 : Fin 2)
    ∧ win12_1.index t (0 : Fin 2) = 0 ∧ win12_1.index t (1 : Fin 2) = 0
    ∧ win12_2.index t (0 : Fin 2) = t.val ∧ win12_2.index t (1 : Fin 2) = 0 :=
  (by decide +kernel : ∀ t : Fin grid12.N, _)

-- Entry by entry: the block's entry plus the bias row's entry in its column, rectified, each read off its array at the matching index.
theorem flushed_eq (c : Dev nD) (t : Fin cfg12.N) :
    (dat12 (F := Ideal) V c).flushed 2 t
      = ((cfg12.win 2).blk t).view.read (Elt Ideal) (biasRelu64 (V c main_v162) (V c main_v163)) := by
  have := index_facts t
  show (cfg12.win 2).cut (grid12.coords t) ((dat12 V c).after 2 t) = _
  rw [after12_2, out12_2, View.canon_unit_zero zero2, View.ld_unit_zero zero2, View.ld_unit_zero zero2]
  funext j
  refine (biasRelu_apply _ _ _).trans (congrArg₂ (fun x y : EReal => max (x + y) 0)
    (congrArg (V c main_v162) (Shape.idx_ext₂ ?_ ?_)) (congrArg (V c main_v163) (Shape.idx_ext₂ ?_ ?_)))
  · show win12_0.index t (0 : Fin 2) * 10000 + 1 * (j 0).val = win12_2.index t (0 : Fin 2) * 10000 + 1 * (j 0).val; omega
  · show win12_0.index t (1 : Fin 2) * 64 + 1 * (j 1).val = win12_2.index t (1 : Fin 2) * 64 + 1 * (j 1).val; omega
  · show win12_1.index t (0 : Fin 2) * 1 + 1 * 0 = 0; omega
  · show win12_1.index t (1 : Fin 2) * 64 + 1 * (j 1).val = win12_2.index t (1 : Fin 2) * 64 + 1 * (j 1).val; omega

-- Row r lies in the block of point r / 10000.
theorem covered (i : S100000x64.Idx) : ∃ t : Fin cfg12.N, (cfg12.win 2).flush t = true ∧ i ∈ ((cfg12.win 2).blk t).view.set := by
  have := idx2_lt0 i
  have e := index_facts ⟨(i 0).val / 10000, by show _ < 10; omega⟩
  exact ⟨_, flush12_2 _, mem_slice_whole _ _ (mem_rowBlock 10000 i (by decide) e.2.2.2.2.1 e.2.2.2.2.2)⟩

end Reg12

theorem final12 (c : Dev nD) :
    (dat12 (F := Ideal) V c).arrAt 2 cfg12.N = biasRelu64 (V c main_v162) (V c main_v163) :=
  (dat12 (F := Ideal) V c).arrAt_eq_of_cover 2 _ (fun t _ => Reg12.flushed_eq V c t) Reg12.covered

end Cert.KernelIdeal.Hand
-- ==== Proof.KI.V13.lean ====
import proofs.«416252_j75050258530751_2_alg».proof.Proof.KI.R13
import proofs.«416252_j75050258530751_2_alg».proof.Proof.KI.ValDefs
import proofs.«416252_j75050258530751_2_alg».proof.Proof.KI.VLib

namespace Cert.KernelIdeal.Hand

open Cert.KernelIdeal Cert.KernelIdeal.Gen Cert.VLib Idealize.ShloMosaic Idealize.ShloMosaic.TcCoe Idealize.ShloMosaic.ValueIdx

variable (V : (c : Dev nD) → (b : Ref sig .tc) → Buf (Elt Ideal) ((c : Thread nD τ).loc b))

namespace Reg13

-- At (r, g) the broadcast reads row r's word and the iota reads g.
theorem onehot_apply (v3 : IVec S2000x1 32) (r : Fin 2000) (g : Fin 512) :
    (sitofp .f32 (extui 32 (cmpi .eq (broadcastTo S2000x512 v3 broadcasts_S2000x1_S2000x512)
        (iota .tc S2000x512 32 [1] iota_S2000x512_d1_w32)) natLt_1_32) : FVec Ideal S2000x512 .f32) (ix2 r g)
      = if v3 (ix2 r 0) = BitVec.ofNat 32 g.val then (1 : EReal) else 0 := by
  refine (onehot_word _ _).trans ?_
  rw [broadcastTo_apply v3 _ (ix2 r g) (ix2 r 0) (Fin.forall_fin_two.mpr ⟨rfl, rfl⟩), iota_single_apply]

-- The product's entry sums, over the block's rows, a one-hot entry times an entry of x.
theorem poolStep_apply (v3 : Vec Ideal S2000x1 .i32) (v11 : Vec Ideal S2000x64 .f32) (v14 : Vec Ideal S512x64 .f32)
    (g : Fin 512) (h : Fin 64) :
    k13_pay2 (F := Ideal) v3 v11 v14 (ix2 g h)
      = (v14 : S512x64.Idx → EReal) (ix2 g h) + ∑ r : Fin 2000, (if (v3 : IVec S2000x1 32) (ix2 r 0) = BitVec.ofNat 32 g.val
          then (v11 : S2000x64.Idx → EReal) (ix2 r h) else 0) := by
  unfold k13_pay2
  simp only [shapeCast_self]
  refine congrArg (v14 (ix2 g h) + ·) ((rowsDot_apply _ _ g h).trans (Finset.sum_congr rfl fun r _ => ?_))
  rw [truncf_apply, truncf_apply, onehot_apply, ite_mul, one_mul, zero_mul]

theorem poolZero_apply (j : S512x64.Idx) : k13_pay1 (F := Ideal) j = (0 : EReal) := by
  unfold k13_pay1
  rw [shapeCast_self]
  exact Ideal.ofBits_zero_f32

noncomputable def rowTerm (bt : IVec S100000x1 32) (x : S100000x64.Idx → EReal) (g : Fin 512) (h : Fin 64) (m : ℕ) : EReal :=
  if hm : m < 100000 then (if bt (ix2 ⟨m, hm⟩ 0) = BitVec.ofNat 32 g.val then x (ix2 ⟨m, hm⟩ h) else 0) else 0

theorem index_facts13 : ∀ t : Fin cfg13.N, win13_0.index t (0 : Fin 2) = t.val
    ∧ win13_0.index t (1 : Fin 2) = 0
    ∧ win13_1.index t (0 : Fin 2) = t.val
    ∧ win13_1.index t (1 : Fin 2) = 0
    ∧ win13_2.index t (0 : Fin 2) = 0
    ∧ win13_2.index t (1 : Fin 2) = 0 :=
  (by decide +kernel : ∀ t : Fin grid13.N, _)

-- By induction on n: point n adds the terms of rows 2000·n … 2000·n + 1999, its blocks' rows.
theorem accAt13_apply (c : Dev nD) (g : Fin 512) (h : Fin 64) : ∀ n : ℕ, n ≤ 50 →
    (accAt13 (F := Ideal) V c n : S512x64.Idx → EReal) (ix2 g h)
      = ∑ m ∈ Finset.range (2000 * n), rowTerm (V c main_v165) (V c main_v164) g h m
  | 0, _ => by
    rw [Nat.mul_zero, Finset.sum_range_zero]
    exact poolZero_apply _
  | n + 1, hn => by
    have hN : cfg13.N = 50 := N_13
    have hlt : n < cfg13.N := by omega
    have := index_facts13 ⟨n, hlt⟩
    dsimp only at this
    rw [show accAt13 (F := Ideal) V c (n + 1) = _ from accAt13_succ V c ⟨n, hlt⟩, poolStep_apply, mul_add_one, Finset.sum_range_add,
      Finset.sum_range fun x => rowTerm _ _ g h (2000 * n + x)]
    refine congrArg₂ (· + ·) (accAt13_apply c g h n (by omega)) (Finset.sum_congr rfl fun r _ => ?_)
    have := r.isLt
    unfold rowTerm
    rw [dif_pos (show 2000 * n + r.val < 100000 by omega)]
    refine congrArg₂ (fun a b => if a = BitVec.ofNat 32 g.val then b else 0)
      (congrArg (V c main_v165) (Shape.idx_ext₂ ?_ ?_)) (congrArg (V c main_v164) (Shape.idx_ext₂ ?_ ?_))
    · show win13_1.index ⟨n, hlt⟩ (0 : Fin 2) * 2000 + 1 * r.val = 2000 * n + r.val; omega
    · show win13_1.index ⟨n, hlt⟩ (1 : Fin 2) * 1 + 1 * 0 = 0; omega
    · show win13_0.index ⟨n, hlt⟩ (0 : Fin 2) * 2000 + 1 * r.val = 2000 * n + r.val; omega
    · show win13_0.index ⟨n, hlt⟩ (1 : Fin 2) * 64 + 1 * h.val = h.val; omega

-- The output's one block is the whole array: its block index is (0, 0).
theorem flushed13_2_eq (c : Dev nD) (t : Fin cfg13.N) (hf : (cfg13.win 2).flush t = true) :
    (dat13 (F := Ideal) V c).flushed 2 t = ((cfg13.win 2).blk t).view.read (Elt Ideal) (accAt13 (F := Ideal) V c 50) := by
  have e := index_facts13 t
  have h49 : t.val + 1 = 50 := by have := (flush13_2 t).mp hf; have := t.isLt; have : cfg13.N = 50 := N_13; omega
  show (cfg13.win 2).cut (grid13.coords t) ((dat13 (F := Ideal) V c).after 2 t) = _
  rw [after13_2, h49]
  funext j
  exact congrArg (accAt13 (F := Ideal) V c 50) (Shape.idx_ext₂ (win13_2.rect_emb_val_of_index_zero t 0 e.2.2.2.2.1 j)
    (win13_2.rect_emb_val_of_index_zero t 1 e.2.2.2.2.2 j)).symm

theorem cover13 (i : S512x64.Idx) : ∃ t : Fin cfg13.N, (cfg13.win 2).flush t = true ∧ i ∈ ((cfg13.win 2).blk t).view.set := by
  have e := index_facts13 ⟨49, by have : cfg13.N = 50 := N_13; omega⟩
  exact ⟨_, (flush13_2 _).mpr rfl, mem_slice_whole _ _
    (mem_rowBlock 512 i (by decide) (e.2.2.2.2.1.trans (Nat.div_eq_of_lt (idx2_lt0 i)).symm) e.2.2.2.2.2)⟩

end Reg13

theorem final13 (c : Dev nD) :
    (dat13 (F := Ideal) V c).arrAt 2 cfg13.N = maskedSum (V c main_v165) (V c main_v164) := by
  rw [(dat13 (F := Ideal) V c).arrAt_eq_of_cover 2 _ (Reg13.flushed13_2_eq V c) Reg13.cover13]
  funext j
  obtain ⟨g, h, rfl⟩ : ∃ g h, j = ix2 g h := ⟨j 0, j 1, eq_ix2 j⟩
  rw [Reg13.accAt13_apply V c g h 50 le_rfl, Finset.sum_range]
  exact Finset.sum_congr rfl fun n _ => dif_pos n.isLt

end Cert.KernelIdeal.Hand
-- ==== Proof.KI.Tower1.lean ====
/-
  One tower of the network, boundary by boundary: each buffer a later item reads is one step's function of the buffers
  the item before it left; composing the steps gives `towerV` of the tower's arguments.
-/
import proofs.«416252_j75050258530751_2_alg».proof.Proof.KI.Back
import proofs.«416252_j75050258530751_2_alg».proof.Proof.KI.St2
import proofs.«416252_j75050258530751_2_alg».proof.Proof.KI.ValDefs
import proofs.«416252_j75050258530751_2_alg».proof.Proof.KI.V7
import proofs.«416252_j75050258530751_2_alg».proof.Proof.KI.V8
import proofs.«416252_j75050258530751_2_alg».proof.Proof.KI.V9
import proofs.«416252_j75050258530751_2_alg».proof.Proof.KI.V10
import proofs.«416252_j75050258530751_2_alg».proof.Proof.KI.V11
import proofs.«416252_j75050258530751_2_alg».proof.Proof.KI.V12
import proofs.«416252_j75050258530751_2_alg».proof.Proof.KI.V13

set_option maxRecDepth 16384

noncomputable section

namespace Cert.KernelIdeal.Hand

open Cert.KernelIdeal Cert.KernelIdeal.Facts₀ Cert.KernelIdeal.Facts
open Idealize.ShloMosaic Idealize.ShloMosaic.TcCoe Idealize.SL.Sem

variable (m : (ℓ : Loc nD τ sig) → Buf (Elt Ideal) ℓ) (c : Dev nD)

theorem tw1_src1 : W13 m c main_v93 = srcT (m ((c : Thread nD τ).loc main_arg4)) := st_v93 (W12 m c)
theorem tw1_dst1 : W13 m c main_v94 = dstT (m ((c : Thread nD τ).loc main_arg4)) := st_v94 (W12 m c)
theorem tw1_nrm1 : W13 m c main_v116 = normT (F := Ideal) (m ((c : Thread nD τ).loc main_arg4)) := st_v116 (W12 m c)

-- No item between writes the edge lists or the normalisation.
theorem tw1_src2 : W14 m c main_v93 = srcT (m ((c : Thread nD τ).loc main_arg4)) :=
  (W14_of m c main_v93 (by decide)).trans (tw1_src1 m c)
theorem tw1_dst2 : W14 m c main_v94 = dstT (m ((c : Thread nD τ).loc main_arg4)) :=
  (W14_of m c main_v94 (by decide)).trans (tw1_dst1 m c)
theorem tw1_nrm2 : W14 m c main_v116 = normT (F := Ideal) (m ((c : Thread nD τ).loc main_arg4)) :=
  (W14_of m c main_v116 (by decide)).trans (tw1_nrm1 m c)
theorem tw1_src5 : W17 m c main_v93 = srcT (m ((c : Thread nD τ).loc main_arg4)) :=
  (W17_of m c main_v93 (by decide)).trans ((W16_of m c main_v93 (by decide)).trans ((W15_of m c main_v93 (by decide)).trans (tw1_src2 m c)))
theorem tw1_dst5 : W17 m c main_v94 = dstT (m ((c : Thread nD τ).loc main_arg4)) :=
  (W17_of m c main_v94 (by decide)).trans ((W16_of m c main_v94 (by decide)).trans ((W15_of m c main_v94 (by decide)).trans (tw1_dst2 m c)))
theorem tw1_nrm5 : W17 m c main_v116 = normT (F := Ideal) (m ((c : Thread nD τ).loc main_arg4)) :=
  (W17_of m c main_v116 (by decide)).trans ((W16_of m c main_v116 (by decide)).trans ((W15_of m c main_v116 (by decide)).trans (tw1_nrm2 m c)))
theorem tw1_src8 : W20 m c main_v93 = srcT (m ((c : Thread nD τ).loc main_arg4)) :=
  (W20_of m c main_v93 (by decide)).trans ((W19_of m c main_v93 (by decide)).trans ((W18_of m c main_v93 (by decide)).trans (tw1_src5 m c)))
theorem tw1_dst8 : W20 m c main_v94 = dstT (m ((c : Thread nD τ).loc main_arg4)) :=
  (W20_of m c main_v94 (by decide)).trans ((W19_of m c main_v94 (by decide)).trans ((W18_of m c main_v94 (by decide)).trans (tw1_dst5 m c)))
theorem tw1_nrm8 : W20 m c main_v116 = normT (F := Ideal) (m ((c : Thread nD τ).loc main_arg4)) :=
  (W20_of m c main_v116 (by decide)).trans ((W19_of m c main_v116 (by decide)).trans ((W18_of m c main_v116 (by decide)).trans (tw1_nrm5 m c)))

theorem tw1_h1 : W14 m c main_v117 = matProduct128x32 (m ((c : Thread nD τ).loc main_arg3)) (m ((c : Thread nD τ).loc main_arg9)) := by
  rw [W14_out]; unfold res7; rw [final7]
  exact congrArg₂ matProduct128x32 (W13_args m c main_arg3 (by decide)) (W13_args m c main_arg9 (by decide))

theorem tw1_a1 : W15 m c main_v130 = convK32 (F := Ideal) (W14 m c main_v117) (srcT (m ((c : Thread nD τ).loc main_arg4))) (dstT (m ((c : Thread nD τ).loc main_arg4))) (normT (F := Ideal) (m ((c : Thread nD τ).loc main_arg4))) := by
  refine (st_v130 (W14 m c)).trans ?_
  rw [show W14 m c (Proc.devRef .tc main_v117) = W14 m c main_v117 from rfl, show W14 m c (Proc.devRef .tc main_v93) = W14 m c main_v93 from rfl, tw1_src2, show W14 m c (Proc.devRef .tc main_v94) = W14 m c main_v94 from rfl, tw1_dst2,
    show W14 m c (Proc.devRef .tc main_v116) = W14 m c main_v116 from rfl, tw1_nrm2]
theorem tw1_b1 : W15 m c main_v131 = shapeCast S1x32 (m ((c : Thread nD τ).loc main_arg10)) shapeCasts_S32_S1x32 := by
  refine (st_v131 (W14 m c)).trans ?_
  rw [show W14 m c (Proc.devRef .tc main_arg10) = W14 m c main_arg10 from rfl, W14_args m c main_arg10 (by decide)]

theorem tw1_x1 : W16 m c main_v132 = biasRelu32 (W15 m c main_v130) (W15 m c main_v131) := by
  rw [W16_out]; unfold res8; exact final8 _ c

theorem tw1_h2 : W17 m c main_v133 = matProduct32x64 (W16 m c main_v132) (m ((c : Thread nD τ).loc main_arg11)) := by
  rw [W17_out]; unfold res9; rw [final9]
  exact congrArg (matProduct32x64 (W16 m c main_v132)) (W16_args m c main_arg11 (by decide))

theorem tw1_a2 : W18 m c main_v146 = convK64 (F := Ideal) (W17 m c main_v133) (srcT (m ((c : Thread nD τ).loc main_arg4))) (dstT (m ((c : Thread nD τ).loc main_arg4))) (normT (F := Ideal) (m ((c : Thread nD τ).loc main_arg4))) := by
  refine (st_v146 (W17 m c)).trans ?_
  rw [show W17 m c (Proc.devRef .tc main_v133) = W17 m c main_v133 from rfl, show W17 m c (Proc.devRef .tc main_v93) = W17 m c main_v93 from rfl, tw1_src5, show W17 m c (Proc.devRef .tc main_v94) = W17 m c main_v94 from rfl, tw1_dst5,
    show W17 m c (Proc.devRef .tc main_v116) = W17 m c main_v116 from rfl, tw1_nrm5]
theorem tw1_b2 : W18 m c main_v147 = shapeCast S1x64 (m ((c : Thread nD τ).loc main_arg12)) shapeCasts_S64_S1x64 := by
  refine (st_v147 (W17 m c)).trans ?_
  rw [show W17 m c (Proc.devRef .tc main_arg12) = W17 m c main_arg12 from rfl, W17_args m c main_arg12 (by decide)]

theorem tw1_x2 : W19 m c main_v148 = biasRelu64 (W18 m c main_v146) (W18 m c main_v147) := by
  rw [W19_out]; unfold res10; exact final10 _ c

theorem tw1_h3 : W20 m c main_v149 = matProduct64x64 (W19 m c main_v148) (m ((c : Thread nD τ).loc main_arg13)) := by
  rw [W20_out]; unfold res11; rw [final11]
  exact congrArg (matProduct64x64 (W19 m c main_v148)) (W19_args m c main_arg13 (by decide))

theorem tw1_a3 : W21 m c main_v162 = convK64 (F := Ideal) (W20 m c main_v149) (srcT (m ((c : Thread nD τ).loc main_arg4))) (dstT (m ((c : Thread nD τ).loc main_arg4))) (normT (F := Ideal) (m ((c : Thread nD τ).loc main_arg4))) := by
  refine (st_v162 (W20 m c)).trans ?_
  rw [show W20 m c (Proc.devRef .tc main_v149) = W20 m c main_v149 from rfl, show W20 m c (Proc.devRef .tc main_v93) = W20 m c main_v93 from rfl, tw1_src8, show W20 m c (Proc.devRef .tc main_v94) = W20 m c main_v94 from rfl, tw1_dst8,
    show W20 m c (Proc.devRef .tc main_v116) = W20 m c main_v116 from rfl, tw1_nrm8]
theorem tw1_b3 : W21 m c main_v163 = shapeCast S1x64 (m ((c : Thread nD τ).loc main_arg14)) shapeCasts_S64_S1x64 := by
  refine (st_v163 (W20 m c)).trans ?_
  rw [show W20 m c (Proc.devRef .tc main_arg14) = W20 m c main_arg14 from rfl, W20_args m c main_arg14 (by decide)]

theorem tw1_x3 : W22 m c main_v164 = biasRelu64 (W21 m c main_v162) (W21 m c main_v163) := by
  rw [W22_out]; unfold res12; exact final12 _ c

theorem tw1_col : W23 m c main_v165 = shapeCast S100000x1 (m ((c : Thread nD τ).loc main_arg5)) shapeCasts_S100000_S100000x1 := by
  refine (st_v165 (W22 m c)).trans ?_
  rw [show W22 m c (Proc.devRef .tc main_arg5) = W22 m c main_arg5 from rfl, W22_args m c main_arg5 (by decide)]

theorem tw1_pool : W24 m c main_v166 = maskedSum (W23 m c main_v165) (W23 m c main_v164) := by
  rw [W24_out]; unfold res13; exact final13 _ c

-- The steps composed: the pooled sums of the third layer's activations, divided by the graphs' sizes.
theorem tw1_out : W25 m c main_v175 = towerV (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (st_v175 (W24 m c)).trans ?_
  rw [show W24 m c (Proc.devRef .tc main_v166) = W24 m c main_v166 from rfl, tw1_pool, tw1_col, W23_of m c main_v164 (by decide), tw1_x3, tw1_a3, tw1_b3, tw1_h3,
    tw1_x2, tw1_a2, tw1_b2, tw1_h2, tw1_x1, tw1_a1, tw1_b1, tw1_h1,
    show W24 m c (Proc.devRef .tc main_arg5) = W24 m c main_arg5 from rfl, W24_args m c main_arg5 (by decide)]
  rfl

end Cert.KernelIdeal.Hand

end
-- ==== Proof.KI.St3.lean ====
import proofs.«416252_j75050258530751_2_alg».proof.Proof.Gen.KernelIdeal.Launch
import proofs.«416252_j75050258530751_2_alg».proof.Proof.KI.HostTerms
import Idealize.ShloMosaic.Lib.StableHlo.Run

set_option maxRecDepth 16384

noncomputable section

namespace Cert.KernelIdeal.Hand

open Cert.KernelIdeal Cert.KernelIdeal.Facts₀ Cert.KernelIdeal.Facts
open Idealize.ShloMosaic Idealize.ShloMosaic.StableHlo

variable {F : FTy → Type} [FloatOps F]

variable (W : Valuation τ sig (Elt F))

theorem st_v181 : StableHlo.after Gen.hostOps14 W (Proc.devRef .tc main_v181) = srcT (W (Proc.devRef .tc main_arg7)) := by
  dsimp only [Gen.hostOps14]; after_results_simp; unfold srcT; rfl

theorem st_v182 : StableHlo.after Gen.hostOps14 W (Proc.devRef .tc main_v182) = dstT (W (Proc.devRef .tc main_arg7)) := by
  dsimp only [Gen.hostOps14]; after_results_simp; unfold dstT; rfl

theorem st_v204 : StableHlo.after Gen.hostOps14 W (Proc.devRef .tc main_v204) = normT (W (Proc.devRef .tc main_arg7)) := by
  dsimp only [Gen.hostOps14]; after_results_simp; unfold normT; rfl

theorem st_v218 : StableHlo.after Gen.hostOps15 W (Proc.devRef .tc main_v218) = convK32 (W (Proc.devRef .tc main_v205)) (W (Proc.devRef .tc main_v181)) (W (Proc.devRef .tc main_v182)) (W (Proc.devRef .tc main_v204)) := by
  dsimp only [Gen.hostOps15]; after_results_simp; unfold convK32; rfl

theorem st_v219 : StableHlo.after Gen.hostOps15 W (Proc.devRef .tc main_v219) = shapeCast S1x32 (W (Proc.devRef .tc main_arg10)) shapeCasts_S32_S1x32 := by
  dsimp only [Gen.hostOps15]; after_results; rfl

theorem st_v234 : StableHlo.after Gen.hostOps17 W (Proc.devRef .tc main_v234) = convK64 (W (Proc.devRef .tc main_v221)) (W (Proc.devRef .tc main_v181)) (W (Proc.devRef .tc main_v182)) (W (Proc.devRef .tc main_v204)) := by
  dsimp only [Gen.hostOps17]; after_results_simp; unfold convK64; rfl

theorem st_v235 : StableHlo.after Gen.hostOps17 W (Proc.devRef .tc main_v235) = shapeCast S1x64 (W (Proc.devRef .tc main_arg12)) shapeCasts_S64_S1x64 := by
  dsimp only [Gen.hostOps17]; after_results; rfl

theorem st_v250 : StableHlo.after Gen.hostOps19 W (Proc.devRef .tc main_v250) = convK64 (W (Proc.devRef .tc main_v237)) (W (Proc.devRef .tc main_v181)) (W (Proc.devRef .tc main_v182)) (W (Proc.devRef .tc main_v204)) := by
  dsimp only [Gen.hostOps19]; after_results_simp; unfold convK64; rfl

theorem st_v251 : StableHlo.after Gen.hostOps19 W (Proc.devRef .tc main_v251) = shapeCast S1x64 (W (Proc.devRef .tc main_arg14)) shapeCasts_S64_S1x64 := by
  dsimp only [Gen.hostOps19]; after_results; rfl

theorem st_v253 : StableHlo.after Gen.hostOps20 W (Proc.devRef .tc main_v253) = shapeCast S100000x1 (W (Proc.devRef .tc main_arg8)) shapeCasts_S100000_S100000x1 := by
  dsimp only [Gen.hostOps20]; after_results; rfl

theorem st_v263 : StableHlo.after Gen.hostOps21 W (Proc.devRef .tc main_v263) = tailT (W (Proc.devRef .tc main_v254)) (W (Proc.devRef .tc main_arg8)) := by
  dsimp only [Gen.hostOps21]; after_results_simp; unfold tailT; rfl

end Cert.KernelIdeal.Hand

end
-- ==== Proof.KI.V14.lean ====
import proofs.«416252_j75050258530751_2_alg».proof.Proof.KI.R14
import proofs.«416252_j75050258530751_2_alg».proof.Proof.KI.ValDefs
import proofs.«416252_j75050258530751_2_alg».proof.Proof.KI.VLib

namespace Cert.KernelIdeal.Hand

open Cert.KernelIdeal Cert.KernelIdeal.Gen Cert.VLib Idealize.ShloMosaic Idealize.ShloMosaic.TcCoe Idealize.ShloMosaic.ValueIdx

variable (V : (c : Dev nD) → (b : Ref sig .tc) → Buf (Elt Ideal) ((c : Thread nD τ).loc b))

namespace Reg14

theorem index_facts14 : ∀ t : Fin cfg14.N, win14_0.index t (0 : Fin 2) = win14_2.index t (0 : Fin 2)
    ∧ win14_0.index t (1 : Fin 2) = 0
    ∧ win14_1.index t (0 : Fin 2) = 0
    ∧ win14_1.index t (1 : Fin 2) = 0
    ∧ win14_2.index t (0 : Fin 2) = t.val
    ∧ win14_2.index t (1 : Fin 2) = 0 :=
  (by decide +kernel : ∀ t : Fin grid14.N, _)

-- Entry by entry the block product is the sum over the shared axis, and each block entry is its array's at the matching index.
theorem flushed14_2_eq (c : Dev nD) (t : Fin cfg14.N) :
    (dat14 (F := Ideal) V c).flushed 2 t
      = ((cfg14.win 2).blk t).view.read (Elt Ideal) (matProduct128x32 (V c main_arg6) (V c main_arg9)) := by
  have := index_facts14 t
  show (cfg14.win 2).cut (grid14.coords t) ((dat14 (F := Ideal) V c).after 2 t) = _
  rw [after14_2, out14_2, View.canon_unit_zero zero2, View.ld_unit_zero zero2, View.ld_unit_zero zero2]
  funext j
  show _ = matProduct128x32 _ _ (((cfg14.win 2).blk t).view.emb j)
  refine (plainDot_apply _ _ _).trans (Finset.sum_congr rfl fun k _ => congrArg₂ (· * ·)
    (congrArg (V c main_arg6) (Shape.idx_ext₂ ?_ ?_)) (congrArg (V c main_arg9) (Shape.idx_ext₂ ?_ ?_)))
  · show win14_0.index t (0 : Fin 2) * 10000 + 1 * (j 0).val = win14_2.index t (0 : Fin 2) * 10000 + 1 * (j 0).val; omega
  · show win14_0.index t (1 : Fin 2) * 128 + 1 * k.val = k.val; omega
  · show win14_1.index t (0 : Fin 2) * 128 + 1 * k.val = k.val; omega
  · show win14_1.index t (1 : Fin 2) * 32 + 1 * (j 1).val = win14_2.index t (1 : Fin 2) * 32 + 1 * (j 1).val; omega

-- Row r lies in the block of point r / 10000.
theorem cover14 (i : S100000x32.Idx) : ∃ t : Fin cfg14.N, (cfg14.win 2).flush t = true ∧ i ∈ ((cfg14.win 2).blk t).view.set := by
  have := idx2_lt0 i
  have e := index_facts14 ⟨(i 0).val / 10000, by show _ < 10; omega⟩
  exact ⟨_, flush14_2 _, mem_slice_whole _ _ (mem_rowBlock 10000 i (by decide) e.2.2.2.2.1 e.2.2.2.2.2)⟩

end Reg14

theorem final14 (c : Dev nD) :
    (dat14 (F := Ideal) V c).arrAt 2 cfg14.N = matProduct128x32 (V c main_arg6) (V c main_arg9) :=
  (dat14 (F := Ideal) V c).arrAt_eq_of_cover 2 _ (fun t _ => Reg14.flushed14_2_eq V c t) Reg14.cover14

end Cert.KernelIdeal.Hand
-- ==== Proof.KI.V15.lean ====
import proofs.«416252_j75050258530751_2_alg».proof.Proof.KI.R15
import proofs.«416252_j75050258530751_2_alg».proof.Proof.KI.ValDefs
import proofs.«416252_j75050258530751_2_alg».proof.Proof.KI.VLib

namespace Cert.KernelIdeal.Hand

open Cert.KernelIdeal Cert.KernelIdeal.Gen Cert.VLib Idealize.ShloMosaic Idealize.ShloMosaic.TcCoe Idealize.ShloMosaic.ValueIdx

variable (V : (c : Dev nD) → (b : Ref sig .tc) → Buf (Elt Ideal) ((c : Thread nD τ).loc b))

namespace Reg15

theorem index_facts : ∀ t : Fin cfg15.N, win15_0.index t (0 : Fin 2) = win15_2.index t (0 : Fin 2)
    ∧ win15_0.index t (1 : Fin 2) = win15_2.index t (1 : Fin 2)
    ∧ win15_1.index t (0 : Fin 2) = 0 ∧ win15_1.index t (1 : Fin 2) = 0
    ∧ win15_2.index t (0 : Fin 2) = t.val ∧ win15_2.index t (1 : Fin 2) = 0 :=
  (by decide +kernel : ∀ t : Fin grid15.N, _)

-- Entry by entry: the block's entry plus the bias row's entry in its column, rectified, each read off its array at the matching index.
theorem flushed_eq (c : Dev nD) (t : Fin cfg15.N) :
    (dat15 (F := Ideal) V c).flushed 2 t
      = ((cfg15.win 2).blk t).view.read (Elt Ideal) (biasRelu32 (V c main_v218) (V c main_v219)) := by
  have := index_facts t
  show (cfg15.win 2).cut (grid15.coords t) ((dat15 V c).after 2 t) = _
  rw [after15_2, out15_2, View.canon_unit_zero zero2, View.ld_unit_zero zero2, View.ld_unit_zero zero2]
  funext j
  refine (biasRelu_apply _ _ _).trans (congrArg₂ (fun x y : EReal => max (x + y) 0)
    (congrArg (V c main_v218) (Shape.idx_ext₂ ?_ ?_)) (congrArg (V c main_v219) (Shape.idx_ext₂ ?_ ?_)))
  · show win15_0.index t (0 : Fin 2) * 10000 + 1 * (j 0).val = win15_2.index t (0 : Fin 2) * 10000 + 1 * (j 0).val; omega
  · show win15_0.index t (1 : Fin 2) * 32 + 1 * (j 1).val = win15_2.index t (1 : Fin 2) * 32 + 1 * (j 1).val; omega
  · show win15_1.index t (0 : Fin 2) * 1 + 1 * 0 = 0; omega
  · show win15_1.index t (1 : Fin 2) * 32 + 1 * (j 1).val = win15_2.index t (1 : Fin 2) * 32 + 1 * (j 1).val; omega

-- Row r lies in the block of point r / 10000.
theorem covered (i : S100000x32.Idx) : ∃ t : Fin cfg15.N, (cfg15.win 2).flush t = true ∧ i ∈ ((cfg15.win 2).blk t).view.set := by
  have := idx2_lt0 i
  have e := index_facts ⟨(i 0).val / 10000, by show _ < 10; omega⟩
  exact ⟨_, flush15_2 _, mem_slice_whole _ _ (mem_rowBlock 10000 i (by decide) e.2.2.2.2.1 e.2.2.2.2.2)⟩

end Reg15

theorem final15 (c : Dev nD) :
    (dat15 (F := Ideal) V c).arrAt 2 cfg15.N = biasRelu32 (V c main_v218) (V c main_v219) :=
  (dat15 (F := Ideal) V c).arrAt_eq_of_cover 2 _ (fun t _ => Reg15.flushed_eq V c t) Reg15.covered

end Cert.KernelIdeal.Hand
-- ==== Proof.KI.V16.lean ====
import proofs.«416252_j75050258530751_2_alg».proof.Proof.KI.R16
import proofs.«416252_j75050258530751_2_alg».proof.Proof.KI.ValDefs
import proofs.«416252_j75050258530751_2_alg».proof.Proof.KI.VLib

namespace Cert.KernelIdeal.Hand

open Cert.KernelIdeal Cert.KernelIdeal.Gen Cert.VLib Idealize.ShloMosaic Idealize.ShloMosaic.TcCoe Idealize.ShloMosaic.ValueIdx

variable (V : (c : Dev nD) → (b : Ref sig .tc) → Buf (Elt Ideal) ((c : Thread nD τ).loc b))

namespace Reg16

theorem index_facts16 : ∀ t : Fin cfg16.N, win16_0.index t (0 : Fin 2) = win16_2.index t (0 : Fin 2)
    ∧ win16_0.index t (1 : Fin 2) = 0
    ∧ win16_1.index t (0 : Fin 2) = 0
    ∧ win16_1.index t (1 : Fin 2) = 0
    ∧ win16_2.index t (0 : Fin 2) = t.val
    ∧ win16_2.index t (1 : Fin 2) = 0 :=
  (by decide +kernel : ∀ t : Fin grid16.N, _)

-- Entry by entry the block product is the sum over the shared axis, and each block entry is its array's at the matching index.
theorem flushed16_2_eq (c : Dev nD) (t : Fin cfg16.N) :
    (dat16 (F := Ideal) V c).flushed 2 t
      = ((cfg16.win 2).blk t).view.read (Elt Ideal) (matProduct32x64 (V c main_v220) (V c main_arg11)) := by
  have := index_facts16 t
  show (cfg16.win 2).cut (grid16.coords t) ((dat16 (F := Ideal) V c).after 2 t) = _
  rw [after16_2, out16_2, View.canon_unit_zero zero2, View.ld_unit_zero zero2, View.ld_unit_zero zero2,
    k16_pay1, shapeCast_self]
  funext j
  show _ = matProduct32x64 _ _ (((cfg16.win 2).blk t).view.emb j)
  refine (plainDot_apply _ _ _).trans (Finset.sum_congr rfl fun k _ => congrArg₂ (· * ·)
    (congrArg (V c main_v220) (Shape.idx_ext₂ ?_ ?_)) (congrArg (V c main_arg11) (Shape.idx_ext₂ ?_ ?_)))
  · show win16_0.index t (0 : Fin 2) * 10000 + 1 * (j 0).val = win16_2.index t (0 : Fin 2) * 10000 + 1 * (j 0).val; omega
  · show win16_0.index t (1 : Fin 2) * 32 + 1 * k.val = k.val; omega
  · show win16_1.index t (0 : Fin 2) * 32 + 1 * k.val = k.val; omega
  · show win16_1.index t (1 : Fin 2) * 64 + 1 * (j 1).val = win16_2.index t (1 : Fin 2) * 64 + 1 * (j 1).val; omega

-- Row r lies in the block of point r / 10000.
theorem cover16 (i : S100000x64.Idx) : ∃ t : Fin cfg16.N, (cfg16.win 2).flush t = true ∧ i ∈ ((cfg16.win 2).blk t).view.set := by
  have := idx2_lt0 i
  have e := index_facts16 ⟨(i 0).val / 10000, by show _ < 10; omega⟩
  exact ⟨_, flush16_2 _, mem_slice_whole _ _ (mem_rowBlock 10000 i (by decide) e.2.2.2.2.1 e.2.2.2.2.2)⟩

end Reg16

theorem final16 (c : Dev nD) :
    (dat16 (F := Ideal) V c).arrAt 2 cfg16.N = matProduct32x64 (V c main_v220) (V c main_arg11) :=
  (dat16 (F := Ideal) V c).arrAt_eq_of_cover 2 _ (fun t _ => Reg16.flushed16_2_eq V c t) Reg16.cover16

end Cert.KernelIdeal.Hand
-- ==== Proof.KI.V17.lean ====
import proofs.«416252_j75050258530751_2_alg».proof.Proof.KI.R17
import proofs.«416252_j75050258530751_2_alg».proof.Proof.KI.ValDefs
import proofs.«416252_j75050258530751_2_alg».proof.Proof.KI.VLib

namespace Cert.KernelIdeal.Hand

open Cert.KernelIdeal Cert.KernelIdeal.Gen Cert.VLib Idealize.ShloMosaic Idealize.ShloMosaic.TcCoe Idealize.ShloMosaic.ValueIdx

variable (V : (c : Dev nD) → (b : Ref sig .tc) → Buf (Elt Ideal) ((c : Thread nD τ).loc b))

namespace Reg17

theorem index_facts : ∀ t : Fin cfg17.N, win17_0.index t (0 : Fin 2) = win17_2.index t (0 : Fin 2)
    ∧ win17_0.index t (1 : Fin 2) = win17_2.index t (1 : Fin 2)
    ∧ win17_1.index t (0 : Fin 2) = 0 ∧ win17_1.index t (1 : Fin 2) = 0
    ∧ win17_2.index t (0 : Fin 2) = t.val ∧ win17_2.index t (1 : Fin 2) = 0 :=
  (by decide +kernel : ∀ t : Fin grid17.N, _)

-- Entry by entry: the block's entry plus the bias row's entry in its column, rectified, each read off its array at the matching index.
theorem flushed_eq (c : Dev nD) (t : Fin cfg17.N) :
    (dat17 (F := Ideal) V c).flushed 2 t
      = ((cfg17.win 2).blk t).view.read (Elt Ideal) (biasRelu64 (V c main_v234) (V c main_v235)) := by
  have := index_facts t
  show (cfg17.win 2).cut (grid17.coords t) ((dat17 V c).after 2 t) = _
  rw [after17_2, out17_2, View.canon_unit_zero zero2, View.ld_unit_zero zero2, View.ld_unit_zero zero2]
  funext j
  refine (biasRelu_apply _ _ _).trans (congrArg₂ (fun x y : EReal => max (x + y) 0)
    (congrArg (V c main_v234) (Shape.idx_ext₂ ?_ ?_)) (congrArg (V c main_v235) (Shape.idx_ext₂ ?_ ?_)))
  · show win17_0.index t (0 : Fin 2) * 10000 + 1 * (j 0).val = win17_2.index t (0 : Fin 2) * 10000 + 1 * (j 0).val; omega
  · show win17_0.index t (1 : Fin 2) * 64 + 1 * (j 1).val = win17_2.index t (1 : Fin 2) * 64 + 1 * (j 1).val; omega
  · show win17_1.index t (0 : Fin 2) * 1 + 1 * 0 = 0; omega
  · show win17_1.index t (1 : Fin 2) * 64 + 1 * (j 1).val = win17_2.index t (1 : Fin 2) * 64 + 1 * (j 1).val; omega

-- Row r lies in the block of point r / 10000.
theorem covered (i : S100000x64.Idx) : ∃ t : Fin cfg17.N, (cfg17.win 2).flush t = true ∧ i ∈ ((cfg17.win 2).blk t).view.set := by
  have := idx2_lt0 i
  have e := index_facts ⟨(i 0).val / 10000, by show _ < 10; omega⟩
  exact ⟨_, flush17_2 _, mem_slice_whole _ _ (mem_rowBlock 10000 i (by decide) e.2.2.2.2.1 e.2.2.2.2.2)⟩

end Reg17

theorem final17 (c : Dev nD) :
    (dat17 (F := Ideal) V c).arrAt 2 cfg17.N = biasRelu64 (V c main_v234) (V c main_v235) :=
  (dat17 (F := Ideal) V c).arrAt_eq_of_cover 2 _ (fun t _ => Reg17.flushed_eq V c t) Reg17.covered

end Cert.KernelIdeal.Hand
-- ==== Proof.KI.V18.lean ====
import proofs.«416252_j75050258530751_2_alg».proof.Proof.KI.R18
import proofs.«416252_j75050258530751_2_alg».proof.Proof.KI.ValDefs
import proofs.«416252_j75050258530751_2_alg».proof.Proof.KI.VLib

namespace Cert.KernelIdeal.Hand

open Cert.KernelIdeal Cert.KernelIdeal.Gen Cert.VLib Idealize.ShloMosaic Idealize.ShloMosaic.TcCoe Idealize.ShloMosaic.ValueIdx

variable (V : (c : Dev nD) → (b : Ref sig .tc) → Buf (Elt Ideal) ((c : Thread nD τ).loc b))

namespace Reg18

theorem index_facts18 : ∀ t : Fin cfg18.N, win18_0.index t (0 : Fin 2) = win18_2.index t (0 : Fin 2)
    ∧ win18_0.index t (1 : Fin 2) = 0
    ∧ win18_1.index t (0 : Fin 2) = 0
    ∧ win18_1.index t (1 : Fin 2) = 0
    ∧ win18_2.index t (0 : Fin 2) = t.val
    ∧ win18_2.index t (1 : Fin 2) = 0 :=
  (by decide +kernel : ∀ t : Fin grid18.N, _)

-- Entry by entry the block product is the sum over the shared axis, and each block entry is its array's at the matching index.
theorem flushed18_2_eq (c : Dev nD) (t : Fin cfg18.N) :
    (dat18 (F := Ideal) V c).flushed 2 t
      = ((cfg18.win 2).blk t).view.read (Elt Ideal) (matProduct64x64 (V c main_v236) (V c main_arg13)) := by
  have := index_facts18 t
  show (cfg18.win 2).cut (grid18.coords t) ((dat18 (F := Ideal) V c).after 2 t) = _
  rw [after18_2, out18_2, View.canon_unit_zero zero2, View.ld_unit_zero zero2, View.ld_unit_zero zero2,
    k18_pay1, shapeCast_self]
  funext j
  show _ = matProduct64x64 _ _ (((cfg18.win 2).blk t).view.emb j)
  refine (plainDot_apply _ _ _).trans (Finset.sum_congr rfl fun k _ => congrArg₂ (· * ·)
    (congrArg (V c main_v236) (Shape.idx_ext₂ ?_ ?_)) (congrArg (V c main_arg13) (Shape.idx_ext₂ ?_ ?_)))
  · show win18_0.index t (0 : Fin 2) * 10000 + 1 * (j 0).val = win18_2.index t (0 : Fin 2) * 10000 + 1 * (j 0).val; omega
  · show win18_0.index t (1 : Fin 2) * 64 + 1 * k.val = k.val; omega
  · show win18_1.index t (0 : Fin 2) * 64 + 1 * k.val = k.val; omega
  · show win18_1.index t (1 : Fin 2) * 64 + 1 * (j 1).val = win18_2.index t (1 : Fin 2) * 64 + 1 * (j 1).val; omega

-- Row r lies in the block of point r / 10000.
theorem cover18 (i : S100000x64.Idx) : ∃ t : Fin cfg18.N, (cfg18.win 2).flush t = true ∧ i ∈ ((cfg18.win 2).blk t).view.set := by
  have := idx2_lt0 i
  have e := index_facts18 ⟨(i 0).val / 10000, by show _ < 10; omega⟩
  exact ⟨_, flush18_2 _, mem_slice_whole _ _ (mem_rowBlock 10000 i (by decide) e.2.2.2.2.1 e.2.2.2.2.2)⟩

end Reg18

theorem final18 (c : Dev nD) :
    (dat18 (F := Ideal) V c).arrAt 2 cfg18.N = matProduct64x64 (V c main_v236) (V c main_arg13) :=
  (dat18 (F := Ideal) V c).arrAt_eq_of_cover 2 _ (fun t _ => Reg18.flushed18_2_eq V c t) Reg18.cover18

end Cert.KernelIdeal.Hand
-- ==== Proof.KI.V19.lean ====
import proofs.«416252_j75050258530751_2_alg».proof.Proof.KI.R19
import proofs.«416252_j75050258530751_2_alg».proof.Proof.KI.ValDefs
import proofs.«416252_j75050258530751_2_alg».proof.Proof.KI.VLib

namespace Cert.KernelIdeal.Hand

open Cert.KernelIdeal Cert.KernelIdeal.Gen Cert.VLib Idealize.ShloMosaic Idealize.ShloMosaic.TcCoe Idealize.ShloMosaic.ValueIdx

variable (V : (c : Dev nD) → (b : Ref sig .tc) → Buf (Elt Ideal) ((c : Thread nD τ).loc b))

namespace Reg19

theorem index_facts : ∀ t : Fin cfg19.N, win19_0.index t (0 : Fin 2) = win19_2.index t (0 : Fin 2)
    ∧ win19_0.index t (1 : Fin 2) = win19_2.index t (1 : Fin 2)
    ∧ win19_1.index t (0 : Fin 2) = 0 ∧ win19_1.index t (1 : Fin 2) = 0
    ∧ win19_2.index t (0 : Fin 2) = t.val ∧ win19_2.index t (1 : Fin 2) = 0 :=
  (by decide +kernel : ∀ t : Fin grid19.N, _)

-- Entry by entry: the block's entry plus the bias row's entry in its column, rectified, each read off its array at the matching index.
theorem flushed_eq (c : Dev nD) (t : Fin cfg19.N) :
    (dat19 (F := Ideal) V c).flushed 2 t
      = ((cfg19.win 2).blk t).view.read (Elt Ideal) (biasRelu64 (V c main_v250) (V c main_v251)) := by
  have := index_facts t
  show (cfg19.win 2).cut (grid19.coords t) ((dat19 V c).after 2 t) = _
  rw [after19_2, out19_2, View.canon_unit_zero zero2, View.ld_unit_zero zero2, View.ld_unit_zero zero2]
  funext j
  refine (biasRelu_apply _ _ _).trans (congrArg₂ (fun x y : EReal => max (x + y) 0)
    (congrArg (V c main_v250) (Shape.idx_ext₂ ?_ ?_)) (congrArg (V c main_v251) (Shape.idx_ext₂ ?_ ?_)))
  · show win19_0.index t (0 : Fin 2) * 10000 + 1 * (j 0).val = win19_2.index t (0 : Fin 2) * 10000 + 1 * (j 0).val; omega
  · show win19_0.index t (1 : Fin 2) * 64 + 1 * (j 1).val = win19_2.index t (1 : Fin 2) * 64 + 1 * (j 1).val; omega
  · show win19_1.index t (0 : Fin 2) * 1 + 1 * 0 = 0; omega
  · show win19_1.index t (1 : Fin 2) * 64 + 1 * (j 1).val = win19_2.index t (1 : Fin 2) * 64 + 1 * (j 1).val; omega

-- Row r lies in the block of point r / 10000.
theorem covered (i : S100000x64.Idx) : ∃ t : Fin cfg19.N, (cfg19.win 2).flush t = true ∧ i ∈ ((cfg19.win 2).blk t).view.set := by
  have := idx2_lt0 i
  have e := index_facts ⟨(i 0).val / 10000, by show _ < 10; omega⟩
  exact ⟨_, flush19_2 _, mem_slice_whole _ _ (mem_rowBlock 10000 i (by decide) e.2.2.2.2.1 e.2.2.2.2.2)⟩

end Reg19

theorem final19 (c : Dev nD) :
    (dat19 (F := Ideal) V c).arrAt 2 cfg19.N = biasRelu64 (V c main_v250) (V c main_v251) :=
  (dat19 (F := Ideal) V c).arrAt_eq_of_cover 2 _ (fun t _ => Reg19.flushed_eq V c t) Reg19.covered

end Cert.KernelIdeal.Hand
-- ==== Proof.KI.V20.lean ====
import proofs.«416252_j75050258530751_2_alg».proof.Proof.KI.R20
import proofs.«416252_j75050258530751_2_alg».proof.Proof.KI.ValDefs
import proofs.«416252_j75050258530751_2_alg».proof.Proof.KI.VLib

namespace Cert.KernelIdeal.Hand

open Cert.KernelIdeal Cert.KernelIdeal.Gen Cert.VLib Idealize.ShloMosaic Idealize.ShloMosaic.TcCoe Idealize.ShloMosaic.ValueIdx

variable (V : (c : Dev nD) → (b : Ref sig .tc) → Buf (Elt Ideal) ((c : Thread nD τ).loc b))

namespace Reg20

-- At (r, g) the broadcast reads row r's word and the iota reads g.
theorem onehot_apply (v3 : IVec S2000x1 32) (r : Fin 2000) (g : Fin 512) :
    (sitofp .f32 (extui 32 (cmpi .eq (broadcastTo S2000x512 v3 broadcasts_S2000x1_S2000x512)
        (iota .tc S2000x512 32 [1] iota_S2000x512_d1_w32)) natLt_1_32) : FVec Ideal S2000x512 .f32) (ix2 r g)
      = if v3 (ix2 r 0) = BitVec.ofNat 32 g.val then (1 : EReal) else 0 := by
  refine (onehot_word _ _).trans ?_
  rw [broadcastTo_apply v3 _ (ix2 r g) (ix2 r 0) (Fin.forall_fin_two.mpr ⟨rfl, rfl⟩), iota_single_apply]

-- The product's entry sums, over the block's rows, a one-hot entry times an entry of x.
theorem poolStep_apply (v3 : Vec Ideal S2000x1 .i32) (v11 : Vec Ideal S2000x64 .f32) (v14 : Vec Ideal S512x64 .f32)
    (g : Fin 512) (h : Fin 64) :
    k20_pay2 (F := Ideal) v3 v11 v14 (ix2 g h)
      = (v14 : S512x64.Idx → EReal) (ix2 g h) + ∑ r : Fin 2000, (if (v3 : IVec S2000x1 32) (ix2 r 0) = BitVec.ofNat 32 g.val
          then (v11 : S2000x64.Idx → EReal) (ix2 r h) else 0) := by
  unfold k20_pay2
  simp only [shapeCast_self]
  refine congrArg (v14 (ix2 g h) + ·) ((rowsDot_apply _ _ g h).trans (Finset.sum_congr rfl fun r _ => ?_))
  rw [truncf_apply, truncf_apply, onehot_apply, ite_mul, one_mul, zero_mul]

theorem poolZero_apply (j : S512x64.Idx) : k20_pay1 (F := Ideal) j = (0 : EReal) := by
  unfold k20_pay1
  rw [shapeCast_self]
  exact Ideal.ofBits_zero_f32

noncomputable def rowTerm (bt : IVec S100000x1 32) (x : S100000x64.Idx → EReal) (g : Fin 512) (h : Fin 64) (m : ℕ) : EReal :=
  if hm : m < 100000 then (if bt (ix2 ⟨m, hm⟩ 0) = BitVec.ofNat 32 g.val then x (ix2 ⟨m, hm⟩ h) else 0) else 0

theorem index_facts20 : ∀ t : Fin cfg20.N, win20_0.index t (0 : Fin 2) = t.val
    ∧ win20_0.index t (1 : Fin 2) = 0
    ∧ win20_1.index t (0 : Fin 2) = t.val
    ∧ win20_1.index t (1 : Fin 2) = 0
    ∧ win20_2.index t (0 : Fin 2) = 0
    ∧ win20_2.index t (1 : Fin 2) = 0 :=
  (by decide +kernel : ∀ t : Fin grid20.N, _)

-- By induction on n: point n adds the terms of rows 2000·n … 2000·n + 1999, its blocks' rows.
theorem accAt20_apply (c : Dev nD) (g : Fin 512) (h : Fin 64) : ∀ n : ℕ, n ≤ 50 →
    (accAt20 (F := Ideal) V c n : S512x64.Idx → EReal) (ix2 g h)
      = ∑ m ∈ Finset.range (2000 * n), rowTerm (V c main_v253) (V c main_v252) g h m
  | 0, _ => by
    rw [Nat.mul_zero, Finset.sum_range_zero]
    exact poolZero_apply _
  | n + 1, hn => by
    have hN : cfg20.N = 50 := N_20
    have hlt : n < cfg20.N := by omega
    have := index_facts20 ⟨n, hlt⟩
    dsimp only at this
    rw [show accAt20 (F := Ideal) V c (n + 1) = _ from accAt20_succ V c ⟨n, hlt⟩, poolStep_apply, mul_add_one, Finset.sum_range_add,
      Finset.sum_range fun x => rowTerm _ _ g h (2000 * n + x)]
    refine congrArg₂ (· + ·) (accAt20_apply c g h n (by omega)) (Finset.sum_congr rfl fun r _ => ?_)
    have := r.isLt
    unfold rowTerm
    rw [dif_pos (show 2000 * n + r.val < 100000 by omega)]
    refine congrArg₂ (fun a b => if a = BitVec.ofNat 32 g.val then b else 0)
      (congrArg (V c main_v253) (Shape.idx_ext₂ ?_ ?_)) (congrArg (V c main_v252) (Shape.idx_ext₂ ?_ ?_))
    · show win20_1.index ⟨n, hlt⟩ (0 : Fin 2) * 2000 + 1 * r.val = 2000 * n + r.val; omega
    · show win20_1.index ⟨n, hlt⟩ (1 : Fin 2) * 1 + 1 * 0 = 0; omega
    · show win20_0.index ⟨n, hlt⟩ (0 : Fin 2) * 2000 + 1 * r.val = 2000 * n + r.val; omega
    · show win20_0.index ⟨n, hlt⟩ (1 : Fin 2) * 64 + 1 * h.val = h.val; omega

-- The output's one block is the whole array: its block index is (0, 0).
theorem flushed20_2_eq (c : Dev nD) (t : Fin cfg20.N) (hf : (cfg20.win 2).flush t = true) :
    (dat20 (F := Ideal) V c).flushed 2 t = ((cfg20.win 2).blk t).view.read (Elt Ideal) (accAt20 (F := Ideal) V c 50) := by
  have e := index_facts20 t
  have h49 : t.val + 1 = 50 := by have := (flush20_2 t).mp hf; have := t.isLt; have : cfg20.N = 50 := N_20; omega
  show (cfg20.win 2).cut (grid20.coords t) ((dat20 (F := Ideal) V c).after 2 t) = _
  rw [after20_2, h49]
  funext j
  exact congrArg (accAt20 (F := Ideal) V c 50) (Shape.idx_ext₂ (win20_2.rect_emb_val_of_index_zero t 0 e.2.2.2.2.1 j)
    (win20_2.rect_emb_val_of_index_zero t 1 e.2.2.2.2.2 j)).symm

theorem cover20 (i : S512x64.Idx) : ∃ t : Fin cfg20.N, (cfg20.win 2).flush t = true ∧ i ∈ ((cfg20.win 2).blk t).view.set := by
  have e := index_facts20 ⟨49, by have : cfg20.N = 50 := N_20; omega⟩
  exact ⟨_, (flush20_2 _).mpr rfl, mem_slice_whole _ _
    (mem_rowBlock 512 i (by decide) (e.2.2.2.2.1.trans (Nat.div_eq_of_lt (idx2_lt0 i)).symm) e.2.2.2.2.2)⟩

end Reg20

theorem final20 (c : Dev nD) :
    (dat20 (F := Ideal) V c).arrAt 2 cfg20.N = maskedSum (V c main_v253) (V c main_v252) := by
  rw [(dat20 (F := Ideal) V c).arrAt_eq_of_cover 2 _ (Reg20.flushed20_2_eq V c) Reg20.cover20]
  funext j
  obtain ⟨g, h, rfl⟩ : ∃ g h, j = ix2 g h := ⟨j 0, j 1, eq_ix2 j⟩
  rw [Reg20.accAt20_apply V c g h 50 le_rfl, Finset.sum_range]
  exact Finset.sum_congr rfl fun n _ => dif_pos n.isLt

end Cert.KernelIdeal.Hand
-- ==== Proof.KI.Tower2.lean ====
/-
  One tower of the network, boundary by boundary: each buffer a later item reads is one step's function of the buffers
  the item before it left; composing the steps gives `towerV` of the tower's arguments.
-/
import proofs.«416252_j75050258530751_2_alg».proof.Proof.KI.Back
import proofs.«416252_j75050258530751_2_alg».proof.Proof.KI.St3
import proofs.«416252_j75050258530751_2_alg».proof.Proof.KI.ValDefs
import proofs.«416252_j75050258530751_2_alg».proof.Proof.KI.V14
import proofs.«416252_j75050258530751_2_alg».proof.Proof.KI.V15
import proofs.«416252_j75050258530751_2_alg».proof.Proof.KI.V16
import proofs.«416252_j75050258530751_2_alg».proof.Proof.KI.V17
import proofs.«416252_j75050258530751_2_alg».proof.Proof.KI.V18
import proofs.«416252_j75050258530751_2_alg».proof.Proof.KI.V19
import proofs.«416252_j75050258530751_2_alg».proof.Proof.KI.V20

set_option maxRecDepth 16384

noncomputable section

namespace Cert.KernelIdeal.Hand

open Cert.KernelIdeal Cert.KernelIdeal.Facts₀ Cert.KernelIdeal.Facts
open Idealize.ShloMosaic Idealize.ShloMosaic.TcCoe Idealize.SL.Sem

variable (m : (ℓ : Loc nD τ sig) → Buf (Elt Ideal) ℓ) (c : Dev nD)

theorem tw2_src1 : W25 m c main_v181 = srcT (m ((c : Thread nD τ).loc main_arg7)) := st_v181 (W24 m c)
theorem tw2_dst1 : W25 m c main_v182 = dstT (m ((c : Thread nD τ).loc main_arg7)) := st_v182 (W24 m c)
theorem tw2_nrm1 : W25 m c main_v204 = normT (F := Ideal) (m ((c : Thread nD τ).loc main_arg7)) := st_v204 (W24 m c)

-- No item between writes the edge lists or the normalisation.
theorem tw2_src2 : W26 m c main_v181 = srcT (m ((c : Thread nD τ).loc main_arg7)) :=
  (W26_of m c main_v181 (by decide)).trans (tw2_src1 m c)
theorem tw2_dst2 : W26 m c main_v182 = dstT (m ((c : Thread nD τ).loc main_arg7)) :=
  (W26_of m c main_v182 (by decide)).trans (tw2_dst1 m c)
theorem tw2_nrm2 : W26 m c main_v204 = normT (F := Ideal) (m ((c : Thread nD τ).loc main_arg7)) :=
  (W26_of m c main_v204 (by decide)).trans (tw2_nrm1 m c)
theorem tw2_src5 : W29 m c main_v181 = srcT (m ((c : Thread nD τ).loc main_arg7)) :=
  (W29_of m c main_v181 (by decide)).trans ((W28_of m c main_v181 (by decide)).trans ((W27_of m c main_v181 (by decide)).trans (tw2_src2 m c)))
theorem tw2_dst5 : W29 m c main_v182 = dstT (m ((c : Thread nD τ).loc main_arg7)) :=
  (W29_of m c main_v182 (by decide)).trans ((W28_of m c main_v182 (by decide)).trans ((W27_of m c main_v182 (by decide)).trans (tw2_dst2 m c)))
theorem tw2_nrm5 : W29 m c main_v204 = normT (F := Ideal) (m ((c : Thread nD τ).loc main_arg7)) :=
  (W29_of m c main_v204 (by decide)).trans ((W28_of m c main_v204 (by decide)).trans ((W27_of m c main_v204 (by decide)).trans (tw2_nrm2 m c)))
theorem tw2_src8 : W32 m c main_v181 = srcT (m ((c : Thread nD τ).loc main_arg7)) :=
  (W32_of m c main_v181 (by decide)).trans ((W31_of m c main_v181 (by decide)).trans ((W30_of m c main_v181 (by decide)).trans (tw2_src5 m c)))
theorem tw2_dst8 : W32 m c main_v182 = dstT (m ((c : Thread nD τ).loc main_arg7)) :=
  (W32_of m c main_v182 (by decide)).trans ((W31_of m c main_v182 (by decide)).trans ((W30_of m c main_v182 (by decide)).trans (tw2_dst5 m c)))
theorem tw2_nrm8 : W32 m c main_v204 = normT (F := Ideal) (m ((c : Thread nD τ).loc main_arg7)) :=
  (W32_of m c main_v204 (by decide)).trans ((W31_of m c main_v204 (by decide)).trans ((W30_of m c main_v204 (by decide)).trans (tw2_nrm5 m c)))

theorem tw2_h1 : W26 m c main_v205 = matProduct128x32 (m ((c : Thread nD τ).loc main_arg6)) (m ((c : Thread nD τ).loc main_arg9)) := by
  rw [W26_out]; unfold res14; rw [final14]
  exact congrArg₂ matProduct128x32 (W25_args m c main_arg6 (by decide)) (W25_args m c main_arg9 (by decide))

theorem tw2_a1 : W27 m c main_v218 = convK32 (F := Ideal) (W26 m c main_v205) (srcT (m ((c : Thread nD τ).loc main_arg7))) (dstT (m ((c : Thread nD τ).loc main_arg7))) (normT (F := Ideal) (m ((c : Thread nD τ).loc main_arg7))) := by
  refine (st_v218 (W26 m c)).trans ?_
  rw [show W26 m c (Proc.devRef .tc main_v205) = W26 m c main_v205 from rfl, show W26 m c (Proc.devRef .tc main_v181) = W26 m c main_v181 from rfl, tw2_src2, show W26 m c (Proc.devRef .tc main_v182) = W26 m c main_v182 from rfl, tw2_dst2,
    show W26 m c (Proc.devRef .tc main_v204) = W26 m c main_v204 from rfl, tw2_nrm2]
theorem tw2_b1 : W27 m c main_v219 = shapeCast S1x32 (m ((c : Thread nD τ).loc main_arg10)) shapeCasts_S32_S1x32 := by
  refine (st_v219 (W26 m c)).trans ?_
  rw [show W26 m c (Proc.devRef .tc main_arg10) = W26 m c main_arg10 from rfl, W26_args m c main_arg10 (by decide)]

theorem tw2_x1 : W28 m c main_v220 = biasRelu32 (W27 m c main_v218) (W27 m c main_v219) := by
  rw [W28_out]; unfold res15; exact final15 _ c

theorem tw2_h2 : W29 m c main_v221 = matProduct32x64 (W28 m c main_v220) (m ((c : Thread nD τ).loc main_arg11)) := by
  rw [W29_out]; unfold res16; rw [final16]
  exact congrArg (matProduct32x64 (W28 m c main_v220)) (W28_args m c main_arg11 (by decide))

theorem tw2_a2 : W30 m c main_v234 = convK64 (F := Ideal) (W29 m c main_v221) (srcT (m ((c : Thread nD τ).loc main_arg7))) (dstT (m ((c : Thread nD τ).loc main_arg7))) (normT (F := Ideal) (m ((c : Thread nD τ).loc main_arg7))) := by
  refine (st_v234 (W29 m c)).trans ?_
  rw [show W29 m c (Proc.devRef .tc main_v221) = W29 m c main_v221 from rfl, show W29 m c (Proc.devRef .tc main_v181) = W29 m c main_v181 from rfl, tw2_src5, show W29 m c (Proc.devRef .tc main_v182) = W29 m c main_v182 from rfl, tw2_dst5,
    show W29 m c (Proc.devRef .tc main_v204) = W29 m c main_v204 from rfl, tw2_nrm5]
theorem tw2_b2 : W30 m c main_v235 = shapeCast S1x64 (m ((c : Thread nD τ).loc main_arg12)) shapeCasts_S64_S1x64 := by
  refine (st_v235 (W29 m c)).trans ?_
  rw [show W29 m c (Proc.devRef .tc main_arg12) = W29 m c main_arg12 from rfl, W29_args m c main_arg12 (by decide)]

theorem tw2_x2 : W31 m c main_v236 = biasRelu64 (W30 m c main_v234) (W30 m c main_v235) := by
  rw [W31_out]; unfold res17; exact final17 _ c

theorem tw2_h3 : W32 m c main_v237 = matProduct64x64 (W31 m c main_v236) (m ((c : Thread nD τ).loc main_arg13)) := by
  rw [W32_out]; unfold res18; rw [final18]
  exact congrArg (matProduct64x64 (W31 m c main_v236)) (W31_args m c main_arg13 (by decide))

theorem tw2_a3 : W33 m c main_v250 = convK64 (F := Ideal) (W32 m c main_v237) (srcT (m ((c : Thread nD τ).loc main_arg7))) (dstT (m ((c : Thread nD τ).loc main_arg7))) (normT (F := Ideal) (m ((c : Thread nD τ).loc main_arg7))) := by
  refine (st_v250 (W32 m c)).trans ?_
  rw [show W32 m c (Proc.devRef .tc main_v237) = W32 m c main_v237 from rfl, show W32 m c (Proc.devRef .tc main_v181) = W32 m c main_v181 from rfl, tw2_src8, show W32 m c (Proc.devRef .tc main_v182) = W32 m c main_v182 from rfl, tw2_dst8,
    show W32 m c (Proc.devRef .tc main_v204) = W32 m c main_v204 from rfl, tw2_nrm8]
theorem tw2_b3 : W33 m c main_v251 = shapeCast S1x64 (m ((c : Thread nD τ).loc main_arg14)) shapeCasts_S64_S1x64 := by
  refine (st_v251 (W32 m c)).trans ?_
  rw [show W32 m c (Proc.devRef .tc main_arg14) = W32 m c main_arg14 from rfl, W32_args m c main_arg14 (by decide)]

theorem tw2_x3 : W34 m c main_v252 = biasRelu64 (W33 m c main_v250) (W33 m c main_v251) := by
  rw [W34_out]; unfold res19; exact final19 _ c

theorem tw2_col : W35 m c main_v253 = shapeCast S100000x1 (m ((c : Thread nD τ).loc main_arg8)) shapeCasts_S100000_S100000x1 := by
  refine (st_v253 (W34 m c)).trans ?_
  rw [show W34 m c (Proc.devRef .tc main_arg8) = W34 m c main_arg8 from rfl, W34_args m c main_arg8 (by decide)]

theorem tw2_pool : W36 m c main_v254 = maskedSum (W35 m c main_v253) (W35 m c main_v252) := by
  rw [W36_out]; unfold res20; exact final20 _ c

-- The steps composed: the pooled sums of the third layer's activations, divided by the graphs' sizes.
theorem tw2_out : W37 m c main_v263 = towerV (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  refine (st_v263 (W36 m c)).trans ?_
  rw [show W36 m c (Proc.devRef .tc main_v254) = W36 m c main_v254 from rfl, tw2_pool, tw2_col, W35_of m c main_v252 (by decide), tw2_x3, tw2_a3, tw2_b3, tw2_h3,
    tw2_x2, tw2_a2, tw2_b2, tw2_h2, tw2_x1, tw2_a1, tw2_b1, tw2_h1,
    show W36 m c (Proc.devRef .tc main_arg8) = W36 m c main_arg8 from rfl, W36_args m c main_arg8 (by decide)]
  rfl

end Cert.KernelIdeal.Hand

end
-- ==== Proof.KI.Results.lean ====
import proofs.«416252_j75050258530751_2_alg».proof.Proof.KI.Tower0
import proofs.«416252_j75050258530751_2_alg».proof.Proof.KI.Tower1
import proofs.«416252_j75050258530751_2_alg».proof.Proof.KI.Tower2

set_option maxRecDepth 16384

noncomputable section

namespace Cert.KernelIdeal.Hand

open Cert.KernelIdeal Cert.KernelIdeal.Gen
open Idealize.ShloMosaic Idealize.ShloMosaic.TcCoe Idealize.SL.Sem

variable (m : (ℓ : Loc nD τ sig) → Buf (Elt Ideal) ℓ) (c : Dev nD)

theorem result0 : W37 m c main_v87 = towerV (m ((c : Thread nD τ).loc main_arg0)) (m ((c : Thread nD τ).loc main_arg1)) (m ((c : Thread nD τ).loc main_arg2)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (W37_of m c main_v87 (by decide)).trans ((W36_of m c main_v87 (by decide)).trans ((W35_of m c main_v87 (by decide)).trans ((W34_of m c main_v87 (by decide)).trans ((W33_of m c main_v87 (by decide)).trans ((W32_of m c main_v87 (by decide)).trans ((W31_of m c main_v87 (by decide)).trans ((W30_of m c main_v87 (by decide)).trans ((W29_of m c main_v87 (by decide)).trans ((W28_of m c main_v87 (by decide)).trans ((W27_of m c main_v87 (by decide)).trans ((W26_of m c main_v87 (by decide)).trans ((W25_of m c main_v87 (by decide)).trans ((W24_of m c main_v87 (by decide)).trans ((W23_of m c main_v87 (by decide)).trans ((W22_of m c main_v87 (by decide)).trans ((W21_of m c main_v87 (by decide)).trans ((W20_of m c main_v87 (by decide)).trans ((W19_of m c main_v87 (by decide)).trans ((W18_of m c main_v87 (by decide)).trans ((W17_of m c main_v87 (by decide)).trans ((W16_of m c main_v87 (by decide)).trans ((W15_of m c main_v87 (by decide)).trans ((W14_of m c main_v87 (by decide)).trans (tw0_out m c))))))))))))))))))))))))

theorem result1 : W37 m c main_v175 = towerV (m ((c : Thread nD τ).loc main_arg3)) (m ((c : Thread nD τ).loc main_arg4)) (m ((c : Thread nD τ).loc main_arg5)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  (W37_of m c main_v175 (by decide)).trans ((W36_of m c main_v175 (by decide)).trans ((W35_of m c main_v175 (by decide)).trans ((W34_of m c main_v175 (by decide)).trans ((W33_of m c main_v175 (by decide)).trans ((W32_of m c main_v175 (by decide)).trans ((W31_of m c main_v175 (by decide)).trans ((W30_of m c main_v175 (by decide)).trans ((W29_of m c main_v175 (by decide)).trans ((W28_of m c main_v175 (by decide)).trans ((W27_of m c main_v175 (by decide)).trans ((W26_of m c main_v175 (by decide)).trans (tw1_out m c))))))))))))

theorem result2 : W37 m c main_v263 = towerV (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  tw2_out m c

end Cert.KernelIdeal.Hand

end
-- ==== Proof.RI.RefVals.lean ====
import proofs.«416252_j75050258530751_2_alg».proof.Proof.RI.RefRunW

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

set_option maxRecDepth 8192 in
set_option maxHeartbeats 4000000 in

theorem ops_part0_writes : (ops_part0 : List (HloOp τ sig (Elt F))).Forall fun op => op.writes ⊆ (ops_part0_W.map (Proc.devRef (τ := τ) .tc)).toFinset := by
  simp only [List.Forall, TRef.nullary, TRef.unary, TRef.binary]
  repeat' constructor
  all_goals (simp only [nullary_writes, unary_writes, binary_writes, ternary_writes, reshape_writes, Finset.singleton_subset_iff, List.mem_toFinset]; exact List.mem_map_of_mem (by decide))

set_option maxRecDepth 8192 in
set_option maxHeartbeats 4000000 in

theorem ops_part1_writes : (ops_part1 : List (HloOp τ sig (Elt F))).Forall fun op => op.writes ⊆ (ops_part1_W.map (Proc.devRef (τ := τ) .tc)).toFinset := by
  simp only [List.Forall, TRef.nullary, TRef.unary, TRef.binary]
  repeat' constructor
  all_goals (simp only [nullary_writes, unary_writes, binary_writes, ternary_writes, reshape_writes, Finset.singleton_subset_iff, List.mem_toFinset]; exact List.mem_map_of_mem (by decide))

set_option maxRecDepth 8192 in
set_option maxHeartbeats 4000000 in

theorem ops_part2_writes : (ops_part2 : List (HloOp τ sig (Elt F))).Forall fun op => op.writes ⊆ (ops_part2_W.map (Proc.devRef (τ := τ) .tc)).toFinset := by
  simp only [List.Forall, TRef.nullary, TRef.unary, TRef.binary]
  repeat' constructor
  all_goals (simp only [nullary_writes, unary_writes, binary_writes, ternary_writes, reshape_writes, Finset.singleton_subset_iff, List.mem_toFinset]; exact List.mem_map_of_mem (by decide))

set_option maxRecDepth 8192 in
set_option maxHeartbeats 4000000 in

theorem ops_part3_writes : (ops_part3 : List (HloOp τ sig (Elt F))).Forall fun op => op.writes ⊆ (ops_part3_W.map (Proc.devRef (τ := τ) .tc)).toFinset := by
  simp only [List.Forall, TRef.nullary, TRef.unary, TRef.binary]
  repeat' constructor
  all_goals (simp only [nullary_writes, unary_writes, binary_writes, ternary_writes, reshape_writes, Finset.singleton_subset_iff, List.mem_toFinset]; exact List.mem_map_of_mem (by decide))

set_option maxRecDepth 8192 in
set_option maxHeartbeats 4000000 in

theorem ops_part4_writes : (ops_part4 : List (HloOp τ sig (Elt F))).Forall fun op => op.writes ⊆ (ops_part4_W.map (Proc.devRef (τ := τ) .tc)).toFinset := by
  simp only [List.Forall, TRef.nullary, TRef.unary, TRef.binary]
  repeat' constructor
  all_goals (simp only [nullary_writes, unary_writes, binary_writes, ternary_writes, reshape_writes, Finset.singleton_subset_iff, List.mem_toFinset]; exact List.mem_map_of_mem (by decide))

set_option maxRecDepth 8192 in
set_option maxHeartbeats 4000000 in

theorem ops_part5_writes : (ops_part5 : List (HloOp τ sig (Elt F))).Forall fun op => op.writes ⊆ (ops_part5_W.map (Proc.devRef (τ := τ) .tc)).toFinset := by
  simp only [List.Forall, TRef.nullary, TRef.unary, TRef.binary]
  repeat' constructor
  all_goals (simp only [nullary_writes, unary_writes, binary_writes, ternary_writes, reshape_writes, Finset.singleton_subset_iff, List.mem_toFinset]; exact List.mem_map_of_mem (by decide))

set_option maxRecDepth 8192 in
set_option maxHeartbeats 4000000 in

theorem ops_part6_writes : (ops_part6 : List (HloOp τ sig (Elt F))).Forall fun op => op.writes ⊆ (ops_part6_W.map (Proc.devRef (τ := τ) .tc)).toFinset := by
  simp only [List.Forall, TRef.nullary, TRef.unary, TRef.binary]
  repeat' constructor
  all_goals (simp only [nullary_writes, unary_writes, binary_writes, ternary_writes, reshape_writes, Finset.singleton_subset_iff, List.mem_toFinset]; exact List.mem_map_of_mem (by decide))

set_option maxRecDepth 8192 in
set_option maxHeartbeats 4000000 in

theorem ops_part7_writes : (ops_part7 : List (HloOp τ sig (Elt F))).Forall fun op => op.writes ⊆ (ops_part7_W.map (Proc.devRef (τ := τ) .tc)).toFinset := by
  simp only [List.Forall, TRef.nullary, TRef.unary, TRef.binary]
  repeat' constructor
  all_goals (simp only [nullary_writes, unary_writes, binary_writes, ternary_writes, reshape_writes, Finset.singleton_subset_iff, List.mem_toFinset]; exact List.mem_map_of_mem (by decide))

set_option maxRecDepth 8192 in
set_option maxHeartbeats 4000000 in

theorem ops_part8_writes : (ops_part8 : List (HloOp τ sig (Elt F))).Forall fun op => op.writes ⊆ (ops_part8_W.map (Proc.devRef (τ := τ) .tc)).toFinset := by
  simp only [List.Forall, TRef.nullary, TRef.unary, TRef.binary]
  repeat' constructor
  all_goals (simp only [nullary_writes, unary_writes, binary_writes, ternary_writes, reshape_writes, Finset.singleton_subset_iff, List.mem_toFinset]; exact List.mem_map_of_mem (by decide))

theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

theorem after_ops (V : Valuation τ sig (Elt F)) :
    after ops V = after ops_part8 (after ops_part7 (after ops_part6 (after ops_part5 (after ops_part4 (after ops_part3 (after ops_part2 (after ops_part1 (after ops_part0 V)))))))) := by
  simp only [ops, after_app]

theorem after_ops_arg (m : (ℓ : Loc nD τ sig) → Buf (Elt F) ℓ) (c : Dev nD) (r : Ref sig .tc)
    (h : r ∉ ops_part0_W ∧ r ∉ ops_part1_W ∧ r ∉ ops_part2_W ∧ r ∉ ops_part3_W ∧ r ∉ ops_part4_W
      ∧ r ∉ ops_part5_W ∧ r ∉ ops_part6_W ∧ r ∉ ops_part7_W ∧ r ∉ ops_part8_W) :
    after ops (launchContents m c) (Proc.devRef .tc r) = m ((c.tc : Thread nD τ).loc r) := by
  obtain ⟨h0, h1, h2, h3, h4, h5, h6, h7, h8⟩ := h
  rw [after_ops, after_of_writes_sub ops_part8 _ ops_part8_writes h8, after_of_writes_sub ops_part7 _ ops_part7_writes h7,
    after_of_writes_sub ops_part6 _ ops_part6_writes h6, after_of_writes_sub ops_part5 _ ops_part5_writes h5,
    after_of_writes_sub ops_part4 _ ops_part4_writes h4, after_of_writes_sub ops_part3 _ ops_part3_writes h3,
    after_of_writes_sub ops_part2 _ ops_part2_writes h2, after_of_writes_sub ops_part1 _ ops_part1_writes h1,
    after_of_writes_sub ops_part0 _ ops_part0_writes h0]

set_option maxRecDepth 8192 in
set_option maxHeartbeats 40000000 in

theorem after_ops_main_v144 (m : (ℓ : Loc nD τ sig) → Buf (Elt F) ℓ) (c : Dev nD) :
    after ops (launchContents m c) (Proc.devRef .tc main_v144) = res_main_v144 m c := by
  rw [after_ops,
    after_of_writes_sub (r := main_v144) ops_part8 _ ops_part8_writes (by decide),
    after_of_writes_sub (r := main_v144) ops_part7 _ ops_part7_writes (by decide),
    after_of_writes_sub (r := main_v144) ops_part6 _ ops_part6_writes (by decide),
    after_of_writes_sub (r := main_v144) ops_part5 _ ops_part5_writes (by decide),
    after_of_writes_sub (r := main_v144) ops_part4 _ ops_part4_writes (by decide),
    after_of_writes_sub (r := main_v144) ops_part3 _ ops_part3_writes (by decide)]
  generalize hV0 : after ops_part0 (launchContents m c) = V0
  generalize hV1 : after ops_part1 V0 = V1
  after_results_simp
  subst hV1
  after_results_simp
  subst hV0
  after_results_simp
  unfold res_main_v144
  rfl

set_option maxRecDepth 8192 in
set_option maxHeartbeats 40000000 in

theorem after_ops_main_v289 (m : (ℓ : Loc nD τ sig) → Buf (Elt F) ℓ) (c : Dev nD) :
    after ops (launchContents m c) (Proc.devRef .tc main_v289) = res_main_v289 m c := by
  rw [after_ops,
    after_of_writes_sub (r := main_v289) ops_part8 _ ops_part8_writes (by decide),
    after_of_writes_sub (r := main_v289) ops_part7 _ ops_part7_writes (by decide),
    after_of_writes_sub (r := main_v289) ops_part6 _ ops_part6_writes (by decide)]
  generalize hV0 : after ops_part0 (launchContents m c) = V0
  generalize hV1 : after ops_part1 V0 = V1
  generalize hV2 : after ops_part2 V1 = V2
  generalize hV3 : after ops_part3 V2 = V3
  generalize hV4 : after ops_part4 V3 = V4
  after_results_simp
  subst hV4
  after_results_simp
  subst hV3
  after_results_simp
  subst hV2
  after_results_simp
  subst hV1
  after_results_simp
  subst hV0
  after_results_simp
  unfold res_main_v289
  rfl

set_option maxRecDepth 8192 in
set_option maxHeartbeats 40000000 in

theorem after_ops_main_v434 (m : (ℓ : Loc nD τ sig) → Buf (Elt F) ℓ) (c : Dev nD) :
    after ops (launchContents m c) (Proc.devRef .tc main_v434) = res_main_v434 m c := by
  rw [after_ops]
  generalize hV0 : after ops_part0 (launchContents m c) = V0
  generalize hV1 : after ops_part1 V0 = V1
  generalize hV2 : after ops_part2 V1 = V2
  generalize hV3 : after ops_part3 V2 = V3
  generalize hV4 : after ops_part4 V3 = V4
  generalize hV5 : after ops_part5 V4 = V5
  generalize hV6 : after ops_part6 V5 = V6
  generalize hV7 : after ops_part7 V6 = V7
  after_results_simp
  subst hV7
  after_results_simp
  subst hV6
  after_results_simp
  subst hV5
  after_results_simp
  subst hV4
  after_results_simp
  subst hV3
  after_results_simp
  subst hV2
  after_results_simp
  subst hV1
  after_results_simp
  subst hV0
  after_results_simp
  unfold res_main_v434
  rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v144) = res_main_v144 m c
      ∧ r.2.mem ((c.tc : Thread nD τ).loc main_v289) = res_main_v289 m c
      ∧ r.2.mem ((c.tc : Thread nD τ).loc main_v434) = res_main_v434 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v144).trans (after_ops_main_v144 m c),
      (h c main_v289).trans (after_ops_main_v289 m c),
      (h c main_v434).trans (after_ops_main_v434 m c),
      (h c main_arg0).trans (after_ops_arg m c main_arg0 (by decide)),
      (h c main_arg1).trans (after_ops_arg m c main_arg1 (by decide)),
      (h c main_arg2).trans (after_ops_arg m c main_arg2 (by decide)),
      (h c main_arg3).trans (after_ops_arg m c main_arg3 (by decide)),
      (h c main_arg4).trans (after_ops_arg m c main_arg4 (by decide)),
      (h c main_arg5).trans (after_ops_arg m c main_arg5 (by decide)),
      (h c main_arg6).trans (after_ops_arg m c main_arg6 (by decide)),
      (h c main_arg7).trans (after_ops_arg m c main_arg7 (by decide)),
      (h c main_arg8).trans (after_ops_arg m c main_arg8 (by decide)),
      (h c main_arg9).trans (after_ops_arg m c main_arg9 (by decide)),
      (h c main_arg10).trans (after_ops_arg m c main_arg10 (by decide)),
      (h c main_arg11).trans (after_ops_arg m c main_arg11 (by decide)),
      (h c main_arg12).trans (after_ops_arg m c main_arg12 (by decide)),
      (h c main_arg13).trans (after_ops_arg m c main_arg13 (by decide)),
      (h c main_arg14).trans (after_ops_arg m c main_arg14 (by decide))⟩)
    (run_all m ρ)

end Cert.ReferenceIdeal.Value

end
-- ==== Proof.RI.PoolScatter.lean ====
import proofs.«416252_j75050258530751_2_alg».proof.Proof.Gen.ReferenceIdeal
import Idealize.ShloMosaic.PureOps.Ideal
import Idealize.ShloMosaic.PureOps.Ideal.Laws
import Idealize.ShloMosaic.Lib.ValueIdx

noncomputable section

namespace Cert.ReferenceIdeal.Hand

open Cert.ReferenceIdeal Idealize.ShloMosaic Idealize.ShloMosaic.ValueIdx
open scoped BigOperators

local notation "dP" => scatter_S512x64_S100000x1_S100000x64_1_0_0_1

theorem pool_siIdx (j : S100000x64.Idx) (c : Fin (dP).scatterDimsToOperandDims.length) :
    (dP).siIdx j c = ix2 (j 0) 0 := by
  funext b; refine Fin.ext ?_
  match b with
  | ⟨0, _⟩ => rfl
  | ⟨1, _⟩ =>
    have hc : c.val < 1 := c.isLt
    show c.val = 0
    omega

theorem pool_start0 (bt : IVec S100000x1 32) (j : S100000x64.Idx) :
    (dP).start j bt 0 = (bt (ix2 (j 0) 0)).toInt := by
  unfold ScatterDims.start
  rw [dif_pos (show (0 : Fin 2) ∈ (dP).scatterDimsToOperandDims from List.mem_singleton.mpr rfl), pool_siIdx]
  rfl

theorem pool_start1 (bt : IVec S100000x1 32) (j : S100000x64.Idx) :
    (dP).start j bt 1 = 0 := by
  unfold ScatterDims.start
  rw [dif_neg (show ¬ (1 : Fin 2) ∈ (dP).scatterDimsToOperandDims by decide)]

theorem pool_window0 (j : S100000x64.Idx) : (dP).window j 0 = 0 := by
  unfold ScatterDims.window
  rw [dif_neg (show ¬ (0 : Fin 2) ∈ (dP).sKept by decide)]

theorem pool_window1 (j : S100000x64.Idx) : (dP).window j 1 = (j 1).val := by
  unfold ScatterDims.window
  rw [dif_pos (show (1 : Fin 2) ∈ (dP).sKept by decide)]
  rfl

theorem toInt_ofNat_small (g : Fin 512) : (BitVec.ofNat 32 g.val).toInt = (g.val : Int) := by
  have hg := g.isLt
  have hn : (BitVec.ofNat 32 g.val).toNat = g.val := by
    rw [BitVec.toNat_ofNat]; omega
  rw [BitVec.toInt_eq_toNat_of_lt (by rw [hn]; omega), hn]

theorem toInt_eq_iff (v : BitVec 32) (g : Fin 512) :
    v.toInt = (g.val : Int) ↔ v = BitVec.ofNat 32 g.val := by
  constructor
  · intro h
    apply BitVec.eq_of_toInt_eq
    rw [h, toInt_ofNat_small]
  · rintro rfl
    exact toInt_ofNat_small g

theorem pool_resultIdx (bt : IVec S100000x1 32) (j : S100000x64.Idx) (g : Fin 512) (h : Fin 64) :
    (dP).resultIdx? j bt = some (ix2 g h) ↔ bt (ix2 (j 0) 0) = BitVec.ofNat 32 g.val ∧ j 1 = h := by
  rw [← toInt_eq_iff]
  unfold ScatterDims.resultIdx?
  have hg := g.isLt
  have hj : (j 1).val < 64 := (j 1).isLt
  split_ifs with hall
  · rw [Option.some.injEq]
    have h0 := hall 0
    have h1 := hall 1
    rw [pool_start0, pool_window0] at h0
    rw [pool_start1, pool_window1] at h1
    constructor
    · intro e
      have e0 := congrArg (fun f => (f 0).val) e
      have e1 := congrArg (fun f => (f 1).val) e
      simp only [pool_start0, pool_window0, pool_start1, pool_window1] at e0 e1
      refine ⟨?_, Fin.ext ?_⟩
      · change _ = g.val at e0; omega
      · change _ = h.val at e1; omega
    · rintro ⟨e0, e1⟩
      funext a; refine Fin.ext ?_
      match a with
      | ⟨0, _⟩ =>
        show ((dP).start j bt 0 + (dP).window j 0).toNat = g.val
        rw [pool_start0, pool_window0, e0]; omega
      | ⟨1, _⟩ =>
        show ((dP).start j bt 1 + (dP).window j 1).toNat = h.val
        rw [pool_start1, pool_window1, ← e1]; omega
  · constructor
    · intro e; exact absurd e (by simp)
    · rintro ⟨e0, e1⟩
      exfalso; apply hall
      intro a
      match a with
      | ⟨0, _⟩ =>
        show 0 ≤ (dP).start j bt 0 + (dP).window j 0 ∧ (dP).start j bt 0 + (dP).window j 0 < 512
        rw [pool_start0, pool_window0, e0]; omega
      | ⟨1, _⟩ =>
        show 0 ≤ (dP).start j bt 1 + (dP).window j 1 ∧ (dP).start j bt 1 + (dP).window j 1 < 64
        rw [pool_start1, pool_window1]; omega

theorem poolScatter_apply (bt : IVec S100000x1 32) (x : S100000x64.Idx → EReal) (g : Fin 512) (h : Fin 64) :
    Ideal.hostScatterAdd scatter_S512x64_S100000x1_S100000x64_1_0_0_1 (fun _ => (0 : EReal)) bt x (ix2 g h)
      = ∑ n : Fin 100000, (if bt (ix2 n 0) = BitVec.ofNat 32 g.val then x (ix2 n h) else 0) := by
  classical
  unfold Ideal.hostScatterAdd
  rw [zero_add, Finset.filter_congr (fun j _ => pool_resultIdx bt j g h), Finset.sum_filter, sum_idx2]
  refine Finset.sum_congr rfl fun n _ => ?_
  by_cases hb : bt (ix2 n 0) = BitVec.ofNat 32 g.val
  · rw [if_pos hb, Finset.sum_eq_single h]
    · exact if_pos ⟨hb, rfl⟩
    · intro b _ hne; exact if_neg (fun hh => hne hh.2)
    · intro hh; exact absurd (Finset.mem_univ h) hh
  · rw [if_neg hb]
    exact Finset.sum_eq_zero fun b _ => if_neg (fun hh => hb hh.1)

theorem poolScatterAdd_apply (bt : IVec S100000x1 32) (x : FVec Ideal S100000x64 .f32) (g : Fin 512) (h : Fin 64) :
    (Host.scatterAdd (F := Ideal) scatter_S512x64_S100000x1_S100000x64_1_0_0_1
        (broadcastInDim S512x64 ![] Facts₀.bcast_S_S512x64 (constant S_ .f32 0x00000000#32)) bt x) (ix2 g h)
      = ∑ n : Fin 100000, (if bt (ix2 n 0) = BitVec.ofNat 32 g.val then (x (ix2 n h) : EReal) else 0) := by
  have hz : (broadcastInDim S512x64 ![] Facts₀.bcast_S_S512x64 (constant (F := Ideal) S_ .f32 0x00000000#32))
      = fun _ => (0 : EReal) := by
    funext i
    show Ideal.ofBits .f32 0x00000000#32 = 0
    exact Ideal.ofBits_zero_f32
  unfold Host.scatterAdd
  rw [Ideal.hostScatterAdd_def, hz]
  exact poolScatter_apply bt x g h

end Cert.ReferenceIdeal.Hand
-- ==== Proof.RI.Bridges.lean ====
import proofs.«416252_j75050258530751_2_alg».proof.Proof.Gen.ReferenceIdeal
import Idealize.ShloMosaic.Lib.Pipeline.Value
import proofs.«416252_j75050258530751_2_alg».proof.Proof.RI.PoolScatter

namespace Cert.ReferenceIdeal.Hand

open Cert.ReferenceIdeal Idealize.ShloMosaic Idealize.ShloMosaic.ValueIdx

-- Both read entry (n, 0) at n: the row-major position of (n, 0) in [100000, 1] is n.
theorem batchCol_eq {α : Type} {hb : S100000.BroadcastsInDim S100000x1 ![0]} (h : S100000.ShapeCasts S100000x1)
    (bt : S100000.Idx → α) : broadcastInDim S100000x1 ![0] hb bt = shapeCast S100000x1 bt h := by
  funext j
  rw [broadcastInDim_apply _ hb bt j (ix1 (j 0)) (fun a => match a with | ⟨0, _⟩ => rfl),
    shapeCast_apply bt h j (ix1 (j 0)) (by
      have h1 : (j 1).val < 1 := (j 1).isLt
      rw [Shape.rowMajor_val_one, Shape.rowMajor_val_two]
      show (j 0).val = (j 0).val * 1 + (j 1).val
      omega)]

theorem poolScatterAdd_eq {hz : S_.BroadcastsInDim S512x64 ![]} (bt : IVec S100000x1 32) (x : FVec Ideal S100000x64 .f32) :
    Host.scatterAdd (F := Ideal) scatter_S512x64_S100000x1_S100000x64_1_0_0_1
        (broadcastInDim S512x64 ![] hz (constant S_ .f32 0x00000000#32)) bt x
      = fun i => ∑ n : Fin 100000, (if bt (ix2 n 0) = BitVec.ofNat 32 (i 0).val then (x (ix2 n (i 1)) : EReal) else 0) := by
  funext i
  obtain ⟨g, h, rfl⟩ : ∃ (g : Fin 512) (h : Fin 64), i = ix2 g h := ⟨i 0, i 1, eq_ix2 i⟩
  exact poolScatterAdd_apply bt x g h

end Cert.ReferenceIdeal.Hand
-- ==== Proof.RI.RefLib.lean ====
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StackMember

namespace Cert.RefLib

open Idealize.ShloMosaic Idealize.ShloMosaic.ValueIdx

-- The rows-by-columns product read at (r, c) is the sum over the shared axis.
theorem dot_bridge {M K N : ℕ} {wf} {a0 a0' : (⟨2, ![M, K]⟩ : Shape).Idx → EReal} (a1 : (⟨2, ![K, N]⟩ : Shape).Idx → EReal)
    (e : a0 = a0') :
    Host.dotGeneral (F := Ideal) (φ₁ := .f32) (φ₂ := .f32)
        (⟨[1], [0], [0], [1], [], [], wf⟩ : DotDims ⟨2, ![M, K]⟩ ⟨2, ![K, N]⟩ ⟨2, ![M, N]⟩) none a0 a1
      = fun i => ∑ k : Fin K, a0' (ix2 (i 0) k) * a1 (ix2 k (i 1)) := by
  subst e
  funext i
  obtain ⟨r, c, rfl⟩ : ∃ r c, i = ix2 r c := ⟨i 0, i 1, eq_ix2 i⟩
  exact StackMember.dotGeneral_plain_apply none a0 a1 r c

-- At (r, c) the bias, broadcast to one row and then over the rows, reads its entry c, as its reshape to one row does; the constant reads zero.
theorem biasRelu_bridge {M N : ℕ} {hb0 : (⟨2, ![1, N]⟩ : Shape).BroadcastsInDim ⟨2, ![M, N]⟩ ![0, 1]}
    {hz : (⟨0, ![]⟩ : Shape).BroadcastsInDim ⟨2, ![M, N]⟩ ![]} {hb1 : (⟨1, ![N]⟩ : Shape).BroadcastsInDim ⟨2, ![1, N]⟩ ![1]}
    (h : (⟨1, ![N]⟩ : Shape).ShapeCasts ⟨2, ![1, N]⟩) {o o' : (⟨2, ![M, N]⟩ : Shape).Idx → EReal}
    (b : (⟨1, ![N]⟩ : Shape).Idx → EReal) (e : o = o') :
    maximumf (F := Ideal) (φ := .f32) (addf o (broadcastInDim ⟨2, ![M, N]⟩ ![0, 1] hb0 (broadcastInDim ⟨2, ![1, N]⟩ ![1] hb1 b)))
        (broadcastInDim ⟨2, ![M, N]⟩ ![] hz (constant ⟨0, ![]⟩ .f32 0x00000000#32))
      = fun i => max (o' i + shapeCast ⟨2, ![1, N]⟩ b h (ix2 (0 : Fin 1) ⟨(i 1).val, idx2_lt1 i⟩)) 0 := by
  subst e
  funext i
  have hN := idx2_lt1 i
  rw [maximumf_apply, addf_apply,
    broadcastInDim_apply _ hb0 _ i (ix2 (0 : Fin 1) ⟨(i 1).val, hN⟩) (Fin.forall_fin_two.mpr ⟨rfl, by
      show (i 1).val = if N = 1 then 0 else (i 1).val
      split <;> omega⟩),
    broadcastInDim_apply _ hb1 b _ (ix1 ⟨(i 1).val, hN⟩) (fun a => by
      obtain rfl : a = 0 := Subsingleton.elim _ _
      show (i 1).val = if N = 1 then 0 else (i 1).val
      split <;> omega),
    shapeCast_a_1a_apply b h]
  exact congrArg _ Ideal.ofBits_zero_f32

end Cert.RefLib
-- ==== Proof.RI.RefTower.lean ====
import proofs.«416252_j75050258530751_2_alg».proof.Proof.RI.RefRunW
import proofs.«416252_j75050258530751_2_alg».proof.Proof.KI.ValDefs
import proofs.«416252_j75050258530751_2_alg».proof.Proof.RI.Bridges
import proofs.«416252_j75050258530751_2_alg».proof.Proof.RI.RefLib

set_option maxRecDepth 8192

namespace Cert.ReferenceIdeal.Hand

open Cert.ReferenceIdeal Cert.RefLib Idealize.ShloMosaic Idealize.ShloMosaic.TcCoe Idealize.SL.Sem Idealize.ShloMosaic.StableHlo
open Idealize.ShloMosaic.ValueIdx
open Cert.KernelIdeal.Hand (towerV tailT maskedSum convK32 convK64)

theorem pool_bridge {hz : S_.BroadcastsInDim S512x64 ![]} {hb : S100000.BroadcastsInDim S100000x1 ![0]}
    (h : S100000.ShapeCasts S100000x1) (bt : IVec S100000 32) {y y' : S100000x64.Idx → EReal} (e : y = y') :
    Host.scatterAdd (F := Ideal) (φ := .f32) scatter_S512x64_S100000x1_S100000x64_1_0_0_1
        (broadcastInDim S512x64 ![] hz (constant S_ .f32 0x00000000#32)) (broadcastInDim S100000x1 ![0] hb bt) y
      = maskedSum (shapeCast S100000x1 bt h) y' := by
  subst e
  rw [poolScatterAdd_eq, batchCol_eq h]

-- Layer by layer from the outside in: the per-graph sums, then three times (bias and rectifier, message passing, matrix product).
theorem ref_tower0 (m' : (ℓ : Loc nD τ sig) → Buf (Elt Ideal) ℓ) (c : Dev nD) :
    Value.res_main_v144 (F := Ideal) m' c
      = towerV (m' ((c.tc : Thread nD τ).loc main_arg0)) (m' ((c.tc : Thread nD τ).loc main_arg1))
          (m' ((c.tc : Thread nD τ).loc main_arg2)) (m' ((c.tc : Thread nD τ).loc main_arg9))
          (m' ((c.tc : Thread nD τ).loc main_arg10)) (m' ((c.tc : Thread nD τ).loc main_arg11))
          (m' ((c.tc : Thread nD τ).loc main_arg12)) (m' ((c.tc : Thread nD τ).loc main_arg13))
          (m' ((c.tc : Thread nD τ).loc main_arg14)) := by
  unfold Value.res_main_v144 towerV
  refine congrArg (fun p => tailT (F := Ideal) p (m' ((c.tc : Thread nD τ).loc main_arg2))) ?_
  refine pool_bridge _ _ ?_
  refine biasRelu_bridge _ _ ?_
  refine congrArg (convK64 (F := Ideal) · _ _ _) ?_
  refine dot_bridge _ ?_
  refine biasRelu_bridge _ _ ?_
  refine congrArg (convK64 (F := Ideal) · _ _ _) ?_
  refine dot_bridge _ ?_
  refine biasRelu_bridge _ _ ?_
  refine congrArg (convK32 (F := Ideal) · _ _ _) ?_
  exact dot_bridge _ rfl

theorem ref_tower1 (m' : (ℓ : Loc nD τ sig) → Buf (Elt Ideal) ℓ) (c : Dev nD) :
    Value.res_main_v289 (F := Ideal) m' c
      = towerV (m' ((c.tc : Thread nD τ).loc main_arg3)) (m' ((c.tc : Thread nD τ).loc main_arg4))
          (m' ((c.tc : Thread nD τ).loc main_arg5)) (m' ((c.tc : Thread nD τ).loc main_arg9))
          (m' ((c.tc : Thread nD τ).loc main_arg10)) (m' ((c.tc : Thread nD τ).loc main_arg11))
          (m' ((c.tc : Thread nD τ).loc main_arg12)) (m' ((c.tc : Thread nD τ).loc main_arg13))
          (m' ((c.tc : Thread nD τ).loc main_arg14)) := by
  unfold Value.res_main_v289 towerV
  refine congrArg (fun p => tailT (F := Ideal) p (m' ((c.tc : Thread nD τ).loc main_arg5))) ?_
  refine pool_bridge _ _ ?_
  refine biasRelu_bridge _ _ ?_
  refine congrArg (convK64 (F := Ideal) · _ _ _) ?_
  refine dot_bridge _ ?_
  refine biasRelu_bridge _ _ ?_
  refine congrArg (convK64 (F := Ideal) · _ _ _) ?_
  refine dot_bridge _ ?_
  refine biasRelu_bridge _ _ ?_
  refine congrArg (convK32 (F := Ideal) · _ _ _) ?_
  exact dot_bridge _ rfl

theorem ref_tower2 (m' : (ℓ : Loc nD τ sig) → Buf (Elt Ideal) ℓ) (c : Dev nD) :
    Value.res_main_v434 (F := Ideal) m' c
      = towerV (m' ((c.tc : Thread nD τ).loc main_arg6)) (m' ((c.tc : Thread nD τ).loc main_arg7))
          (m' ((c.tc : Thread nD τ).loc main_arg8)) (m' ((c.tc : Thread nD τ).loc main_arg9))
          (m' ((c.tc : Thread nD τ).loc main_arg10)) (m' ((c.tc : Thread nD τ).loc main_arg11))
          (m' ((c.tc : Thread nD τ).loc main_arg12)) (m' ((c.tc : Thread nD τ).loc main_arg13))
          (m' ((c.tc : Thread nD τ).loc main_arg14)) := by
  unfold Value.res_main_v434 towerV
  refine congrArg (fun p => tailT (F := Ideal) p (m' ((c.tc : Thread nD τ).loc main_arg8))) ?_
  refine pool_bridge _ _ ?_
  refine biasRelu_bridge _ _ ?_
  refine congrArg (convK64 (F := Ideal) · _ _ _) ?_
  refine dot_bridge _ ?_
  refine biasRelu_bridge _ _ ?_
  refine congrArg (convK64 (F := Ideal) · _ _ _) ?_
  refine dot_bridge _ ?_
  refine biasRelu_bridge _ _ ?_
  refine congrArg (convK32 (F := Ideal) · _ _ _) ?_
  exact dot_bridge _ rfl

end Cert.ReferenceIdeal.Hand
-- ==== Proof.lean ====
import proofs.«416252_j75050258530751_2_alg».proof.Defs
import proofs.«416252_j75050258530751_2_alg».proof.Proof.Gen.Kernel
import proofs.«416252_j75050258530751_2_alg».proof.Proof.Gen.KernelIdeal
import proofs.«416252_j75050258530751_2_alg».proof.Proof.Gen.ReferenceIdeal
import proofs.«416252_j75050258530751_2_alg».proof.Proof.Gen.Pre_finite_inputs
import proofs.«416252_j75050258530751_2_alg».proof.Proof.K.Frame
import proofs.«416252_j75050258530751_2_alg».proof.Proof.KI.Frame
import proofs.«416252_j75050258530751_2_alg».proof.Proof.KI.Results
import proofs.«416252_j75050258530751_2_alg».proof.Proof.RI.RefVals
import proofs.«416252_j75050258530751_2_alg».proof.Proof.RI.RefTower
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Hand.frame m ρ

theorem frame_ki : Cert.frame_KernelIdeal := fun m ρ _ => Cert.KernelIdeal.Hand.frame m ρ

theorem frame_ri : Cert.frame_ReferenceIdeal := fun m ρ _ =>
  (θ_run Cert.ReferenceIdeal.defs _ _).mono (fun _ h c => (h c).2.2.2) (Cert.ReferenceIdeal.Value.run (F := Ideal) m ρ)

theorem preserves : Cert.preserves_Kernel_KernelIdeal := trivial

theorem algebraic : Cert.algebraic_KernelIdeal_ReferenceIdeal := by
  intro m g m' g' _ hagree
  refine ⟨fun c => Cert.KernelIdeal.Hand.W37 m c Cert.KernelIdeal.main_v87, fun c => Cert.KernelIdeal.Hand.W37 m c Cert.KernelIdeal.main_v175,
    fun c => Cert.KernelIdeal.Hand.W37 m c Cert.KernelIdeal.main_v263, Cert.KernelIdeal.Hand.run_full m g, ?_⟩
  refine (θ_run Cert.ReferenceIdeal.defs _ _).mono (fun r h c => ?_) (Cert.ReferenceIdeal.Value.run (F := Ideal) m' g')
  obtain ⟨h0, h1, h2, hargs⟩ := h c
  obtain ⟨a0, a1, a2, a3, a4, a5, a6, a7, a8, a9, a10, a11, a12, a13, a14⟩ := hagree c
  refine ⟨h0.trans ?_, h1.trans ?_, h2.trans ?_, hargs⟩
  · rw [Cert.ReferenceIdeal.Hand.ref_tower0, a0, a1, a2, a9, a10, a11, a12, a13, a14]
    exact (Cert.KernelIdeal.Hand.result0 m c).symm
  · rw [Cert.ReferenceIdeal.Hand.ref_tower1, a3, a4, a5, a9, a10, a11, a12, a13, a14]
    exact (Cert.KernelIdeal.Hand.result1 m c).symm
  · rw [Cert.ReferenceIdeal.Hand.ref_tower2, a6, a7, a8, a9, a10, a11, a12, a13, a14]
    exact (Cert.KernelIdeal.Hand.result2 m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
